-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x9 : Shape := ⟨2, ![200000, 9]⟩
abbrev S800000x3 : Shape := ⟨2, ![800000, 3]⟩
abbrev S2x800000 : Shape := ⟨2, ![2, 800000]⟩
abbrev S200000 : Shape := ⟨1, ![200000]⟩
abbrev S119x32 : Shape := ⟨2, ![119, 32]⟩
abbrev S9x32 : Shape := ⟨2, ![9, 32]⟩
abbrev S11x32 : Shape := ⟨2, ![11, 32]⟩
abbrev S12x32 : Shape := ⟨2, ![12, 32]⟩
abbrev S5x32 : Shape := ⟨2, ![5, 32]⟩
abbrev S8x32 : Shape := ⟨2, ![8, 32]⟩
abbrev S2x32 : Shape := ⟨2, ![2, 32]⟩
abbrev S288x128 : Shape := ⟨2, ![288, 128]⟩
abbrev S128 : Shape := ⟨1, ![128]⟩
abbrev S22x32 : Shape := ⟨2, ![22, 32]⟩
abbrev S6x32 : Shape := ⟨2, ![6, 32]⟩
abbrev S96x128 : Shape := ⟨2, ![96, 128]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S_ : Shape := ⟨0, ![]⟩
abbrev S1x800000 : Shape := ⟨2, ![1, 800000]⟩
abbrev S800000 : Shape := ⟨1, ![800000]⟩

class Facts : Prop where
  bcast_S_S119x32 : S_.BroadcastsInDim S119x32 (![] : Fin 0 → Fin S119x32.rank)
  reducesTo_S119x32_S_d0_1 : S119x32.ReducesTo [0, 1] S_
  h_S_ : 0 < S_.numel
  bcast_S_S9x32 : S_.BroadcastsInDim S9x32 (![] : Fin 0 → Fin S9x32.rank)
  reducesTo_S9x32_S_d0_1 : S9x32.ReducesTo [0, 1] S_
  bcast_S_S11x32 : S_.BroadcastsInDim S11x32 (![] : Fin 0 → Fin S11x32.rank)
  reducesTo_S11x32_S_d0_1 : S11x32.ReducesTo [0, 1] S_
  bcast_S_S12x32 : S_.BroadcastsInDim S12x32 (![] : Fin 0 → Fin S12x32.rank)
  reducesTo_S12x32_S_d0_1 : S12x32.ReducesTo [0, 1] S_
  bcast_S_S5x32 : S_.BroadcastsInDim S5x32 (![] : Fin 0 → Fin S5x32.rank)
  reducesTo_S5x32_S_d0_1 : S5x32.ReducesTo [0, 1] S_
  bcast_S_S8x32 : S_.BroadcastsInDim S8x32 (![] : Fin 0 → Fin S8x32.rank)
  reducesTo_S8x32_S_d0_1 : S8x32.ReducesTo [0, 1] S_
  bcast_S_S2x32 : S_.BroadcastsInDim S2x32 (![] : Fin 0 → Fin S2x32.rank)
  reducesTo_S2x32_S_d0_1 : S2x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S22x32 : S_.BroadcastsInDim S22x32 (![] : Fin 0 → Fin S22x32.rank)
  reducesTo_S22x32_S_d0_1 : S22x32.ReducesTo [0, 1] S_
  bcast_S_S6x32 : S_.BroadcastsInDim S6x32 (![] : Fin 0 → Fin S6x32.rank)
  reducesTo_S6x32_S_d0_1 : S6x32.ReducesTo [0, 1] S_
  bcast_S_S96x128 : S_.BroadcastsInDim S96x128 (![] : Fin 0 → Fin S96x128.rank)
  reducesTo_S96x128_S_d0_1 : S96x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part6 {F : FTy → Type} [FloatOps F] (main_arg2 : IVec S2x800000 32) (main_arg25 : FVec F S256 .f32) (main_v98 : IVec S_ 1) (main_v101 : IVec S128x256 1) (main_c_39 : IVec S_ 1) : IVec S_ 1 :=
  let main_v102 : IVec S_ 1 := (fun x v => Host.reduce IntOp.andi x v reducesTo_S128x256_S_d0_1 h_S_) main_v101 main_c_39
  let main_v103 : IVec S_ 1 := andi main_v98 main_v102
  let main_v104 : FVec F S256 .f32 := Host.absf main_arg25
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : IVec S1x800000 32 := (extractStridedSlice S1x800000 ![0, 0] · slices_S2x800000_S1x800000_0_0) main_arg2
  let main_v110 : IVec S800000 32 := shapeCast S800000 main_v109 shapeCasts_S1x800000_S800000
  let main_c_42 : IVec S_ 32 := constantI S_ 32 0#32
  let main_v111 : IVec S800000 32 := broadcastInDim S800000 ![] bcast_S_S800000 main_c_42
  let main_v112 : IVec S800000 1 := cmpi .sge main_v110 main_v111
  let main_v113 : IVec S1x800000 32 := (extractStridedSlice S1x800000 ![0, 0] · slices_S2x800000_S1x800000_0_0) main_arg2
  let main_v114 : IVec S800000 32 := shapeCast S800000 main_v113 shapeCasts_S1x800000_S800000
  let main_c_43 : IVec S_ 32 := constantI S_ 32 200000#32
  let main_v115 : IVec S800000 32 := broadcastInDim S800000 ![] bcast_S_S800000 main_c_43
  let main_v116 : IVec S800000 1 := cmpi .slt main_v114 main_v115
  let main_v117 : IVec S800000 1 := andi main_v112 main_v116
  let main_c_44 : IVec S_ 1 := constantI S_ 1 1#1
  let main_v118 : IVec S_ 1 := (fun x v => Host.reduce IntOp.andi x v reducesTo_S800000_S_d0 h_S_) main_v117 main_c_44
  let main_v119 : IVec S_ 1 := andi main_v108 main_v118
  main_v119

def fn_part5 {F : FTy → Type} [FloatOps F] (main_arg2 : IVec S2x800000 32) (main_arg22 : FVec F S3x128x128 .f32) (main_arg23 : FVec F S3x128 .f32) (main_arg24 : FVec F S128x256 .f32) (main_arg25 : FVec F S256 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3x128x128 .f32 := Host.absf main_arg22
  let main_cst_34 : FVec F S_ .f32 := constant S_ .f32 0x7F800000#32
  let main_v90 : FVec F S3x128x128 .f32 := broadcastInDim S3x128x128 ![] bcast_S_S3x128x128 main_cst_34
  let main_v91 : IVec S3x128x128 1 := cmpf .olt main_v89 main_v90
  let main_c_35 : IVec S_ 1 := constantI S_ 1 1#1
  let main_v92 : IVec S_ 1 := (fun x v => Host.reduce IntOp.andi x v reducesTo_S3x128x128_S_d0_1_2 h_S_) main_v91 main_c_35
  let main_v93 : IVec S_ 1 := andi main_v88 main_v92
  let main_v94 : FVec F S3x128 .f32 := Host.absf main_arg23
  let main_cst_36 : FVec F S_ .f32 := constant S_ .f32 0x7F800000#32
  let main_v95 : FVec F S3x128 .f32 := broadcastInDim S3x128 ![] bcast_S_S3x128 main_cst_36
  let main_v96 : IVec S3x128 1 := cmpf .olt main_v94 main_v95
  let main_c_37 : IVec S_ 1 := constantI S_ 1 1#1
  let main_v97 : IVec S_ 1 := (fun x v => Host.reduce IntOp.andi x v reducesTo_S3x128_S_d0_1 h_S_) main_v96 main_c_37
  let main_v98 : IVec S_ 1 := andi main_v93 main_v97
  let main_v99 : FVec F S128x256 .f32 := Host.absf main_arg24
  let main_cst_38 : FVec F S_ .f32 := constant S_ .f32 0x7F800000#32
  let main_v100 : FVec F S128x256 .f32 := broadcastInDim S128x256 ![] bcast_S_S128x256 main_cst_38
  let main_v101 : IVec S128x256 1 := cmpf .olt main_v99 main_v100
  let main_c_39 : IVec S_ 1 := constantI S_ 1 1#1
  fn_part6 (F := F) main_arg2 main_arg25 main_v98 main_v101 main_c_39

def fn_part4 {F : FTy → Type} [FloatOps F] (main_arg2 : IVec S2x800000 32) (main_arg18 : FVec F S96x128 .f32) (main_arg19 : FVec F S128 .f32) (main_arg20 : FVec F S3x128x128 .f32) (main_arg21 : FVec F S3x128 .f32) (main_arg22 : FVec F S3x128x128 .f32) (main_arg23 : FVec F S3x128 .f32) (main_arg24 : FVec F S128x256 .f32) (main_arg25 : FVec F S256 .f32) (main_v63 : IVec S_ 1) (main_v67 : IVec S_ 1) : IVec S_ 1 :=
  let main_v68 : IVec S_ 1 := andi main_v63 main_v67
  let main_v69 : FVec F S96x128 .f32 := Host.absf main_arg18
  let main_cst_26 : FVec F S_ .f32 := constant S_ .f32 0x7F800000#32
  let main_v70 : FVec F S96x128 .f32 := broadcastInDim S96x128 ![] bcast_S_S96x128 main_cst_26
  let main_v71 : IVec S96x128 1 := cmpf .olt main_v69 main_v70
  let main_c_27 : IVec S_ 1 := constantI S_ 1 1#1
  let main_v72 : IVec S_ 1 := (fun x v => Host.reduce IntOp.andi x v reducesTo_S96x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S3x128x128 .f32 := Host.absf main_arg20
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg21
  let main_cst_32 : FVec F S_ .f32 := constant S_ .f32 0x7F800000#32
  fn_part5 (F := F) main_arg2 main_arg22 main_arg23 main_arg24 main_arg25 main_v83 main_v84 main_cst_32

def fn_part3 {F : FTy → Type} [FloatOps F] (main_arg2 : IVec S2x800000 32) (main_arg15 : FVec F S22x32 .f32) (main_arg16 : FVec F S6x32 .f32) (main_arg17 : FVec F S2x32 .f32) (main_arg18 : FVec F S96x128 .f32) (main_arg19 : FVec F S128 .f32) (main_arg20 : FVec F S3x128x128 .f32) (main_arg21 : FVec F S3x128 .f32) (main_arg22 : FVec F S3x128x128 .f32) (main_arg23 : FVec F S3x128 .f32) (main_arg24 : FVec F S128x256 .f32) (main_arg25 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S22x32 .f32 := Host.absf main_arg15
  let main_cst_20 : FVec F S_ .f32 := constant S_ .f32 0x7F800000#32
  let main_v55 : FVec F S22x32 .f32 := broadcastInDim S22x32 ![] bcast_S_S22x32 main_cst_20
  let main_v56 : IVec S22x32 1 := cmpf .olt main_v54 main_v55
  let main_c_21 : IVec S_ 1 := constantI S_ 1 1#1
  let main_v57 : IVec S_ 1 := (fun x v => Host.reduce IntOp.andi x v reducesTo_S22x32_S_d0_1 h_S_) main_v56 main_c_21
  let main_v58 : IVec S_ 1 := andi main_v53 main_v57
  let main_v59 : FVec F S6x32 .f32 := Host.absf main_arg16
  let main_cst_22 : FVec F S_ .f32 := constant S_ .f32 0x7F800000#32
  let main_v60 : FVec F S6x32 .f32 := broadcastInDim S6x32 ![] bcast_S_S6x32 main_cst_22
  let main_v61 : IVec S6x32 1 := cmpf .olt main_v59 main_v60
  let main_c_23 : IVec S_ 1 := constantI S_ 1 1#1
  let main_v62 : IVec S_ 1 := (fun x v => Host.reduce IntOp.andi x v reducesTo_S6x32_S_d0_1 h_S_) main_v61 main_c_23
  let main_v63 : IVec S_ 1 := andi main_v58 main_v62
  let main_v64 : FVec F S2x32 .f32 := Host.absf main_arg17
  let main_cst_24 : FVec F S_ .f32 := constant S_ .f32 0x7F800000#32
  let main_v65 : FVec F S2x32 .f32 := broadcastInDim S2x32 ![] bcast_S_S2x32 main_cst_24
  let main_v66 : IVec S2x32 1 := cmpf .olt main_v64 main_v65
  let main_c_25 : IVec S_ 1 := constantI S_ 1 1#1
  let main_v67 : IVec S_ 1 := (fun x v => Host.reduce IntOp.andi x v reducesTo_S2x32_S_d0_1 h_S_) main_v66 main_c_25
  fn_part4 (F := F) main_arg2 main_arg18 main_arg19 main_arg20 main_arg21 main_arg22 main_arg23 main_arg24 main_arg25 main_v63 main_v67

def fn_part2 {F : FTy → Type} [FloatOps F] (main_arg2 : IVec S2x800000 32) (main_arg11 : FVec F S2x32 .f32) (main_arg12 : FVec F S2x32 .f32) (main_arg13 : FVec F S288x128 .f32) (main_arg14 : FVec F S128 .f32) (main_arg15 : FVec F S22x32 .f32) (main_arg16 : FVec F S6x32 .f32) (main_arg17 : FVec F S2x32 .f32) (main_arg18 : FVec F S96x128 .f32) (main_arg19 : FVec F S128 .f32) (main_arg20 : FVec F S3x128x128 .f32) (main_arg21 : FVec F S3x128 .f32) (main_arg22 : FVec F S3x128x128 .f32) (main_arg23 : FVec F S3x128 .f32) (main_arg24 : FVec F S128x256 .f32) (main_arg25 : FVec F S256 .f32) (main_v33 : IVec S_ 1) : IVec S_ 1 :=
  let main_v34 : FVec F S2x32 .f32 := Host.absf main_arg11
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2x32 .f32 := Host.absf main_arg12
  let main_cst_14 : FVec F S_ .f32 := constant S_ .f32 0x7F800000#32
  let main_v40 : FVec F S2x32 .f32 := broadcastInDim S2x32 ![] bcast_S_S2x32 main_cst_14
  let main_v41 : IVec S2x32 1 := cmpf .olt main_v39 main_v40
  let main_c_15 : IVec S_ 1 := constantI S_ 1 1#1
  let main_v42 : IVec S_ 1 := (fun x v => Host.reduce IntOp.andi x v reducesTo_S2x32_S_d0_1 h_S_) main_v41 main_c_15
  let main_v43 : IVec S_ 1 := andi main_v38 main_v42
  let main_v44 : FVec F S288x128 .f32 := Host.absf main_arg13
  let main_cst_16 : FVec F S_ .f32 := constant S_ .f32 0x7F800000#32
  let main_v45 : FVec F S288x128 .f32 := broadcastInDim S288x128 ![] bcast_S_S288x128 main_cst_16
  let main_v46 : IVec S288x128 1 := cmpf .olt main_v44 main_v45
  let main_c_17 : IVec S_ 1 := constantI S_ 1 1#1
  let main_v47 : IVec S_ 1 := (fun x v => Host.reduce IntOp.andi x v reducesTo_S288x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg2 main_arg15 main_arg16 main_arg17 main_arg18 main_arg19 main_arg20 main_arg21 main_arg22 main_arg23 main_arg24 main_arg25 main_v48 main_v49 main_v50

def fn_part1 {F : FTy → Type} [FloatOps F] (main_arg2 : IVec S2x800000 32) (main_arg8 : FVec F S9x32 .f32) (main_arg9 : FVec F S5x32 .f32) (main_arg10 : FVec F S8x32 .f32) (main_arg11 : FVec F S2x32 .f32) (main_arg12 : FVec F S2x32 .f32) (main_arg13 : FVec F S288x128 .f32) (main_arg14 : FVec F S128 .f32) (main_arg15 : FVec F S22x32 .f32) (main_arg16 : FVec F S6x32 .f32) (main_arg17 : FVec F S2x32 .f32) (main_arg18 : FVec F S96x128 .f32) (main_arg19 : FVec F S128 .f32) (main_arg20 : FVec F S3x128x128 .f32) (main_arg21 : FVec F S3x128 .f32) (main_arg22 : FVec F S3x128x128 .f32) (main_arg23 : FVec F S3x128 .f32) (main_arg24 : FVec F S128x256 .f32) (main_arg25 : FVec F S256 .f32) (main_v13 : IVec S_ 1) (main_v16 : IVec S12x32 1) : IVec S_ 1 :=
  let main_c_5 : IVec S_ 1 := constantI S_ 1 1#1
  let main_v17 : IVec S_ 1 := (fun x v => Host.reduce IntOp.andi x v reducesTo_S12x32_S_d0_1 h_S_) main_v16 main_c_5
  let main_v18 : IVec S_ 1 := andi main_v13 main_v17
  let main_v19 : FVec F S9x32 .f32 := Host.absf main_arg8
  let main_cst_6 : FVec F S_ .f32 := constant S_ .f32 0x7F800000#32
  let main_v20 : FVec F S9x32 .f32 := broadcastInDim S9x32 ![] bcast_S_S9x32 main_cst_6
  let main_v21 : IVec S9x32 1 := cmpf .olt main_v19 main_v20
  let main_c_7 : IVec S_ 1 := constantI S_ 1 1#1
  let main_v22 : IVec S_ 1 := (fun x v => Host.reduce IntOp.andi x v reducesTo_S9x32_S_d0_1 h_S_) main_v21 main_c_7
  let main_v23 : IVec S_ 1 := andi main_v18 main_v22
  let main_v24 : FVec F S5x32 .f32 := Host.absf main_arg9
  let main_cst_8 : FVec F S_ .f32 := constant S_ .f32 0x7F800000#32
  let main_v25 : FVec F S5x32 .f32 := broadcastInDim S5x32 ![] bcast_S_S5x32 main_cst_8
  let main_v26 : IVec S5x32 1 := cmpf .olt main_v24 main_v25
  let main_c_9 : IVec S_ 1 := constantI S_ 1 1#1
  let main_v27 : IVec S_ 1 := (fun x v => Host.reduce IntOp.andi x v reducesTo_S5x32_S_d0_1 h_S_) main_v26 main_c_9
  let main_v28 : IVec S_ 1 := andi main_v23 main_v27
  let main_v29 : FVec F S8x32 .f32 := Host.absf main_arg10
  let main_cst_10 : FVec F S_ .f32 := constant S_ .f32 0x7F800000#32
  let main_v30 : FVec F S8x32 .f32 := broadcastInDim S8x32 ![] bcast_S_S8x32 main_cst_10
  let main_v31 : IVec S8x32 1 := cmpf .olt main_v29 main_v30
  let main_c_11 : IVec S_ 1 := constantI S_ 1 1#1
  let main_v32 : IVec S_ 1 := (fun x v => Host.reduce IntOp.andi x v reducesTo_S8x32_S_d0_1 h_S_) main_v31 main_c_11
  let main_v33 : IVec S_ 1 := andi main_v28 main_v32
  fn_part2 (F := F) main_arg2 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : IVec S200000x9 32) (main_arg1 : IVec S800000x3 32) (main_arg2 : IVec S2x800000 32) (main_arg3 : IVec S200000 32) (main_arg4 : FVec F S119x32 .f32) (main_arg5 : FVec F S9x32 .f32) (main_arg6 : FVec F S11x32 .f32) (main_arg7 : FVec F S12x32 .f32) (main_arg8 : FVec F S9x32 .f32) (main_arg9 : FVec F S5x32 .f32) (main_arg10 : FVec F S8x32 .f32) (main_arg11 : FVec F S2x32 .f32) (main_arg12 : FVec F S2x32 .f32) (main_arg13 : FVec F S288x128 .f32) (main_arg14 : FVec F S128 .f32) (main_arg15 : FVec F S22x32 .f32) (main_arg16 : FVec F S6x32 .f32) (main_arg17 : FVec F S2x32 .f32) (main_arg18 : FVec F S96x128 .f32) (main_arg19 : FVec F S128 .f32) (main_arg20 : FVec F S3x128x128 .f32) (main_arg21 : FVec F S3x128 .f32) (main_arg22 : FVec F S3x128x128 .f32) (main_arg23 : FVec F S3x128 .f32) (main_arg24 : FVec F S128x256 .f32) (main_arg25 : FVec F S256 .f32) : IVec S_ 1 :=
  let main_v0 : FVec F S119x32 .f32 := Host.absf main_arg4
  let main_cst : FVec F S_ .f32 := constant S_ .f32 0x7F800000#32
  let main_v1 : FVec F S119x32 .f32 := broadcastInDim S119x32 ![] bcast_S_S119x32 main_cst
  let main_v2 : IVec S119x32 1 := cmpf .olt main_v0 main_v1
  let main_c : IVec S_ 1 := constantI S_ 1 1#1
  let main_v3 : IVec S_ 1 := (fun x v => Host.reduce IntOp.andi x v reducesTo_S119x32_S_d0_1 h_S_) main_v2 main_c
  let main_v4 : FVec F S9x32 .f32 := Host.absf main_arg5
  let main_cst_0 : FVec F S_ .f32 := constant S_ .f32 0x7F800000#32
  let main_v5 : FVec F S9x32 .f32 := broadcastInDim S9x32 ![] bcast_S_S9x32 main_cst_0
  let main_v6 : IVec S9x32 1 := cmpf .olt main_v4 main_v5
  let main_c_1 : IVec S_ 1 := constantI S_ 1 1#1
  let main_v7 : IVec S_ 1 := (fun x v => Host.reduce IntOp.andi x v reducesTo_S9x32_S_d0_1 h_S_) main_v6 main_c_1
  let main_v8 : IVec S_ 1 := andi main_v3 main_v7
  let main_v9 : FVec F S11x32 .f32 := Host.absf main_arg6
  let main_cst_2 : FVec F S_ .f32 := constant S_ .f32 0x7F800000#32
  let main_v10 : FVec F S11x32 .f32 := broadcastInDim S11x32 ![] bcast_S_S11x32 main_cst_2
  let main_v11 : IVec S11x32 1 := cmpf .olt main_v9 main_v10
  let main_c_3 : IVec S_ 1 := constantI S_ 1 1#1
  let main_v12 : IVec S_ 1 := (fun x v => Host.reduce IntOp.andi x v reducesTo_S11x32_S_d0_1 h_S_) main_v11 main_c_3
  let main_v13 : IVec S_ 1 := andi main_v8 main_v12
  let main_v14 : FVec F S12x32 .f32 := Host.absf main_arg7
  let main_cst_4 : FVec F S_ .f32 := constant S_ .f32 0x7F800000#32
  let main_v15 : FVec F S12x32 .f32 := broadcastInDim S12x32 ![] bcast_S_S12x32 main_cst_4
  let main_v16 : IVec S12x32 1 := cmpf .olt main_v14 main_v15
  fn_part1 (F := F) main_arg2 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S200000x9 : Shape := ⟨2, ![200000, 9]⟩
abbrev S800000x3 : Shape := ⟨2, ![800000, 3]⟩
abbrev S2x800000 : Shape := ⟨2, ![2, 800000]⟩
abbrev S200000 : Shape := ⟨1, ![200000]⟩
abbrev S119x32 : Shape := ⟨2, ![119, 32]⟩
abbrev S9x32 : Shape := ⟨2, ![9, 32]⟩
abbrev S11x32 : Shape := ⟨2, ![11, 32]⟩
abbrev S12x32 : Shape := ⟨2, ![12, 32]⟩
abbrev S5x32 : Shape := ⟨2, ![5, 32]⟩
abbrev S8x32 : Shape := ⟨2, ![8, 32]⟩
abbrev S2x32 : Shape := ⟨2, ![2, 32]⟩
abbrev S288x128 : Shape := ⟨2, ![288, 128]⟩
abbrev S128 : Shape := ⟨1, ![128]⟩
abbrev S22x32 : Shape := ⟨2, ![22, 32]⟩
abbrev S6x32 : Shape := ⟨2, ![6, 32]⟩
abbrev S96x128 : Shape := ⟨2, ![96, 128]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S200000x1 : Shape := ⟨2, ![200000, 1]⟩
abbrev S_ : Shape := ⟨0, ![]⟩
abbrev S200000x32 : Shape := ⟨2, ![200000, 32]⟩
abbrev S200000x288 : Shape := ⟨2, ![200000, 288]⟩
abbrev S200000x128 : Shape := ⟨2, ![200000, 128]⟩
abbrev S4000x288 : Shape := ⟨2, ![4000, 288]⟩
abbrev S4000x128 : Shape := ⟨2, ![4000, 128]⟩
abbrev S1x128 : Shape := ⟨2, ![1, 128]⟩
abbrev S800000x1 : Shape := ⟨2, ![800000, 1]⟩
abbrev S800000 : Shape := ⟨1, ![800000]⟩
abbrev S800000x32 : Shape := ⟨2, ![800000, 32]⟩
abbrev S800000x96 : Shape := ⟨2, ![800000, 96]⟩
abbrev S800000x128 : Shape := ⟨2, ![800000, 128]⟩
abbrev S10000x96 : Shape := ⟨2, ![10000, 96]⟩
abbrev S10000x128 : Shape := ⟨2, ![10000, 128]⟩
abbrev S1x800000 : Shape := ⟨2, ![1, 800000]⟩
abbrev S1 : Shape := ⟨1, ![1]⟩
abbrev S1x1 : Shape := ⟨2, ![1, 1]⟩
abbrev S8000x128 : Shape := ⟨2, ![8000, 128]⟩
abbrev S1x128x128 : Shape := ⟨3, ![1, 128, 128]⟩
abbrev S128x128 : Shape := ⟨2, ![128, 128]⟩
abbrev S8192x128 : Shape := ⟨2, ![8192, 128]⟩
abbrev S8192x256 : Shape := ⟨2, ![8192, 256]⟩
abbrev S2048x128 : Shape := ⟨2, ![2048, 128]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩

abbrev nBuf : Space → Nat
  | .hbm => 282
  | .vmem => 66
  | .smem => 0
  | _ => 0

abbrev hbmTy0_0 (i : Nat) : BufTy := match i % 128 with
  | 0 => ⟨S200000x9, .i32⟩
  | 1 => ⟨S800000x3, .i32⟩
  | 2 => ⟨S2x800000, .i32⟩
  | 3 => ⟨S200000, .i32⟩
  | 4 => ⟨S119x32, .f32⟩
  | 5 => ⟨S9x32, .f32⟩
  | 6 => ⟨S11x32, .f32⟩
  | 7 => ⟨S12x32, .f32⟩
  | 8 => ⟨S9x32, .f32⟩
  | 9 => ⟨S5x32, .f32⟩
  | 10 => ⟨S8x32, .f32⟩
  | 11 => ⟨S2x32, .f32⟩
  | 12 => ⟨S2x32, .f32⟩
  | 13 => ⟨S288x128, .f32⟩
  | 14 => ⟨S128, .f32⟩
  | 15 => ⟨S22x32, .f32⟩
  | 16 => ⟨S6x32, .f32⟩
  | 17 => ⟨S2x32, .f32⟩
  | 18 => ⟨S96x128, .f32⟩
  | 19 => ⟨S128, .f32⟩
  | 20 => ⟨S3x128x128, .f32⟩
  | 21 => ⟨S3x128, .f32⟩
  | 22 => ⟨S3x128x128, .f32⟩
  | 23 => ⟨S3x128, .f32⟩
  | 24 => ⟨S128x256, .f32⟩
  | 25 => ⟨S256, .f32⟩
  | 26 => ⟨S200000x1, .i32⟩
  | 27 => ⟨S200000, .i32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x32, .f32⟩
  | 37 => ⟨S200000x1, .i32⟩
  | 38 => ⟨S200000, .i32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x32, .f32⟩
  | 48 => ⟨S200000x1, .i32⟩
  | 49 => ⟨S200000, .i32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S200000x32, .f32⟩
  | 59 => ⟨S200000x1, .i32⟩
  | 60 => ⟨S200000, .i32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x32, .f32⟩
  | 70 => ⟨S200000x1, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x32, .f32⟩
  | 81 => ⟨S200000x1, .i32⟩
  | 82 => ⟨S200000, .i32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x32, .f32⟩
  | 92 => ⟨S200000x1, .i32⟩
  | 93 => ⟨S200000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x32, .f32⟩
  | 103 => ⟨S200000x1, .i32⟩
  | 104 => ⟨S200000, .i32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x32, .f32⟩
  | 114 => ⟨S200000x1, .i32⟩
  | 115 => ⟨S200000, .i32⟩
  | 116 => ⟨S_, .i32⟩
  | 117 => ⟨S200000, .i32⟩
  | 118 => ⟨S200000, .i1⟩
  | 119 => ⟨S_, .i32⟩
  | 120 => ⟨S200000, .i32⟩
  | 121 => ⟨S200000, .i32⟩
  | 122 => ⟨S200000, .i32⟩
  | 123 => ⟨S200000x1, .i32⟩
  | 124 => ⟨S200000x32, .f32⟩
  | 125 => ⟨S200000x288, .f32⟩
  | 126 => ⟨S200000x128, .f32⟩
  | 127 => ⟨S800000x1, .i32⟩
  | _ => ⟨S200000x9, .i32⟩

abbrev hbmTy0_1 (i : Nat) : BufTy := match i % 128 with
  | 0 => ⟨S800000, .i32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x32, .f32⟩
  | 10 => ⟨S800000x1, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x32, .f32⟩
  | 21 => ⟨S800000x1, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x32, .f32⟩
  | 32 => ⟨S800000x96, .f32⟩
  | 33 => ⟨S800000x128, .f32⟩
  | 34 => ⟨S1x800000, .i32⟩
  | 35 => ⟨S800000, .i32⟩
  | 36 => ⟨S1x800000, .i32⟩
  | 37 => ⟨S800000, .i32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S1, .i32⟩
  | 47 => ⟨S_, .i32⟩
  | 48 => ⟨S800000x1, .i32⟩
  | 49 => ⟨S800000x1, .i1⟩
  | 50 => ⟨S1x1, .i32⟩
  | 51 => ⟨S800000x1, .i32⟩
  | 52 => ⟨S800000x1, .i1⟩
  | 53 => ⟨S800000x1, .i1⟩
  | 54 => ⟨S_, .i1⟩
  | 55 => ⟨S800000, .i1⟩
  | 56 => ⟨S800000x128, .f32⟩
  | 57 => ⟨S800000x128, .i1⟩
  | 58 => ⟨S_, .f32⟩
  | 59 => ⟨S800000x128, .f32⟩
  | 60 => ⟨S800000x128, .f32⟩
  | 61 => ⟨S800000x128, .f32⟩
  | 62 => ⟨S_, .f32⟩
  | 63 => ⟨S200000x128, .f32⟩
  | 64 => ⟨S800000x1, .i32⟩
  | 65 => ⟨S200000x128, .f32⟩
  | 66 => ⟨S1x128x128, .f32⟩
  | 67 => ⟨S128x128, .f32⟩
  | 68 => ⟨S1x128, .f32⟩
  | 69 => ⟨S128, .f32⟩
  | 70 => ⟨S1x128x128, .f32⟩
  | 71 => ⟨S128x128, .f32⟩
  | 72 => ⟨S1x128, .f32⟩
  | 73 => ⟨S128, .f32⟩
  | 74 => ⟨S200000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S1, .i32⟩
  | 84 => ⟨S_, .i32⟩
  | 85 => ⟨S800000x1, .i32⟩
  | 86 => ⟨S800000x1, .i1⟩
  | 87 => ⟨S1x1, .i32⟩
  | 88 => ⟨S800000x1, .i32⟩
  | 89 => ⟨S800000x1, .i1⟩
  | 90 => ⟨S800000x1, .i1⟩
  | 91 => ⟨S_, .i1⟩
  | 92 => ⟨S800000, .i1⟩
  | 93 => ⟨S800000x128, .f32⟩
  | 94 => ⟨S800000x128, .i1⟩
  | 95 => ⟨S_, .f32⟩
  | 96 => ⟨S800000x128, .f32⟩
  | 97 => ⟨S800000x128, .f32⟩
  | 98 => ⟨S800000x128, .f32⟩
  | 99 => ⟨S_, .f32⟩
  | 100 => ⟨S200000x128, .f32⟩
  | 101 => ⟨S800000x1, .i32⟩
  | 102 => ⟨S200000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S1x128, .f32⟩
  | 110 => ⟨S128, .f32⟩
  | 111 => ⟨S200000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S1, .i32⟩
  | 121 => ⟨S_, .i32⟩
  | 122 => ⟨S800000x1, .i32⟩
  | 123 => ⟨S800000x1, .i1⟩
  | 124 => ⟨S1x1, .i32⟩
  | 125 => ⟨S800000x1, .i32⟩
  | 126 => ⟨S800000x1, .i1⟩
  | 127 => ⟨S800000x1, .i1⟩
  | _ => ⟨S200000x9, .i32⟩

abbrev hbmTy0_2 (i : Nat) : BufTy := match i % 128 with
  | 0 => ⟨S_, .i1⟩
  | 1 => ⟨S800000, .i1⟩
  | 2 => ⟨S800000x128, .f32⟩
  | 3 => ⟨S800000x128, .i1⟩
  | 4 => ⟨S_, .f32⟩
  | 5 => ⟨S800000x128, .f32⟩
  | 6 => ⟨S800000x128, .f32⟩
  | 7 => ⟨S800000x128, .f32⟩
  | 8 => ⟨S_, .f32⟩
  | 9 => ⟨S200000x128, .f32⟩
  | 10 => ⟨S800000x1, .i32⟩
  | 11 => ⟨S200000x128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S200000x128, .f32⟩
  | 21 => ⟨S_, .f32⟩
  | 22 => ⟨S8192x128, .f32⟩
  | 23 => ⟨S200000x1, .i32⟩
  | 24 => ⟨S8192x128, .f32⟩
  | 25 => ⟨S8192x256, .f32⟩
  | _ => ⟨S200000x9, .i32⟩

abbrev hbmTy (i : Nat) : BufTy := match i / 128 with
  | 0 => hbmTy0_0 i
  | 1 => hbmTy0_1 i
  | 2 => hbmTy0_2 i
  | _ => ⟨S200000x9, .i32⟩

abbrev bufTy : (tb : Table) → Fin (tcTables nBuf tb) → BufTy
  | .hbm, ⟨i, _⟩ => hbmTy i
  | .local _ .vmem, ⟨0, _⟩ => ⟨S4000x288, .f32⟩
  | .local _ .vmem, ⟨1, _⟩ => ⟨S4000x288, .f32⟩
  | .local _ .vmem, ⟨2, _⟩ => ⟨S288x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S10000x96, .f32⟩
  | .local _ .vmem, ⟨7, _⟩ => ⟨S10000x96, .f32⟩
  | .local _ .vmem, ⟨8, _⟩ => ⟨S96x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S8000x128, .f32⟩
  | .local _ .vmem, ⟨37, _⟩ => ⟨S8000x128, .f32⟩
  | .local _ .vmem, ⟨38, _⟩ => ⟨S128x128, .f32⟩
  | .local _ .vmem, ⟨39, _⟩ => ⟨S128, .f32⟩
  | .local _ .vmem, ⟨40, _⟩ => ⟨S128x128, .f32⟩
  | .local _ .vmem, ⟨41, _⟩ => ⟨S128, .f32⟩
  | .local _ .vmem, ⟨42, _⟩ => ⟨S8000x128, .f32⟩
  | .local _ .vmem, ⟨43, _⟩ => ⟨S8000x128, .f32⟩
  | .local _ .vmem, ⟨44, _⟩ => ⟨S8000x128, .f32⟩
  | .local _ .vmem, ⟨45, _⟩ => ⟨S8000x128, .f32⟩
  | .local _ .vmem, ⟨46, _⟩ => ⟨S8000x128, .f32⟩
  | .local _ .vmem, ⟨47, _⟩ => ⟨S8000x128, .f32⟩
  | .local _ .vmem, ⟨48, _⟩ => ⟨S8000x128, .f32⟩
  | .local _ .vmem, ⟨49, _⟩ => ⟨S8000x128, .f32⟩
  | .local _ .vmem, ⟨50, _⟩ => ⟨S8000x128, .f32⟩
  | .local _ .vmem, ⟨51, _⟩ => ⟨S8000x128, .f32⟩
  | .local _ .vmem, ⟨52, _⟩ => ⟨S8000x128, .f32⟩
  | .local _ .vmem, ⟨53, _⟩ => ⟨S8000x128, .f32⟩
  | .local _ .vmem, ⟨54, _⟩ => ⟨S128x128, .f32⟩
  | .local _ .vmem, ⟨55, _⟩ => ⟨S128, .f32⟩
  | .local _ .vmem, ⟨56, _⟩ => ⟨S128x128, .f32⟩
  | .local _ .vmem, ⟨57, _⟩ => ⟨S128, .f32⟩
  | .local _ .vmem, ⟨58, _⟩ => ⟨S8000x128, .f32⟩
  | .local _ .vmem, ⟨59, _⟩ => ⟨S8000x128, .f32⟩
  | .local _ .vmem, ⟨60, _⟩ => ⟨S2048x128, .f32⟩
  | .local _ .vmem, ⟨61, _⟩ => ⟨S2048x128, .f32⟩
  | .local _ .vmem, ⟨62, _⟩ => ⟨S128x256, .f32⟩
  | .local _ .vmem, ⟨63, _⟩ => ⟨S256, .f32⟩
  | .local _ .vmem, ⟨64, _⟩ => ⟨S2048x256, .f32⟩
  | .local _ .vmem, ⟨65, _⟩ => ⟨S2048x256, .f32⟩
  | _, _ => ⟨S200000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_7 : Ref sig .tc := ⟨.hbm, 72, rfl⟩
abbrev main_v38 : Ref sig .tc := ⟨.hbm, 73, rfl⟩
abbrev main_v39 : Ref sig .tc := ⟨.hbm, 74, rfl⟩
abbrev main_c_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_9 : Ref sig .tc := ⟨.hbm, 83, rfl⟩
abbrev main_v47 : Ref sig .tc := ⟨.hbm, 84, rfl⟩
abbrev main_v48 : Ref sig .tc := ⟨.hbm, 85, rfl⟩
abbrev main_c_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_11 : Ref sig .tc := ⟨.hbm, 94, rfl⟩
abbrev main_v56 : Ref sig .tc := ⟨.hbm, 95, rfl⟩
abbrev main_v57 : Ref sig .tc := ⟨.hbm, 96, rfl⟩
abbrev main_c_12 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_13 : Ref sig .tc := ⟨.hbm, 105, rfl⟩
abbrev main_v65 : Ref sig .tc := ⟨.hbm, 106, rfl⟩
abbrev main_v66 : Ref sig .tc := ⟨.hbm, 107, rfl⟩
abbrev main_c_14 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_15 : Ref sig .tc := ⟨.hbm, 116, rfl⟩
abbrev main_v74 : Ref sig .tc := ⟨.hbm, 117, rfl⟩
abbrev main_v75 : Ref sig .tc := ⟨.hbm, 118, rfl⟩
abbrev main_c_16 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_17 : Ref sig .tc := ⟨.hbm, 129, rfl⟩
abbrev main_v85 : Ref sig .tc := ⟨.hbm, 130, rfl⟩
abbrev main_v86 : Ref sig .tc := ⟨.hbm, 131, rfl⟩
abbrev main_c_18 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_19 : Ref sig .tc := ⟨.hbm, 140, rfl⟩
abbrev main_v94 : Ref sig .tc := ⟨.hbm, 141, rfl⟩
abbrev main_v95 : Ref sig .tc := ⟨.hbm, 142, rfl⟩
abbrev main_c_20 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_21 : Ref sig .tc := ⟨.hbm, 151, rfl⟩
abbrev main_v103 : Ref sig .tc := ⟨.hbm, 152, rfl⟩
abbrev main_v104 : Ref sig .tc := ⟨.hbm, 153, rfl⟩
abbrev main_c_22 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call0_c : Ref sig .tc := ⟨.hbm, 166, rfl⟩
abbrev main_call0_v0 : Ref sig .tc := ⟨.hbm, 167, rfl⟩
abbrev main_call0_v1 : Ref sig .tc := ⟨.hbm, 168, rfl⟩
abbrev main_call0_c_0 : Ref sig .tc := ⟨.hbm, 169, rfl⟩
abbrev main_call0_v2 : Ref sig .tc := ⟨.hbm, 170, rfl⟩
abbrev main_call0_v3 : Ref sig .tc := ⟨.hbm, 171, rfl⟩
abbrev main_call0_v4 : Ref sig .tc := ⟨.hbm, 172, rfl⟩
abbrev main_call0_v5 : Ref sig .tc := ⟨.hbm, 173, rfl⟩
abbrev main_call0_c_1 : Ref sig .tc := ⟨.hbm, 174, rfl⟩
abbrev main_call0_c_2 : Ref sig .tc := ⟨.hbm, 175, rfl⟩
abbrev main_call0_v6 : Ref sig .tc := ⟨.hbm, 176, rfl⟩
abbrev main_call0_v7 : Ref sig .tc := ⟨.hbm, 177, rfl⟩
abbrev main_call0_v8 : Ref sig .tc := ⟨.hbm, 178, rfl⟩
abbrev main_call0_v9 : Ref sig .tc := ⟨.hbm, 179, rfl⟩
abbrev main_call0_v10 : Ref sig .tc := ⟨.hbm, 180, rfl⟩
abbrev main_call0_v11 : Ref sig .tc := ⟨.hbm, 181, rfl⟩
abbrev main_call0_c_3 : Ref sig .tc := ⟨.hbm, 182, rfl⟩
abbrev main_call0_v12 : Ref sig .tc := ⟨.hbm, 183, rfl⟩
abbrev main_call0_v13 : Ref sig .tc := ⟨.hbm, 184, rfl⟩
abbrev main_call0_v14 : Ref sig .tc := ⟨.hbm, 185, rfl⟩
abbrev main_call0_cst : Ref sig .tc := ⟨.hbm, 186, rfl⟩
abbrev main_call0_v15 : Ref sig .tc := ⟨.hbm, 187, rfl⟩
abbrev main_v116 : Ref sig .tc := ⟨.hbm, 188, rfl⟩
abbrev main_v117 : Ref sig .tc := ⟨.hbm, 189, rfl⟩
abbrev main_cst : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_call1_c : Ref sig .tc := ⟨.hbm, 203, rfl⟩
abbrev main_call1_v0 : Ref sig .tc := ⟨.hbm, 204, rfl⟩
abbrev main_call1_v1 : Ref sig .tc := ⟨.hbm, 205, rfl⟩
abbrev main_call1_c_0 : Ref sig .tc := ⟨.hbm, 206, rfl⟩
abbrev main_call1_v2 : Ref sig .tc := ⟨.hbm, 207, rfl⟩
abbrev main_call1_v3 : Ref sig .tc := ⟨.hbm, 208, rfl⟩
abbrev main_call1_v4 : Ref sig .tc := ⟨.hbm, 209, rfl⟩
abbrev main_call1_v5 : Ref sig .tc := ⟨.hbm, 210, rfl⟩
abbrev main_call1_c_1 : Ref sig .tc := ⟨.hbm, 211, rfl⟩
abbrev main_call1_c_2 : Ref sig .tc := ⟨.hbm, 212, rfl⟩
abbrev main_call1_v6 : Ref sig .tc := ⟨.hbm, 213, rfl⟩
abbrev main_call1_v7 : Ref sig .tc := ⟨.hbm, 214, rfl⟩
abbrev main_call1_v8 : Ref sig .tc := ⟨.hbm, 215, rfl⟩
abbrev main_call1_v9 : Ref sig .tc := ⟨.hbm, 216, rfl⟩
abbrev main_call1_v10 : Ref sig .tc := ⟨.hbm, 217, rfl⟩
abbrev main_call1_v11 : Ref sig .tc := ⟨.hbm, 218, rfl⟩
abbrev main_call1_c_3 : Ref sig .tc := ⟨.hbm, 219, rfl⟩
abbrev main_call1_v12 : Ref sig .tc := ⟨.hbm, 220, rfl⟩
abbrev main_call1_v13 : Ref sig .tc := ⟨.hbm, 221, rfl⟩
abbrev main_call1_v14 : Ref sig .tc := ⟨.hbm, 222, rfl⟩
abbrev main_call1_cst : Ref sig .tc := ⟨.hbm, 223, rfl⟩
abbrev main_call1_v15 : Ref sig .tc := ⟨.hbm, 224, rfl⟩
abbrev main_v130 : Ref sig .tc := ⟨.hbm, 225, rfl⟩
abbrev main_v131 : Ref sig .tc := ⟨.hbm, 226, rfl⟩
abbrev main_cst_23 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_call2_c : Ref sig .tc := ⟨.hbm, 240, rfl⟩
abbrev main_call2_v0 : Ref sig .tc := ⟨.hbm, 241, rfl⟩
abbrev main_call2_v1 : Ref sig .tc := ⟨.hbm, 242, rfl⟩
abbrev main_call2_c_0 : Ref sig .tc := ⟨.hbm, 243, rfl⟩
abbrev main_call2_v2 : Ref sig .tc := ⟨.hbm, 244, rfl⟩
abbrev main_call2_v3 : Ref sig .tc := ⟨.hbm, 245, rfl⟩
abbrev main_call2_v4 : Ref sig .tc := ⟨.hbm, 246, rfl⟩
abbrev main_call2_v5 : Ref sig .tc := ⟨.hbm, 247, rfl⟩
abbrev main_call2_c_1 : Ref sig .tc := ⟨.hbm, 248, rfl⟩
abbrev main_call2_c_2 : Ref sig .tc := ⟨.hbm, 249, rfl⟩
abbrev main_call2_v6 : Ref sig .tc := ⟨.hbm, 250, rfl⟩
abbrev main_call2_v7 : Ref sig .tc := ⟨.hbm, 251, rfl⟩
abbrev main_call2_v8 : Ref sig .tc := ⟨.hbm, 252, rfl⟩
abbrev main_call2_v9 : Ref sig .tc := ⟨.hbm, 253, rfl⟩
abbrev main_call2_v10 : Ref sig .tc := ⟨.hbm, 254, rfl⟩
abbrev main_call2_v11 : Ref sig .tc := ⟨.hbm, 255, rfl⟩
abbrev main_call2_c_3 : Ref sig .tc := ⟨.hbm, 256, rfl⟩
abbrev main_call2_v12 : Ref sig .tc := ⟨.hbm, 257, rfl⟩
abbrev main_call2_v13 : Ref sig .tc := ⟨.hbm, 258, rfl⟩
abbrev main_call2_v14 : Ref sig .tc := ⟨.hbm, 259, rfl⟩
abbrev main_call2_cst : Ref sig .tc := ⟨.hbm, 260, rfl⟩
abbrev main_call2_v15 : Ref sig .tc := ⟨.hbm, 261, rfl⟩
abbrev main_v144 : Ref sig .tc := ⟨.hbm, 262, rfl⟩
abbrev main_v145 : Ref sig .tc := ⟨.hbm, 263, rfl⟩
abbrev main_cst_24 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_v155 : Ref sig .tc := ⟨.hbm, 274, rfl⟩
abbrev main_v156 : Ref sig .tc := ⟨.hbm, 275, rfl⟩
abbrev main_v157 : Ref sig .tc := ⟨.hbm, 276, rfl⟩
abbrev main_cst_25 : Ref sig .tc := ⟨.hbm, 277, rfl⟩
abbrev main_v158 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem3_1 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S8000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S8000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2048x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S200000x9_S200000x1_0_0 : S200000x9.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x9_S200000x1_0_1 : S200000x9.Slices ![0, 1] S200000x1
  slices_S200000x9_S200000x1_0_2 : S200000x9.Slices ![0, 2] S200000x1
  slices_S200000x9_S200000x1_0_3 : S200000x9.Slices ![0, 3] S200000x1
  slices_S200000x9_S200000x1_0_4 : S200000x9.Slices ![0, 4] S200000x1
  slices_S200000x9_S200000x1_0_5 : S200000x9.Slices ![0, 5] S200000x1
  slices_S200000x9_S200000x1_0_6 : S200000x9.Slices ![0, 6] S200000x1
  slices_S200000x9_S200000x1_0_7 : S200000x9.Slices ![0, 7] S200000x1
  slices_S200000x9_S200000x1_0_8 : S200000x9.Slices ![0, 8] S200000x1
  concatenates_S200000x32_S200000x32_S200000x32_S200000x32_S200000x32_S200000x32_S200000x32_S200000x32_S200000x32_S200000x288_d1 : Shape.Concatenates [S200000x32, S200000x32, S200000x32, S200000x32, S200000x32, S200000x32, S200000x32, S200000x32, S200000x32] S200000x288 1
  inb_S4000x288_S4000x288_0_0 : ∀ a, (![0, 0] : Fin 2 → Nat) a + S4000x288.size a ≤ S4000x288.size a
  h_S4000x288 : 0 < S4000x288.numel
  shapeCasts_S4000x288_S4000x288 : S4000x288.ShapeCasts S4000x288
  inb_S288x128_S288x128_0_0 : ∀ a, (![0, 0] : Fin 2 → Nat) a + S288x128.size a ≤ S288x128.size a
  h_S288x128 : 0 < S288x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  slices_S800000x3_S800000x1_0_0 : S800000x3.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x3_S800000x1_0_1 : S800000x3.Slices ![0, 1] S800000x1
  slices_S800000x3_S800000x1_0_2 : S800000x3.Slices ![0, 2] S800000x1
  concatenates_S800000x32_S800000x32_S800000x32_S800000x96_d1 : Shape.Concatenates [S800000x32, S800000x32, S800000x32] S800000x96 1
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  inb_S96x128_S96x128_0_0 : ∀ a, (![0, 0] : Fin 2 → Nat) a + S96x128.size a ≤ S96x128.size a
  h_S96x128 : 0 < S96x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S200000x128 : S_.BroadcastsInDim S200000x128 (![] : Fin 0 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  broadcasts_S1x128_S8000x128 : S1x128.Broadcasts S8000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S8192x128 : S_.BroadcastsInDim S8192x128 (![] : Fin 0 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  inb_S2048x256_S2048x256_0_0 : ∀ a, (![0, 0] : Fin 2 → Nat) a + S2048x256.size a ≤ S2048x256.size a
  h_S2048x256 : 0 < S2048x256.numel
  gather_S119x32_S200000x1_S200000x32_1_0_n_n_0_1_132_wf : GatherDims.WF S119x32 S200000x1 S200000x32 [1] [0] [] [0] [] 1 ![1, 32]
  gather_S9x32_S200000x1_S200000x32_1_0_n_n_0_1_132_wf : GatherDims.WF S9x32 S200000x1 S200000x32 [1] [0] [] [0] [] 1 ![1, 32]
  gather_S11x32_S200000x1_S200000x32_1_0_n_n_0_1_132_wf : GatherDims.WF S11x32 S200000x1 S200000x32 [1] [0] [] [0] [] 1 ![1, 32]
  gather_S12x32_S200000x1_S200000x32_1_0_n_n_0_1_132_wf : GatherDims.WF S12x32 S200000x1 S200000x32 [1] [0] [] [0] [] 1 ![1, 32]
  gather_S5x32_S200000x1_S200000x32_1_0_n_n_0_1_132_wf : GatherDims.WF S5x32 S200000x1 S200000x32 [1] [0] [] [0] [] 1 ![1, 32]
  gather_S8x32_S200000x1_S200000x32_1_0_n_n_0_1_132_wf : GatherDims.WF S8x32 S200000x1 S200000x32 [1] [0] [] [0] [] 1 ![1, 32]
  gather_S2x32_S200000x1_S200000x32_1_0_n_n_0_1_132_wf : GatherDims.WF S2x32 S200000x1 S200000x32 [1] [0] [] [0] [] 1 ![1, 32]
  dot_S4000x288_S288x128_S4000x128_1_0_0_1_n_n_wf : DotDims.WF S4000x288 S288x128 S4000x128 [1] [0] [0] [1] [] []
  gather_S22x32_S800000x1_S800000x32_1_0_n_n_0_1_132_wf : GatherDims.WF S22x32 S800000x1 S800000x32 [1] [0] [] [0] [] 1 ![1, 32]
  gather_S6x32_S800000x1_S800000x32_1_0_n_n_0_1_132_wf : GatherDims.WF S6x32 S800000x1 S800000x32 [1] [0] [] [0] [] 1 ![1, 32]
  gather_S2x32_S800000x1_S800000x32_1_0_n_n_0_1_132_wf : GatherDims.WF S2x32 S800000x1 S800000x32 [1] [0] [] [0] [] 1 ![1, 32]
  dot_S10000x96_S96x128_S10000x128_1_0_0_1_n_n_wf : DotDims.WF S10000x96 S96x128 S10000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  dot_S8000x128_S128x128_S8000x128_1_0_0_1_n_n_wf : DotDims.WF S8000x128 S128x128 S8000x128 [1] [0] [0] [1] [] []
  scatter_S8192x128_S200000x1_S200000x128_1_0_0_1_wf : ScatterDims.WF S8192x128 S200000x1 S200000x128 [1] [0] [0] 1
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x288.size a ≤ S200000x288.size a
  hwx0_0 : ∀ i : grid0.Coords, EltTy.bits .f32 = 32 ∨ (Rect.block (s := S200000x288) S4000x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x128.size a ≤ S288x128.size a
  hwx0_1 : ∀ i : grid0.Coords, EltTy.bits .f32 = 32 ∨ (Rect.block (s := S288x128) S288x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S800000x96.size a
  hwx1_0 : ∀ i : grid1.Coords, EltTy.bits .f32 = 32 ∨ (Rect.block (s := S800000x96) S10000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x128.size a ≤ S96x128.size a
  hwx1_1 : ∀ i : grid1.Coords, EltTy.bits .f32 = 32 ∨ (Rect.block (s := S96x128) S96x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S800000x128.size a
  hwx1_3 : ∀ i : grid1.Coords, EltTy.bits .f32 = 32 ∨ (Rect.block (s := S800000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S200000x128.size a
  hwx3_0 : ∀ i : grid3.Coords, EltTy.bits .f32 = 32 ∨ (Rect.block (s := S200000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S200000x128.size a
  hwx3_1 : ∀ i : grid3.Coords, EltTy.bits .f32 = 32 ∨ (Rect.block (s := S200000x128) S8000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x128.size a ≤ S200000x128.size a
  hwx3_6 : ∀ i : grid3.Coords, EltTy.bits .f32 = 32 ∨ (Rect.block (s := S200000x128) S8000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .f32 = 32 ∨ (Rect.block (s := S800000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S200000x128.size a
  hwx5_0 : ∀ i : grid5.Coords, EltTy.bits .f32 = 32 ∨ (Rect.block (s := S200000x128) S8000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S200000x128.size a
  hwx5_1 : ∀ i : grid5.Coords, EltTy.bits .f32 = 32 ∨ (Rect.block (s := S200000x128) S8000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8000x128.size a ≤ S200000x128.size a
  hwx5_6 : ∀ i : grid5.Coords, EltTy.bits .f32 = 32 ∨ (Rect.block (s := S200000x128) S8000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x128.size a ≤ S800000x128.size a
  hwx6_0 : ∀ i : grid6.Coords, EltTy.bits .f32 = 32 ∨ (Rect.block (s := S800000x128) S8000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x128.size a ≤ S800000x128.size a
  hwx6_1 : ∀ i : grid6.Coords, EltTy.bits .f32 = 32 ∨ (Rect.block (s := S800000x128) S8000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x128.size a ≤ S800000x128.size a
  hwx6_2 : ∀ i : grid6.Coords, EltTy.bits .f32 = 32 ∨ (Rect.block (s := S800000x128) S8000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x128.size a ≤ S200000x128.size a
  hwx7_0 : ∀ i : grid7.Coords, EltTy.bits .f32 = 32 ∨ (Rect.block (s := S200000x128) S8000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x128.size a ≤ S200000x128.size a
  hwx7_1 : ∀ i : grid7.Coords, EltTy.bits .f32 = 32 ∨ (Rect.block (s := S200000x128) S8000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128.size a ≤ S128.size a
  hwx7_5 : ∀ i : grid7.Coords, EltTy.bits .f32 = 32 ∨ (Rect.block (s := S128) S128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S8000x128.size a ≤ S200000x128.size a
  hwx7_6 : ∀ i : grid7.Coords, EltTy.bits .f32 = 32 ∨ (Rect.block (s := S200000x128) S8000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x128.size a ≤ S8192x128.size a
  hwx8_0 : ∀ i : grid8.Coords, EltTy.bits .f32 = 32 ∨ (Rect.block (s := S8192x128) S2048x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x256.size a ≤ S128x256.size a
  hwx8_1 : ∀ i : grid8.Coords, EltTy.bits .f32 = 32 ∨ (Rect.block (s := S128x256) S128x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256.size a ≤ S256.size a
  hwx8_2 : ∀ i : grid8.Coords, EltTy.bits .f32 = 32 ∨ (Rect.block (s := S256) S256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2048x256.size a ≤ S8192x256.size a
  hwx8_3 : ∀ i : grid8.Coords, EltTy.bits .f32 = 32 ∨ (Rect.block (s := S8192x256) S2048x256.size (cc8_transform_3 i) (hinb8_3 i)).WholeWords (EltTy.packing .f32)

variable [Facts₀]

def gather_S119x32_S200000x1_S200000x32_1_0_n_n_0_1_132 : GatherDims S119x32 S200000x1 S200000x32 where
  offsetDims := [1]
  collapsedSliceDims := [0]
  operandBatchingDims := []
  startIndicesBatchingDims := []
  startIndexMap := [0]
  indexVectorDim := 1
  sliceSizes := ![1, 32]
  wf := gather_S119x32_S200000x1_S200000x32_1_0_n_n_0_1_132_wf
def gather_S9x32_S200000x1_S200000x32_1_0_n_n_0_1_132 : GatherDims S9x32 S200000x1 S200000x32 where
  offsetDims := [1]
  collapsedSliceDims := [0]
  operandBatchingDims := []
  startIndicesBatchingDims := []
  startIndexMap := [0]
  indexVectorDim := 1
  sliceSizes := ![1, 32]
  wf := gather_S9x32_S200000x1_S200000x32_1_0_n_n_0_1_132_wf
def gather_S11x32_S200000x1_S200000x32_1_0_n_n_0_1_132 : GatherDims S11x32 S200000x1 S200000x32 where
  offsetDims := [1]
  collapsedSliceDims := [0]
  operandBatchingDims := []
  startIndicesBatchingDims := []
  startIndexMap := [0]
  indexVectorDim := 1
  sliceSizes := ![1, 32]
  wf := gather_S11x32_S200000x1_S200000x32_1_0_n_n_0_1_132_wf
def gather_S12x32_S200000x1_S200000x32_1_0_n_n_0_1_132 : GatherDims S12x32 S200000x1 S200000x32 where
  offsetDims := [1]
  collapsedSliceDims := [0]
  operandBatchingDims := []
  startIndicesBatchingDims := []
  startIndexMap := [0]
  indexVectorDim := 1
  sliceSizes := ![1, 32]
  wf := gather_S12x32_S200000x1_S200000x32_1_0_n_n_0_1_132_wf
def gather_S5x32_S200000x1_S200000x32_1_0_n_n_0_1_132 : GatherDims S5x32 S200000x1 S200000x32 where
  offsetDims := [1]
  collapsedSliceDims := [0]
  operandBatchingDims := []
  startIndicesBatchingDims := []
  startIndexMap := [0]
  indexVectorDim := 1
  sliceSizes := ![1, 32]
  wf := gather_S5x32_S200000x1_S200000x32_1_0_n_n_0_1_132_wf
def gather_S8x32_S200000x1_S200000x32_1_0_n_n_0_1_132 : GatherDims S8x32 S200000x1 S200000x32 where
  offsetDims := [1]
  collapsedSliceDims := [0]
  operandBatchingDims := []
  startIndicesBatchingDims := []
  startIndexMap := [0]
  indexVectorDim := 1
  sliceSizes := ![1, 32]
  wf := gather_S8x32_S200000x1_S200000x32_1_0_n_n_0_1_132_wf
def gather_S2x32_S200000x1_S200000x32_1_0_n_n_0_1_132 : GatherDims S2x32 S200000x1 S200000x32 where
  offsetDims := [1]
  collapsedSliceDims := [0]
  operandBatchingDims := []
  startIndicesBatchingDims := []
  startIndexMap := [0]
  indexVectorDim := 1
  sliceSizes := ![1, 32]
  wf := gather_S2x32_S200000x1_S200000x32_1_0_n_n_0_1_132_wf
def dot_S4000x288_S288x128_S4000x128_1_0_0_1_n_n : DotDims S4000x288 S288x128 S4000x128 where
  lhsContracting := [1]
  rhsContracting := [0]
  lhsNonContracting := [0]
  rhsNonContracting := [1]
  lhsBatch := []
  rhsBatch := []
  wf := dot_S4000x288_S288x128_S4000x128_1_0_0_1_n_n_wf
def gather_S22x32_S800000x1_S800000x32_1_0_n_n_0_1_132 : GatherDims S22x32 S800000x1 S800000x32 where
  offsetDims := [1]
  collapsedSliceDims := [0]
  operandBatchingDims := []
  startIndicesBatchingDims := []
  startIndexMap := [0]
  indexVectorDim := 1
  sliceSizes := ![1, 32]
  wf := gather_S22x32_S800000x1_S800000x32_1_0_n_n_0_1_132_wf
def gather_S6x32_S800000x1_S800000x32_1_0_n_n_0_1_132 : GatherDims S6x32 S800000x1 S800000x32 where
  offsetDims := [1]
  collapsedSliceDims := [0]
  operandBatchingDims := []
  startIndicesBatchingDims := []
  startIndexMap := [0]
  indexVectorDim := 1
  sliceSizes := ![1, 32]
  wf := gather_S6x32_S800000x1_S800000x32_1_0_n_n_0_1_132_wf
def gather_S2x32_S800000x1_S800000x32_1_0_n_n_0_1_132 : GatherDims S2x32 S800000x1 S800000x32 where
  offsetDims := [1]
  collapsedSliceDims := [0]
  operandBatchingDims := []
  startIndicesBatchingDims := []
  startIndexMap := [0]
  indexVectorDim := 1
  sliceSizes := ![1, 32]
  wf := gather_S2x32_S800000x1_S800000x32_1_0_n_n_0_1_132_wf
def dot_S10000x96_S96x128_S10000x128_1_0_0_1_n_n : DotDims S10000x96 S96x128 S10000x128 where
  lhsContracting := [1]
  rhsContracting := [0]
  lhsNonContracting := [0]
  rhsNonContracting := [1]
  lhsBatch := []
  rhsBatch := []
  wf := dot_S10000x96_S96x128_S10000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_v81) S4000x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S288x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v82) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v110) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg18) S96x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg19) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v111) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v116) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v111) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v117) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v120) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v122) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v124) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v126) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v128) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v129) S8000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v130) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v131) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v129) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v134) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v136) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v138) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v140) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v142) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v143) S8000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v144) S8000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S8000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v145) S8000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v143) S8000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v148) S8000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v150) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v152) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v154) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v156) S128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v157) S8000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v160) S2048x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg24) S128x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg25) S256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v161) S2048x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S200000x9 : Shape := ⟨2, ![200000, 9]⟩
abbrev S800000x3 : Shape := ⟨2, ![800000, 3]⟩
abbrev S2x800000 : Shape := ⟨2, ![2, 800000]⟩
abbrev S200000 : Shape := ⟨1, ![200000]⟩
abbrev S119x32 : Shape := ⟨2, ![119, 32]⟩
abbrev S9x32 : Shape := ⟨2, ![9, 32]⟩
abbrev S11x32 : Shape := ⟨2, ![11, 32]⟩
abbrev S12x32 : Shape := ⟨2, ![12, 32]⟩
abbrev S5x32 : Shape := ⟨2, ![5, 32]⟩
abbrev S8x32 : Shape := ⟨2, ![8, 32]⟩
abbrev S2x32 : Shape := ⟨2, ![2, 32]⟩
abbrev S288x128 : Shape := ⟨2, ![288, 128]⟩
abbrev S128 : Shape := ⟨1, ![128]⟩
abbrev S22x32 : Shape := ⟨2, ![22, 32]⟩
abbrev S6x32 : Shape := ⟨2, ![6, 32]⟩
abbrev S96x128 : Shape := ⟨2, ![96, 128]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S200000x1 : Shape := ⟨2, ![200000, 1]⟩
abbrev S_ : Shape := ⟨0, ![]⟩
abbrev S200000x32 : Shape := ⟨2, ![200000, 32]⟩
abbrev S200000x288 : Shape := ⟨2, ![200000, 288]⟩
abbrev S200000x128 : Shape := ⟨2, ![200000, 128]⟩
abbrev S1x128 : Shape := ⟨2, ![1, 128]⟩
abbrev S800000x1 : Shape := ⟨2, ![800000, 1]⟩
abbrev S800000 : Shape := ⟨1, ![800000]⟩
abbrev S800000x32 : Shape := ⟨2, ![800000, 32]⟩
abbrev S800000x96 : Shape := ⟨2, ![800000, 96]⟩
abbrev S800000x128 : Shape := ⟨2, ![800000, 128]⟩
abbrev S1x800000 : Shape := ⟨2, ![1, 800000]⟩
abbrev S1x128x128 : Shape := ⟨3, ![1, 128, 128]⟩
abbrev S128x128 : Shape := ⟨2, ![128, 128]⟩
abbrev S8192x128 : Shape := ⟨2, ![8192, 128]⟩
abbrev S8192x256 : Shape := ⟨2, ![8192, 256]⟩
abbrev S1x256 : Shape := ⟨2, ![1, 256]⟩
abbrev S8192 : Shape := ⟨1, ![8192]⟩
abbrev S8192x1 : Shape := ⟨2, ![8192, 1]⟩

abbrev nBuf : Space → Nat
  | .hbm => 310
  | .vmem => 0
  | .smem => 0
  | _ => 0

abbrev hbmTy0_0 (i : Nat) : BufTy := match i % 128 with
  | 0 => ⟨S200000x9, .i32⟩
  | 1 => ⟨S800000x3, .i32⟩
  | 2 => ⟨S2x800000, .i32⟩
  | 3 => ⟨S200000, .i32⟩
  | 4 => ⟨S119x32, .f32⟩
  | 5 => ⟨S9x32, .f32⟩
  | 6 => ⟨S11x32, .f32⟩
  | 7 => ⟨S12x32, .f32⟩
  | 8 => ⟨S9x32, .f32⟩
  | 9 => ⟨S5x32, .f32⟩
  | 10 => ⟨S8x32, .f32⟩
  | 11 => ⟨S2x32, .f32⟩
  | 12 => ⟨S2x32, .f32⟩
  | 13 => ⟨S288x128, .f32⟩
  | 14 => ⟨S128, .f32⟩
  | 15 => ⟨S22x32, .f32⟩
  | 16 => ⟨S6x32, .f32⟩
  | 17 => ⟨S2x32, .f32⟩
  | 18 => ⟨S96x128, .f32⟩
  | 19 => ⟨S128, .f32⟩
  | 20 => ⟨S3x128x128, .f32⟩
  | 21 => ⟨S3x128, .f32⟩
  | 22 => ⟨S3x128x128, .f32⟩
  | 23 => ⟨S3x128, .f32⟩
  | 24 => ⟨S128x256, .f32⟩
  | 25 => ⟨S256, .f32⟩
  | 26 => ⟨S200000x1, .i32⟩
  | 27 => ⟨S200000, .i32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x32, .f32⟩
  | 37 => ⟨S200000x1, .i32⟩
  | 38 => ⟨S200000, .i32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x32, .f32⟩
  | 48 => ⟨S200000x1, .i32⟩
  | 49 => ⟨S200000, .i32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S200000x32, .f32⟩
  | 59 => ⟨S200000x1, .i32⟩
  | 60 => ⟨S200000, .i32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x32, .f32⟩
  | 70 => ⟨S200000x1, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x32, .f32⟩
  | 81 => ⟨S200000x1, .i32⟩
  | 82 => ⟨S200000, .i32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x32, .f32⟩
  | 92 => ⟨S200000x1, .i32⟩
  | 93 => ⟨S200000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x32, .f32⟩
  | 103 => ⟨S200000x1, .i32⟩
  | 104 => ⟨S200000, .i32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x32, .f32⟩
  | 114 => ⟨S200000x1, .i32⟩
  | 115 => ⟨S200000, .i32⟩
  | 116 => ⟨S_, .i32⟩
  | 117 => ⟨S200000, .i32⟩
  | 118 => ⟨S200000, .i1⟩
  | 119 => ⟨S_, .i32⟩
  | 120 => ⟨S200000, .i32⟩
  | 121 => ⟨S200000, .i32⟩
  | 122 => ⟨S200000, .i32⟩
  | 123 => ⟨S200000x1, .i32⟩
  | 124 => ⟨S200000x32, .f32⟩
  | 125 => ⟨S200000x288, .f32⟩
  | 126 => ⟨S200000x128, .f32⟩
  | 127 => ⟨S1x128, .f32⟩
  | _ => ⟨S200000x9, .i32⟩

abbrev hbmTy0_1 (i : Nat) : BufTy := match i % 128 with
  | 0 => ⟨S200000x128, .f32⟩
  | 1 => ⟨S200000x128, .f32⟩
  | 2 => ⟨S800000x1, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x32, .f32⟩
  | 13 => ⟨S800000x1, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x32, .f32⟩
  | 24 => ⟨S800000x1, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x32, .f32⟩
  | 35 => ⟨S800000x96, .f32⟩
  | 36 => ⟨S800000x128, .f32⟩
  | 37 => ⟨S1x128, .f32⟩
  | 38 => ⟨S800000x128, .f32⟩
  | 39 => ⟨S800000x128, .f32⟩
  | 40 => ⟨S1x800000, .i32⟩
  | 41 => ⟨S800000, .i32⟩
  | 42 => ⟨S1x800000, .i32⟩
  | 43 => ⟨S800000, .i32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x128, .f32⟩
  | 54 => ⟨S_, .f32⟩
  | 55 => ⟨S800000x128, .f32⟩
  | 56 => ⟨S800000x128, .f32⟩
  | 57 => ⟨S_, .f32⟩
  | 58 => ⟨S200000x128, .f32⟩
  | 59 => ⟨S800000x1, .i32⟩
  | 60 => ⟨S200000x128, .f32⟩
  | 61 => ⟨S200000x128, .f32⟩
  | 62 => ⟨S1x128x128, .f32⟩
  | 63 => ⟨S128x128, .f32⟩
  | 64 => ⟨S200000x128, .f32⟩
  | 65 => ⟨S1x128, .f32⟩
  | 66 => ⟨S128, .f32⟩
  | 67 => ⟨S1x128, .f32⟩
  | 68 => ⟨S200000x128, .f32⟩
  | 69 => ⟨S200000x128, .f32⟩
  | 70 => ⟨S_, .f32⟩
  | 71 => ⟨S200000x128, .f32⟩
  | 72 => ⟨S200000x128, .f32⟩
  | 73 => ⟨S1x128x128, .f32⟩
  | 74 => ⟨S128x128, .f32⟩
  | 75 => ⟨S200000x128, .f32⟩
  | 76 => ⟨S1x128, .f32⟩
  | 77 => ⟨S128, .f32⟩
  | 78 => ⟨S1x128, .f32⟩
  | 79 => ⟨S200000x128, .f32⟩
  | 80 => ⟨S200000x128, .f32⟩
  | 81 => ⟨S_, .f32⟩
  | 82 => ⟨S200000x128, .f32⟩
  | 83 => ⟨S200000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x128, .f32⟩
  | 94 => ⟨S_, .f32⟩
  | 95 => ⟨S800000x128, .f32⟩
  | 96 => ⟨S800000x128, .f32⟩
  | 97 => ⟨S_, .f32⟩
  | 98 => ⟨S200000x128, .f32⟩
  | 99 => ⟨S800000x1, .i32⟩
  | 100 => ⟨S200000x128, .f32⟩
  | 101 => ⟨S200000x128, .f32⟩
  | 102 => ⟨S1x128x128, .f32⟩
  | 103 => ⟨S128x128, .f32⟩
  | 104 => ⟨S200000x128, .f32⟩
  | 105 => ⟨S1x128, .f32⟩
  | 106 => ⟨S128, .f32⟩
  | 107 => ⟨S1x128, .f32⟩
  | 108 => ⟨S200000x128, .f32⟩
  | 109 => ⟨S200000x128, .f32⟩
  | 110 => ⟨S_, .f32⟩
  | 111 => ⟨S200000x128, .f32⟩
  | 112 => ⟨S200000x128, .f32⟩
  | 113 => ⟨S1x128x128, .f32⟩
  | 114 => ⟨S128x128, .f32⟩
  | 115 => ⟨S200000x128, .f32⟩
  | 116 => ⟨S1x128, .f32⟩
  | 117 => ⟨S128, .f32⟩
  | 118 => ⟨S1x128, .f32⟩
  | 119 => ⟨S200000x128, .f32⟩
  | 120 => ⟨S200000x128, .f32⟩
  | 121 => ⟨S_, .f32⟩
  | 122 => ⟨S200000x128, .f32⟩
  | 123 => ⟨S200000x128, .f32⟩
  | 124 => ⟨S_, .i32⟩
  | 125 => ⟨S800000, .i32⟩
  | 126 => ⟨S800000, .i1⟩
  | 127 => ⟨S_, .i32⟩
  | _ => ⟨S200000x9, .i32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S800000x128, .f32⟩
  | 6 => ⟨S_, .f32⟩
  | 7 => ⟨S800000x128, .f32⟩
  | 8 => ⟨S800000x128, .f32⟩
  | 9 => ⟨S_, .f32⟩
  | 10 => ⟨S200000x128, .f32⟩
  | 11 => ⟨S800000x1, .i32⟩
  | 12 => ⟨S200000x128, .f32⟩
  | 13 => ⟨S200000x128, .f32⟩
  | 14 => ⟨S1x128x128, .f32⟩
  | 15 => ⟨S128x128, .f32⟩
  | 16 => ⟨S200000x128, .f32⟩
  | 17 => ⟨S1x128, .f32⟩
  | 18 => ⟨S128, .f32⟩
  | 19 => ⟨S1x128, .f32⟩
  | 20 => ⟨S200000x128, .f32⟩
  | 21 => ⟨S200000x128, .f32⟩
  | 22 => ⟨S_, .f32⟩
  | 23 => ⟨S200000x128, .f32⟩
  | 24 => ⟨S200000x128, .f32⟩
  | 25 => ⟨S1x128x128, .f32⟩
  | 26 => ⟨S128x128, .f32⟩
  | 27 => ⟨S200000x128, .f32⟩
  | 28 => ⟨S1x128, .f32⟩
  | 29 => ⟨S128, .f32⟩
  | 30 => ⟨S1x128, .f32⟩
  | 31 => ⟨S200000x128, .f32⟩
  | 32 => ⟨S200000x128, .f32⟩
  | 33 => ⟨S_, .f32⟩
  | 34 => ⟨S200000x128, .f32⟩
  | 35 => ⟨S200000x128, .f32⟩
  | 36 => ⟨S_, .f32⟩
  | 37 => ⟨S8192x128, .f32⟩
  | 38 => ⟨S200000x1, .i32⟩
  | 39 => ⟨S8192x128, .f32⟩
  | 40 => ⟨S8192x256, .f32⟩
  | 41 => ⟨S1x256, .f32⟩
  | 42 => ⟨S8192x256, .f32⟩
  | 43 => ⟨S8192x256, .f32⟩
  | 44 => ⟨S8192x256, .f32⟩
  | 45 => ⟨S_, .f32⟩
  | 46 => ⟨S8192, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x256, .f32⟩
  | 53 => ⟨S8192x256, .f32⟩
  | _ => ⟨S200000x9, .i32⟩

abbrev hbmTy (i : Nat) : BufTy := match i / 128 with
  | 0 => hbmTy0_0 i
  | 1 => hbmTy0_1 i
  | 2 => hbmTy0_2 i
  | _ => ⟨S200000x9, .i32⟩

abbrev bufTy : (tb : Table) → Fin (tcTables nBuf tb) → BufTy
  | .hbm, ⟨i, _⟩ => hbmTy i
  | _, _ => ⟨S200000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_7 : Ref sig .tc := ⟨.hbm, 72, rfl⟩
abbrev main_v38 : Ref sig .tc := ⟨.hbm, 73, rfl⟩
abbrev main_v39 : Ref sig .tc := ⟨.hbm, 74, rfl⟩
abbrev main_c_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_9 : Ref sig .tc := ⟨.hbm, 83, rfl⟩
abbrev main_v47 : Ref sig .tc := ⟨.hbm, 84, rfl⟩
abbrev main_v48 : Ref sig .tc := ⟨.hbm, 85, rfl⟩
abbrev main_c_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_11 : Ref sig .tc := ⟨.hbm, 94, rfl⟩
abbrev main_v56 : Ref sig .tc := ⟨.hbm, 95, rfl⟩
abbrev main_v57 : Ref sig .tc := ⟨.hbm, 96, rfl⟩
abbrev main_c_12 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_13 : Ref sig .tc := ⟨.hbm, 105, rfl⟩
abbrev main_v65 : Ref sig .tc := ⟨.hbm, 106, rfl⟩
abbrev main_v66 : Ref sig .tc := ⟨.hbm, 107, rfl⟩
abbrev main_c_14 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_15 : Ref sig .tc := ⟨.hbm, 116, rfl⟩
abbrev main_v74 : Ref sig .tc := ⟨.hbm, 117, rfl⟩
abbrev main_v75 : Ref sig .tc := ⟨.hbm, 118, rfl⟩
abbrev main_c_16 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_17 : Ref sig .tc := ⟨.hbm, 132, rfl⟩
abbrev main_v88 : Ref sig .tc := ⟨.hbm, 133, rfl⟩
abbrev main_v89 : Ref sig .tc := ⟨.hbm, 134, rfl⟩
abbrev main_c_18 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_19 : Ref sig .tc := ⟨.hbm, 143, rfl⟩
abbrev main_v97 : Ref sig .tc := ⟨.hbm, 144, rfl⟩
abbrev main_v98 : Ref sig .tc := ⟨.hbm, 145, rfl⟩
abbrev main_c_20 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_21 : Ref sig .tc := ⟨.hbm, 154, rfl⟩
abbrev main_v106 : Ref sig .tc := ⟨.hbm, 155, rfl⟩
abbrev main_v107 : Ref sig .tc := ⟨.hbm, 156, rfl⟩
abbrev main_c_22 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_23 : Ref sig .tc := ⟨.hbm, 172, rfl⟩
abbrev main_v122 : Ref sig .tc := ⟨.hbm, 173, rfl⟩
abbrev main_v123 : Ref sig .tc := ⟨.hbm, 174, rfl⟩
abbrev main_c_24 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_call0_cst : Ref sig .tc := ⟨.hbm, 182, rfl⟩
abbrev main_call0_v0 : Ref sig .tc := ⟨.hbm, 183, rfl⟩
abbrev main_v130 : Ref sig .tc := ⟨.hbm, 184, rfl⟩
abbrev main_cst : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call1_cst : Ref sig .tc := ⟨.hbm, 198, rfl⟩
abbrev main_call1_v0 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_call2_cst : Ref sig .tc := ⟨.hbm, 209, rfl⟩
abbrev main_call2_v0 : Ref sig .tc := ⟨.hbm, 210, rfl⟩
abbrev main_v152 : Ref sig .tc := ⟨.hbm, 211, rfl⟩
abbrev main_c_25 : Ref sig .tc := ⟨.hbm, 212, rfl⟩
abbrev main_v153 : Ref sig .tc := ⟨.hbm, 213, rfl⟩
abbrev main_v154 : Ref sig .tc := ⟨.hbm, 214, rfl⟩
abbrev main_c_26 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_call3_cst : Ref sig .tc := ⟨.hbm, 222, rfl⟩
abbrev main_call3_v0 : Ref sig .tc := ⟨.hbm, 223, rfl⟩
abbrev main_v161 : Ref sig .tc := ⟨.hbm, 224, rfl⟩
abbrev main_cst_27 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_call4_cst : Ref sig .tc := ⟨.hbm, 238, rfl⟩
abbrev main_call4_v0 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_call5_cst : Ref sig .tc := ⟨.hbm, 249, rfl⟩
abbrev main_call5_v0 : Ref sig .tc := ⟨.hbm, 250, rfl⟩
abbrev main_v183 : Ref sig .tc := ⟨.hbm, 251, rfl⟩
abbrev main_c_28 : Ref sig .tc := ⟨.hbm, 252, rfl⟩
abbrev main_v184 : Ref sig .tc := ⟨.hbm, 253, rfl⟩
abbrev main_v185 : Ref sig .tc := ⟨.hbm, 254, rfl⟩
abbrev main_c_29 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_call6_cst : Ref sig .tc := ⟨.hbm, 262, rfl⟩
abbrev main_call6_v0 : Ref sig .tc := ⟨.hbm, 263, rfl⟩
abbrev main_v192 : Ref sig .tc := ⟨.hbm, 264, rfl⟩
abbrev main_cst_30 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_call7_cst : Ref sig .tc := ⟨.hbm, 278, rfl⟩
abbrev main_call7_v0 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_call8_cst : Ref sig .tc := ⟨.hbm, 289, rfl⟩
abbrev main_call8_v0 : Ref sig .tc := ⟨.hbm, 290, rfl⟩
abbrev main_v214 : Ref sig .tc := ⟨.hbm, 291, rfl⟩
abbrev main_cst_31 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_call9_v0 : Ref sig .tc := ⟨.hbm, 300, rfl⟩
abbrev main_call9_cst : Ref sig .tc := ⟨.hbm, 301, rfl⟩
abbrev main_call9_v1 : Ref sig .tc := ⟨.hbm, 302, rfl⟩
abbrev main_call9_v2 : Ref sig .tc := ⟨.hbm, 303, rfl⟩
abbrev main_v222 : Ref sig .tc := ⟨.hbm, 304, rfl⟩
abbrev main_cst_32 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩

abbrev nD : Nat := 1
abbrev τ : Topo := Topo.v7x

variable {F : FTy → Type} [FloatOps F]

class Facts₀ : Prop where
  slices_S200000x9_S200000x1_0_0 : S200000x9.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x9_S200000x1_0_1 : S200000x9.Slices ![0, 1] S200000x1
  slices_S200000x9_S200000x1_0_2 : S200000x9.Slices ![0, 2] S200000x1
  slices_S200000x9_S200000x1_0_3 : S200000x9.Slices ![0, 3] S200000x1
  slices_S200000x9_S200000x1_0_4 : S200000x9.Slices ![0, 4] S200000x1
  slices_S200000x9_S200000x1_0_5 : S200000x9.Slices ![0, 5] S200000x1
  slices_S200000x9_S200000x1_0_6 : S200000x9.Slices ![0, 6] S200000x1
  slices_S200000x9_S200000x1_0_7 : S200000x9.Slices ![0, 7] S200000x1
  slices_S200000x9_S200000x1_0_8 : S200000x9.Slices ![0, 8] S200000x1
  concatenates_S200000x32_S200000x32_S200000x32_S200000x32_S200000x32_S200000x32_S200000x32_S200000x32_S200000x32_S200000x288_d1 : Shape.Concatenates [S200000x32, S200000x32, S200000x32, S200000x32, S200000x32, S200000x32, S200000x32, S200000x32, S200000x32] S200000x288 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S800000x3_S800000x1_0_0 : S800000x3.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x3_S800000x1_0_1 : S800000x3.Slices ![0, 1] S800000x1
  slices_S800000x3_S800000x1_0_2 : S800000x3.Slices ![0, 2] S800000x1
  concatenates_S800000x32_S800000x32_S800000x32_S800000x96_d1 : Shape.Concatenates [S800000x32, S800000x32, S800000x32] S800000x96 1
  bcast_S1x128_S800000x128_0_1 : S1x128.BroadcastsInDim S800000x128 (![0, 1] : Fin 2 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x128 : S_.BroadcastsInDim S800000x128 (![] : Fin 0 → Fin S800000x128.rank)
  bcast_S_S200000x128 : S_.BroadcastsInDim S200000x128 (![] : Fin 0 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S8192x128 : S_.BroadcastsInDim S8192x128 (![] : Fin 0 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  gather_S119x32_S200000x1_S200000x32_1_0_n_n_0_1_132_wf : GatherDims.WF S119x32 S200000x1 S200000x32 [1] [0] [] [0] [] 1 ![1, 32]
  gather_S9x32_S200000x1_S200000x32_1_0_n_n_0_1_132_wf : GatherDims.WF S9x32 S200000x1 S200000x32 [1] [0] [] [0] [] 1 ![1, 32]
  gather_S11x32_S200000x1_S200000x32_1_0_n_n_0_1_132_wf : GatherDims.WF S11x32 S200000x1 S200000x32 [1] [0] [] [0] [] 1 ![1, 32]
  gather_S12x32_S200000x1_S200000x32_1_0_n_n_0_1_132_wf : GatherDims.WF S12x32 S200000x1 S200000x32 [1] [0] [] [0] [] 1 ![1, 32]
  gather_S5x32_S200000x1_S200000x32_1_0_n_n_0_1_132_wf : GatherDims.WF S5x32 S200000x1 S200000x32 [1] [0] [] [0] [] 1 ![1, 32]
  gather_S8x32_S200000x1_S200000x32_1_0_n_n_0_1_132_wf : GatherDims.WF S8x32 S200000x1 S200000x32 [1] [0] [] [0] [] 1 ![1, 32]
  gather_S2x32_S200000x1_S200000x32_1_0_n_n_0_1_132_wf : GatherDims.WF S2x32 S200000x1 S200000x32 [1] [0] [] [0] [] 1 ![1, 32]
  dot_S200000x288_S288x128_S200000x128_1_0_0_1_n_n_wf : DotDims.WF S200000x288 S288x128 S200000x128 [1] [0] [0] [1] [] []
  gather_S22x32_S800000x1_S800000x32_1_0_n_n_0_1_132_wf : GatherDims.WF S22x32 S800000x1 S800000x32 [1] [0] [] [0] [] 1 ![1, 32]
  gather_S6x32_S800000x1_S800000x32_1_0_n_n_0_1_132_wf : GatherDims.WF S6x32 S800000x1 S800000x32 [1] [0] [] [0] [] 1 ![1, 32]
  gather_S2x32_S800000x1_S800000x32_1_0_n_n_0_1_132_wf : GatherDims.WF S2x32 S800000x1 S800000x32 [1] [0] [] [0] [] 1 ![1, 32]
  dot_S800000x96_S96x128_S800000x128_1_0_0_1_n_n_wf : DotDims.WF S800000x96 S96x128 S800000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  dot_S200000x128_S128x128_S200000x128_1_0_0_1_n_n_wf : DotDims.WF S200000x128 S128x128 S200000x128 [1] [0] [0] [1] [] []
  scatter_S8192x128_S200000x1_S200000x128_1_0_0_1_wf : ScatterDims.WF S8192x128 S200000x1 S200000x128 [1] [0] [0] 1
  dot_S8192x128_S128x256_S8192x256_1_0_0_1_n_n_wf : DotDims.WF S8192x128 S128x256 S8192x256 [1] [0] [0] [1] [] []

variable [Facts₀]

def gather_S119x32_S200000x1_S200000x32_1_0_n_n_0_1_132 : GatherDims S119x32 S200000x1 S200000x32 where
  offsetDims := [1]
  collapsedSliceDims := [0]
  operandBatchingDims := []
  startIndicesBatchingDims := []
  startIndexMap := [0]
  indexVectorDim := 1
  sliceSizes := ![1, 32]
  wf := gather_S119x32_S200000x1_S200000x32_1_0_n_n_0_1_132_wf
def gather_S9x32_S200000x1_S200000x32_1_0_n_n_0_1_132 : GatherDims S9x32 S200000x1 S200000x32 where
  offsetDims := [1]
  collapsedSliceDims := [0]
  operandBatchingDims := []
  startIndicesBatchingDims := []
  startIndexMap := [0]
  indexVectorDim := 1
  sliceSizes := ![1, 32]
  wf := gather_S9x32_S200000x1_S200000x32_1_0_n_n_0_1_132_wf
def gather_S11x32_S200000x1_S200000x32_1_0_n_n_0_1_132 : GatherDims S11x32 S200000x1 S200000x32 where
  offsetDims := [1]
  collapsedSliceDims := [0]
  operandBatchingDims := []
  startIndicesBatchingDims := []
  startIndexMap := [0]
  indexVectorDim := 1
  sliceSizes := ![1, 32]
  wf := gather_S11x32_S200000x1_S200000x32_1_0_n_n_0_1_132_wf
def gather_S12x32_S200000x1_S200000x32_1_0_n_n_0_1_132 : GatherDims S12x32 S200000x1 S200000x32 where
  offsetDims := [1]
  collapsedSliceDims := [0]
  operandBatchingDims := []
  startIndicesBatchingDims := []
  startIndexMap := [0]
  indexVectorDim := 1
  sliceSizes := ![1, 32]
  wf := gather_S12x32_S200000x1_S200000x32_1_0_n_n_0_1_132_wf
def gather_S5x32_S200000x1_S200000x32_1_0_n_n_0_1_132 : GatherDims S5x32 S200000x1 S200000x32 where
  offsetDims := [1]
  collapsedSliceDims := [0]
  operandBatchingDims := []
  startIndicesBatchingDims := []
  startIndexMap := [0]
  indexVectorDim := 1
  sliceSizes := ![1, 32]
  wf := gather_S5x32_S200000x1_S200000x32_1_0_n_n_0_1_132_wf
def gather_S8x32_S200000x1_S200000x32_1_0_n_n_0_1_132 : GatherDims S8x32 S200000x1 S200000x32 where
  offsetDims := [1]
  collapsedSliceDims := [0]
  operandBatchingDims := []
  startIndicesBatchingDims := []
  startIndexMap := [0]
  indexVectorDim := 1
  sliceSizes := ![1, 32]
  wf := gather_S8x32_S200000x1_S200000x32_1_0_n_n_0_1_132_wf
def gather_S2x32_S200000x1_S200000x32_1_0_n_n_0_1_132 : GatherDims S2x32 S200000x1 S200000x32 where
  offsetDims := [1]
  collapsedSliceDims := [0]
  operandBatchingDims := []
  startIndicesBatchingDims := []
  startIndexMap := [0]
  indexVectorDim := 1
  sliceSizes := ![1, 32]
  wf := gather_S2x32_S200000x1_S200000x32_1_0_n_n_0_1_132_wf
def dot_S200000x288_S288x128_S200000x128_1_0_0_1_n_n : DotDims S200000x288 S288x128 S200000x128 where
  lhsContracting := [1]
  rhsContracting := [0]
  lhsNonContracting := [0]
  rhsNonContracting := [1]
  lhsBatch := []
  rhsBatch := []
  wf := dot_S200000x288_S288x128_S200000x128_1_0_0_1_n_n_wf
def gather_S22x32_S800000x1_S800000x32_1_0_n_n_0_1_132 : GatherDims S22x32 S800000x1 S800000x32 where
  offsetDims := [1]
  collapsedSliceDims := [0]
  operandBatchingDims := []
  startIndicesBatchingDims := []
  startIndexMap := [0]
  indexVectorDim := 1
  sliceSizes := ![1, 32]
  wf := gather_S22x32_S800000x1_S800000x32_1_0_n_n_0_1_132_wf
def gather_S6x32_S800000x1_S800000x32_1_0_n_n_0_1_132 : GatherDims S6x32 S800000x1 S800000x32 where
  offsetDims := [1]
  collapsedSliceDims := [0]
  operandBatchingDims := []
  startIndicesBatchingDims := []
  startIndexMap := [0]
  indexVectorDim := 1
  sliceSizes := ![1, 32]
  wf := gather_S6x32_S800000x1_S800000x32_1_0_n_n_0_1_132_wf
def gather_S2x32_S800000x1_S800000x32_1_0_n_n_0_1_132 : GatherDims S2x32 S800000x1 S800000x32 where
  offsetDims := [1]
  collapsedSliceDims := [0]
  operandBatchingDims := []
  startIndicesBatchingDims := []
  startIndexMap := [0]
  indexVectorDim := 1
  sliceSizes := ![1, 32]
  wf := gather_S2x32_S800000x1_S800000x32_1_0_n_n_0_1_132_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.RegLib.lean ====
import Idealize.ShloMosaic.Lib.Pipeline.FrameBody
import Idealize.ShloMosaic.Lib.Tactic

namespace Cert.RegLib

open Idealize.SL Idealize.SL.RA Idealize.SL.BI Idealize.SL.Sem
open scoped Idealize.SL.BI
open Idealize.SL.BI.BIBase Idealize.SL.BI.Laws
open Idealize.ShloMosaic Idealize.ShloMosaic.Pipeline

section
universe u v w
variable {Ef : Type → Type v} {M : Type u} [URA M] {α : Type} {Mask : Sort w}
variable (Fr : Mask → sProp M) (wpE : Mask → ∀ ⦃β : Type⦄, Ef β → sWPT M β) (E : Mask)
variable [∀ ⦃β : Type⦄ (e : Ef β), sWPT.Frameable (wpE E e)]

/-- The frame rule, twice: two resources a program does not touch ride along its triple. -/
theorem wp_frame2 {p : Prog Ef α} {P Q R₁ R₂ : sProp M} (h : P ⊢ wp Fr wpE E p fun _ => Q) :
    iprop(R₁ ∗ R₂ ∗ P) ⊢ wp Fr wpE E p fun _ => iprop(R₁ ∗ R₂ ∗ Q) :=
  (sep_mono .rfl ((sep_mono .rfl h).trans (wp_frame_l Fr wpE E))).trans (wp_frame_l Fr wpE E)
end

variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD} (dat : Dat τ Val Ix Name U Lvl cfg c)

/-- An input window that holds `X t` after the body at every point also holds it before: `X t` is its block of the array, which the body only reads. -/
theorem before_in (w : Fin cfg.W) {X : Fin cfg.N → (cfg.win w).block.Idx → Val (cfg.win w).elt}
    (hafter : ∀ t, dat.after w t = X t) (t : Fin cfg.N) (d : (cfg.win w).block.Idx → Val (cfg.win w).elt)
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (X t) = dat.blockOf w t := by exact fun _ => rfl)
    (hfetch : ∀ t d, dat.fetched w t d = X t := by exact fun _ _ => rfl) : dat.before w t d = X t :=
  (dat.before_in_eq_fetched w hw hlive hclip (fun t => (congrArg _ (hafter t)).trans (hkeep t)) t d).trans (hfetch t d)

end Cert.RegLib
-- ==== Proof.KReg0.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.RegLib

set_option maxRecDepth 16384

noncomputable section

namespace Cert.Kernel.Reg0

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg0.W) (t : Fin cfg0.N) : ((cfg0.win w).xblock (cfg0.grid.coords t)).Idx → Elt F (cfg0.win w).elt :=
  ((cfg0.win w).blk t).view.read (Elt F) (at_ c W (Pipeline.arrRef spec0 w))

abbrev r0 : Rect S4000x288 := Rect.unit (s := S4000x288) ![0, 0] S4000x288.size inb_S4000x288_S4000x288_0_0
abbrev r1 : Rect S288x128 := Rect.unit (s := S288x128) ![0, 0] S288x128.size inb_S288x128_S288x128_0_0
abbrev r2 : Rect S128 := Rect.unit (s := S128) ![0] S128.size inb_S128_S128_0
abbrev r3 : Rect S4000x128 := Rect.unit (s := S4000x128) ![0, 0] S4000x128.size inb_S4000x128_S4000x128_0_0

def out (x0 : Vec F S4000x288 .f32) (x1 : Vec F S288x128 .f32) (x2 : Vec F S128 .f32) : Vec F S4000x128 .f32 :=
  View.canon [⟨r3, k0_pay1 (View.ld x0 r0) (View.ld x1 r1) (View.ld x2 r2)⟩]

set_option maxHeartbeats 4000000 in
/-- The body keeps its inputs and leaves `out` of them in its output. -/
theorem sound_kernel (E : Set ℕ) (i : grid0.Coords) (arg0 : Memref sig .tc .vmem S4000x288 .f32) (harg0 : arg0.IsWhole) (arg1 : Memref sig .tc .vmem S288x128 .f32) (harg1 : arg1.IsWhole) (arg2 : Memref sig .tc .vmem S128 .f32) (harg2 : arg2.IsWhole) (arg3 : Memref sig .tc .vmem S4000x128 .f32) (harg3 : arg3.IsWhole)
    (x0 : Vec F S4000x288 .f32) (x1 : Vec F S288x128 .f32) (x2 : Vec F S128 .f32) :
    iprop(owns (c : Thread nD τ) arg0 fullShare x0 ∗ owns (c : Thread nD τ) arg1 fullShare x1 ∗ owns (c : Thread nD τ) arg2 fullShare x2 ∗ (∃ d, owns (c : Thread nD τ) arg3 fullShare d))
      ⊢ wp frame (wpE (defs₀ (F := F)) Variants.none c none) E (cc0__affine_kernel i arg0 harg0 arg1 harg1 arg2 harg2 arg3 harg3) fun _ =>
        (iprop(owns (c : Thread nD τ) arg0 fullShare x0 ∗ owns (c : Thread nD τ) arg1 fullShare x1 ∗ owns (c : Thread nD τ) arg2 fullShare x2 ∗ owns (c : Thread nD τ) arg3 fullShare (out x0 x1 x2)) : sProp 𝕄) := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x128.size (by rfl))

def dat : Dat τ (Elt F) Unit ℕ (UR sig nD τ) ℕ cfg0 c where
  A w := at_ c W (Pipeline.arrRef spec0 w)
  after w t := match w with
    | ⟨0, _⟩ => iblk c W 0 t
    | ⟨1, _⟩ => iblk c W 1 t
    | ⟨2, _⟩ => iblk c W 2 t
    | ⟨3, _⟩ => out (iblk c W 0 t) (iblk c W 1 t) (iblk c W 2 t)
  Φ _ := Pipeline.scopedRest spec0 c
  q _ := fullShare
  owed _ := 0

theorem A_eq (w : Fin cfg0.W) : (dat c W).A w = at_ c W (Pipeline.arrRef spec0 w) := by dsimp only [dat]
theorem after_0 (t : Fin cfg0.N) : (dat c W).after 0 t = iblk c W 0 t := by dsimp only [dat]
theorem after_1 (t : Fin cfg0.N) : (dat c W).after 1 t = iblk c W 1 t := by dsimp only [dat]
theorem after_2 (t : Fin cfg0.N) : (dat c W).after 2 t = iblk c W 2 t := by dsimp only [dat]
theorem after_3 (t : Fin cfg0.N) : (dat c W).after 3 t = out (iblk c W 0 t) (iblk c W 1 t) (iblk c W 2 t) := by dsimp only [dat]

theorem body_obligation : BodyObligation (dat (F := F) c W) (defs₀ (F := F)) Variants.none () Set.univ := fun t => by
  rw [bigSep_W0, bigSep_W0]
  refine wp_frame2 _ _ _ (p := bodyAt0 t) ?_
  simp only [fun d => before_in (dat c W) 0 (after_0 c W) t d, fun d => before_in (dat c W) 1 (after_1 c W) t d, fun d => before_in (dat c W) 2 (after_2 c W) t d]
  rewrite [after_0, after_1, after_2, after_3]
  iintro ⟨⟨%d0, H0⟩, ⟨%d1, H1⟩, ⟨%d2, H2⟩, ⟨%d3, H3⟩⟩
  iapply (sound_kernel c Set.univ _ _ _ _ _ _ _ _ _ (iblk c W 0 t) (iblk c W 1 t) (iblk c W 2 t))
  isplitl [H0]; · iexact H0
  isplitl [H1]; · iexact H1
  isplitl [H2]; · iexact H2
  iexists _; iexact H3

end Cert.Kernel.Reg0

end
-- ==== Proof.KReg1.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.RegLib

set_option maxRecDepth 16384

noncomputable section

namespace Cert.Kernel.Reg1

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg1.W) (t : Fin cfg1.N) : ((cfg1.win w).xblock (cfg1.grid.coords t)).Idx → Elt F (cfg1.win w).elt :=
  ((cfg1.win w).blk t).view.read (Elt F) (at_ c W (Pipeline.arrRef spec1 w))

abbrev r0 : Rect S10000x96 := Rect.unit (s := S10000x96) ![0, 0] S10000x96.size inb_S10000x96_S10000x96_0_0
abbrev r1 : Rect S96x128 := Rect.unit (s := S96x128) ![0, 0] S96x128.size inb_S96x128_S96x128_0_0
abbrev r2 : Rect S128 := Rect.unit (s := S128) ![0] S128.size inb_S128_S128_0
abbrev r3 : Rect S10000x128 := Rect.unit (s := S10000x128) ![0, 0] S10000x128.size inb_S10000x128_S10000x128_0_0

def out (x0 : Vec F S10000x96 .f32) (x1 : Vec F S96x128 .f32) (x2 : Vec F S128 .f32) : Vec F S10000x128 .f32 :=
  View.canon [⟨r3, k1_pay1 (View.ld x0 r0) (View.ld x1 r1) (View.ld x2 r2)⟩]

set_option maxHeartbeats 4000000 in
/-- The body keeps its inputs and leaves `out` of them in its output. -/
theorem sound_kernel (E : Set ℕ) (i : grid1.Coords) (arg0 : Memref sig .tc .vmem S10000x96 .f32) (harg0 : arg0.IsWhole) (arg1 : Memref sig .tc .vmem S96x128 .f32) (harg1 : arg1.IsWhole) (arg2 : Memref sig .tc .vmem S128 .f32) (harg2 : arg2.IsWhole) (arg3 : Memref sig .tc .vmem S10000x128 .f32) (harg3 : arg3.IsWhole)
    (x0 : Vec F S10000x96 .f32) (x1 : Vec F S96x128 .f32) (x2 : Vec F S128 .f32) :
    iprop(owns (c : Thread nD τ) arg0 fullShare x0 ∗ owns (c : Thread nD τ) arg1 fullShare x1 ∗ owns (c : Thread nD τ) arg2 fullShare x2 ∗ (∃ d, owns (c : Thread nD τ) arg3 fullShare d))
      ⊢ wp frame (wpE (defs₀ (F := F)) Variants.none c none) E (cc1__affine_kernel i arg0 harg0 arg1 harg1 arg2 harg2 arg3 harg3) fun _ =>
        (iprop(owns (c : Thread nD τ) arg0 fullShare x0 ∗ owns (c : Thread nD τ) arg1 fullShare x1 ∗ owns (c : Thread nD τ) arg2 fullShare x2 ∗ owns (c : Thread nD τ) arg3 fullShare (out x0 x1 x2)) : sProp 𝕄) := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S10000x128.size (by rfl))

def dat : Dat τ (Elt F) Unit ℕ (UR sig nD τ) ℕ cfg1 c where
  A w := at_ c W (Pipeline.arrRef spec1 w)
  after w t := match w with
    | ⟨0, _⟩ => iblk c W 0 t
    | ⟨1, _⟩ => iblk c W 1 t
    | ⟨2, _⟩ => iblk c W 2 t
    | ⟨3, _⟩ => out (iblk c W 0 t) (iblk c W 1 t) (iblk c W 2 t)
  Φ _ := Pipeline.scopedRest spec1 c
  q _ := fullShare
  owed _ := 0

theorem A_eq (w : Fin cfg1.W) : (dat c W).A w = at_ c W (Pipeline.arrRef spec1 w) := by dsimp only [dat]
theorem after_0 (t : Fin cfg1.N) : (dat c W).after 0 t = iblk c W 0 t := by dsimp only [dat]
theorem after_1 (t : Fin cfg1.N) : (dat c W).after 1 t = iblk c W 1 t := by dsimp only [dat]
theorem after_2 (t : Fin cfg1.N) : (dat c W).after 2 t = iblk c W 2 t := by dsimp only [dat]
theorem after_3 (t : Fin cfg1.N) : (dat c W).after 3 t = out (iblk c W 0 t) (iblk c W 1 t) (iblk c W 2 t) := by dsimp only [dat]

theorem body_obligation : BodyObligation (dat (F := F) c W) (defs₀ (F := F)) Variants.none () Set.univ := fun t => by
  rw [bigSep_W1, bigSep_W1]
  refine wp_frame2 _ _ _ (p := bodyAt1 t) ?_
  simp only [fun d => before_in (dat c W) 0 (after_0 c W) t d, fun d => before_in (dat c W) 1 (after_1 c W) t d, fun d => before_in (dat c W) 2 (after_2 c W) t d]
  rewrite [after_0, after_1, after_2, after_3]
  iintro ⟨⟨%d0, H0⟩, ⟨%d1, H1⟩, ⟨%d2, H2⟩, ⟨%d3, H3⟩⟩
  iapply (sound_kernel c Set.univ _ _ _ _ _ _ _ _ _ (iblk c W 0 t) (iblk c W 1 t) (iblk c W 2 t))
  isplitl [H0]; · iexact H0
  isplitl [H1]; · iexact H1
  isplitl [H2]; · iexact H2
  iexists _; iexact H3

end Cert.Kernel.Reg1

end
-- ==== Proof.KReg2.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.RegLib

set_option maxRecDepth 16384

noncomputable section

namespace Cert.Kernel.Reg2

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg2.W) (t : Fin cfg2.N) : ((cfg2.win w).xblock (cfg2.grid.coords t)).Idx → Elt F (cfg2.win w).elt :=
  ((cfg2.win w).blk t).view.read (Elt F) (at_ c W (Pipeline.arrRef spec2 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S8000x128 := Rect.unit (s := S8000x128) ![0, 0] S8000x128.size inb_S8000x128_S8000x128_0_0

def out (x0 : Vec F S8000x128 .f32) (x1 : Vec F S8000x128 .f32) : Vec F S8000x128 .f32 :=
  View.canon [⟨r2, k2_pay1 (View.ld x0 r0) (View.ld x1 r1)⟩]

set_option maxHeartbeats 4000000 in
/-- The body keeps its inputs and leaves `out` of them in its output. -/
theorem sound_kernel (E : Set ℕ) (i : grid2.Coords) (arg0 : Memref sig .tc .vmem S8000x128 .f32) (harg0 : arg0.IsWhole) (arg1 : Memref sig .tc .vmem S8000x128 .f32) (harg1 : arg1.IsWhole) (arg2 : Memref sig .tc .vmem S8000x128 .f32) (harg2 : arg2.IsWhole)
    (x0 : Vec F S8000x128 .f32) (x1 : Vec F S8000x128 .f32) :
    iprop(owns (c : Thread nD τ) arg0 fullShare x0 ∗ owns (c : Thread nD τ) arg1 fullShare x1 ∗ (∃ d, owns (c : Thread nD τ) arg2 fullShare d))
      ⊢ wp frame (wpE (defs₀ (F := F)) Variants.none c none) E (cc2__msg_kernel i arg0 harg0 arg1 harg1 arg2 harg2) fun _ =>
        (iprop(owns (c : Thread nD τ) arg0 fullShare x0 ∗ owns (c : Thread nD τ) arg1 fullShare x1 ∗ owns (c : Thread nD τ) arg2 fullShare (out x0 x1)) : sProp 𝕄) := by
  simp only [cc2__msg_kernel_eq_skeleton]; unfold cc2__msg_kernel_skel
  unfold owns
  iintro ⟨⟨%f0, %hf0, H0⟩, ⟨%f1, %hf1, H1⟩, ⟨%d2, %f2, -, H2⟩⟩
  subst hf0 hf1
  sl_exec
  sl_step
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S8000x128.size (by rfl))

def dat : Dat τ (Elt F) Unit ℕ (UR sig nD τ) ℕ cfg2 c where
  A w := at_ c W (Pipeline.arrRef spec2 w)
  after w t := match w with
    | ⟨0, _⟩ => iblk c W 0 t
    | ⟨1, _⟩ => iblk c W 1 t
    | ⟨2, _⟩ => out (iblk c W 0 t) (iblk c W 1 t)
  Φ _ := Pipeline.scopedRest spec2 c
  q _ := fullShare
  owed _ := 0

theorem A_eq (w : Fin cfg2.W) : (dat c W).A w = at_ c W (Pipeline.arrRef spec2 w) := by dsimp only [dat]
theorem after_0 (t : Fin cfg2.N) : (dat c W).after 0 t = iblk c W 0 t := by dsimp only [dat]
theorem after_1 (t : Fin cfg2.N) : (dat c W).after 1 t = iblk c W 1 t := by dsimp only [dat]
theorem after_2 (t : Fin cfg2.N) : (dat c W).after 2 t = out (iblk c W 0 t) (iblk c W 1 t) := by dsimp only [dat]

theorem body_obligation : BodyObligation (dat (F := F) c W) (defs₀ (F := F)) Variants.none () Set.univ := fun t => by
  rw [bigSep_W2, bigSep_W2]
  refine wp_frame2 _ _ _ (p := bodyAt2 t) ?_
  simp only [fun d => before_in (dat c W) 0 (after_0 c W) t d, fun d => before_in (dat c W) 1 (after_1 c W) t d]
  rewrite [after_0, after_1, after_2]
  iintro ⟨⟨%d0, H0⟩, ⟨%d1, H1⟩, ⟨%d2, H2⟩⟩
  iapply (sound_kernel c Set.univ _ _ _ _ _ _ _ (iblk c W 0 t) (iblk c W 1 t))
  isplitl [H0]; · iexact H0
  isplitl [H1]; · iexact H1
  iexists _; iexact H2

end Cert.Kernel.Reg2

end
-- ==== Proof.KReg3.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.RegLib

set_option maxRecDepth 16384

noncomputable section

namespace Cert.Kernel.Reg3

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg3.W) (t : Fin cfg3.N) : ((cfg3.win w).xblock (cfg3.grid.coords t)).Idx → Elt F (cfg3.win w).elt :=
  ((cfg3.win w).blk t).view.read (Elt F) (at_ c W (Pipeline.arrRef spec3 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S128x128 := Rect.unit (s := S128x128) ![0, 0] S128x128.size inb_S128x128_S128x128_0_0
abbrev r3 : Rect S128 := Rect.unit (s := S128) ![0] S128.size inb_S128_S128_0
abbrev r4 : Rect S128x128 := Rect.unit (s := S128x128) ![0, 0] S128x128.size inb_S128x128_S128x128_0_0
abbrev r5 : Rect S128 := Rect.unit (s := S128) ![0] S128.size inb_S128_S128_0
abbrev r6 : Rect S8000x128 := Rect.unit (s := S8000x128) ![0, 0] S8000x128.size inb_S8000x128_S8000x128_0_0

def out (x0 : Vec F S8000x128 .f32) (x1 : Vec F S8000x128 .f32) (x2 : Vec F S128x128 .f32) (x3 : Vec F S128 .f32) (x4 : Vec F S128x128 .f32) (x5 : Vec F S128 .f32) : Vec F S8000x128 .f32 :=
  View.canon [⟨r6, k3_pay1 (View.ld x0 r0) (View.ld x1 r1) (View.ld x2 r2) (View.ld x3 r3) (View.ld x4 r4) (View.ld x5 r5)⟩]

set_option maxHeartbeats 4000000 in
/-- The body keeps its inputs and leaves `out` of them in its output. -/
theorem sound_kernel (E : Set ℕ) (i : grid3.Coords) (arg0 : Memref sig .tc .vmem S8000x128 .f32) (harg0 : arg0.IsWhole) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8000x128 .f32) (harg6 : arg6.IsWhole)
    (x0 : Vec F S8000x128 .f32) (x1 : Vec F S8000x128 .f32) (x2 : Vec F S128x128 .f32) (x3 : Vec F S128 .f32) (x4 : Vec F S128x128 .f32) (x5 : Vec F S128 .f32) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d))
      ⊢ wp frame (wpE (defs₀ (F := F)) Variants.none c none) E (cc3__mlp_kernel i arg0 harg0 arg1 harg1 arg2 harg2 arg3 harg3 arg4 harg4 arg5 harg5 arg6 harg6) fun _ =>
        (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out x0 x1 x2 x3 x4 x5)) : sProp 𝕄) := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩⟩
  subst hf0 hf1 hf2 hf3 hf4 hf5
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x128.size (by rfl))

def dat : Dat τ (Elt F) Unit ℕ (UR sig nD τ) ℕ cfg3 c where
  A w := at_ c W (Pipeline.arrRef spec3 w)
  after w t := match w with
    | ⟨0, _⟩ => iblk c W 0 t
    | ⟨1, _⟩ => iblk c W 1 t
    | ⟨2, _⟩ => iblk c W 2 t
    | ⟨3, _⟩ => iblk c W 3 t
    | ⟨4, _⟩ => iblk c W 4 t
    | ⟨5, _⟩ => iblk c W 5 t
    | ⟨6, _⟩ => out (iblk c W 0 t) (iblk c W 1 t) (iblk c W 2 t) (iblk c W 3 t) (iblk c W 4 t) (iblk c W 5 t)
  Φ _ := Pipeline.scopedRest spec3 c
  q _ := fullShare
  owed _ := 0

theorem A_eq (w : Fin cfg3.W) : (dat c W).A w = at_ c W (Pipeline.arrRef spec3 w) := by dsimp only [dat]
theorem after_0 (t : Fin cfg3.N) : (dat c W).after 0 t = iblk c W 0 t := by dsimp only [dat]
theorem after_1 (t : Fin cfg3.N) : (dat c W).after 1 t = iblk c W 1 t := by dsimp only [dat]
theorem after_2 (t : Fin cfg3.N) : (dat c W).after 2 t = iblk c W 2 t := by dsimp only [dat]
theorem after_3 (t : Fin cfg3.N) : (dat c W).after 3 t = iblk c W 3 t := by dsimp only [dat]
theorem after_4 (t : Fin cfg3.N) : (dat c W).after 4 t = iblk c W 4 t := by dsimp only [dat]
theorem after_5 (t : Fin cfg3.N) : (dat c W).after 5 t = iblk c W 5 t := by dsimp only [dat]
theorem after_6 (t : Fin cfg3.N) : (dat c W).after 6 t = out (iblk c W 0 t) (iblk c W 1 t) (iblk c W 2 t) (iblk c W 3 t) (iblk c W 4 t) (iblk c W 5 t) := by dsimp only [dat]

theorem body_obligation : BodyObligation (dat (F := F) c W) (defs₀ (F := F)) Variants.none () Set.univ := fun t => by
  rw [bigSep_W3, bigSep_W3]
  refine wp_frame2 _ _ _ (p := bodyAt3 t) ?_
  simp only [fun d => before_in (dat c W) 0 (after_0 c W) t d, fun d => before_in (dat c W) 1 (after_1 c W) t d, fun d => before_in (dat c W) 2 (after_2 c W) t d, fun d => before_in (dat c W) 3 (after_3 c W) t d, fun d => before_in (dat c W) 4 (after_4 c W) t d, fun d => before_in (dat c W) 5 (after_5 c W) t d]
  rewrite [after_0, after_1, after_2, after_3, after_4, after_5, after_6]
  iintro ⟨⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk c W 0 t) (iblk c W 1 t) (iblk c W 2 t) (iblk c W 3 t) (iblk c W 4 t) (iblk c W 5 t))
  isplitl [H0]; · iexact H0
  isplitl [H1]; · iexact H1
  isplitl [H2]; · iexact H2
  isplitl [H3]; · iexact H3
  isplitl [H4]; · iexact H4
  isplitl [H5]; · iexact H5
  iexists _; iexact H6

end Cert.Kernel.Reg3

end
-- ==== Proof.KReg4.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.KReg2

set_option maxRecDepth 16384

noncomputable section

namespace Cert.Kernel.Reg4

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg4.W) (t : Fin cfg4.N) : ((cfg4.win w).xblock (cfg4.grid.coords t)).Idx → Elt F (cfg4.win w).elt :=
  ((cfg4.win w).blk t).view.read (Elt F) (at_ c W (Pipeline.arrRef spec4 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S8000x128 := Rect.unit (s := S8000x128) ![0, 0] S8000x128.size inb_S8000x128_S8000x128_0_0

def out (x0 : Vec F S8000x128 .f32) (x1 : Vec F S8000x128 .f32) : Vec F S8000x128 .f32 :=
  View.canon [⟨r2, k4_pay1 (View.ld x0 r0) (View.ld x1 r1)⟩]

theorem sound_kernel (E : Set ℕ) (i : grid4.Coords) (arg0 : Memref sig .tc .vmem S8000x128 .f32) (harg0 : arg0.IsWhole) (arg1 : Memref sig .tc .vmem S8000x128 .f32) (harg1 : arg1.IsWhole) (arg2 : Memref sig .tc .vmem S8000x128 .f32) (harg2 : arg2.IsWhole)
    (x0 : Vec F S8000x128 .f32) (x1 : Vec F S8000x128 .f32) :
    iprop(owns (c : Thread nD τ) arg0 fullShare x0 ∗ owns (c : Thread nD τ) arg1 fullShare x1 ∗ (∃ d, owns (c : Thread nD τ) arg2 fullShare d))
      ⊢ wp frame (wpE (defs₀ (F := F)) Variants.none c none) E (cc4__msg_kernel i arg0 harg0 arg1 harg1 arg2 harg2) fun _ =>
        (iprop(owns (c : Thread nD τ) arg0 fullShare x0 ∗ owns (c : Thread nD τ) arg1 fullShare x1 ∗ owns (c : Thread nD τ) arg2 fullShare (out x0 x1)) : sProp 𝕄) :=
  Reg2.sound_kernel c E i arg0 harg0 arg1 harg1 arg2 harg2 x0 x1

def dat : Dat τ (Elt F) Unit ℕ (UR sig nD τ) ℕ cfg4 c where
  A w := at_ c W (Pipeline.arrRef spec4 w)
  after w t := match w with
    | ⟨0, _⟩ => iblk c W 0 t
    | ⟨1, _⟩ => iblk c W 1 t
    | ⟨2, _⟩ => out (iblk c W 0 t) (iblk c W 1 t)
  Φ _ := Pipeline.scopedRest spec4 c
  q _ := fullShare
  owed _ := 0

theorem A_eq (w : Fin cfg4.W) : (dat c W).A w = at_ c W (Pipeline.arrRef spec4 w) := by dsimp only [dat]
theorem after_0 (t : Fin cfg4.N) : (dat c W).after 0 t = iblk c W 0 t := by dsimp only [dat]
theorem after_1 (t : Fin cfg4.N) : (dat c W).after 1 t = iblk c W 1 t := by dsimp only [dat]
theorem after_2 (t : Fin cfg4.N) : (dat c W).after 2 t = out (iblk c W 0 t) (iblk c W 1 t) := by dsimp only [dat]

theorem body_obligation : BodyObligation (dat (F := F) c W) (defs₀ (F := F)) Variants.none () Set.univ := fun t => by
  rw [bigSep_W4, bigSep_W4]
  refine wp_frame2 _ _ _ (p := bodyAt4 t) ?_
  simp only [fun d => before_in (dat c W) 0 (after_0 c W) t d, fun d => before_in (dat c W) 1 (after_1 c W) t d]
  rewrite [after_0, after_1, after_2]
  iintro ⟨⟨%d0, H0⟩, ⟨%d1, H1⟩, ⟨%d2, H2⟩⟩
  iapply (sound_kernel c Set.univ _ _ _ _ _ _ _ (iblk c W 0 t) (iblk c W 1 t))
  isplitl [H0]; · iexact H0
  isplitl [H1]; · iexact H1
  iexists _; iexact H2

end Cert.Kernel.Reg4

end
-- ==== Proof.KReg5.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.KReg3

set_option maxRecDepth 16384

noncomputable section

namespace Cert.Kernel.Reg5

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg5.W) (t : Fin cfg5.N) : ((cfg5.win w).xblock (cfg5.grid.coords t)).Idx → Elt F (cfg5.win w).elt :=
  ((cfg5.win w).blk t).view.read (Elt F) (at_ c W (Pipeline.arrRef spec5 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S128x128 := Rect.unit (s := S128x128) ![0, 0] S128x128.size inb_S128x128_S128x128_0_0
abbrev r3 : Rect S128 := Rect.unit (s := S128) ![0] S128.size inb_S128_S128_0
abbrev r4 : Rect S128x128 := Rect.unit (s := S128x128) ![0, 0] S128x128.size inb_S128x128_S128x128_0_0
abbrev r5 : Rect S128 := Rect.unit (s := S128) ![0] S128.size inb_S128_S128_0
abbrev r6 : Rect S8000x128 := Rect.unit (s := S8000x128) ![0, 0] S8000x128.size inb_S8000x128_S8000x128_0_0

def out (x0 : Vec F S8000x128 .f32) (x1 : Vec F S8000x128 .f32) (x2 : Vec F S128x128 .f32) (x3 : Vec F S128 .f32) (x4 : Vec F S128x128 .f32) (x5 : Vec F S128 .f32) : Vec F S8000x128 .f32 :=
  View.canon [⟨r6, k5_pay1 (View.ld x0 r0) (View.ld x1 r1) (View.ld x2 r2) (View.ld x3 r3) (View.ld x4 r4) (View.ld x5 r5)⟩]

theorem sound_kernel (E : Set ℕ) (i : grid5.Coords) (arg0 : Memref sig .tc .vmem S8000x128 .f32) (harg0 : arg0.IsWhole) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8000x128 .f32) (harg6 : arg6.IsWhole)
    (x0 : Vec F S8000x128 .f32) (x1 : Vec F S8000x128 .f32) (x2 : Vec F S128x128 .f32) (x3 : Vec F S128 .f32) (x4 : Vec F S128x128 .f32) (x5 : Vec F S128 .f32) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d))
      ⊢ wp frame (wpE (defs₀ (F := F)) Variants.none c none) E (cc5__mlp_kernel i arg0 harg0 arg1 harg1 arg2 harg2 arg3 harg3 arg4 harg4 arg5 harg5 arg6 harg6) fun _ =>
        (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out x0 x1 x2 x3 x4 x5)) : sProp 𝕄) :=
  Reg3.sound_kernel c E i arg0 harg0 arg1 harg1 arg2 harg2 arg3 harg3 arg4 harg4 arg5 harg5 arg6 harg6 x0 x1 x2 x3 x4 x5

def dat : Dat τ (Elt F) Unit ℕ (UR sig nD τ) ℕ cfg5 c where
  A w := at_ c W (Pipeline.arrRef spec5 w)
  after w t := match w with
    | ⟨0, _⟩ => iblk c W 0 t
    | ⟨1, _⟩ => iblk c W 1 t
    | ⟨2, _⟩ => iblk c W 2 t
    | ⟨3, _⟩ => iblk c W 3 t
    | ⟨4, _⟩ => iblk c W 4 t
    | ⟨5, _⟩ => iblk c W 5 t
    | ⟨6, _⟩ => out (iblk c W 0 t) (iblk c W 1 t) (iblk c W 2 t) (iblk c W 3 t) (iblk c W 4 t) (iblk c W 5 t)
  Φ _ := Pipeline.scopedRest spec5 c
  q _ := fullShare
  owed _ := 0

theorem A_eq (w : Fin cfg5.W) : (dat c W).A w = at_ c W (Pipeline.arrRef spec5 w) := by dsimp only [dat]
theorem after_0 (t : Fin cfg5.N) : (dat c W).after 0 t = iblk c W 0 t := by dsimp only [dat]
theorem after_1 (t : Fin cfg5.N) : (dat c W).after 1 t = iblk c W 1 t := by dsimp only [dat]
theorem after_2 (t : Fin cfg5.N) : (dat c W).after 2 t = iblk c W 2 t := by dsimp only [dat]
theorem after_3 (t : Fin cfg5.N) : (dat c W).after 3 t = iblk c W 3 t := by dsimp only [dat]
theorem after_4 (t : Fin cfg5.N) : (dat c W).after 4 t = iblk c W 4 t := by dsimp only [dat]
theorem after_5 (t : Fin cfg5.N) : (dat c W).after 5 t = iblk c W 5 t := by dsimp only [dat]
theorem after_6 (t : Fin cfg5.N) : (dat c W).after 6 t = out (iblk c W 0 t) (iblk c W 1 t) (iblk c W 2 t) (iblk c W 3 t) (iblk c W 4 t) (iblk c W 5 t) := by dsimp only [dat]

theorem body_obligation : BodyObligation (dat (F := F) c W) (defs₀ (F := F)) Variants.none () Set.univ := fun t => by
  rw [bigSep_W5, bigSep_W5]
  refine wp_frame2 _ _ _ (p := bodyAt5 t) ?_
  simp only [fun d => before_in (dat c W) 0 (after_0 c W) t d, fun d => before_in (dat c W) 1 (after_1 c W) t d, fun d => before_in (dat c W) 2 (after_2 c W) t d, fun d => before_in (dat c W) 3 (after_3 c W) t d, fun d => before_in (dat c W) 4 (after_4 c W) t d, fun d => before_in (dat c W) 5 (after_5 c W) t d]
  rewrite [after_0, after_1, after_2, after_3, after_4, after_5, after_6]
  iintro ⟨⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk c W 0 t) (iblk c W 1 t) (iblk c W 2 t) (iblk c W 3 t) (iblk c W 4 t) (iblk c W 5 t))
  isplitl [H0]; · iexact H0
  isplitl [H1]; · iexact H1
  isplitl [H2]; · iexact H2
  isplitl [H3]; · iexact H3
  isplitl [H4]; · iexact H4
  isplitl [H5]; · iexact H5
  iexists _; iexact H6

end Cert.Kernel.Reg5

end
-- ==== Proof.KReg6.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.KReg2

set_option maxRecDepth 16384

noncomputable section

namespace Cert.Kernel.Reg6

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg6.W) (t : Fin cfg6.N) : ((cfg6.win w).xblock (cfg6.grid.coords t)).Idx → Elt F (cfg6.win w).elt :=
  ((cfg6.win w).blk t).view.read (Elt F) (at_ c W (Pipeline.arrRef spec6 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S8000x128 := Rect.unit (s := S8000x128) ![0, 0] S8000x128.size inb_S8000x128_S8000x128_0_0

def out (x0 : Vec F S8000x128 .f32) (x1 : Vec F S8000x128 .f32) : Vec F S8000x128 .f32 :=
  View.canon [⟨r2, k6_pay1 (View.ld x0 r0) (View.ld x1 r1)⟩]

theorem sound_kernel (E : Set ℕ) (i : grid6.Coords) (arg0 : Memref sig .tc .vmem S8000x128 .f32) (harg0 : arg0.IsWhole) (arg1 : Memref sig .tc .vmem S8000x128 .f32) (harg1 : arg1.IsWhole) (arg2 : Memref sig .tc .vmem S8000x128 .f32) (harg2 : arg2.IsWhole)
    (x0 : Vec F S8000x128 .f32) (x1 : Vec F S8000x128 .f32) :
    iprop(owns (c : Thread nD τ) arg0 fullShare x0 ∗ owns (c : Thread nD τ) arg1 fullShare x1 ∗ (∃ d, owns (c : Thread nD τ) arg2 fullShare d))
      ⊢ wp frame (wpE (defs₀ (F := F)) Variants.none c none) E (cc6__msg_kernel i arg0 harg0 arg1 harg1 arg2 harg2) fun _ =>
        (iprop(owns (c : Thread nD τ) arg0 fullShare x0 ∗ owns (c : Thread nD τ) arg1 fullShare x1 ∗ owns (c : Thread nD τ) arg2 fullShare (out x0 x1)) : sProp 𝕄) :=
  Reg2.sound_kernel c E i arg0 harg0 arg1 harg1 arg2 harg2 x0 x1

def dat : Dat τ (Elt F) Unit ℕ (UR sig nD τ) ℕ cfg6 c where
  A w := at_ c W (Pipeline.arrRef spec6 w)
  after w t := match w with
    | ⟨0, _⟩ => iblk c W 0 t
    | ⟨1, _⟩ => iblk c W 1 t
    | ⟨2, _⟩ => out (iblk c W 0 t) (iblk c W 1 t)
  Φ _ := Pipeline.scopedRest spec6 c
  q _ := fullShare
  owed _ := 0

theorem A_eq (w : Fin cfg6.W) : (dat c W).A w = at_ c W (Pipeline.arrRef spec6 w) := by dsimp only [dat]
theorem after_0 (t : Fin cfg6.N) : (dat c W).after 0 t = iblk c W 0 t := by dsimp only [dat]
theorem after_1 (t : Fin cfg6.N) : (dat c W).after 1 t = iblk c W 1 t := by dsimp only [dat]
theorem after_2 (t : Fin cfg6.N) : (dat c W).after 2 t = out (iblk c W 0 t) (iblk c W 1 t) := by dsimp only [dat]

theorem body_obligation : BodyObligation (dat (F := F) c W) (defs₀ (F := F)) Variants.none () Set.univ := fun t => by
  rw [bigSep_W6, bigSep_W6]
  refine wp_frame2 _ _ _ (p := bodyAt6 t) ?_
  simp only [fun d => before_in (dat c W) 0 (after_0 c W) t d, fun d => before_in (dat c W) 1 (after_1 c W) t d]
  rewrite [after_0, after_1, after_2]
  iintro ⟨⟨%d0, H0⟩, ⟨%d1, H1⟩, ⟨%d2, H2⟩⟩
  iapply (sound_kernel c Set.univ _ _ _ _ _ _ _ (iblk c W 0 t) (iblk c W 1 t))
  isplitl [H0]; · iexact H0
  isplitl [H1]; · iexact H1
  iexists _; iexact H2

end Cert.Kernel.Reg6

end
-- ==== Proof.KReg7.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.KReg3

set_option maxRecDepth 16384

noncomputable section

namespace Cert.Kernel.Reg7

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg7.W) (t : Fin cfg7.N) : ((cfg7.win w).xblock (cfg7.grid.coords t)).Idx → Elt F (cfg7.win w).elt :=
  ((cfg7.win w).blk t).view.read (Elt F) (at_ c W (Pipeline.arrRef spec7 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S128x128 := Rect.unit (s := S128x128) ![0, 0] S128x128.size inb_S128x128_S128x128_0_0
abbrev r3 : Rect S128 := Rect.unit (s := S128) ![0] S128.size inb_S128_S128_0
abbrev r4 : Rect S128x128 := Rect.unit (s := S128x128) ![0, 0] S128x128.size inb_S128x128_S128x128_0_0
abbrev r5 : Rect S128 := Rect.unit (s := S128) ![0] S128.size inb_S128_S128_0
abbrev r6 : Rect S8000x128 := Rect.unit (s := S8000x128) ![0, 0] S8000x128.size inb_S8000x128_S8000x128_0_0

def out (x0 : Vec F S8000x128 .f32) (x1 : Vec F S8000x128 .f32) (x2 : Vec F S128x128 .f32) (x3 : Vec F S128 .f32) (x4 : Vec F S128x128 .f32) (x5 : Vec F S128 .f32) : Vec F S8000x128 .f32 :=
  View.canon [⟨r6, k7_pay1 (View.ld x0 r0) (View.ld x1 r1) (View.ld x2 r2) (View.ld x3 r3) (View.ld x4 r4) (View.ld x5 r5)⟩]

theorem sound_kernel (E : Set ℕ) (i : grid7.Coords) (arg0 : Memref sig .tc .vmem S8000x128 .f32) (harg0 : arg0.IsWhole) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8000x128 .f32) (harg6 : arg6.IsWhole)
    (x0 : Vec F S8000x128 .f32) (x1 : Vec F S8000x128 .f32) (x2 : Vec F S128x128 .f32) (x3 : Vec F S128 .f32) (x4 : Vec F S128x128 .f32) (x5 : Vec F S128 .f32) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d))
      ⊢ wp frame (wpE (defs₀ (F := F)) Variants.none c none) E (cc7__mlp_kernel i arg0 harg0 arg1 harg1 arg2 harg2 arg3 harg3 arg4 harg4 arg5 harg5 arg6 harg6) fun _ =>
        (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out x0 x1 x2 x3 x4 x5)) : sProp 𝕄) :=
  Reg3.sound_kernel c E i arg0 harg0 arg1 harg1 arg2 harg2 arg3 harg3 arg4 harg4 arg5 harg5 arg6 harg6 x0 x1 x2 x3 x4 x5

def dat : Dat τ (Elt F) Unit ℕ (UR sig nD τ) ℕ cfg7 c where
  A w := at_ c W (Pipeline.arrRef spec7 w)
  after w t := match w with
    | ⟨0, _⟩ => iblk c W 0 t
    | ⟨1, _⟩ => iblk c W 1 t
    | ⟨2, _⟩ => iblk c W 2 t
    | ⟨3, _⟩ => iblk c W 3 t
    | ⟨4, _⟩ => iblk c W 4 t
    | ⟨5, _⟩ => iblk c W 5 t
    | ⟨6, _⟩ => out (iblk c W 0 t) (iblk c W 1 t) (iblk c W 2 t) (iblk c W 3 t) (iblk c W 4 t) (iblk c W 5 t)
  Φ _ := Pipeline.scopedRest spec7 c
  q _ := fullShare
  owed _ := 0

theorem A_eq (w : Fin cfg7.W) : (dat c W).A w = at_ c W (Pipeline.arrRef spec7 w) := by dsimp only [dat]
theorem after_0 (t : Fin cfg7.N) : (dat c W).after 0 t = iblk c W 0 t := by dsimp only [dat]
theorem after_1 (t : Fin cfg7.N) : (dat c W).after 1 t = iblk c W 1 t := by dsimp only [dat]
theorem after_2 (t : Fin cfg7.N) : (dat c W).after 2 t = iblk c W 2 t := by dsimp only [dat]
theorem after_3 (t : Fin cfg7.N) : (dat c W).after 3 t = iblk c W 3 t := by dsimp only [dat]
theorem after_4 (t : Fin cfg7.N) : (dat c W).after 4 t = iblk c W 4 t := by dsimp only [dat]
theorem after_5 (t : Fin cfg7.N) : (dat c W).after 5 t = iblk c W 5 t := by dsimp only [dat]
theorem after_6 (t : Fin cfg7.N) : (dat c W).after 6 t = out (iblk c W 0 t) (iblk c W 1 t) (iblk c W 2 t) (iblk c W 3 t) (iblk c W 4 t) (iblk c W 5 t) := by dsimp only [dat]

theorem body_obligation : BodyObligation (dat (F := F) c W) (defs₀ (F := F)) Variants.none () Set.univ := fun t => by
  rw [bigSep_W7, bigSep_W7]
  refine wp_frame2 _ _ _ (p := bodyAt7 t) ?_
  simp only [fun d => before_in (dat c W) 0 (after_0 c W) t d, fun d => before_in (dat c W) 1 (after_1 c W) t d, fun d => before_in (dat c W) 2 (after_2 c W) t d, fun d => before_in (dat c W) 3 (after_3 c W) t d, fun d => before_in (dat c W) 4 (after_4 c W) t d, fun d => before_in (dat c W) 5 (after_5 c W) t d]
  rewrite [after_0, after_1, after_2, after_3, after_4, after_5, after_6]
  iintro ⟨⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk c W 0 t) (iblk c W 1 t) (iblk c W 2 t) (iblk c W 3 t) (iblk c W 4 t) (iblk c W 5 t))
  isplitl [H0]; · iexact H0
  isplitl [H1]; · iexact H1
  isplitl [H2]; · iexact H2
  isplitl [H3]; · iexact H3
  isplitl [H4]; · iexact H4
  isplitl [H5]; · iexact H5
  iexists _; iexact H6

end Cert.Kernel.Reg7

end
-- ==== Proof.KReg8.lean ====
import proofs.«402905_j34316788695884_1_alg».proof.Proof.Gen.Kernel.Launch
import proofs.«402905_j34316788695884_1_alg».proof.Proof.Gen.Kernel.Skeleton
import proofs.«402905_j34316788695884_1_alg».proof.Proof.Gen.Kernel.Points
import proofs.«402905_j34316788695884_1_alg».proof.Proof.RegLib

set_option maxRecDepth 16384

noncomputable section

namespace Cert.Kernel.Reg8

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg8.W) (t : Fin cfg8.N) : ((cfg8.win w).xblock (cfg8.grid.coords t)).Idx → Elt F (cfg8.win w).elt :=
  ((cfg8.win w).blk t).view.read (Elt F) (at_ c W (Pipeline.arrRef spec8 w))

abbrev r0 : Rect S2048x128 := Rect.unit (s := S2048x128) ![0, 0] S2048x128.size inb_S2048x128_S2048x128_0_0
abbrev r1 : Rect S128x256 := Rect.unit (s := S128x256) ![0, 0] S128x256.size inb_S128x256_S128x256_0_0
abbrev r2 : Rect S256 := Rect.unit (s := S256) ![0] S256.size inb_S256_S256_0
abbrev r3 : Rect S2048x256 := Rect.unit (s := S2048x256) ![0, 0] S2048x256.size inb_S2048x256_S2048x256_0_0

def out (x0 : Vec F S2048x128 .f32) (x1 : Vec F S128x256 .f32) (x2 : Vec F S256 .f32) : Vec F S2048x256 .f32 :=
  View.canon [⟨r3, k8_pay1 (View.ld x0 r0) (View.ld x1 r1) (View.ld x2 r2)⟩]

set_option maxHeartbeats 4000000 in
/-- The body keeps its inputs and leaves `out` of them in its output. -/
theorem sound_kernel (E : Set ℕ) (i : grid8.Coords) (arg0 : Memref sig .tc .vmem S2048x128 .f32) (harg0 : arg0.IsWhole) (arg1 : Memref sig .tc .vmem S128x256 .f32) (harg1 : arg1.IsWhole) (arg2 : Memref sig .tc .vmem S256 .f32) (harg2 : arg2.IsWhole) (arg3 : Memref sig .tc .vmem S2048x256 .f32) (harg3 : arg3.IsWhole)
    (x0 : Vec F S2048x128 .f32) (x1 : Vec F S128x256 .f32) (x2 : Vec F S256 .f32) :
    iprop(owns (c : Thread nD τ) arg0 fullShare x0 ∗ owns (c : Thread nD τ) arg1 fullShare x1 ∗ owns (c : Thread nD τ) arg2 fullShare x2 ∗ (∃ d, owns (c : Thread nD τ) arg3 fullShare d))
      ⊢ wp frame (wpE (defs₀ (F := F)) Variants.none c none) E (cc8__final_kernel i arg0 harg0 arg1 harg1 arg2 harg2 arg3 harg3) fun _ =>
        (iprop(owns (c : Thread nD τ) arg0 fullShare x0 ∗ owns (c : Thread nD τ) arg1 fullShare x1 ∗ owns (c : Thread nD τ) arg2 fullShare x2 ∗ owns (c : Thread nD τ) arg3 fullShare (out x0 x1 x2)) : sProp 𝕄) := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2048x256.size (by rfl))

def dat : Dat τ (Elt F) Unit ℕ (UR sig nD τ) ℕ cfg8 c where
  A w := at_ c W (Pipeline.arrRef spec8 w)
  after w t := match w with
    | ⟨0, _⟩ => iblk c W 0 t
    | ⟨1, _⟩ => iblk c W 1 t
    | ⟨2, _⟩ => iblk c W 2 t
    | ⟨3, _⟩ => out (iblk c W 0 t) (iblk c W 1 t) (iblk c W 2 t)
  Φ _ := Pipeline.scopedRest spec8 c
  q _ := fullShare
  owed _ := 0

theorem A_eq (w : Fin cfg8.W) : (dat c W).A w = at_ c W (Pipeline.arrRef spec8 w) := by dsimp only [dat]
theorem after_0 (t : Fin cfg8.N) : (dat c W).after 0 t = iblk c W 0 t := by dsimp only [dat]
theorem after_1 (t : Fin cfg8.N) : (dat c W).after 1 t = iblk c W 1 t := by dsimp only [dat]
theorem after_2 (t : Fin cfg8.N) : (dat c W).after 2 t = iblk c W 2 t := by dsimp only [dat]
theorem after_3 (t : Fin cfg8.N) : (dat c W).after 3 t = out (iblk c W 0 t) (iblk c W 1 t) (iblk c W 2 t) := by dsimp only [dat]

theorem body_obligation : BodyObligation (dat (F := F) c W) (defs₀ (F := F)) Variants.none () Set.univ := fun t => by
  rw [bigSep_W8, bigSep_W8]
  refine wp_frame2 _ _ _ (p := bodyAt8 t) ?_
  simp only [fun d => before_in (dat c W) 0 (after_0 c W) t d, fun d => before_in (dat c W) 1 (after_1 c W) t d, fun d => before_in (dat c W) 2 (after_2 c W) t d]
  rewrite [after_0, after_1, after_2, after_3]
  iintro ⟨⟨%d0, H0⟩, ⟨%d1, H1⟩, ⟨%d2, H2⟩, ⟨%d3, H3⟩⟩
  iapply (sound_kernel c Set.univ _ _ _ _ _ _ _ _ _ (iblk c W 0 t) (iblk c W 1 t) (iblk c W 2 t))
  isplitl [H0]; · iexact H0
  isplitl [H1]; · iexact H1
  isplitl [H2]; · iexact H2
  iexists _; iexact H3

end Cert.Kernel.Reg8

end
-- ==== Proof.KFam.lean ====
import proofs.«402905_j34316788695884_1_alg».proof.Proof.KReg0
import proofs.«402905_j34316788695884_1_alg».proof.Proof.KReg1
import proofs.«402905_j34316788695884_1_alg».proof.Proof.KReg2
import proofs.«402905_j34316788695884_1_alg».proof.Proof.KReg3
import proofs.«402905_j34316788695884_1_alg».proof.Proof.KReg4
import proofs.«402905_j34316788695884_1_alg».proof.Proof.KReg5
import proofs.«402905_j34316788695884_1_alg».proof.Proof.KReg6
import proofs.«402905_j34316788695884_1_alg».proof.Proof.KReg7
import proofs.«402905_j34316788695884_1_alg».proof.Proof.KReg8
import Idealize.ShloMosaic.Lib.Pipeline.Regions
import Idealize.ShloMosaic.Lib.Pipeline.RegionsLoop

set_option maxRecDepth 16384

noncomputable section

namespace Cert.Kernel.Fam

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

def setAt (c : Dev nD) (V : Valuation τ sig (Elt F)) (b₀ : Ref sig .tc) (x : Buf (Elt F) ((c : Thread nD τ).loc b₀)) : Valuation τ sig (Elt F) := fun b =>
  if h : (Proc.devRef .tc b₀ : DevRef τ sig) = b then cast (congrArg (fun b' : DevRef τ sig => b'.ty.Contents (Elt F)) h) x else V b

theorem setAt_self (c : Dev nD) (V : Valuation τ sig (Elt F)) (b₀ : Ref sig .tc) (x : Buf (Elt F) ((c : Thread nD τ).loc b₀)) :
    setAt c V b₀ x (Proc.devRef .tc b₀) = x := by
  unfold setAt; rw [dif_pos rfl]; rfl

theorem setAt_of_ne (c : Dev nD) (V : Valuation τ sig (Elt F)) (b₀ : Ref sig .tc) (x : Buf (Elt F) ((c : Thread nD τ).loc b₀)) (b : Ref sig .tc) (hb : b₀ ≠ b) :
    setAt c V b₀ x (Proc.devRef .tc b) = V (Proc.devRef .tc b) := by
  unfold setAt; rw [dif_neg]; intro e; exact hb (Proc.devRef_injective _ e)

variable (m : (ℓ : Loc nD τ sig) → Buf (Elt F) ℓ)

abbrev V₀ (c : Dev nD) : Valuation τ sig (Elt F) := fun b => m ((c : Dev nD), b)

def W0 (c : Dev nD) : Valuation τ sig (Elt F) := StableHlo.after hostOps0 (V₀ m c)

def E0 (c : Dev nD) : Valuation τ sig (Elt F) := setAt c (W0 m c) (Pipeline.arrRef spec0 3) ((Reg0.dat c (W0 m c)).arrAt 3 cfg0.N)

def W1 (c : Dev nD) : Valuation τ sig (Elt F) := StableHlo.after hostOps1 (E0 m c)

def E1 (c : Dev nD) : Valuation τ sig (Elt F) := setAt c (W1 m c) (Pipeline.arrRef spec1 3) ((Reg1.dat c (W1 m c)).arrAt 3 cfg1.N)

def W2 (c : Dev nD) : Valuation τ sig (Elt F) := StableHlo.after hostOps2_1 (StableHlo.after hostOps2 (E1 m c))

def E2 (c : Dev nD) : Valuation τ sig (Elt F) := setAt c (W2 m c) (Pipeline.arrRef spec2 2) ((Reg2.dat c (W2 m c)).arrAt 2 cfg2.N)

def W3 (c : Dev nD) : Valuation τ sig (Elt F) := StableHlo.after hostOps3 (E2 m c)

def E3 (c : Dev nD) : Valuation τ sig (Elt F) := setAt c (W3 m c) (Pipeline.arrRef spec3 6) ((Reg3.dat c (W3 m c)).arrAt 6 cfg3.N)

def W4 (c : Dev nD) : Valuation τ sig (Elt F) := StableHlo.after hostOps4 (E3 m c)

def E4 (c : Dev nD) : Valuation τ sig (Elt F) := setAt c (W4 m c) (Pipeline.arrRef spec4 2) ((Reg4.dat c (W4 m c)).arrAt 2 cfg4.N)

def W5 (c : Dev nD) : Valuation τ sig (Elt F) := StableHlo.after hostOps5 (E4 m c)

def E5 (c : Dev nD) : Valuation τ sig (Elt F) := setAt c (W5 m c) (Pipeline.arrRef spec5 6) ((Reg5.dat c (W5 m c)).arrAt 6 cfg5.N)

def W6 (c : Dev nD) : Valuation τ sig (Elt F) := StableHlo.after hostOps6 (E5 m c)

def E6 (c : Dev nD) : Valuation τ sig (Elt F) := setAt c (W6 m c) (Pipeline.arrRef spec6 2) ((Reg6.dat c (W6 m c)).arrAt 2 cfg6.N)

def W7 (c : Dev nD) : Valuation τ sig (Elt F) := StableHlo.after hostOps7 (E6 m c)

def E7 (c : Dev nD) : Valuation τ sig (Elt F) := setAt c (W7 m c) (Pipeline.arrRef spec7 6) ((Reg7.dat c (W7 m c)).arrAt 6 cfg7.N)

def W8 (c : Dev nD) : Valuation τ sig (Elt F) := StableHlo.after hostOps8 (E7 m c)

def E8 (c : Dev nD) : Valuation τ sig (Elt F) := setAt c (W8 m c) (Pipeline.arrRef spec8 3) ((Reg8.dat c (W8 m c)).arrAt 3 cfg8.N)

def pdats : (p : Fin 9) → (c : Dev nD) → Dat τ (Elt F) Unit ℕ (UR sig nD τ) ℕ (cfgs p) c
  | ⟨0, _⟩ => fun c => Reg0.dat c (W0 m c)
  | ⟨1, _⟩ => fun c => Reg1.dat c (W1 m c)
  | ⟨2, _⟩ => fun c => Reg2.dat c (W2 m c)
  | ⟨3, _⟩ => fun c => Reg3.dat c (W3 m c)
  | ⟨4, _⟩ => fun c => Reg4.dat c (W4 m c)
  | ⟨5, _⟩ => fun c => Reg5.dat c (W5 m c)
  | ⟨6, _⟩ => fun c => Reg6.dat c (W6 m c)
  | ⟨7, _⟩ => fun c => Reg7.dat c (W7 m c)
  | ⟨8, _⟩ => fun c => Reg8.dat c (W8 m c)
  | ⟨_ + 9, h⟩ => absurd h (Nat.not_lt.2 (Nat.le_add_left _ _))

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

abbrev adm : (p : Fin 9) → (pcfgs (F := F) p).Adm := fun p => (cfgs p).toPCfg_adm

abbrev EP : Emb (UR sig nD τ) (MT nD τ sig Unit (Elt F) ℕ (UR sig nD τ) ℕ) := emb₁

abbrev R (c : Dev nD) : sProp 𝕄 := iprop(∃ W, owes (c : Thread nD τ) (0 : CellTallies nD τ sig Unit) W)

abbrev St (c : Dev nD) (V : Valuation τ sig (Elt F)) : sProp 𝕄 :=
  iprop(StableHlo.held (c : Thread nD τ) (Pipeline.ucRefs τ sig) V ∗ R c)

theorem owesAt_intro {cfg : Pipeline.Cfg sig Λ₀} {c : Dev nD} (dat : Pipeline.Dat τ (Elt F) Unit ℕ (UR sig nD τ) ℕ cfg c) (t : Fin (cfg.N + 1))
    (h0 : dat.owed t = 0) (hr : dat.recorded t = Set.univ) :
    R c ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

theorem owesAt_elim {cfg : Pipeline.Cfg sig Λ₀} {c : Dev nD} (dat : Pipeline.Dat τ (Elt F) Unit ℕ (UR sig nD τ) ℕ cfg c) (t : Fin (cfg.N + 1))
    (h0 : dat.owed t = 0) :
    (dat.owesAt () t : sProp 𝕄) ⊢ R c := by
  unfold Pipeline.Dat.owesAt Pipeline.owesWithin; rw [h0]
  iintro ⟨%W, -, HO⟩; iexists W; iexact HO

end Cert.Kernel.Fam

end
-- ==== Proof.KSeg.lean ====
import proofs.«402905_j34316788695884_1_alg».proof.Proof.KFam

noncomputable section

namespace Cert.Kernel

open Cert.Kernel.Gen Cert.Kernel.Fam
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

namespace Seg

theorem St_eq (c : Dev nD) (V : Valuation τ sig (Elt F)) : (St c V : sProp 𝕄) = iprop(unscopedBufs c (fun b => V b) ∗ R c) := by
  unfold St; rw [Pipeline.unscopedBufs_held]

/-- Each clause holds by unfolding the region's proof data. -/
theorem pd (p : Fin 9) (c : Dev nD) : (∀ t, (pdats m p c).owed t = 0) ∧ (pdats m p c).recorded 0 = Set.univ ∧ (∀ w, (pdats m p c).q w = fullShare)
    ∧ (pdats m p c).Φ 0 = Pipeline.scopedRest (Ix := Unit) (Name := ℕ) (U := UR sig nD τ) (Lvl := ℕ) (Val := Elt F) (cfgs p).spec c ∧ (pdats m p c).Φ (Fin.last _) = Pipeline.scopedRest (Ix := Unit) (Name := ℕ) (U := UR sig nD τ) (Lvl := ℕ) (Val := Elt F) (cfgs p).spec c := by
  fin_cases p <;> exact ⟨fun _ => rfl, rfl, fun _ => rfl, rfl, rfl⟩

variable (p : Fin 9) (o : Fin (cfgs p).W) (W E : Dev nD → Valuation τ sig (Elt F))

/-- What region `p` supplies to be a segment from the contents `W` to `E`, which is `W` with window `o`'s array at its final value. -/
structure Facts : Prop where
  body : ∀ c, Pipeline.BodyObligationLoose (pdats m p c) defs₀ 𝒱₀ () Set.univ
  A : ∀ c w, (pdats m p c).A w = W c (Proc.devRef .tc (Pipeline.arrRef (cfgs p).spec w))
  inp : ∀ w, w ≠ o → ((cfgs p).win w).isOut = false
  out : ∀ c, E c = setAt c (W c) (Pipeline.arrRef (cfgs p).spec o) ((pdats m p c).arrAt o (cfgs p).N)

variable {m p o W E}

/-- The written array by the definition of `E`; an input because it is never written. -/
theorem Facts.exit_arr (h : Facts m p o W E) (ln : Pipeline.LaunchFacts (nD := nD) (τ := τ) cfgs p) (c : Dev nD) (w : Fin (cfgs p).W) :
    (pdats m p c).arrAt w (cfgs p).N = E c (Proc.devRef .tc (Pipeline.arrRef (cfgs p).spec w)) := by
  rw [h.out c]
  by_cases hw : w = o
  · subst hw; exact (setAt_self c _ _ _).symm
  · exact (((pdats m p c).arrAt_in w (h.inp w hw) _).trans (h.A c w)).trans
      (setAt_of_ne c _ _ _ _ fun e => hw (ln.win.arr_inj e).symm).symm

def regSeg (ln : Pipeline.LaunchFacts (nD := nD) (τ := τ) cfgs p) (h : Facts m p o W E) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody := h.body
  hwaits := Pipeline.hwaits_of_owed_zero _ _ _ _ L lv p fun c => (pd m p c).1
  pre c := St c (W c)
  post c := St c (E c)
  X c := iprop(emp)
  Y c := iprop(emp)
  Z c := Pipeline.unscopedRest (Ix := Unit) (Name := ℕ) (U := UR sig nD τ) (Lvl := ℕ) (Val := Elt F) (cfgs p).spec c (fun b => W c b)
  hentry c := by
    obtain ⟨h0, hr, hq, -, -⟩ := pd m p c
    rw [St_eq, Pipeline.ownSems0_none]
    have hsplit := Pipeline.arrays_of_unscopedBufs (pcfgs (F := F)) adm (pdats m) (p := p) ln.win ln.arr_whole c
      ((pdats m p c).share_full hq) (fun b => W c b) (h.A c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m p c) 0 (h0 0) hr); iexact HO
    isplitr; · iempintro
    iexact Hrest
  hin c := by rw [(pd m p c).2.2.2.1]; iintro ⟨-, -, Hr⟩; iexact Hr
  hout c := by
    rw [(pd m p c).2.2.2.2, Pipeline.ownSems0_none]
    iintro Hr
    isplitr; · iempintro
    isplitr; · iempintro
    iexact Hr
  hexit c := by
    obtain ⟨h0, -, hq, -, -⟩ := pd m p c
    have hback := Pipeline.unscopedBufs_of_arrays (pcfgs (F := F)) adm (p := p) ln.win ln.arr_whole c (pdats m)
      ((pdats m p c).share_full hq) (fun b => W c b) (fun b => E c b)
      (fun w => (pdats m p c).arrAt w (cfgs p).N) (h.exit_arr ln c)
      (fun b hb => (congrFun (h.out c) _).trans (setAt_of_ne c _ _ _ _ fun e => hb (Finset.mem_image.mpr ⟨o, Finset.mem_univ _, e⟩)))
    rw [St_eq]
    iintro ⟨Ha, HO, -, HZ⟩
    imodintro
    isplitl [Ha HZ]
    · iapply hback; isplitl [Ha]; · iexact Ha
      iexact HZ
    iapply (owesAt_elim (pdats m p c) _ (h0 _)); iexact HO

end Seg

def Seg0.reg : Pipeline.RegionSeg (pcfgs (F := F)) adm (pdats m) () defs₀ 𝒱₀ L lv 0 :=
  Seg.regSeg (o := (3 : Fin cfg0.W)) (W := W0 m) (E := E0 m) launch0
    ⟨fun c => (Reg0.body_obligation c _).loose, fun c => Reg0.A_eq c _, by decide, fun _ => rfl⟩

def Seg1.reg : Pipeline.RegionSeg (pcfgs (F := F)) adm (pdats m) () defs₀ 𝒱₀ L lv 1 :=
  Seg.regSeg (o := (3 : Fin cfg1.W)) (W := W1 m) (E := E1 m) launch1
    ⟨fun c => (Reg1.body_obligation c _).loose, fun c => Reg1.A_eq c _, by decide, fun _ => rfl⟩

def Seg2.reg : Pipeline.RegionSeg (pcfgs (F := F)) adm (pdats m) () defs₀ 𝒱₀ L lv 2 :=
  Seg.regSeg (o := (2 : Fin cfg2.W)) (W := W2 m) (E := E2 m) launch2
    ⟨fun c => (Reg2.body_obligation c _).loose, fun c => Reg2.A_eq c _, by decide, fun _ => rfl⟩

def Seg3.reg : Pipeline.RegionSeg (pcfgs (F := F)) adm (pdats m) () defs₀ 𝒱₀ L lv 3 :=
  Seg.regSeg (o := (6 : Fin cfg3.W)) (W := W3 m) (E := E3 m) launch3
    ⟨fun c => (Reg3.body_obligation c _).loose, fun c => Reg3.A_eq c _, by decide, fun _ => rfl⟩

def Seg4.reg : Pipeline.RegionSeg (pcfgs (F := F)) adm (pdats m) () defs₀ 𝒱₀ L lv 4 :=
  Seg.regSeg (o := (2 : Fin cfg4.W)) (W := W4 m) (E := E4 m) launch4
    ⟨fun c => (Reg4.body_obligation c _).loose, fun c => Reg4.A_eq c _, by decide, fun _ => rfl⟩

def Seg5.reg : Pipeline.RegionSeg (pcfgs (F := F)) adm (pdats m) () defs₀ 𝒱₀ L lv 5 :=
  Seg.regSeg (o := (6 : Fin cfg5.W)) (W := W5 m) (E := E5 m) launch5
    ⟨fun c => (Reg5.body_obligation c _).loose, fun c => Reg5.A_eq c _, by decide, fun _ => rfl⟩

def Seg6.reg : Pipeline.RegionSeg (pcfgs (F := F)) adm (pdats m) () defs₀ 𝒱₀ L lv 6 :=
  Seg.regSeg (o := (2 : Fin cfg6.W)) (W := W6 m) (E := E6 m) launch6
    ⟨fun c => (Reg6.body_obligation c _).loose, fun c => Reg6.A_eq c _, by decide, fun _ => rfl⟩

def Seg7.reg : Pipeline.RegionSeg (pcfgs (F := F)) adm (pdats m) () defs₀ 𝒱₀ L lv 7 :=
  Seg.regSeg (o := (6 : Fin cfg7.W)) (W := W7 m) (E := E7 m) launch7
    ⟨fun c => (Reg7.body_obligation c _).loose, fun c => Reg7.A_eq c _, by decide, fun _ => rfl⟩

def Seg8.reg : Pipeline.RegionSeg (pcfgs (F := F)) adm (pdats m) () defs₀ 𝒱₀ L lv 8 :=
  Seg.regSeg (o := (3 : Fin cfg8.W)) (W := W8 m) (E := E8 m) launch8
    ⟨fun c => (Reg8.body_obligation c _).loose, fun c => Reg8.A_eq c _, by decide, fun _ => rfl⟩

end Cert.Kernel

end
-- ==== Proof.KRun.lean ====
import proofs.«402905_j34316788695884_1_alg».proof.Proof.KSeg

set_option maxRecDepth 16384

noncomputable section

namespace Cert.Kernel.Run

open Cert.Kernel Cert.Kernel.Gen Cert.Kernel.Fam
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev HS (F : FTy → Type) [FloatOps F] := Pipeline.HostSeg (Name := ℕ) (U := UR sig nD τ) (pcfgs (F := F)) defs₀ 𝒱₀ L lv

/-- A stretch of host operations as a segment; none of them allocates, each one's fresh set being empty by unfolding. -/
def hseg (ops : List (HloOp τ sig (Elt F))) (hsub : ops.Forall fun op => op.bufs ⊆ StableHlo.tcRefs τ sig) (V : Dev nD → Valuation τ sig (Elt F))
    (hf : ∀ op ∈ ops, op.fresh = ∅ := by (repeat refine List.forall_mem_cons.2 ⟨rfl, ?_⟩); intro _ h; cases h) : HS F :=
  Pipeline.HostSeg.ofOps _ _ _ _ _ (Pipeline.ucRefs τ sig) ops (fun op h => Pipeline.sub_ucRefs op ((List.forall_iff_forall_mem.mp hsub) op h)) hf V R

def h0 : HS F := hseg hostOps0 hostOps0_sub (V₀ m)
def h1 : HS F := hseg hostOps1 hostOps1_sub (E0 m)
def h2 : HS F := hseg hostOps2 hostOps2_sub (E1 m)
def h2b : HS F := hseg hostOps2_1 hostOps2_1_sub (fun c => StableHlo.after hostOps2 (E1 m c))
def h3 : HS F := hseg hostOps3 hostOps3_sub (E2 m)
def h4 : HS F := hseg hostOps4 hostOps4_sub (E3 m)
def h5 : HS F := hseg hostOps5 hostOps5_sub (E4 m)
def h6 : HS F := hseg hostOps6 hostOps6_sub (E5 m)
def h7 : HS F := hseg hostOps7 hostOps7_sub (E6 m)
def h8 : HS F := hseg hostOps8 hostOps8_sub (E7 m)

abbrev segs : List (Pipeline.Seg (pcfgs (F := F)) adm (pdats m) () defs₀ 𝒱₀ L lv) :=
  [.host (h0 m), .region (Seg0.reg m), .host (h1 m), .region (Seg1.reg m), .host (h2 m), .host (h2b m), .region (Seg2.reg m),
   .host (h3 m), .region (Seg3.reg m), .host (h4 m), .region (Seg4.reg m), .host (h5 m), .region (Seg5.reg m),
   .host (h6 m), .region (Seg6.reg m), .host (h7 m), .region (Seg7.reg m), .host (h8 m), .region (Seg8.reg m)]

def u₀ : UR sig nD τ := initOf (Pipeline.cells cfgs cellOf_inj) (Pipeline.launchToks cfgs cellOf_inj)

def QY (c : Dev nD) (mem : MemSt nD τ sig (Elt F)) : Prop :=
  ∀ b ∈ Pipeline.ucRefs τ sig, mem.mem (((c : Thread nD τ).1, b) : Loc nD τ sig) = E8 m c b

set_option maxRecDepth 200000 in
set_option maxHeartbeats 4000000 in
set_option backward.isDefEq.respectTransparency.types false in

theorem run_main : θ_run defs (onTc (τ := τ) (main (F := F))) ⟨m, fun _ => 0, ρ⟩ (fun r => ∀ c : Dev nD, QY m c r.2) :=
  Pipeline.θ_run_regions_kit (pcfgs (F := F)) adm (pdats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => St c (V₀ m c)) (Tₙ := fun c => StableHlo.held (c : Thread nD τ) (Pipeline.ucRefs τ sig) (E8 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := fun c s' => by
      iintro ⟨Hh, HSI⟩
      ihave Hr := (pointsTo_read_all (Pipeline.ucRefs τ sig) (fun b => (((c : Thread nD τ).1, b) : Loc nD τ sig)) (fun b => E8 m c b) s') $$ [Hh HSI]
      · isplitl [Hh]; · unfold StableHlo.held; iexact Hh
        iexact HSI
      icases Hr with ⟨%h, HSI⟩
      imodintro
      isplitr; · ipureintro; exact h
      iexact HSI)
    (hQ := fun _ h => h)

end Cert.Kernel.Run

end
-- ==== Proof.KIReg0.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.RegLib

set_option maxRecDepth 16384

noncomputable section

namespace Cert.KernelIdeal.Reg0

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg0.W) (t : Fin cfg0.N) : ((cfg0.win w).xblock (cfg0.grid.coords t)).Idx → Elt F (cfg0.win w).elt :=
  ((cfg0.win w).blk t).view.read (Elt F) (at_ c W (Pipeline.arrRef spec0 w))

abbrev r0 : Rect S4000x288 := Rect.unit (s := S4000x288) ![0, 0] S4000x288.size inb_S4000x288_S4000x288_0_0
abbrev r1 : Rect S288x128 := Rect.unit (s := S288x128) ![0, 0] S288x128.size inb_S288x128_S288x128_0_0
abbrev r2 : Rect S128 := Rect.unit (s := S128) ![0] S128.size inb_S128_S128_0
abbrev r3 : Rect S4000x128 := Rect.unit (s := S4000x128) ![0, 0] S4000x128.size inb_S4000x128_S4000x128_0_0

def out (x0 : Vec F S4000x288 .f32) (x1 : Vec F S288x128 .f32) (x2 : Vec F S128 .f32) : Vec F S4000x128 .f32 :=
  View.canon [⟨r3, k0_pay1 (View.ld x0 r0) (View.ld x1 r1) (View.ld x2 r2)⟩]

set_option maxHeartbeats 4000000 in
/-- The body keeps its inputs and leaves `out` of them in its output. -/
theorem sound_kernel (E : Set ℕ) (i : grid0.Coords) (arg0 : Memref sig .tc .vmem S4000x288 .f32) (harg0 : arg0.IsWhole) (arg1 : Memref sig .tc .vmem S288x128 .f32) (harg1 : arg1.IsWhole) (arg2 : Memref sig .tc .vmem S128 .f32) (harg2 : arg2.IsWhole) (arg3 : Memref sig .tc .vmem S4000x128 .f32) (harg3 : arg3.IsWhole)
    (x0 : Vec F S4000x288 .f32) (x1 : Vec F S288x128 .f32) (x2 : Vec F S128 .f32) :
    iprop(owns (c : Thread nD τ) arg0 fullShare x0 ∗ owns (c : Thread nD τ) arg1 fullShare x1 ∗ owns (c : Thread nD τ) arg2 fullShare x2 ∗ (∃ d, owns (c : Thread nD τ) arg3 fullShare d))
      ⊢ wp frame (wpE (defs₀ (F := F)) Variants.none c none) E (cc0__affine_kernel i arg0 harg0 arg1 harg1 arg2 harg2 arg3 harg3) fun _ =>
        (iprop(owns (c : Thread nD τ) arg0 fullShare x0 ∗ owns (c : Thread nD τ) arg1 fullShare x1 ∗ owns (c : Thread nD τ) arg2 fullShare x2 ∗ owns (c : Thread nD τ) arg3 fullShare (out x0 x1 x2)) : sProp 𝕄) := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x128.size (by rfl))

def dat : Dat τ (Elt F) Unit ℕ (UR sig nD τ) ℕ cfg0 c where
  A w := at_ c W (Pipeline.arrRef spec0 w)
  after w t := match w with
    | ⟨0, _⟩ => iblk c W 0 t
    | ⟨1, _⟩ => iblk c W 1 t
    | ⟨2, _⟩ => iblk c W 2 t
    | ⟨3, _⟩ => out (iblk c W 0 t) (iblk c W 1 t) (iblk c W 2 t)
  Φ _ := Pipeline.scopedRest spec0 c
  q _ := fullShare
  owed _ := 0

theorem A_eq (w : Fin cfg0.W) : (dat c W).A w = at_ c W (Pipeline.arrRef spec0 w) := by dsimp only [dat]
theorem after_0 (t : Fin cfg0.N) : (dat c W).after 0 t = iblk c W 0 t := by dsimp only [dat]
theorem after_1 (t : Fin cfg0.N) : (dat c W).after 1 t = iblk c W 1 t := by dsimp only [dat]
theorem after_2 (t : Fin cfg0.N) : (dat c W).after 2 t = iblk c W 2 t := by dsimp only [dat]
theorem after_3 (t : Fin cfg0.N) : (dat c W).after 3 t = out (iblk c W 0 t) (iblk c W 1 t) (iblk c W 2 t) := by dsimp only [dat]

theorem body_obligation : BodyObligation (dat (F := F) c W) (defs₀ (F := F)) Variants.none () Set.univ := fun t => by
  rw [bigSep_W0, bigSep_W0]
  refine wp_frame2 _ _ _ (p := bodyAt0 t) ?_
  simp only [fun d => before_in (dat c W) 0 (after_0 c W) t d, fun d => before_in (dat c W) 1 (after_1 c W) t d, fun d => before_in (dat c W) 2 (after_2 c W) t d]
  rewrite [after_0, after_1, after_2, after_3]
  iintro ⟨⟨%d0, H0⟩, ⟨%d1, H1⟩, ⟨%d2, H2⟩, ⟨%d3, H3⟩⟩
  iapply (sound_kernel c Set.univ _ _ _ _ _ _ _ _ _ (iblk c W 0 t) (iblk c W 1 t) (iblk c W 2 t))
  isplitl [H0]; · iexact H0
  isplitl [H1]; · iexact H1
  isplitl [H2]; · iexact H2
  iexists _; iexact H3

end Cert.KernelIdeal.Reg0

end
-- ==== Proof.KIReg1.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.RegLib

set_option maxRecDepth 16384

noncomputable section

namespace Cert.KernelIdeal.Reg1

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg1.W) (t : Fin cfg1.N) : ((cfg1.win w).xblock (cfg1.grid.coords t)).Idx → Elt F (cfg1.win w).elt :=
  ((cfg1.win w).blk t).view.read (Elt F) (at_ c W (Pipeline.arrRef spec1 w))

abbrev r0 : Rect S10000x96 := Rect.unit (s := S10000x96) ![0, 0] S10000x96.size inb_S10000x96_S10000x96_0_0
abbrev r1 : Rect S96x128 := Rect.unit (s := S96x128) ![0, 0] S96x128.size inb_S96x128_S96x128_0_0
abbrev r2 : Rect S128 := Rect.unit (s := S128) ![0] S128.size inb_S128_S128_0
abbrev r3 : Rect S10000x128 := Rect.unit (s := S10000x128) ![0, 0] S10000x128.size inb_S10000x128_S10000x128_0_0

def out (x0 : Vec F S10000x96 .f32) (x1 : Vec F S96x128 .f32) (x2 : Vec F S128 .f32) : Vec F S10000x128 .f32 :=
  View.canon [⟨r3, k1_pay1 (View.ld x0 r0) (View.ld x1 r1) (View.ld x2 r2)⟩]

set_option maxHeartbeats 4000000 in
/-- The body keeps its inputs and leaves `out` of them in its output. -/
theorem sound_kernel (E : Set ℕ) (i : grid1.Coords) (arg0 : Memref sig .tc .vmem S10000x96 .f32) (harg0 : arg0.IsWhole) (arg1 : Memref sig .tc .vmem S96x128 .f32) (harg1 : arg1.IsWhole) (arg2 : Memref sig .tc .vmem S128 .f32) (harg2 : arg2.IsWhole) (arg3 : Memref sig .tc .vmem S10000x128 .f32) (harg3 : arg3.IsWhole)
    (x0 : Vec F S10000x96 .f32) (x1 : Vec F S96x128 .f32) (x2 : Vec F S128 .f32) :
    iprop(owns (c : Thread nD τ) arg0 fullShare x0 ∗ owns (c : Thread nD τ) arg1 fullShare x1 ∗ owns (c : Thread nD τ) arg2 fullShare x2 ∗ (∃ d, owns (c : Thread nD τ) arg3 fullShare d))
      ⊢ wp frame (wpE (defs₀ (F := F)) Variants.none c none) E (cc1__affine_kernel i arg0 harg0 arg1 harg1 arg2 harg2 arg3 harg3) fun _ =>
        (iprop(owns (c : Thread nD τ) arg0 fullShare x0 ∗ owns (c : Thread nD τ) arg1 fullShare x1 ∗ owns (c : Thread nD τ) arg2 fullShare x2 ∗ owns (c : Thread nD τ) arg3 fullShare (out x0 x1 x2)) : sProp 𝕄) := by
  simp only [cc1__affine_kernel_eq_skeleton]; unfold cc1__affine_kernel_skel
  unfold owns
  iintro ⟨⟨%f0, %hf0, H0⟩, ⟨%f1, %hf1, H1⟩, ⟨%f2, %hf2, H2⟩, ⟨%d3, %f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S10000x128.size (by rfl))

def dat : Dat τ (Elt F) Unit ℕ (UR sig nD τ) ℕ cfg1 c where
  A w := at_ c W (Pipeline.arrRef spec1 w)
  after w t := match w with
    | ⟨0, _⟩ => iblk c W 0 t
    | ⟨1, _⟩ => iblk c W 1 t
    | ⟨2, _⟩ => iblk c W 2 t
    | ⟨3, _⟩ => out (iblk c W 0 t) (iblk c W 1 t) (iblk c W 2 t)
  Φ _ := Pipeline.scopedRest spec1 c
  q _ := fullShare
  owed _ := 0

theorem A_eq (w : Fin cfg1.W) : (dat c W).A w = at_ c W (Pipeline.arrRef spec1 w) := by dsimp only [dat]
theorem after_0 (t : Fin cfg1.N) : (dat c W).after 0 t = iblk c W 0 t := by dsimp only [dat]
theorem after_1 (t : Fin cfg1.N) : (dat c W).after 1 t = iblk c W 1 t := by dsimp only [dat]
theorem after_2 (t : Fin cfg1.N) : (dat c W).after 2 t = iblk c W 2 t := by dsimp only [dat]
theorem after_3 (t : Fin cfg1.N) : (dat c W).after 3 t = out (iblk c W 0 t) (iblk c W 1 t) (iblk c W 2 t) := by dsimp only [dat]

theorem body_obligation : BodyObligation (dat (F := F) c W) (defs₀ (F := F)) Variants.none () Set.univ := fun t => by
  rw [bigSep_W1, bigSep_W1]
  refine wp_frame2 _ _ _ (p := bodyAt1 t) ?_
  simp only [fun d => before_in (dat c W) 0 (after_0 c W) t d, fun d => before_in (dat c W) 1 (after_1 c W) t d, fun d => before_in (dat c W) 2 (after_2 c W) t d]
  rewrite [after_0, after_1, after_2, after_3]
  iintro ⟨⟨%d0, H0⟩, ⟨%d1, H1⟩, ⟨%d2, H2⟩, ⟨%d3, H3⟩⟩
  iapply (sound_kernel c Set.univ _ _ _ _ _ _ _ _ _ (iblk c W 0 t) (iblk c W 1 t) (iblk c W 2 t))
  isplitl [H0]; · iexact H0
  isplitl [H1]; · iexact H1
  isplitl [H2]; · iexact H2
  iexists _; iexact H3

end Cert.KernelIdeal.Reg1

end
-- ==== Proof.KIReg2.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.RegLib

set_option maxRecDepth 16384

noncomputable section

namespace Cert.KernelIdeal.Reg2

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg2.W) (t : Fin cfg2.N) : ((cfg2.win w).xblock (cfg2.grid.coords t)).Idx → Elt F (cfg2.win w).elt :=
  ((cfg2.win w).blk t).view.read (Elt F) (at_ c W (Pipeline.arrRef spec2 w))

abbrev rr : Rect S8000x128 := Rect.unit (s := S8000x128) ![0, 0] S8000x128.size inb_S8000x128_S8000x128_0_0

def out (x0 x1 : Vec F S8000x128 .f32) : Vec F S8000x128 .f32 :=
  View.canon [⟨rr, k2_pay1 (View.ld x0 rr) (View.ld x1 rr)⟩]

set_option maxHeartbeats 1000000 in
/-- The body keeps its inputs and leaves `out` of them in its output. -/
theorem sound_kernel (E : Set ℕ) (i : grid2.Coords) (arg0 : Memref sig .tc .vmem S8000x128 .f32) (harg0 : arg0.IsWhole) (arg1 : Memref sig .tc .vmem S8000x128 .f32) (harg1 : arg1.IsWhole) (arg2 : Memref sig .tc .vmem S8000x128 .f32) (harg2 : arg2.IsWhole)
    (x0 : Vec F S8000x128 .f32) (x1 : Vec F S8000x128 .f32) :
    iprop(owns (c : Thread nD τ) arg0 fullShare x0 ∗ owns (c : Thread nD τ) arg1 fullShare x1 ∗ (∃ d, owns (c : Thread nD τ) arg2 fullShare d))
      ⊢ wp frame (wpE (defs₀ (F := F)) Variants.none c none) E (cc2__msg_kernel i arg0 harg0 arg1 harg1 arg2 harg2) fun _ =>
        (iprop(owns (c : Thread nD τ) arg0 fullShare x0 ∗ owns (c : Thread nD τ) arg1 fullShare x1 ∗ owns (c : Thread nD τ) arg2 fullShare (out x0 x1)) : sProp 𝕄) := by
  simp only [cc2__msg_kernel_eq_skeleton]; unfold cc2__msg_kernel_skel
  unfold owns
  iintro ⟨⟨%f0, %hf0, H0⟩, ⟨%f1, %hf1, H1⟩, ⟨%d2, %f2, -, H2⟩⟩
  subst hf0 hf1
  sl_exec
  sl_step
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S8000x128.size (by rfl))

def dat : Dat τ (Elt F) Unit ℕ (UR sig nD τ) ℕ cfg2 c where
  A w := at_ c W (Pipeline.arrRef spec2 w)
  after w t := match w with
    | ⟨0, _⟩ => iblk c W 0 t
    | ⟨1, _⟩ => iblk c W 1 t
    | ⟨2, _⟩ => out (iblk c W 0 t) (iblk c W 1 t)
  Φ _ := Pipeline.scopedRest spec2 c
  q _ := fullShare
  owed _ := 0

theorem A_eq (w : Fin cfg2.W) : (dat c W).A w = at_ c W (Pipeline.arrRef spec2 w) := by dsimp only [dat]
theorem after_0 (t : Fin cfg2.N) : (dat c W).after 0 t = iblk c W 0 t := by dsimp only [dat]
theorem after_1 (t : Fin cfg2.N) : (dat c W).after 1 t = iblk c W 1 t := by dsimp only [dat]
theorem after_2 (t : Fin cfg2.N) : (dat c W).after 2 t = out (iblk c W 0 t) (iblk c W 1 t) := by dsimp only [dat]

theorem body_obligation : BodyObligation (dat (F := F) c W) (defs₀ (F := F)) Variants.none () Set.univ := fun t => by
  rw [bigSep_W2, bigSep_W2]
  refine wp_frame2 _ _ _ (p := bodyAt2 t) ?_
  simp only [fun d => before_in (dat c W) 0 (after_0 c W) t d, fun d => before_in (dat c W) 1 (after_1 c W) t d]
  rewrite [after_0, after_1, after_2]
  iintro ⟨⟨%d0, H0⟩, ⟨%d1, H1⟩, ⟨%d2, H2⟩⟩
  iapply (sound_kernel c Set.univ _ _ _ _ _ _ _ (iblk c W 0 t) (iblk c W 1 t))
  isplitl [H0]; · iexact H0
  isplitl [H1]; · iexact H1
  iexists _; iexact H2

end Cert.KernelIdeal.Reg2

end
-- ==== Proof.KIReg3.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.RegLib

set_option maxRecDepth 16384

noncomputable section

namespace Cert.KernelIdeal.Reg3

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg3.W) (t : Fin cfg3.N) : ((cfg3.win w).xblock (cfg3.grid.coords t)).Idx → Elt F (cfg3.win w).elt :=
  ((cfg3.win w).blk t).view.read (Elt F) (at_ c W (Pipeline.arrRef spec3 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S128x128 := Rect.unit (s := S128x128) ![0, 0] S128x128.size inb_S128x128_S128x128_0_0
abbrev r3 : Rect S128 := Rect.unit (s := S128) ![0] S128.size inb_S128_S128_0
abbrev r4 : Rect S128x128 := Rect.unit (s := S128x128) ![0, 0] S128x128.size inb_S128x128_S128x128_0_0
abbrev r5 : Rect S128 := Rect.unit (s := S128) ![0] S128.size inb_S128_S128_0
abbrev r6 : Rect S8000x128 := Rect.unit (s := S8000x128) ![0, 0] S8000x128.size inb_S8000x128_S8000x128_0_0

def out (x0 : Vec F S8000x128 .f32) (x1 : Vec F S8000x128 .f32) (x2 : Vec F S128x128 .f32) (x3 : Vec F S128 .f32) (x4 : Vec F S128x128 .f32) (x5 : Vec F S128 .f32) : Vec F S8000x128 .f32 :=
  View.canon [⟨r6, k3_pay1 (View.ld x0 r0) (View.ld x1 r1) (View.ld x2 r2) (View.ld x3 r3) (View.ld x4 r4) (View.ld x5 r5)⟩]

set_option maxHeartbeats 4000000 in
/-- The body keeps its inputs and leaves `out` of them in its output. -/
theorem sound_kernel (E : Set ℕ) (i : grid3.Coords) (arg0 : Memref sig .tc .vmem S8000x128 .f32) (harg0 : arg0.IsWhole) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8000x128 .f32) (harg6 : arg6.IsWhole)
    (x0 : Vec F S8000x128 .f32) (x1 : Vec F S8000x128 .f32) (x2 : Vec F S128x128 .f32) (x3 : Vec F S128 .f32) (x4 : Vec F S128x128 .f32) (x5 : Vec F S128 .f32) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d))
      ⊢ wp frame (wpE (defs₀ (F := F)) Variants.none c none) E (cc3__mlp_kernel i arg0 harg0 arg1 harg1 arg2 harg2 arg3 harg3 arg4 harg4 arg5 harg5 arg6 harg6) fun _ =>
        (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out x0 x1 x2 x3 x4 x5)) : sProp 𝕄) := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩⟩
  subst hf0 hf1 hf2 hf3 hf4 hf5
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S8000x128.size (by rfl))

def dat : Dat τ (Elt F) Unit ℕ (UR sig nD τ) ℕ cfg3 c where
  A w := at_ c W (Pipeline.arrRef spec3 w)
  after w t := match w with
    | ⟨0, _⟩ => iblk c W 0 t
    | ⟨1, _⟩ => iblk c W 1 t
    | ⟨2, _⟩ => iblk c W 2 t
    | ⟨3, _⟩ => iblk c W 3 t
    | ⟨4, _⟩ => iblk c W 4 t
    | ⟨5, _⟩ => iblk c W 5 t
    | ⟨6, _⟩ => out (iblk c W 0 t) (iblk c W 1 t) (iblk c W 2 t) (iblk c W 3 t) (iblk c W 4 t) (iblk c W 5 t)
  Φ _ := Pipeline.scopedRest spec3 c
  q _ := fullShare
  owed _ := 0

theorem A_eq (w : Fin cfg3.W) : (dat c W).A w = at_ c W (Pipeline.arrRef spec3 w) := by dsimp only [dat]
theorem after_0 (t : Fin cfg3.N) : (dat c W).after 0 t = iblk c W 0 t := by dsimp only [dat]
theorem after_1 (t : Fin cfg3.N) : (dat c W).after 1 t = iblk c W 1 t := by dsimp only [dat]
theorem after_2 (t : Fin cfg3.N) : (dat c W).after 2 t = iblk c W 2 t := by dsimp only [dat]
theorem after_3 (t : Fin cfg3.N) : (dat c W).after 3 t = iblk c W 3 t := by dsimp only [dat]
theorem after_4 (t : Fin cfg3.N) : (dat c W).after 4 t = iblk c W 4 t := by dsimp only [dat]
theorem after_5 (t : Fin cfg3.N) : (dat c W).after 5 t = iblk c W 5 t := by dsimp only [dat]
theorem after_6 (t : Fin cfg3.N) : (dat c W).after 6 t = out (iblk c W 0 t) (iblk c W 1 t) (iblk c W 2 t) (iblk c W 3 t) (iblk c W 4 t) (iblk c W 5 t) := by dsimp only [dat]

theorem body_obligation : BodyObligation (dat (F := F) c W) (defs₀ (F := F)) Variants.none () Set.univ := fun t => by
  rw [bigSep_W3, bigSep_W3]
  refine wp_frame2 _ _ _ (p := bodyAt3 t) ?_
  simp only [fun d => before_in (dat c W) 0 (after_0 c W) t d, fun d => before_in (dat c W) 1 (after_1 c W) t d, fun d => before_in (dat c W) 2 (after_2 c W) t d, fun d => before_in (dat c W) 3 (after_3 c W) t d, fun d => before_in (dat c W) 4 (after_4 c W) t d, fun d => before_in (dat c W) 5 (after_5 c W) t d]
  rewrite [after_0, after_1, after_2, after_3, after_4, after_5, after_6]
  iintro ⟨⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk c W 0 t) (iblk c W 1 t) (iblk c W 2 t) (iblk c W 3 t) (iblk c W 4 t) (iblk c W 5 t))
  isplitl [H0]; · iexact H0
  isplitl [H1]; · iexact H1
  isplitl [H2]; · iexact H2
  isplitl [H3]; · iexact H3
  isplitl [H4]; · iexact H4
  isplitl [H5]; · iexact H5
  iexists _; iexact H6

end Cert.KernelIdeal.Reg3

end
-- ==== Proof.KIReg4.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.KIReg2

set_option maxRecDepth 16384

noncomputable section

namespace Cert.KernelIdeal.Reg4

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg4.W) (t : Fin cfg4.N) : ((cfg4.win w).xblock (cfg4.grid.coords t)).Idx → Elt F (cfg4.win w).elt :=
  ((cfg4.win w).blk t).view.read (Elt F) (at_ c W (Pipeline.arrRef spec4 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S8000x128 := Rect.unit (s := S8000x128) ![0, 0] S8000x128.size inb_S8000x128_S8000x128_0_0

def out (x0 : Vec F S8000x128 .f32) (x1 : Vec F S8000x128 .f32) : Vec F S8000x128 .f32 :=
  View.canon [⟨r2, k4_pay1 (View.ld x0 r0) (View.ld x1 r1)⟩]

theorem sound_kernel (E : Set ℕ) (i : grid4.Coords) (arg0 : Memref sig .tc .vmem S8000x128 .f32) (harg0 : arg0.IsWhole) (arg1 : Memref sig .tc .vmem S8000x128 .f32) (harg1 : arg1.IsWhole) (arg2 : Memref sig .tc .vmem S8000x128 .f32) (harg2 : arg2.IsWhole)
    (x0 : Vec F S8000x128 .f32) (x1 : Vec F S8000x128 .f32) :
    iprop(owns (c : Thread nD τ) arg0 fullShare x0 ∗ owns (c : Thread nD τ) arg1 fullShare x1 ∗ (∃ d, owns (c : Thread nD τ) arg2 fullShare d))
      ⊢ wp frame (wpE (defs₀ (F := F)) Variants.none c none) E (cc4__msg_kernel i arg0 harg0 arg1 harg1 arg2 harg2) fun _ =>
        (iprop(owns (c : Thread nD τ) arg0 fullShare x0 ∗ owns (c : Thread nD τ) arg1 fullShare x1 ∗ owns (c : Thread nD τ) arg2 fullShare (out x0 x1)) : sProp 𝕄) :=
  Reg2.sound_kernel c E i arg0 harg0 arg1 harg1 arg2 harg2 x0 x1

def dat : Dat τ (Elt F) Unit ℕ (UR sig nD τ) ℕ cfg4 c where
  A w := at_ c W (Pipeline.arrRef spec4 w)
  after w t := match w with
    | ⟨0, _⟩ => iblk c W 0 t
    | ⟨1, _⟩ => iblk c W 1 t
    | ⟨2, _⟩ => out (iblk c W 0 t) (iblk c W 1 t)
  Φ _ := Pipeline.scopedRest spec4 c
  q _ := fullShare
  owed _ := 0

theorem A_eq (w : Fin cfg4.W) : (dat c W).A w = at_ c W (Pipeline.arrRef spec4 w) := by dsimp only [dat]
theorem after_0 (t : Fin cfg4.N) : (dat c W).after 0 t = iblk c W 0 t := by dsimp only [dat]
theorem after_1 (t : Fin cfg4.N) : (dat c W).after 1 t = iblk c W 1 t := by dsimp only [dat]
theorem after_2 (t : Fin cfg4.N) : (dat c W).after 2 t = out (iblk c W 0 t) (iblk c W 1 t) := by dsimp only [dat]

theorem body_obligation : BodyObligation (dat (F := F) c W) (defs₀ (F := F)) Variants.none () Set.univ := fun t => by
  rw [bigSep_W4, bigSep_W4]
  refine wp_frame2 _ _ _ (p := bodyAt4 t) ?_
  simp only [fun d => before_in (dat c W) 0 (after_0 c W) t d, fun d => before_in (dat c W) 1 (after_1 c W) t d]
  rewrite [after_0, after_1, after_2]
  iintro ⟨⟨%d0, H0⟩, ⟨%d1, H1⟩, ⟨%d2, H2⟩⟩
  iapply (sound_kernel c Set.univ _ _ _ _ _ _ _ (iblk c W 0 t) (iblk c W 1 t))
  isplitl [H0]; · iexact H0
  isplitl [H1]; · iexact H1
  iexists _; iexact H2

end Cert.KernelIdeal.Reg4

end
-- ==== Proof.KIReg5.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.KIReg3

set_option maxRecDepth 16384

noncomputable section

namespace Cert.KernelIdeal.Reg5

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg5.W) (t : Fin cfg5.N) : ((cfg5.win w).xblock (cfg5.grid.coords t)).Idx → Elt F (cfg5.win w).elt :=
  ((cfg5.win w).blk t).view.read (Elt F) (at_ c W (Pipeline.arrRef spec5 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S128x128 := Rect.unit (s := S128x128) ![0, 0] S128x128.size inb_S128x128_S128x128_0_0
abbrev r3 : Rect S128 := Rect.unit (s := S128) ![0] S128.size inb_S128_S128_0
abbrev r4 : Rect S128x128 := Rect.unit (s := S128x128) ![0, 0] S128x128.size inb_S128x128_S128x128_0_0
abbrev r5 : Rect S128 := Rect.unit (s := S128) ![0] S128.size inb_S128_S128_0
abbrev r6 : Rect S8000x128 := Rect.unit (s := S8000x128) ![0, 0] S8000x128.size inb_S8000x128_S8000x128_0_0

def out (x0 : Vec F S8000x128 .f32) (x1 : Vec F S8000x128 .f32) (x2 : Vec F S128x128 .f32) (x3 : Vec F S128 .f32) (x4 : Vec F S128x128 .f32) (x5 : Vec F S128 .f32) : Vec F S8000x128 .f32 :=
  View.canon [⟨r6, k5_pay1 (View.ld x0 r0) (View.ld x1 r1) (View.ld x2 r2) (View.ld x3 r3) (View.ld x4 r4) (View.ld x5 r5)⟩]

theorem sound_kernel (E : Set ℕ) (i : grid5.Coords) (arg0 : Memref sig .tc .vmem S8000x128 .f32) (harg0 : arg0.IsWhole) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8000x128 .f32) (harg6 : arg6.IsWhole)
    (x0 : Vec F S8000x128 .f32) (x1 : Vec F S8000x128 .f32) (x2 : Vec F S128x128 .f32) (x3 : Vec F S128 .f32) (x4 : Vec F S128x128 .f32) (x5 : Vec F S128 .f32) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d))
      ⊢ wp frame (wpE (defs₀ (F := F)) Variants.none c none) E (cc5__mlp_kernel i arg0 harg0 arg1 harg1 arg2 harg2 arg3 harg3 arg4 harg4 arg5 harg5 arg6 harg6) fun _ =>
        (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out x0 x1 x2 x3 x4 x5)) : sProp 𝕄) :=
  Reg3.sound_kernel c E i arg0 harg0 arg1 harg1 arg2 harg2 arg3 harg3 arg4 harg4 arg5 harg5 arg6 harg6 x0 x1 x2 x3 x4 x5

def dat : Dat τ (Elt F) Unit ℕ (UR sig nD τ) ℕ cfg5 c where
  A w := at_ c W (Pipeline.arrRef spec5 w)
  after w t := match w with
    | ⟨0, _⟩ => iblk c W 0 t
    | ⟨1, _⟩ => iblk c W 1 t
    | ⟨2, _⟩ => iblk c W 2 t
    | ⟨3, _⟩ => iblk c W 3 t
    | ⟨4, _⟩ => iblk c W 4 t
    | ⟨5, _⟩ => iblk c W 5 t
    | ⟨6, _⟩ => out (iblk c W 0 t) (iblk c W 1 t) (iblk c W 2 t) (iblk c W 3 t) (iblk c W 4 t) (iblk c W 5 t)
  Φ _ := Pipeline.scopedRest spec5 c
  q _ := fullShare
  owed _ := 0

theorem A_eq (w : Fin cfg5.W) : (dat c W).A w = at_ c W (Pipeline.arrRef spec5 w) := by dsimp only [dat]
theorem after_0 (t : Fin cfg5.N) : (dat c W).after 0 t = iblk c W 0 t := by dsimp only [dat]
theorem after_1 (t : Fin cfg5.N) : (dat c W).after 1 t = iblk c W 1 t := by dsimp only [dat]
theorem after_2 (t : Fin cfg5.N) : (dat c W).after 2 t = iblk c W 2 t := by dsimp only [dat]
theorem after_3 (t : Fin cfg5.N) : (dat c W).after 3 t = iblk c W 3 t := by dsimp only [dat]
theorem after_4 (t : Fin cfg5.N) : (dat c W).after 4 t = iblk c W 4 t := by dsimp only [dat]
theorem after_5 (t : Fin cfg5.N) : (dat c W).after 5 t = iblk c W 5 t := by dsimp only [dat]
theorem after_6 (t : Fin cfg5.N) : (dat c W).after 6 t = out (iblk c W 0 t) (iblk c W 1 t) (iblk c W 2 t) (iblk c W 3 t) (iblk c W 4 t) (iblk c W 5 t) := by dsimp only [dat]

theorem body_obligation : BodyObligation (dat (F := F) c W) (defs₀ (F := F)) Variants.none () Set.univ := fun t => by
  rw [bigSep_W5, bigSep_W5]
  refine wp_frame2 _ _ _ (p := bodyAt5 t) ?_
  simp only [fun d => before_in (dat c W) 0 (after_0 c W) t d, fun d => before_in (dat c W) 1 (after_1 c W) t d, fun d => before_in (dat c W) 2 (after_2 c W) t d, fun d => before_in (dat c W) 3 (after_3 c W) t d, fun d => before_in (dat c W) 4 (after_4 c W) t d, fun d => before_in (dat c W) 5 (after_5 c W) t d]
  rewrite [after_0, after_1, after_2, after_3, after_4, after_5, after_6]
  iintro ⟨⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk c W 0 t) (iblk c W 1 t) (iblk c W 2 t) (iblk c W 3 t) (iblk c W 4 t) (iblk c W 5 t))
  isplitl [H0]; · iexact H0
  isplitl [H1]; · iexact H1
  isplitl [H2]; · iexact H2
  isplitl [H3]; · iexact H3
  isplitl [H4]; · iexact H4
  isplitl [H5]; · iexact H5
  iexists _; iexact H6

end Cert.KernelIdeal.Reg5

end
-- ==== Proof.KIReg6.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.KIReg2

set_option maxRecDepth 16384

noncomputable section

namespace Cert.KernelIdeal.Reg6

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg6.W) (t : Fin cfg6.N) : ((cfg6.win w).xblock (cfg6.grid.coords t)).Idx → Elt F (cfg6.win w).elt :=
  ((cfg6.win w).blk t).view.read (Elt F) (at_ c W (Pipeline.arrRef spec6 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S8000x128 := Rect.unit (s := S8000x128) ![0, 0] S8000x128.size inb_S8000x128_S8000x128_0_0

def out (x0 : Vec F S8000x128 .f32) (x1 : Vec F S8000x128 .f32) : Vec F S8000x128 .f32 :=
  View.canon [⟨r2, k6_pay1 (View.ld x0 r0) (View.ld x1 r1)⟩]

theorem sound_kernel (E : Set ℕ) (i : grid6.Coords) (arg0 : Memref sig .tc .vmem S8000x128 .f32) (harg0 : arg0.IsWhole) (arg1 : Memref sig .tc .vmem S8000x128 .f32) (harg1 : arg1.IsWhole) (arg2 : Memref sig .tc .vmem S8000x128 .f32) (harg2 : arg2.IsWhole)
    (x0 : Vec F S8000x128 .f32) (x1 : Vec F S8000x128 .f32) :
    iprop(owns (c : Thread nD τ) arg0 fullShare x0 ∗ owns (c : Thread nD τ) arg1 fullShare x1 ∗ (∃ d, owns (c : Thread nD τ) arg2 fullShare d))
      ⊢ wp frame (wpE (defs₀ (F := F)) Variants.none c none) E (cc6__msg_kernel i arg0 harg0 arg1 harg1 arg2 harg2) fun _ =>
        (iprop(owns (c : Thread nD τ) arg0 fullShare x0 ∗ owns (c : Thread nD τ) arg1 fullShare x1 ∗ owns (c : Thread nD τ) arg2 fullShare (out x0 x1)) : sProp 𝕄) :=
  Reg2.sound_kernel c E i arg0 harg0 arg1 harg1 arg2 harg2 x0 x1

def dat : Dat τ (Elt F) Unit ℕ (UR sig nD τ) ℕ cfg6 c where
  A w := at_ c W (Pipeline.arrRef spec6 w)
  after w t := match w with
    | ⟨0, _⟩ => iblk c W 0 t
    | ⟨1, _⟩ => iblk c W 1 t
    | ⟨2, _⟩ => out (iblk c W 0 t) (iblk c W 1 t)
  Φ _ := Pipeline.scopedRest spec6 c
  q _ := fullShare
  owed _ := 0

theorem A_eq (w : Fin cfg6.W) : (dat c W).A w = at_ c W (Pipeline.arrRef spec6 w) := by dsimp only [dat]
theorem after_0 (t : Fin cfg6.N) : (dat c W).after 0 t = iblk c W 0 t := by dsimp only [dat]
theorem after_1 (t : Fin cfg6.N) : (dat c W).after 1 t = iblk c W 1 t := by dsimp only [dat]
theorem after_2 (t : Fin cfg6.N) : (dat c W).after 2 t = out (iblk c W 0 t) (iblk c W 1 t) := by dsimp only [dat]

theorem body_obligation : BodyObligation (dat (F := F) c W) (defs₀ (F := F)) Variants.none () Set.univ := fun t => by
  rw [bigSep_W6, bigSep_W6]
  refine wp_frame2 _ _ _ (p := bodyAt6 t) ?_
  simp only [fun d => before_in (dat c W) 0 (after_0 c W) t d, fun d => before_in (dat c W) 1 (after_1 c W) t d]
  rewrite [after_0, after_1, after_2]
  iintro ⟨⟨%d0, H0⟩, ⟨%d1, H1⟩, ⟨%d2, H2⟩⟩
  iapply (sound_kernel c Set.univ _ _ _ _ _ _ _ (iblk c W 0 t) (iblk c W 1 t))
  isplitl [H0]; · iexact H0
  isplitl [H1]; · iexact H1
  iexists _; iexact H2

end Cert.KernelIdeal.Reg6

end
-- ==== Proof.KIReg7.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.KIReg3

set_option maxRecDepth 16384

noncomputable section

namespace Cert.KernelIdeal.Reg7

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg7.W) (t : Fin cfg7.N) : ((cfg7.win w).xblock (cfg7.grid.coords t)).Idx → Elt F (cfg7.win w).elt :=
  ((cfg7.win w).blk t).view.read (Elt F) (at_ c W (Pipeline.arrRef spec7 w))

abbrev r0 : Rect S8000x128 := Rect.unit (s := S8000x128) ![0, 0] S8000x128.size inb_S8000x128_S8000x128_0_0
abbrev r1 : Rect S8000x128 := Rect.unit (s := S8000x128) ![0, 0] S8000x128.size inb_S8000x128_S8000x128_0_0
abbrev r2 : Rect S128x128 := Rect.unit (s := S128x128) ![0, 0] S128x128.size inb_S128x128_S128x128_0_0
abbrev r3 : Rect S128 := Rect.unit (s := S128) ![0] S128.size inb_S128_S128_0
abbrev r4 : Rect S128x128 := Rect.unit (s := S128x128) ![0, 0] S128x128.size inb_S128x128_S128x128_0_0
abbrev r5 : Rect S128 := Rect.unit (s := S128) ![0] S128.size inb_S128_S128_0
abbrev r6 : Rect S8000x128 := Rect.unit (s := S8000x128) ![0, 0] S8000x128.size inb_S8000x128_S8000x128_0_0

def out (x0 : Vec F S8000x128 .f32) (x1 : Vec F S8000x128 .f32) (x2 : Vec F S128x128 .f32) (x3 : Vec F S128 .f32) (x4 : Vec F S128x128 .f32) (x5 : Vec F S128 .f32) : Vec F S8000x128 .f32 :=
  View.canon [⟨r6, k7_pay1 (View.ld x0 r0) (View.ld x1 r1) (View.ld x2 r2) (View.ld x3 r3) (View.ld x4 r4) (View.ld x5 r5)⟩]

theorem sound_kernel (E : Set ℕ) (i : grid7.Coords) (arg0 : Memref sig .tc .vmem S8000x128 .f32) (harg0 : arg0.IsWhole) (arg1 : Memref sig .tc .vmem S8000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8000x128 .f32) (harg6 : arg6.IsWhole)
    (x0 : Vec F S8000x128 .f32) (x1 : Vec F S8000x128 .f32) (x2 : Vec F S128x128 .f32) (x3 : Vec F S128 .f32) (x4 : Vec F S128x128 .f32) (x5 : Vec F S128 .f32) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d))
      ⊢ wp frame (wpE (defs₀ (F := F)) Variants.none c none) E (cc7__mlp_kernel i arg0 harg0 arg1 harg1 arg2 harg2 arg3 harg3 arg4 harg4 arg5 harg5 arg6 harg6) fun _ =>
        (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out x0 x1 x2 x3 x4 x5)) : sProp 𝕄) :=
  Reg3.sound_kernel c E i arg0 harg0 arg1 harg1 arg2 harg2 arg3 harg3 arg4 harg4 arg5 harg5 arg6 harg6 x0 x1 x2 x3 x4 x5

def dat : Dat τ (Elt F) Unit ℕ (UR sig nD τ) ℕ cfg7 c where
  A w := at_ c W (Pipeline.arrRef spec7 w)
  after w t := match w with
    | ⟨0, _⟩ => iblk c W 0 t
    | ⟨1, _⟩ => iblk c W 1 t
    | ⟨2, _⟩ => iblk c W 2 t
    | ⟨3, _⟩ => iblk c W 3 t
    | ⟨4, _⟩ => iblk c W 4 t
    | ⟨5, _⟩ => iblk c W 5 t
    | ⟨6, _⟩ => out (iblk c W 0 t) (iblk c W 1 t) (iblk c W 2 t) (iblk c W 3 t) (iblk c W 4 t) (iblk c W 5 t)
  Φ _ := Pipeline.scopedRest spec7 c
  q _ := fullShare
  owed _ := 0

theorem A_eq (w : Fin cfg7.W) : (dat c W).A w = at_ c W (Pipeline.arrRef spec7 w) := by dsimp only [dat]
theorem after_0 (t : Fin cfg7.N) : (dat c W).after 0 t = iblk c W 0 t := by dsimp only [dat]
theorem after_1 (t : Fin cfg7.N) : (dat c W).after 1 t = iblk c W 1 t := by dsimp only [dat]
theorem after_2 (t : Fin cfg7.N) : (dat c W).after 2 t = iblk c W 2 t := by dsimp only [dat]
theorem after_3 (t : Fin cfg7.N) : (dat c W).after 3 t = iblk c W 3 t := by dsimp only [dat]
theorem after_4 (t : Fin cfg7.N) : (dat c W).after 4 t = iblk c W 4 t := by dsimp only [dat]
theorem after_5 (t : Fin cfg7.N) : (dat c W).after 5 t = iblk c W 5 t := by dsimp only [dat]
theorem after_6 (t : Fin cfg7.N) : (dat c W).after 6 t = out (iblk c W 0 t) (iblk c W 1 t) (iblk c W 2 t) (iblk c W 3 t) (iblk c W 4 t) (iblk c W 5 t) := by dsimp only [dat]

theorem body_obligation : BodyObligation (dat (F := F) c W) (defs₀ (F := F)) Variants.none () Set.univ := fun t => by
  rw [bigSep_W7, bigSep_W7]
  refine wp_frame2 _ _ _ (p := bodyAt7 t) ?_
  simp only [fun d => before_in (dat c W) 0 (after_0 c W) t d, fun d => before_in (dat c W) 1 (after_1 c W) t d, fun d => before_in (dat c W) 2 (after_2 c W) t d, fun d => before_in (dat c W) 3 (after_3 c W) t d, fun d => before_in (dat c W) 4 (after_4 c W) t d, fun d => before_in (dat c W) 5 (after_5 c W) t d]
  rewrite [after_0, after_1, after_2, after_3, after_4, after_5, after_6]
  iintro ⟨⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk c W 0 t) (iblk c W 1 t) (iblk c W 2 t) (iblk c W 3 t) (iblk c W 4 t) (iblk c W 5 t))
  isplitl [H0]; · iexact H0
  isplitl [H1]; · iexact H1
  isplitl [H2]; · iexact H2
  isplitl [H3]; · iexact H3
  isplitl [H4]; · iexact H4
  isplitl [H5]; · iexact H5
  iexists _; iexact H6

end Cert.KernelIdeal.Reg7

end
-- ==== Proof.KIReg8.lean ====
import proofs.«402905_j34316788695884_1_alg».proof.Proof.Gen.KernelIdeal.Launch
import proofs.«402905_j34316788695884_1_alg».proof.Proof.Gen.KernelIdeal.Skeleton
import proofs.«402905_j34316788695884_1_alg».proof.Proof.Gen.KernelIdeal.Points
import proofs.«402905_j34316788695884_1_alg».proof.Proof.RegLib

set_option maxRecDepth 16384

noncomputable section

namespace Cert.KernelIdeal.Reg8

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev at_ (c : Dev nD) (W : Valuation τ sig (Elt F)) (b : Ref sig .tc) : Buf (Elt F) ((c : Thread nD τ).loc b) := W b

variable (c : Dev nD) (W : Valuation τ sig (Elt F))

def iblk (w : Fin cfg8.W) (t : Fin cfg8.N) : ((cfg8.win w).xblock (cfg8.grid.coords t)).Idx → Elt F (cfg8.win w).elt :=
  ((cfg8.win w).blk t).view.read (Elt F) (at_ c W (Pipeline.arrRef spec8 w))

abbrev r0 : Rect S2048x128 := Rect.unit (s := S2048x128) ![0, 0] S2048x128.size inb_S2048x128_S2048x128_0_0
abbrev r1 : Rect S128x256 := Rect.unit (s := S128x256) ![0, 0] S128x256.size inb_S128x256_S128x256_0_0
abbrev r2 : Rect S256 := Rect.unit (s := S256) ![0] S256.size inb_S256_S256_0
abbrev r3 : Rect S2048x256 := Rect.unit (s := S2048x256) ![0, 0] S2048x256.size inb_S2048x256_S2048x256_0_0

def out (x0 : Vec F S2048x128 .f32) (x1 : Vec F S128x256 .f32) (x2 : Vec F S256 .f32) : Vec F S2048x256 .f32 :=
  View.canon [⟨r3, k8_pay1 (View.ld x0 r0) (View.ld x1 r1) (View.ld x2 r2)⟩]

set_option maxHeartbeats 4000000 in
/-- The body keeps its inputs and leaves `out` of them in its output. -/
theorem sound_kernel (E : Set ℕ) (i : grid8.Coords) (arg0 : Memref sig .tc .vmem S2048x128 .f32) (harg0 : arg0.IsWhole) (arg1 : Memref sig .tc .vmem S128x256 .f32) (harg1 : arg1.IsWhole) (arg2 : Memref sig .tc .vmem S256 .f32) (harg2 : arg2.IsWhole) (arg3 : Memref sig .tc .vmem S2048x256 .f32) (harg3 : arg3.IsWhole)
    (x0 : Vec F S2048x128 .f32) (x1 : Vec F S128x256 .f32) (x2 : Vec F S256 .f32) :
    iprop(owns (c : Thread nD τ) arg0 fullShare x0 ∗ owns (c : Thread nD τ) arg1 fullShare x1 ∗ owns (c : Thread nD τ) arg2 fullShare x2 ∗ (∃ d, owns (c : Thread nD τ) arg3 fullShare d))
      ⊢ wp frame (wpE (defs₀ (F := F)) Variants.none c none) E (cc8__final_kernel i arg0 harg0 arg1 harg1 arg2 harg2 arg3 harg3) fun _ =>
        (iprop(owns (c : Thread nD τ) arg0 fullShare x0 ∗ owns (c : Thread nD τ) arg1 fullShare x1 ∗ owns (c : Thread nD τ) arg2 fullShare x2 ∗ owns (c : Thread nD τ) arg3 fullShare (out x0 x1 x2)) : sProp 𝕄) := by
  simp only [cc8__final_kernel_eq_skeleton]; unfold cc8__final_kernel_skel
  unfold owns
  iintro ⟨⟨%f0, %hf0, H0⟩, ⟨%f1, %hf1, H1⟩, ⟨%f2, %hf2, H2⟩, ⟨%d3, %f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2048x256.size (by rfl))

def dat : Dat τ (Elt F) Unit ℕ (UR sig nD τ) ℕ cfg8 c where
  A w := at_ c W (Pipeline.arrRef spec8 w)
  after w t := match w with
    | ⟨0, _⟩ => iblk c W 0 t
    | ⟨1, _⟩ => iblk c W 1 t
    | ⟨2, _⟩ => iblk c W 2 t
    | ⟨3, _⟩ => out (iblk c W 0 t) (iblk c W 1 t) (iblk c W 2 t)
  Φ _ := Pipeline.scopedRest spec8 c
  q _ := fullShare
  owed _ := 0

theorem A_eq (w : Fin cfg8.W) : (dat c W).A w = at_ c W (Pipeline.arrRef spec8 w) := by dsimp only [dat]
theorem after_0 (t : Fin cfg8.N) : (dat c W).after 0 t = iblk c W 0 t := by dsimp only [dat]
theorem after_1 (t : Fin cfg8.N) : (dat c W).after 1 t = iblk c W 1 t := by dsimp only [dat]
theorem after_2 (t : Fin cfg8.N) : (dat c W).after 2 t = iblk c W 2 t := by dsimp only [dat]
theorem after_3 (t : Fin cfg8.N) : (dat c W).after 3 t = out (iblk c W 0 t) (iblk c W 1 t) (iblk c W 2 t) := by dsimp only [dat]

theorem body_obligation : BodyObligation (dat (F := F) c W) (defs₀ (F := F)) Variants.none () Set.univ := fun t => by
  rw [bigSep_W8, bigSep_W8]
  refine wp_frame2 _ _ _ (p := bodyAt8 t) ?_
  simp only [fun d => before_in (dat c W) 0 (after_0 c W) t d, fun d => before_in (dat c W) 1 (after_1 c W) t d, fun d => before_in (dat c W) 2 (after_2 c W) t d]
  rewrite [after_0, after_1, after_2, after_3]
  iintro ⟨⟨%d0, H0⟩, ⟨%d1, H1⟩, ⟨%d2, H2⟩, ⟨%d3, H3⟩⟩
  iapply (sound_kernel c Set.univ _ _ _ _ _ _ _ _ _ (iblk c W 0 t) (iblk c W 1 t) (iblk c W 2 t))
  isplitl [H0]; · iexact H0
  isplitl [H1]; · iexact H1
  isplitl [H2]; · iexact H2
  iexists _; iexact H3

end Cert.KernelIdeal.Reg8

end
-- ==== Proof.KIFam.lean ====
import proofs.«402905_j34316788695884_1_alg».proof.Proof.KIReg0
import proofs.«402905_j34316788695884_1_alg».proof.Proof.KIReg1
import proofs.«402905_j34316788695884_1_alg».proof.Proof.KIReg2
import proofs.«402905_j34316788695884_1_alg».proof.Proof.KIReg3
import proofs.«402905_j34316788695884_1_alg».proof.Proof.KIReg4
import proofs.«402905_j34316788695884_1_alg».proof.Proof.KIReg5
import proofs.«402905_j34316788695884_1_alg».proof.Proof.KIReg6
import proofs.«402905_j34316788695884_1_alg».proof.Proof.KIReg7
import proofs.«402905_j34316788695884_1_alg».proof.Proof.KIReg8
import Idealize.ShloMosaic.Lib.Pipeline.Regions
import Idealize.ShloMosaic.Lib.Pipeline.RegionsLoop

set_option maxRecDepth 16384

noncomputable section

namespace Cert.KernelIdeal.Fam

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

def setAt (c : Dev nD) (V : Valuation τ sig (Elt F)) (b₀ : Ref sig .tc) (x : Buf (Elt F) ((c : Thread nD τ).loc b₀)) : Valuation τ sig (Elt F) := fun b =>
  if h : (Proc.devRef .tc b₀ : DevRef τ sig) = b then cast (congrArg (fun b' : DevRef τ sig => b'.ty.Contents (Elt F)) h) x else V b

theorem setAt_self (c : Dev nD) (V : Valuation τ sig (Elt F)) (b₀ : Ref sig .tc) (x : Buf (Elt F) ((c : Thread nD τ).loc b₀)) :
    setAt c V b₀ x (Proc.devRef .tc b₀) = x := by
  unfold setAt; rw [dif_pos rfl]; rfl

theorem setAt_of_ne (c : Dev nD) (V : Valuation τ sig (Elt F)) (b₀ : Ref sig .tc) (x : Buf (Elt F) ((c : Thread nD τ).loc b₀)) (b : Ref sig .tc) (hb : b₀ ≠ b) :
    setAt c V b₀ x (Proc.devRef .tc b) = V (Proc.devRef .tc b) := by
  unfold setAt; rw [dif_neg]; intro e; exact hb (Proc.devRef_injective _ e)

variable (m : (ℓ : Loc nD τ sig) → Buf (Elt F) ℓ)

abbrev V₀ (c : Dev nD) : Valuation τ sig (Elt F) := fun b => m ((c : Dev nD), b)

def W0 (c : Dev nD) : Valuation τ sig (Elt F) := StableHlo.after hostOps0 (V₀ m c)

def E0 (c : Dev nD) : Valuation τ sig (Elt F) := setAt c (W0 m c) (Pipeline.arrRef spec0 3) ((Reg0.dat c (W0 m c)).arrAt 3 cfg0.N)

def W1 (c : Dev nD) : Valuation τ sig (Elt F) := StableHlo.after hostOps1 (E0 m c)

def E1 (c : Dev nD) : Valuation τ sig (Elt F) := setAt c (W1 m c) (Pipeline.arrRef spec1 3) ((Reg1.dat c (W1 m c)).arrAt 3 cfg1.N)

def W2 (c : Dev nD) : Valuation τ sig (Elt F) := StableHlo.after hostOps2_1 (StableHlo.after hostOps2 (E1 m c))

def E2 (c : Dev nD) : Valuation τ sig (Elt F) := setAt c (W2 m c) (Pipeline.arrRef spec2 2) ((Reg2.dat c (W2 m c)).arrAt 2 cfg2.N)

def W3 (c : Dev nD) : Valuation τ sig (Elt F) := StableHlo.after hostOps3 (E2 m c)

def E3 (c : Dev nD) : Valuation τ sig (Elt F) := setAt c (W3 m c) (Pipeline.arrRef spec3 6) ((Reg3.dat c (W3 m c)).arrAt 6 cfg3.N)

def W4 (c : Dev nD) : Valuation τ sig (Elt F) := StableHlo.after hostOps4 (E3 m c)

def E4 (c : Dev nD) : Valuation τ sig (Elt F) := setAt c (W4 m c) (Pipeline.arrRef spec4 2) ((Reg4.dat c (W4 m c)).arrAt 2 cfg4.N)

def W5 (c : Dev nD) : Valuation τ sig (Elt F) := StableHlo.after hostOps5 (E4 m c)

def E5 (c : Dev nD) : Valuation τ sig (Elt F) := setAt c (W5 m c) (Pipeline.arrRef spec5 6) ((Reg5.dat c (W5 m c)).arrAt 6 cfg5.N)

def W6 (c : Dev nD) : Valuation τ sig (Elt F) := StableHlo.after hostOps6 (E5 m c)

def E6 (c : Dev nD) : Valuation τ sig (Elt F) := setAt c (W6 m c) (Pipeline.arrRef spec6 2) ((Reg6.dat c (W6 m c)).arrAt 2 cfg6.N)

def W7 (c : Dev nD) : Valuation τ sig (Elt F) := StableHlo.after hostOps7 (E6 m c)

def E7 (c : Dev nD) : Valuation τ sig (Elt F) := setAt c (W7 m c) (Pipeline.arrRef spec7 6) ((Reg7.dat c (W7 m c)).arrAt 6 cfg7.N)

def W8 (c : Dev nD) : Valuation τ sig (Elt F) := StableHlo.after hostOps8 (E7 m c)

def E8 (c : Dev nD) : Valuation τ sig (Elt F) := setAt c (W8 m c) (Pipeline.arrRef spec8 3) ((Reg8.dat c (W8 m c)).arrAt 3 cfg8.N)

def pdats : (p : Fin 9) → (c : Dev nD) → Dat τ (Elt F) Unit ℕ (UR sig nD τ) ℕ (cfgs p) c
  | ⟨0, _⟩ => fun c => Reg0.dat c (W0 m c)
  | ⟨1, _⟩ => fun c => Reg1.dat c (W1 m c)
  | ⟨2, _⟩ => fun c => Reg2.dat c (W2 m c)
  | ⟨3, _⟩ => fun c => Reg3.dat c (W3 m c)
  | ⟨4, _⟩ => fun c => Reg4.dat c (W4 m c)
  | ⟨5, _⟩ => fun c => Reg5.dat c (W5 m c)
  | ⟨6, _⟩ => fun c => Reg6.dat c (W6 m c)
  | ⟨7, _⟩ => fun c => Reg7.dat c (W7 m c)
  | ⟨8, _⟩ => fun c => Reg8.dat c (W8 m c)
  | ⟨_ + 9, h⟩ => absurd h (Nat.not_lt.2 (Nat.le_add_left _ _))

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0

abbrev adm : (p : Fin 9) → (pcfgs (F := F) p).Adm := fun p => (cfgs p).toPCfg_adm

abbrev EP : Emb (UR sig nD τ) (MT nD τ sig Unit (Elt F) ℕ (UR sig nD τ) ℕ) := emb₁

abbrev R (c : Dev nD) : sProp 𝕄 := iprop(∃ W, owes (c : Thread nD τ) (0 : CellTallies nD τ sig Unit) W)

abbrev St (c : Dev nD) (V : Valuation τ sig (Elt F)) : sProp 𝕄 :=
  iprop(StableHlo.held (c : Thread nD τ) (Pipeline.ucRefs τ sig) V ∗ R c)

theorem owesAt_intro {cfg : Pipeline.Cfg sig Λ₀} {c : Dev nD} (dat : Pipeline.Dat τ (Elt F) Unit ℕ (UR sig nD τ) ℕ cfg c) (t : Fin (cfg.N + 1))
    (h0 : dat.owed t = 0) (hr : dat.recorded t = Set.univ) :
    R c ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

theorem owesAt_elim {cfg : Pipeline.Cfg sig Λ₀} {c : Dev nD} (dat : Pipeline.Dat τ (Elt F) Unit ℕ (UR sig nD τ) ℕ cfg c) (t : Fin (cfg.N + 1))
    (h0 : dat.owed t = 0) :
    (dat.owesAt () t : sProp 𝕄) ⊢ R c := by
  unfold Pipeline.Dat.owesAt Pipeline.owesWithin; rw [h0]
  iintro ⟨%W, -, HO⟩; iexists W; iexact HO

end Cert.KernelIdeal.Fam

end
-- ==== Proof.KISeg.lean ====
import proofs.«402905_j34316788695884_1_alg».proof.Proof.KIFam

noncomputable section

namespace Cert.KernelIdeal

open Cert.KernelIdeal.Gen Cert.KernelIdeal.Fam
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

namespace Seg

theorem St_eq (c : Dev nD) (V : Valuation τ sig (Elt F)) : (St c V : sProp 𝕄) = iprop(unscopedBufs c (fun b => V b) ∗ R c) := by
  unfold St; rw [Pipeline.unscopedBufs_held]

/-- Each clause holds by unfolding the region's proof data. -/
theorem pd (p : Fin 9) (c : Dev nD) : (∀ t, (pdats m p c).owed t = 0) ∧ (pdats m p c).recorded 0 = Set.univ ∧ (∀ w, (pdats m p c).q w = fullShare)
    ∧ (pdats m p c).Φ 0 = Pipeline.scopedRest (Ix := Unit) (Name := ℕ) (U := UR sig nD τ) (Lvl := ℕ) (Val := Elt F) (cfgs p).spec c ∧ (pdats m p c).Φ (Fin.last _) = Pipeline.scopedRest (Ix := Unit) (Name := ℕ) (U := UR sig nD τ) (Lvl := ℕ) (Val := Elt F) (cfgs p).spec c := by
  fin_cases p <;> exact ⟨fun _ => rfl, rfl, fun _ => rfl, rfl, rfl⟩

variable (p : Fin 9) (o : Fin (cfgs p).W) (W E : Dev nD → Valuation τ sig (Elt F))

/-- What region `p` supplies to be a segment from the contents `W` to `E`, which is `W` with window `o`'s array at its final value. -/
structure Facts : Prop where
  body : ∀ c, Pipeline.BodyObligationLoose (pdats m p c) defs₀ 𝒱₀ () Set.univ
  A : ∀ c w, (pdats m p c).A w = W c (Proc.devRef .tc (Pipeline.arrRef (cfgs p).spec w))
  inp : ∀ w, w ≠ o → ((cfgs p).win w).isOut = false
  out : ∀ c, E c = setAt c (W c) (Pipeline.arrRef (cfgs p).spec o) ((pdats m p c).arrAt o (cfgs p).N)

variable {m p o W E}

/-- The written array by the definition of `E`; an input because it is never written. -/
theorem Facts.exit_arr (h : Facts m p o W E) (ln : Pipeline.LaunchFacts (nD := nD) (τ := τ) cfgs p) (c : Dev nD) (w : Fin (cfgs p).W) :
    (pdats m p c).arrAt w (cfgs p).N = E c (Proc.devRef .tc (Pipeline.arrRef (cfgs p).spec w)) := by
  rw [h.out c]
  by_cases hw : w = o
  · subst hw; exact (setAt_self c _ _ _).symm
  · exact (((pdats m p c).arrAt_in w (h.inp w hw) _).trans (h.A c w)).trans
      (setAt_of_ne c _ _ _ _ fun e => hw (ln.win.arr_inj e).symm).symm

def regSeg (ln : Pipeline.LaunchFacts (nD := nD) (τ := τ) cfgs p) (h : Facts m p o W E) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody := h.body
  hwaits := Pipeline.hwaits_of_owed_zero _ _ _ _ L lv p fun c => (pd m p c).1
  pre c := St c (W c)
  post c := St c (E c)
  X c := iprop(emp)
  Y c := iprop(emp)
  Z c := Pipeline.unscopedRest (Ix := Unit) (Name := ℕ) (U := UR sig nD τ) (Lvl := ℕ) (Val := Elt F) (cfgs p).spec c (fun b => W c b)
  hentry c := by
    obtain ⟨h0, hr, hq, -, -⟩ := pd m p c
    rw [St_eq, Pipeline.ownSems0_none]
    have hsplit := Pipeline.arrays_of_unscopedBufs (pcfgs (F := F)) adm (pdats m) (p := p) ln.win ln.arr_whole c
      ((pdats m p c).share_full hq) (fun b => W c b) (h.A c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_intro (pdats m p c) 0 (h0 0) hr); iexact HO
    isplitr; · iempintro
    iexact Hrest
  hin c := by rw [(pd m p c).2.2.2.1]; iintro ⟨-, -, Hr⟩; iexact Hr
  hout c := by
    rw [(pd m p c).2.2.2.2, Pipeline.ownSems0_none]
    iintro Hr
    isplitr; · iempintro
    isplitr; · iempintro
    iexact Hr
  hexit c := by
    obtain ⟨h0, -, hq, -, -⟩ := pd m p c
    have hback := Pipeline.unscopedBufs_of_arrays (pcfgs (F := F)) adm (p := p) ln.win ln.arr_whole c (pdats m)
      ((pdats m p c).share_full hq) (fun b => W c b) (fun b => E c b)
      (fun w => (pdats m p c).arrAt w (cfgs p).N) (h.exit_arr ln c)
      (fun b hb => (congrFun (h.out c) _).trans (setAt_of_ne c _ _ _ _ fun e => hb (Finset.mem_image.mpr ⟨o, Finset.mem_univ _, e⟩)))
    rw [St_eq]
    iintro ⟨Ha, HO, -, HZ⟩
    imodintro
    isplitl [Ha HZ]
    · iapply hback; isplitl [Ha]; · iexact Ha
      iexact HZ
    iapply (owesAt_elim (pdats m p c) _ (h0 _)); iexact HO

end Seg

def Seg0.reg : Pipeline.RegionSeg (pcfgs (F := F)) adm (pdats m) () defs₀ 𝒱₀ L lv 0 :=
  Seg.regSeg (o := (3 : Fin cfg0.W)) (W := W0 m) (E := E0 m) launch0
    ⟨fun c => (Reg0.body_obligation c _).loose, fun c => Reg0.A_eq c _, by decide, fun _ => rfl⟩

def Seg1.reg : Pipeline.RegionSeg (pcfgs (F := F)) adm (pdats m) () defs₀ 𝒱₀ L lv 1 :=
  Seg.regSeg (o := (3 : Fin cfg1.W)) (W := W1 m) (E := E1 m) launch1
    ⟨fun c => (Reg1.body_obligation c _).loose, fun c => Reg1.A_eq c _, by decide, fun _ => rfl⟩

def Seg2.reg : Pipeline.RegionSeg (pcfgs (F := F)) adm (pdats m) () defs₀ 𝒱₀ L lv 2 :=
  Seg.regSeg (o := (2 : Fin cfg2.W)) (W := W2 m) (E := E2 m) launch2
    ⟨fun c => (Reg2.body_obligation c _).loose, fun c => Reg2.A_eq c _, by decide, fun _ => rfl⟩

def Seg3.reg : Pipeline.RegionSeg (pcfgs (F := F)) adm (pdats m) () defs₀ 𝒱₀ L lv 3 :=
  Seg.regSeg (o := (6 : Fin cfg3.W)) (W := W3 m) (E := E3 m) launch3
    ⟨fun c => (Reg3.body_obligation c _).loose, fun c => Reg3.A_eq c _, by decide, fun _ => rfl⟩

def Seg4.reg : Pipeline.RegionSeg (pcfgs (F := F)) adm (pdats m) () defs₀ 𝒱₀ L lv 4 :=
  Seg.regSeg (o := (2 : Fin cfg4.W)) (W := W4 m) (E := E4 m) launch4
    ⟨fun c => (Reg4.body_obligation c _).loose, fun c => Reg4.A_eq c _, by decide, fun _ => rfl⟩

def Seg5.reg : Pipeline.RegionSeg (pcfgs (F := F)) adm (pdats m) () defs₀ 𝒱₀ L lv 5 :=
  Seg.regSeg (o := (6 : Fin cfg5.W)) (W := W5 m) (E := E5 m) launch5
    ⟨fun c => (Reg5.body_obligation c _).loose, fun c => Reg5.A_eq c _, by decide, fun _ => rfl⟩

def Seg6.reg : Pipeline.RegionSeg (pcfgs (F := F)) adm (pdats m) () defs₀ 𝒱₀ L lv 6 :=
  Seg.regSeg (o := (2 : Fin cfg6.W)) (W := W6 m) (E := E6 m) launch6
    ⟨fun c => (Reg6.body_obligation c _).loose, fun c => Reg6.A_eq c _, by decide, fun _ => rfl⟩

def Seg7.reg : Pipeline.RegionSeg (pcfgs (F := F)) adm (pdats m) () defs₀ 𝒱₀ L lv 7 :=
  Seg.regSeg (o := (6 : Fin cfg7.W)) (W := W7 m) (E := E7 m) launch7
    ⟨fun c => (Reg7.body_obligation c _).loose, fun c => Reg7.A_eq c _, by decide, fun _ => rfl⟩

def Seg8.reg : Pipeline.RegionSeg (pcfgs (F := F)) adm (pdats m) () defs₀ 𝒱₀ L lv 8 :=
  Seg.regSeg (o := (3 : Fin cfg8.W)) (W := W8 m) (E := E8 m) launch8
    ⟨fun c => (Reg8.body_obligation c _).loose, fun c => Reg8.A_eq c _, by decide, fun _ => rfl⟩

end Cert.KernelIdeal

end
-- ==== Proof.KIRun.lean ====
import proofs.«402905_j34316788695884_1_alg».proof.Proof.KISeg

set_option maxRecDepth 16384

noncomputable section

namespace Cert.KernelIdeal.Run

open Cert.KernelIdeal Cert.KernelIdeal.Gen Cert.KernelIdeal.Fam
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev HS (F : FTy → Type) [FloatOps F] := Pipeline.HostSeg (Name := ℕ) (U := UR sig nD τ) (pcfgs (F := F)) defs₀ 𝒱₀ L lv

/-- A stretch of host operations as a segment; none of them allocates, each one's fresh set being empty by unfolding. -/
def hseg (ops : List (HloOp τ sig (Elt F))) (hsub : ops.Forall fun op => op.bufs ⊆ StableHlo.tcRefs τ sig) (V : Dev nD → Valuation τ sig (Elt F))
    (hf : ∀ op ∈ ops, op.fresh = ∅ := by (repeat refine List.forall_mem_cons.2 ⟨rfl, ?_⟩); intro _ h; cases h) : HS F :=
  Pipeline.HostSeg.ofOps _ _ _ _ _ (Pipeline.ucRefs τ sig) ops (fun op h => Pipeline.sub_ucRefs op ((List.forall_iff_forall_mem.mp hsub) op h)) hf V R

def h0 : HS F := hseg hostOps0 hostOps0_sub (V₀ m)
def h1 : HS F := hseg hostOps1 hostOps1_sub (E0 m)
def h2 : HS F := hseg hostOps2 hostOps2_sub (E1 m)
def h2b : HS F := hseg hostOps2_1 hostOps2_1_sub (fun c => StableHlo.after hostOps2 (E1 m c))
def h3 : HS F := hseg hostOps3 hostOps3_sub (E2 m)
def h4 : HS F := hseg hostOps4 hostOps4_sub (E3 m)
def h5 : HS F := hseg hostOps5 hostOps5_sub (E4 m)
def h6 : HS F := hseg hostOps6 hostOps6_sub (E5 m)
def h7 : HS F := hseg hostOps7 hostOps7_sub (E6 m)
def h8 : HS F := hseg hostOps8 hostOps8_sub (E7 m)

abbrev segs : List (Pipeline.Seg (pcfgs (F := F)) adm (pdats m) () defs₀ 𝒱₀ L lv) :=
  [.host (h0 m), .region (Seg0.reg m), .host (h1 m), .region (Seg1.reg m), .host (h2 m), .host (h2b m), .region (Seg2.reg m),
   .host (h3 m), .region (Seg3.reg m), .host (h4 m), .region (Seg4.reg m), .host (h5 m), .region (Seg5.reg m),
   .host (h6 m), .region (Seg6.reg m), .host (h7 m), .region (Seg7.reg m), .host (h8 m), .region (Seg8.reg m)]

def u₀ : UR sig nD τ := initOf (Pipeline.cells cfgs cellOf_inj) (Pipeline.launchToks cfgs cellOf_inj)

def QY (c : Dev nD) (mem : MemSt nD τ sig (Elt F)) : Prop :=
  ∀ b ∈ Pipeline.ucRefs τ sig, mem.mem (((c : Thread nD τ).1, b) : Loc nD τ sig) = E8 m c b

set_option maxRecDepth 200000 in
set_option maxHeartbeats 4000000 in
set_option backward.isDefEq.respectTransparency.types false in

theorem run_main : θ_run defs (onTc (τ := τ) (main (F := F))) ⟨m, fun _ => 0, ρ⟩ (fun r => ∀ c : Dev nD, QY m c r.2) :=
  Pipeline.θ_run_regions_kit (pcfgs (F := F)) adm (pdats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => St c (V₀ m c)) (Tₙ := fun c => StableHlo.held (c : Thread nD τ) (Pipeline.ucRefs τ sig) (E8 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := fun c s' => by
      iintro ⟨Hh, HSI⟩
      ihave Hr := (pointsTo_read_all (Pipeline.ucRefs τ sig) (fun b => (((c : Thread nD τ).1, b) : Loc nD τ sig)) (fun b => E8 m c b) s') $$ [Hh HSI]
      · isplitl [Hh]; · unfold StableHlo.held; iexact Hh
        iexact HSI
      icases Hr with ⟨%h, HSI⟩
      imodintro
      isplitr; · ipureintro; exact h
      iexact HSI)
    (hQ := fun _ h => h)

end Cert.KernelIdeal.Run

end
-- ==== Proof.KKept.lean ====
import proofs.«402905_j34316788695884_1_alg».proof.Proof.KFam

noncomputable section

namespace Cert.Kernel.Kept

open Cert.Kernel Cert.Kernel.Gen Cert.Kernel.Fam
open Idealize.ShloMosaic Idealize.ShloMosaic.TcCoe

variable {F : FTy → Type} [FloatOps F]

/-- The argument buffers are the HBM references of index below 26. -/
def isArg (b : Ref sig .tc) : Prop := b.space = .hbm ∧ b.idx.val < 26

instance : DecidablePred isArg := fun b => inferInstanceAs (Decidable (b.space = .hbm ∧ b.idx.val < 26))

def Clean (op : HloOp τ sig (Elt F)) : Prop := ∀ b : Ref sig .tc, isArg b → Proc.devRef (τ := τ) .tc b ∉ op.writes

theorem clean_of_writes {op : HloOp τ sig (Elt F)} {y : Ref sig .tc} (hw : op.writes = {Proc.devRef (τ := τ) .tc y})
    (hy : ¬ isArg y) : Clean op := by
  intro b hb hmem
  rw [hw, Finset.mem_singleton] at hmem
  exact hy (Proc.devRef_injective _ hmem ▸ hb)

theorem clean_cons {op : HloOp τ sig (Elt F)} {ops : List (HloOp τ sig (Elt F))} (h : Clean op) (hs : ops.Forall Clean) :
    (op :: ops).Forall Clean := (List.forall_cons _ _ _).2 ⟨h, hs⟩

theorem clean_nil : ([] : List (HloOp τ sig (Elt F))).Forall Clean := trivial

theorem kept_after (ops : List (HloOp τ sig (Elt F))) (h : ops.Forall Clean) (V : Valuation τ sig (Elt F))
    (b : Ref sig .tc) (hb : isArg b) :
    StableHlo.after ops V (Proc.devRef .tc b) = V (Proc.devRef .tc b) :=
  StableHlo.after_of_forall_not_mem ops V fun op hop => List.forall_iff_forall_mem.1 h op hop b hb

/-- A stage keeps every argument: its host operations write none, and its region's output array is none. -/
theorem kept_stage {ops : List (HloOp τ sig (Elt F))} (h : ops.Forall Clean) (c : Dev nD) (V : Valuation τ sig (Elt F))
    (b₀ : Ref sig .tc) (x : Buf (Elt F) ((c : Thread nD τ).loc b₀)) (h₀ : ¬ isArg b₀) (b : Ref sig .tc) (hb : isArg b) :
    setAt c (StableHlo.after ops V) b₀ x (Proc.devRef .tc b) = V (Proc.devRef .tc b) :=
  (setAt_of_ne c _ b₀ x b fun e => h₀ (e ▸ hb)).trans (kept_after ops h V b hb)

abbrev stretch : Fin 10 → List (HloOp τ sig (Elt F)) :=
  ![hostOps0, hostOps1, hostOps2, hostOps2_1, hostOps3, hostOps4, hostOps5, hostOps6, hostOps7, hostOps8]

/-- Every host operation of the program writes one buffer, and that buffer is no argument. -/
theorem cleanOps (i : Fin 10) : (stretch (F := F) i).Forall Clean := by
  fin_cases i <;> (repeat' first | exact clean_nil | refine clean_cons (clean_of_writes rfl (by decide)) ?_)

variable (m : (ℓ : Loc nD τ sig) → Buf (Elt F) ℓ) (c : Dev nD) (b : Ref sig .tc) (hb : isArg b)
include hb

theorem keptE0 : E0 m c (Proc.devRef .tc b) = m ((c : Dev nD), Proc.devRef .tc b) :=
  kept_stage (cleanOps 0) c _ _ _ (by decide) b hb

theorem keptE1 : E1 m c (Proc.devRef .tc b) = m ((c : Dev nD), Proc.devRef .tc b) :=
  (kept_stage (cleanOps 1) c _ _ _ (by decide) b hb).trans (keptE0 m c b hb)

theorem keptE2 : E2 m c (Proc.devRef .tc b) = m ((c : Dev nD), Proc.devRef .tc b) :=
  (kept_stage (cleanOps 3) c _ _ _ (by decide) b hb).trans ((kept_after _ (cleanOps 2) _ b hb).trans (keptE1 m c b hb))

theorem keptE3 : E3 m c (Proc.devRef .tc b) = m ((c : Dev nD), Proc.devRef .tc b) :=
  (kept_stage (cleanOps 4) c _ _ _ (by decide) b hb).trans (keptE2 m c b hb)

theorem keptE4 : E4 m c (Proc.devRef .tc b) = m ((c : Dev nD), Proc.devRef .tc b) :=
  (kept_stage (cleanOps 5) c _ _ _ (by decide) b hb).trans (keptE3 m c b hb)

theorem keptE5 : E5 m c (Proc.devRef .tc b) = m ((c : Dev nD), Proc.devRef .tc b) :=
  (kept_stage (cleanOps 6) c _ _ _ (by decide) b hb).trans (keptE4 m c b hb)

theorem keptE6 : E6 m c (Proc.devRef .tc b) = m ((c : Dev nD), Proc.devRef .tc b) :=
  (kept_stage (cleanOps 7) c _ _ _ (by decide) b hb).trans (keptE5 m c b hb)

theorem keptE7 : E7 m c (Proc.devRef .tc b) = m ((c : Dev nD), Proc.devRef .tc b) :=
  (kept_stage (cleanOps 8) c _ _ _ (by decide) b hb).trans (keptE6 m c b hb)

theorem keptE8 : E8 m c (Proc.devRef .tc b) = m ((c : Dev nD), Proc.devRef .tc b) :=
  (kept_stage (cleanOps 9) c _ _ _ (by decide) b hb).trans (keptE7 m c b hb)

end Cert.Kernel.Kept

end
-- ==== Proof.KIKept.lean ====
import proofs.«402905_j34316788695884_1_alg».proof.Proof.KIFam

noncomputable section

namespace Cert.KernelIdeal.Kept

open Cert.KernelIdeal Cert.KernelIdeal.Gen Cert.KernelIdeal.Fam
open Idealize.ShloMosaic Idealize.ShloMosaic.TcCoe

variable {F : FTy → Type} [FloatOps F]

/-- The argument buffers are the HBM references of index below 26. -/
def isArg (b : Ref sig .tc) : Prop := b.space = .hbm ∧ b.idx.val < 26

instance : DecidablePred isArg := fun b => inferInstanceAs (Decidable (b.space = .hbm ∧ b.idx.val < 26))

def Clean (op : HloOp τ sig (Elt F)) : Prop := ∀ b : Ref sig .tc, isArg b → Proc.devRef (τ := τ) .tc b ∉ op.writes

theorem clean_of_writes {op : HloOp τ sig (Elt F)} {y : Ref sig .tc} (hw : op.writes = {Proc.devRef (τ := τ) .tc y})
    (hy : ¬ isArg y) : Clean op := by
  intro b hb hmem
  rw [hw, Finset.mem_singleton] at hmem
  exact hy (Proc.devRef_injective _ hmem ▸ hb)

theorem clean_cons {op : HloOp τ sig (Elt F)} {ops : List (HloOp τ sig (Elt F))} (h : Clean op) (hs : ops.Forall Clean) :
    (op :: ops).Forall Clean := (List.forall_cons _ _ _).2 ⟨h, hs⟩

theorem clean_nil : ([] : List (HloOp τ sig (Elt F))).Forall Clean := trivial

theorem kept_after (ops : List (HloOp τ sig (Elt F))) (h : ops.Forall Clean) (V : Valuation τ sig (Elt F))
    (b : Ref sig .tc) (hb : isArg b) :
    StableHlo.after ops V (Proc.devRef .tc b) = V (Proc.devRef .tc b) :=
  StableHlo.after_of_forall_not_mem ops V fun op hop => List.forall_iff_forall_mem.1 h op hop b hb

/-- A stage keeps every argument: its host operations write none, and its region's output array is none. -/
theorem kept_stage {ops : List (HloOp τ sig (Elt F))} (h : ops.Forall Clean) (c : Dev nD) (V : Valuation τ sig (Elt F))
    (b₀ : Ref sig .tc) (x : Buf (Elt F) ((c : Thread nD τ).loc b₀)) (h₀ : ¬ isArg b₀) (b : Ref sig .tc) (hb : isArg b) :
    setAt c (StableHlo.after ops V) b₀ x (Proc.devRef .tc b) = V (Proc.devRef .tc b) :=
  (setAt_of_ne c _ b₀ x b fun e => h₀ (e ▸ hb)).trans (kept_after ops h V b hb)

def NotWritten (ops : List (HloOp τ sig (Elt F))) (b : Ref sig .tc) : Prop :=
  ∀ op ∈ ops, Proc.devRef (τ := τ) .tc b ∉ op.writes

abbrev stretch : Fin 10 → List (HloOp τ sig (Elt F)) :=
  ![hostOps0, hostOps1, hostOps2, hostOps2_1, hostOps3, hostOps4, hostOps5, hostOps6, hostOps7, hostOps8]

/-- Every host operation of the program writes one buffer, and that buffer is no argument. -/
theorem cleanOps (i : Fin 10) : (stretch (F := F) i).Forall Clean := by
  fin_cases i <;> (repeat' first | exact clean_nil | refine clean_cons (clean_of_writes rfl (by decide)) ?_)

variable (m : (ℓ : Loc nD τ sig) → Buf (Elt F) ℓ) (c : Dev nD) (b : Ref sig .tc) (hb : isArg b)
include hb

theorem keptW0 : W0 m c (Proc.devRef .tc b) = m ((c : Dev nD), Proc.devRef .tc b) :=
  kept_after hostOps0 (cleanOps 0) _ b hb

theorem keptE0 : E0 m c (Proc.devRef .tc b) = m ((c : Dev nD), Proc.devRef .tc b) :=
  kept_stage (cleanOps 0) c _ _ _ (by decide) b hb

theorem keptW1 : W1 m c (Proc.devRef .tc b) = m ((c : Dev nD), Proc.devRef .tc b) :=
  (kept_after hostOps1 (cleanOps 1) _ b hb).trans (keptE0 m c b hb)

theorem keptE1 : E1 m c (Proc.devRef .tc b) = m ((c : Dev nD), Proc.devRef .tc b) :=
  (kept_stage (cleanOps 1) c _ _ _ (by decide) b hb).trans (keptE0 m c b hb)

theorem keptE2 : E2 m c (Proc.devRef .tc b) = m ((c : Dev nD), Proc.devRef .tc b) :=
  (kept_stage (cleanOps 3) c _ _ _ (by decide) b hb).trans ((kept_after _ (cleanOps 2) _ b hb).trans (keptE1 m c b hb))

theorem keptE3 : E3 m c (Proc.devRef .tc b) = m ((c : Dev nD), Proc.devRef .tc b) :=
  (kept_stage (cleanOps 4) c _ _ _ (by decide) b hb).trans (keptE2 m c b hb)

theorem keptE4 : E4 m c (Proc.devRef .tc b) = m ((c : Dev nD), Proc.devRef .tc b) :=
  (kept_stage (cleanOps 5) c _ _ _ (by decide) b hb).trans (keptE3 m c b hb)

theorem keptE5 : E5 m c (Proc.devRef .tc b) = m ((c : Dev nD), Proc.devRef .tc b) :=
  (kept_stage (cleanOps 6) c _ _ _ (by decide) b hb).trans (keptE4 m c b hb)

theorem keptE6 : E6 m c (Proc.devRef .tc b) = m ((c : Dev nD), Proc.devRef .tc b) :=
  (kept_stage (cleanOps 7) c _ _ _ (by decide) b hb).trans (keptE5 m c b hb)

theorem keptE7 : E7 m c (Proc.devRef .tc b) = m ((c : Dev nD), Proc.devRef .tc b) :=
  (kept_stage (cleanOps 8) c _ _ _ (by decide) b hb).trans (keptE6 m c b hb)

theorem keptW8 : W8 m c (Proc.devRef .tc b) = m ((c : Dev nD), Proc.devRef .tc b) :=
  (kept_after hostOps8 (cleanOps 9) _ b hb).trans (keptE7 m c b hb)

theorem keptE8 : E8 m c (Proc.devRef .tc b) = m ((c : Dev nD), Proc.devRef .tc b) :=
  (kept_stage (cleanOps 9) c _ _ _ (by decide) b hb).trans (keptE7 m c b hb)

end Cert.KernelIdeal.Kept

end
-- ==== Proof.RefEqsBase.lean ====
import proofs.«402905_j34316788695884_1_alg».proof.Proof.Gen.ReferenceIdeal
import Idealize.ShloMosaic.Lib.StableHlo.Run
import Idealize.ShloMosaic.PureOps.Ideal

noncomputable section

namespace Cert.ReferenceIdeal.Eqs

open Cert.ReferenceIdeal Idealize.ShloMosaic Idealize.ShloMosaic.TcCoe Idealize.SL.Sem Idealize.ShloMosaic.StableHlo

variable {F : FTy → Type} {lo lo' : Nat} {op : HloOp τ sig (Elt F)} {ops ops' : List (HloOp τ sig (Elt F))}
  {U V W : Valuation τ sig (Elt F)}

/-- An operation that touches only TensorCore references. -/
class TcOp (op : HloOp τ sig (Elt F)) : Prop where
  sub : op.bufs ⊆ tcRefs τ sig

section
variable (a b c x y : Ref sig .tc)
instance (v : y.ty.Contents (Elt F)) (hy) : TcOp (nullary (τ := τ) y v hy) := ⟨nullary_bufs_sub ..⟩
instance (f : x.ty.Contents (Elt F) → y.ty.Contents (Elt F)) (hx hy) : TcOp (unary (τ := τ) x y f hx hy) := ⟨unary_bufs_sub ..⟩
instance (f : a.ty.Contents (Elt F) → b.ty.Contents (Elt F) → y.ty.Contents (Elt F)) (ha hb hy) :
    TcOp (binary (τ := τ) a b y f ha hb hy) := ⟨binary_bufs_sub ..⟩
instance (f : c.ty.Contents (Elt F) → a.ty.Contents (Elt F) → b.ty.Contents (Elt F) → y.ty.Contents (Elt F)) (hc ha hb hy) :
    TcOp (ternary (τ := τ) c a b y f hc ha hb hy) := ⟨ternary_bufs_sub ..⟩
instance (he hn hx hy) : TcOp (reshape (τ := τ) (Val := Elt F) x y he hn hx hy) := ⟨reshape_bufs_sub ..⟩
instance {n : Nat} (xs : Fin n → Ref sig .tc) (f : ((k : Fin n) → (xs k).ty.Contents (Elt F)) → y.ty.Contents (Elt F)) (hxs hy) :
    TcOp (nary (τ := τ) xs y f hxs hy) := ⟨nary_bufs_sub ..⟩
end

/-- Each operation touches only TensorCore references, determines its result, and writes one reference, of index at least `lo`. -/
def Good (lo : Nat) (ops : List (HloOp τ sig (Elt F))) : Prop :=
  ∀ op ∈ ops, op.bufs ⊆ tcRefs τ sig ∧ op.fresh = ∅ ∧ ∃ y : Ref sig .tc, op.writes = {Proc.devRef .tc y} ∧ lo ≤ y.idx.val

theorem Good.nil : Good lo ([] : List (HloOp τ sig (Elt F))) := fun _ h => nomatch h

theorem Good.cons [TcOp op] (hf : op.fresh = ∅) (y : Ref sig .tc) (hw : op.writes = {Proc.devRef .tc y}) (hy : lo ≤ y.idx.val)
    (h : Good lo ops) : Good lo (op :: ops) :=
  List.forall_mem_cons.mpr ⟨⟨TcOp.sub, hf, y, hw, hy⟩, h⟩

theorem Good.append (h : Good lo ops) (h' : Good lo' ops') (hle : lo ≤ lo' := by decide) : Good lo (ops ++ ops') :=
  fun op hop => (List.mem_append.mp hop).elim (h op) fun hop' =>
    let ⟨hb, hf, y, hw, hy⟩ := h' op hop'; ⟨hb, hf, y, hw, hle.trans hy⟩

/-- `V` and `W` agree at every reference of index below `lo`. -/
def Agree (lo : Nat) (V W : Valuation τ sig (Elt F)) : Prop :=
  ∀ b : Ref sig .tc, b.idx.val < lo → V (Proc.devRef .tc b) = W (Proc.devRef .tc b)

theorem Agree.symm (h : Agree lo V W) : Agree lo W V := fun b hb => (h b hb).symm

theorem Agree.trans (h : Agree lo' U V) (h' : Agree lo V W) (hle : lo ≤ lo' := by decide) : Agree lo U W :=
  fun b hb => (h b (hb.trans_le hle)).trans (h' b hb)

/-- A list that writes only references of index at least `lo` leaves every reference of smaller index as it found it. -/
theorem Good.keep (h : Good lo ops) (V : Valuation τ sig (Elt F)) : Agree lo (after ops V) V := fun b hb =>
  after_of_forall_not_mem ops V fun op hop hmem => by
    obtain ⟨-, -, y, hw, hy⟩ := h op hop
    rw [hw, Finset.mem_singleton] at hmem
    cases Proc.devRef_injective _ hmem
    exact absurd hb (Nat.not_lt.mpr hy)

/-- At every argument (the references of index below 26) `V` holds the launch contents of device `c`. -/
def Arg (m : (ℓ : Loc nD τ sig) → Buf (Elt F) ℓ) (c : Dev nD) (V : Valuation τ sig (Elt F)) : Prop :=
  ∀ b : Ref sig .tc, b.idx.val < 26 → V (Proc.devRef .tc b) = m ((c : Dev nD), Proc.devRef .tc b)

theorem Agree.arg {m : (ℓ : Loc nD τ sig) → Buf (Elt F) ℓ} {c : Dev nD} (h : Agree lo V W) (a : Arg m c W)
    (hle : 26 ≤ lo := by decide) : Arg m c V := fun b hb => (h b (hb.trans_le hle)).trans (a b hb)

end Cert.ReferenceIdeal.Eqs

end
-- ==== Proof.RefOps00.lean ====
import proofs.«402905_j34316788695884_1_alg».proof.Proof.RefEqsBase

noncomputable section

namespace Cert.ReferenceIdeal.RefRun

open Cert.ReferenceIdeal Cert.ReferenceIdeal.Gen Cert.ReferenceIdeal.Eqs Idealize.ShloMosaic Idealize.ShloMosaic.TcCoe Idealize.SL.Sem
  Idealize.ShloMosaic.StableHlo

variable {F : FTy → Type} [FloatOps F]

abbrev ops00 : List (HloOp τ sig (Elt F)) :=
  [ unary main_arg0 main_v0 (extractStridedSlice S200000x1 ![0, 0] · slices_S200000x9_S200000x1_0_0),
    reshape main_v0 main_v1 rfl shapeCasts_S200000x1_S200000,
    nullary main_c (constantI S_ 32 0#32),
    unary main_c main_v2 (broadcastInDim S200000 ![] bcast_S_S200000),
    binary main_v1 main_v2 main_v3 (cmpi .slt),
    nullary main_c_0 (constantI S_ 32 119#32),
    unary main_c_0 main_v4 (broadcastInDim S200000 ![] bcast_S_S200000),
    binary main_v1 main_v4 main_v5 addi,
    ternary main_v3 main_v5 main_v1 main_v6 select,
    unary main_v6 main_v7 (broadcastInDim S200000x1 ![0] bcast_S200000_S200000x1_0),
    binary main_arg4 main_v7 main_v8 (fun x i => Host.gather gather_S119x32_S200000x1_S200000x32_1_0_n_n_0_1_132 x i),
    unary main_arg0 main_v9 (extractStridedSlice S200000x1 ![0, 1] · slices_S200000x9_S200000x1_0_1),
    reshape main_v9 main_v10 rfl shapeCasts_S200000x1_S200000,
    nullary main_c_1 (constantI S_ 32 0#32),
    unary main_c_1 main_v11 (broadcastInDim S200000 ![] bcast_S_S200000),
    binary main_v10 main_v11 main_v12 (cmpi .slt),
    nullary main_c_2 (constantI S_ 32 9#32),
    unary main_c_2 main_v13 (broadcastInDim S200000 ![] bcast_S_S200000),
    binary main_v10 main_v13 main_v14 addi,
    ternary main_v12 main_v14 main_v10 main_v15 select,
    unary main_v15 main_v16 (broadcastInDim S200000x1 ![0] bcast_S200000_S200000x1_0),
    binary main_arg5 main_v16 main_v17 (fun x i => Host.gather gather_S9x32_S200000x1_S200000x32_1_0_n_n_0_1_132 x i),
    unary main_arg0 main_v18 (extractStridedSlice S200000x1 ![0, 2] · slices_S200000x9_S200000x1_0_2),
    reshape main_v18 main_v19 rfl shapeCasts_S200000x1_S200000,
    nullary main_c_3 (constantI S_ 32 0#32),
    unary main_c_3 main_v20 (broadcastInDim S200000 ![] bcast_S_S200000),
    binary main_v19 main_v20 main_v21 (cmpi .slt),
    nullary main_c_4 (constantI S_ 32 11#32),
    unary main_c_4 main_v22 (broadcastInDim S200000 ![] bcast_S_S200000),
    binary main_v19 main_v22 main_v23 addi,
    ternary main_v21 main_v23 main_v19 main_v24 select,
    unary main_v24 main_v25 (broadcastInDim S200000x1 ![0] bcast_S200000_S200000x1_0),
    binary main_arg6 main_v25 main_v26 (fun x i => Host.gather gather_S11x32_S200000x1_S200000x32_1_0_n_n_0_1_132 x i),
    unary main_arg0 main_v27 (extractStridedSlice S200000x1 ![0, 3] · slices_S200000x9_S200000x1_0_3),
    reshape main_v27 main_v28 rfl shapeCasts_S200000x1_S200000,
    nullary main_c_5 (constantI S_ 32 0#32),
    unary main_c_5 main_v29 (broadcastInDim S200000 ![] bcast_S_S200000),
    binary main_v28 main_v29 main_v30 (cmpi .slt),
    nullary main_c_6 (constantI S_ 32 12#32),
    unary main_c_6 main_v31 (broadcastInDim S200000 ![] bcast_S_S200000),
    binary main_v28 main_v31 main_v32 addi,
    ternary main_v30 main_v32 main_v28 main_v33 select,
    unary main_v33 main_v34 (broadcastInDim S200000x1 ![0] bcast_S200000_S200000x1_0),
    binary main_arg7 main_v34 main_v35 (fun x i => Host.gather gather_S12x32_S200000x1_S200000x32_1_0_n_n_0_1_132 x i),
    unary main_arg0 main_v36 (extractStridedSlice S200000x1 ![0, 4] · slices_S200000x9_S200000x1_0_4),
    reshape main_v36 main_v37 rfl shapeCasts_S200000x1_S200000,
    nullary main_c_7 (constantI S_ 32 0#32),
    unary main_c_7 main_v38 (broadcastInDim S200000 ![] bcast_S_S200000),
    binary main_v37 main_v38 main_v39 (cmpi .slt),
    nullary main_c_8 (constantI S_ 32 9#32),
    unary main_c_8 main_v40 (broadcastInDim S200000 ![] bcast_S_S200000),
    binary main_v37 main_v40 main_v41 addi,
    ternary main_v39 main_v41 main_v37 main_v42 select,
    unary main_v42 main_v43 (broadcastInDim S200000x1 ![0] bcast_S200000_S200000x1_0),
    binary main_arg8 main_v43 main_v44 (fun x i => Host.gather gather_S9x32_S200000x1_S200000x32_1_0_n_n_0_1_132 x i) ]

theorem ops00_ok : Good 26 (ops00 (F := F)) := by
  repeat first | exact .nil | refine .cons rfl _ rfl (by decide) ?_

end Cert.ReferenceIdeal.RefRun

end
-- ==== Proof.RefOps01.lean ====
import proofs.«402905_j34316788695884_1_alg».proof.Proof.RefEqsBase

noncomputable section

namespace Cert.ReferenceIdeal.RefRun

open Cert.ReferenceIdeal Cert.ReferenceIdeal.Gen Cert.ReferenceIdeal.Eqs Idealize.ShloMosaic Idealize.ShloMosaic.TcCoe Idealize.SL.Sem
  Idealize.ShloMosaic.StableHlo

variable {F : FTy → Type} [FloatOps F]

abbrev ops01 : List (HloOp τ sig (Elt F)) :=
  [ unary main_arg0 main_v45 (extractStridedSlice S200000x1 ![0, 5] · slices_S200000x9_S200000x1_0_5),
    reshape main_v45 main_v46 rfl shapeCasts_S200000x1_S200000,
    nullary main_c_9 (constantI S_ 32 0#32),
    unary main_c_9 main_v47 (broadcastInDim S200000 ![] bcast_S_S200000),
    binary main_v46 main_v47 main_v48 (cmpi .slt),
    nullary main_c_10 (constantI S_ 32 5#32),
    unary main_c_10 main_v49 (broadcastInDim S200000 ![] bcast_S_S200000),
    binary main_v46 main_v49 main_v50 addi,
    ternary main_v48 main_v50 main_v46 main_v51 select,
    unary main_v51 main_v52 (broadcastInDim S200000x1 ![0] bcast_S200000_S200000x1_0),
    binary main_arg9 main_v52 main_v53 (fun x i => Host.gather gather_S5x32_S200000x1_S200000x32_1_0_n_n_0_1_132 x i),
    unary main_arg0 main_v54 (extractStridedSlice S200000x1 ![0, 6] · slices_S200000x9_S200000x1_0_6),
    reshape main_v54 main_v55 rfl shapeCasts_S200000x1_S200000,
    nullary main_c_11 (constantI S_ 32 0#32),
    unary main_c_11 main_v56 (broadcastInDim S200000 ![] bcast_S_S200000),
    binary main_v55 main_v56 main_v57 (cmpi .slt),
    nullary main_c_12 (constantI S_ 32 8#32),
    unary main_c_12 main_v58 (broadcastInDim S200000 ![] bcast_S_S200000),
    binary main_v55 main_v58 main_v59 addi,
    ternary main_v57 main_v59 main_v55 main_v60 select,
    unary main_v60 main_v61 (broadcastInDim S200000x1 ![0] bcast_S200000_S200000x1_0),
    binary main_arg10 main_v61 main_v62 (fun x i => Host.gather gather_S8x32_S200000x1_S200000x32_1_0_n_n_0_1_132 x i),
    unary main_arg0 main_v63 (extractStridedSlice S200000x1 ![0, 7] · slices_S200000x9_S200000x1_0_7),
    reshape main_v63 main_v64 rfl shapeCasts_S200000x1_S200000,
    nullary main_c_13 (constantI S_ 32 0#32),
    unary main_c_13 main_v65 (broadcastInDim S200000 ![] bcast_S_S200000),
    binary main_v64 main_v65 main_v66 (cmpi .slt),
    nullary main_c_14 (constantI S_ 32 2#32),
    unary main_c_14 main_v67 (broadcastInDim S200000 ![] bcast_S_S200000),
    binary main_v64 main_v67 main_v68 addi,
    ternary main_v66 main_v68 main_v64 main_v69 select,
    unary main_v69 main_v70 (broadcastInDim S200000x1 ![0] bcast_S200000_S200000x1_0),
    binary main_arg11 main_v70 main_v71 (fun x i => Host.gather gather_S2x32_S200000x1_S200000x32_1_0_n_n_0_1_132 x i),
    unary main_arg0 main_v72 (extractStridedSlice S200000x1 ![0, 8] · slices_S200000x9_S200000x1_0_8),
    reshape main_v72 main_v73 rfl shapeCasts_S200000x1_S200000,
    nullary main_c_15 (constantI S_ 32 0#32),
    unary main_c_15 main_v74 (broadcastInDim S200000 ![] bcast_S_S200000),
    binary main_v73 main_v74 main_v75 (cmpi .slt),
    nullary main_c_16 (constantI S_ 32 2#32),
    unary main_c_16 main_v76 (broadcastInDim S200000 ![] bcast_S_S200000),
    binary main_v73 main_v76 main_v77 addi,
    ternary main_v75 main_v77 main_v73 main_v78 select,
    unary main_v78 main_v79 (broadcastInDim S200000x1 ![0] bcast_S200000_S200000x1_0),
    binary main_arg12 main_v79 main_v80 (fun x i => Host.gather gather_S2x32_S200000x1_S200000x32_1_0_n_n_0_1_132 x i) ]

theorem ops01_ok : Good 81 (ops01 (F := F)) := by
  repeat first | exact .nil | refine .cons rfl _ rfl (by decide) ?_

abbrev ops02 : List (HloOp τ sig (Elt F)) :=
  [ nary ![main_v8, main_v17, main_v26, main_v35, main_v44, main_v53, main_v62, main_v71, main_v80] main_v81 (fun u => concatenate S200000x288 1 [⟨S200000x32, u 0⟩, ⟨S200000x32, u 1⟩, ⟨S200000x32, u 2⟩, ⟨S200000x32, u 3⟩, ⟨S200000x32, u 4⟩, ⟨S200000x32, u 5⟩, ⟨S200000x32, u 6⟩, ⟨S200000x32, u 7⟩, ⟨S200000x32, u 8⟩] concatenates_S200000x32_S200000x32_S200000x32_S200000x32_S200000x32_S200000x32_S200000x32_S200000x32_S200000x32_S200000x288_d1) ]

theorem ops02_ok : Good 125 (ops02 (F := F)) := by
  repeat first | exact .nil | refine .cons rfl _ rfl (by decide) ?_

abbrev ops03 : List (HloOp τ sig (Elt F)) :=
  [ binary main_v81 main_arg13 main_v82 (fun l r => Host.dotGeneral dot_S200000x288_S288x128_S200000x128_1_0_0_1_n_n none l r),
    unary main_arg14 main_v83 (broadcastInDim S1x128 ![1] bcast_S128_S1x128_1),
    unary main_v83 main_v84 (broadcastInDim S200000x128 ![0, 1] bcast_S1x128_S200000x128_0_1),
    binary main_v82 main_v84 main_v85 addf ]

theorem ops03_ok : Good 126 (ops03 (F := F)) := by
  repeat first | exact .nil | refine .cons rfl _ rfl (by decide) ?_

end Cert.ReferenceIdeal.RefRun

end
-- ==== Proof.RefOps02.lean ====
import proofs.«402905_j34316788695884_1_alg».proof.Proof.RefEqsBase

noncomputable section

namespace Cert.ReferenceIdeal.RefRun

open Cert.ReferenceIdeal Cert.ReferenceIdeal.Gen Cert.ReferenceIdeal.Eqs Idealize.ShloMosaic Idealize.ShloMosaic.TcCoe Idealize.SL.Sem
  Idealize.ShloMosaic.StableHlo

variable {F : FTy → Type} [FloatOps F]

abbrev ops04 : List (HloOp τ sig (Elt F)) :=
  [ unary main_arg1 main_v86 (extractStridedSlice S800000x1 ![0, 0] · slices_S800000x3_S800000x1_0_0),
    reshape main_v86 main_v87 rfl shapeCasts_S800000x1_S800000,
    nullary main_c_17 (constantI S_ 32 0#32),
    unary main_c_17 main_v88 (broadcastInDim S800000 ![] bcast_S_S800000),
    binary main_v87 main_v88 main_v89 (cmpi .slt),
    nullary main_c_18 (constantI S_ 32 22#32),
    unary main_c_18 main_v90 (broadcastInDim S800000 ![] bcast_S_S800000),
    binary main_v87 main_v90 main_v91 addi,
    ternary main_v89 main_v91 main_v87 main_v92 select,
    unary main_v92 main_v93 (broadcastInDim S800000x1 ![0] bcast_S800000_S800000x1_0),
    binary main_arg15 main_v93 main_v94 (fun x i => Host.gather gather_S22x32_S800000x1_S800000x32_1_0_n_n_0_1_132 x i),
    unary main_arg1 main_v95 (extractStridedSlice S800000x1 ![0, 1] · slices_S800000x3_S800000x1_0_1),
    reshape main_v95 main_v96 rfl shapeCasts_S800000x1_S800000,
    nullary main_c_19 (constantI S_ 32 0#32),
    unary main_c_19 main_v97 (broadcastInDim S800000 ![] bcast_S_S800000),
    binary main_v96 main_v97 main_v98 (cmpi .slt),
    nullary main_c_20 (constantI S_ 32 6#32),
    unary main_c_20 main_v99 (broadcastInDim S800000 ![] bcast_S_S800000),
    binary main_v96 main_v99 main_v100 addi,
    ternary main_v98 main_v100 main_v96 main_v101 select,
    unary main_v101 main_v102 (broadcastInDim S800000x1 ![0] bcast_S800000_S800000x1_0),
    binary main_arg16 main_v102 main_v103 (fun x i => Host.gather gather_S6x32_S800000x1_S800000x32_1_0_n_n_0_1_132 x i),
    unary main_arg1 main_v104 (extractStridedSlice S800000x1 ![0, 2] · slices_S800000x3_S800000x1_0_2),
    reshape main_v104 main_v105 rfl shapeCasts_S800000x1_S800000,
    nullary main_c_21 (constantI S_ 32 0#32),
    unary main_c_21 main_v106 (broadcastInDim S800000 ![] bcast_S_S800000),
    binary main_v105 main_v106 main_v107 (cmpi .slt),
    nullary main_c_22 (constantI S_ 32 2#32),
    unary main_c_22 main_v108 (broadcastInDim S800000 ![] bcast_S_S800000),
    binary main_v105 main_v108 main_v109 addi,
    ternary main_v107 main_v109 main_v105 main_v110 select,
    unary main_v110 main_v111 (broadcastInDim S800000x1 ![0] bcast_S800000_S800000x1_0),
    binary main_arg17 main_v111 main_v112 (fun x i => Host.gather gather_S2x32_S800000x1_S800000x32_1_0_n_n_0_1_132 x i) ]

theorem ops04_ok : Good 130 (ops04 (F := F)) := by
  repeat first | exact .nil | refine .cons rfl _ rfl (by decide) ?_

abbrev ops05 : List (HloOp τ sig (Elt F)) :=
  [ nary ![main_v94, main_v103, main_v112] main_v113 (fun u => concatenate S800000x96 1 [⟨S800000x32, u 0⟩, ⟨S800000x32, u 1⟩, ⟨S800000x32, u 2⟩] concatenates_S800000x32_S800000x32_S800000x32_S800000x96_d1) ]

theorem ops05_ok : Good 163 (ops05 (F := F)) := by
  repeat first | exact .nil | refine .cons rfl _ rfl (by decide) ?_

abbrev ops06 : List (HloOp τ sig (Elt F)) :=
  [ binary main_v113 main_arg18 main_v114 (fun l r => Host.dotGeneral dot_S800000x96_S96x128_S800000x128_1_0_0_1_n_n none l r),
    unary main_arg19 main_v115 (broadcastInDim S1x128 ![1] bcast_S128_S1x128_1),
    unary main_v115 main_v116 (broadcastInDim S800000x128 ![0, 1] bcast_S1x128_S800000x128_0_1),
    binary main_v114 main_v116 main_v117 addf ]

theorem ops06_ok : Good 164 (ops06 (F := F)) := by
  repeat first | exact .nil | refine .cons rfl _ rfl (by decide) ?_

abbrev ops07 : List (HloOp τ sig (Elt F)) :=
  [ unary main_arg2 main_v118 (extractStridedSlice S1x800000 ![0, 0] · slices_S2x800000_S1x800000_0_0),
    reshape main_v118 main_v119 rfl shapeCasts_S1x800000_S800000,
    unary main_arg2 main_v120 (extractStridedSlice S1x800000 ![1, 0] · slices_S2x800000_S1x800000_1_0),
    reshape main_v120 main_v121 rfl shapeCasts_S1x800000_S800000 ]

theorem ops07_ok : Good 168 (ops07 (F := F)) := by
  repeat first | exact .nil | refine .cons rfl _ rfl (by decide) ?_

abbrev ops08 : List (HloOp τ sig (Elt F)) :=
  [ nullary main_c_23 (constantI S_ 32 0#32),
    unary main_c_23 main_v122 (broadcastInDim S800000 ![] bcast_S_S800000),
    binary main_v119 main_v122 main_v123 (cmpi .slt),
    nullary main_c_24 (constantI S_ 32 200000#32),
    unary main_c_24 main_v124 (broadcastInDim S800000 ![] bcast_S_S800000),
    binary main_v119 main_v124 main_v125 addi,
    ternary main_v123 main_v125 main_v119 main_v126 select,
    unary main_v126 main_v127 (broadcastInDim S800000x1 ![0] bcast_S800000_S800000x1_0),
    binary main_v85 main_v127 main_v128 (fun x i => Host.gather gather_S200000x128_S800000x1_S800000x128_1_0_n_n_0_1_1128 x i) ]

theorem ops08_ok : Good 172 (ops08 (F := F)) := by
  repeat first | exact .nil | refine .cons rfl _ rfl (by decide) ?_

abbrev ops09 : List (HloOp τ sig (Elt F)) :=
  [ binary main_v128 main_v117 main_v129 addf,
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v129) (TRef.of (T := ⟨S800000x128, .f32⟩) main_call0_v0) (TRef.of (T := ⟨S800000x128, .f32⟩) main_v130) maximumf ]

theorem ops09_ok : Good 181 (ops09 (F := F)) := by
  repeat first | exact .nil | refine .cons rfl _ rfl (by decide) ?_

abbrev ops10 : List (HloOp τ sig (Elt F)) :=
  [ nullary main_cst (constant S_ .f32 0x00000000#32),
    unary main_cst main_v131 (broadcastInDim S200000x128 ![] bcast_S_S200000x128),
    unary main_v121 main_v132 (broadcastInDim S800000x1 ![0] bcast_S800000_S800000x1_0),
    ternary main_v131 main_v132 main_v130 main_v133 (fun x i u => Host.scatterAdd scatter_S200000x128_S800000x1_S800000x128_1_0_0_1 x i u) ]

theorem ops10_ok : Good 185 (ops10 (F := F)) := by
  repeat first | exact .nil | refine .cons rfl _ rfl (by decide) ?_

end Cert.ReferenceIdeal.RefRun

end
-- ==== Proof.RefOps03.lean ====
import proofs.«402905_j34316788695884_1_alg».proof.Proof.RefEqsBase

noncomputable section

namespace Cert.ReferenceIdeal.RefRun

open Cert.ReferenceIdeal Cert.ReferenceIdeal.Gen Cert.ReferenceIdeal.Eqs Idealize.ShloMosaic Idealize.ShloMosaic.TcCoe Idealize.SL.Sem
  Idealize.ShloMosaic.StableHlo

variable {F : FTy → Type} [FloatOps F]

abbrev ops11 : List (HloOp τ sig (Elt F)) :=
  [ binary main_v85 main_v133 main_v134 addf,
    unary main_arg20 main_v135 (extractStridedSlice S1x128x128 ![0, 0, 0] · slices_S3x128x128_S1x128x128_0_0_0),
    reshape main_v135 main_v136 rfl shapeCasts_S1x128x128_S128x128,
    binary main_v134 main_v136 main_v137 (fun l r => Host.dotGeneral dot_S200000x128_S128x128_S200000x128_1_0_0_1_n_n none l r),
    unary main_arg21 main_v138 (extractStridedSlice S1x128 ![0, 0] · slices_S3x128_S1x128_0_0),
    reshape main_v138 main_v139 rfl shapeCasts_S1x128_S128,
    unary main_v139 main_v140 (broadcastInDim S1x128 ![1] bcast_S128_S1x128_1),
    unary main_v140 main_v141 (broadcastInDim S200000x128 ![0, 1] bcast_S1x128_S200000x128_0_1),
    binary main_v137 main_v141 main_v142 addf,
    TRef.nullary (TRef.of (T := ⟨S_, .f32⟩) main_call1_cst) (constant S_ .f32 0x00000000#32),
    TRef.unary (TRef.of (T := ⟨S_, .f32⟩) main_call1_cst) (TRef.of (T := ⟨S200000x128, .f32⟩) main_call1_v0) (broadcastInDim S200000x128 ![] bcast_S_S200000x128),
    TRef.binary (TRef.of (T := ⟨S200000x128, .f32⟩) main_v142) (TRef.of (T := ⟨S200000x128, .f32⟩) main_call1_v0) (TRef.of (T := ⟨S200000x128, .f32⟩) main_v143) maximumf,
    unary main_arg22 main_v144 (extractStridedSlice S1x128x128 ![0, 0, 0] · slices_S3x128x128_S1x128x128_0_0_0),
    reshape main_v144 main_v145 rfl shapeCasts_S1x128x128_S128x128,
    binary main_v143 main_v145 main_v146 (fun l r => Host.dotGeneral dot_S200000x128_S128x128_S200000x128_1_0_0_1_n_n none l r),
    unary main_arg23 main_v147 (extractStridedSlice S1x128 ![0, 0] · slices_S3x128_S1x128_0_0),
    reshape main_v147 main_v148 rfl shapeCasts_S1x128_S128,
    unary main_v148 main_v149 (broadcastInDim S1x128 ![1] bcast_S128_S1x128_1),
    unary main_v149 main_v150 (broadcastInDim S200000x128 ![0, 1] bcast_S1x128_S200000x128_0_1),
    binary main_v146 main_v150 main_v151 addf,
    TRef.nullary (TRef.of (T := ⟨S_, .f32⟩) main_call2_cst) (constant S_ .f32 0x00000000#32),
    TRef.unary (TRef.of (T := ⟨S_, .f32⟩) main_call2_cst) (TRef.of (T := ⟨S200000x128, .f32⟩) main_call2_v0) (broadcastInDim S200000x128 ![] bcast_S_S200000x128),
    TRef.binary (TRef.of (T := ⟨S200000x128, .f32⟩) main_v151) (TRef.of (T := ⟨S200000x128, .f32⟩) main_call2_v0) (TRef.of (T := ⟨S200000x128, .f32⟩) main_v152) maximumf ]

theorem ops11_ok : Good 189 (ops11 (F := F)) := by
  repeat first | exact .nil | refine .cons rfl _ rfl (by decide) ?_

abbrev ops12 : List (HloOp τ sig (Elt F)) :=
  [ nullary main_c_25 (constantI S_ 32 0#32),
    unary main_c_25 main_v153 (broadcastInDim S800000 ![] bcast_S_S800000),
    binary main_v119 main_v153 main_v154 (cmpi .slt),
    nullary main_c_26 (constantI S_ 32 200000#32),
    unary main_c_26 main_v155 (broadcastInDim S800000 ![] bcast_S_S800000),
    binary main_v119 main_v155 main_v156 addi,
    ternary main_v154 main_v156 main_v119 main_v157 select,
    unary main_v157 main_v158 (broadcastInDim S800000x1 ![0] bcast_S800000_S800000x1_0),
    binary main_v152 main_v158 main_v159 (fun x i => Host.gather gather_S200000x128_S800000x1_S800000x128_1_0_n_n_0_1_1128 x i) ]

theorem ops12_ok : Good 212 (ops12 (F := F)) := by
  repeat first | exact .nil | refine .cons rfl _ rfl (by decide) ?_

abbrev ops13 : List (HloOp τ sig (Elt F)) :=
  [ binary main_v159 main_v117 main_v160 addf,
    TRef.nullary (TRef.of (T := ⟨S_, .f32⟩) main_call3_cst) (constant S_ .f32 0x00000000#32),
    TRef.unary (TRef.of (T := ⟨S_, .f32⟩) main_call3_cst) (TRef.of (T := ⟨S800000x128, .f32⟩) main_call3_v0) (broadcastInDim S800000x128 ![] bcast_S_S800000x128),
    TRef.binary (TRef.of (T := ⟨S800000x128, .f32⟩) main_v160) (TRef.of (T := ⟨S800000x128, .f32⟩) main_call3_v0) (TRef.of (T := ⟨S800000x128, .f32⟩) main_v161) maximumf ]

theorem ops13_ok : Good 221 (ops13 (F := F)) := by
  repeat first | exact .nil | refine .cons rfl _ rfl (by decide) ?_

abbrev ops14 : List (HloOp τ sig (Elt F)) :=
  [ nullary main_cst_27 (constant S_ .f32 0x00000000#32),
    unary main_cst_27 main_v162 (broadcastInDim S200000x128 ![] bcast_S_S200000x128),
    unary main_v121 main_v163 (broadcastInDim S800000x1 ![0] bcast_S800000_S800000x1_0),
    ternary main_v162 main_v163 main_v161 main_v164 (fun x i u => Host.scatterAdd scatter_S200000x128_S800000x1_S800000x128_1_0_0_1 x i u) ]

theorem ops14_ok : Good 225 (ops14 (F := F)) := by
  repeat first | exact .nil | refine .cons rfl _ rfl (by decide) ?_

end Cert.ReferenceIdeal.RefRun

end
-- ==== Proof.RefOps04.lean ====
import proofs.«402905_j34316788695884_1_alg».proof.Proof.RefEqsBase

noncomputable section

namespace Cert.ReferenceIdeal.RefRun

open Cert.ReferenceIdeal Cert.ReferenceIdeal.Gen Cert.ReferenceIdeal.Eqs Idealize.ShloMosaic Idealize.ShloMosaic.TcCoe Idealize.SL.Sem
  Idealize.ShloMosaic.StableHlo

variable {F : FTy → Type} [FloatOps F]

abbrev ops15 : List (HloOp τ sig (Elt F)) :=
  [ binary main_v152 main_v164 main_v165 addf,
    unary main_arg20 main_v166 (extractStridedSlice S1x128x128 ![1, 0, 0] · slices_S3x128x128_S1x128x128_1_0_0),
    reshape main_v166 main_v167 rfl shapeCasts_S1x128x128_S128x128,
    binary main_v165 main_v167 main_v168 (fun l r => Host.dotGeneral dot_S200000x128_S128x128_S200000x128_1_0_0_1_n_n none l r),
    unary main_arg21 main_v169 (extractStridedSlice S1x128 ![1, 0] · slices_S3x128_S1x128_1_0),
    reshape main_v169 main_v170 rfl shapeCasts_S1x128_S128,
    unary main_v170 main_v171 (broadcastInDim S1x128 ![1] bcast_S128_S1x128_1),
    unary main_v171 main_v172 (broadcastInDim S200000x128 ![0, 1] bcast_S1x128_S200000x128_0_1),
    binary main_v168 main_v172 main_v173 addf,
    TRef.nullary (TRef.of (T := ⟨S_, .f32⟩) main_call4_cst) (constant S_ .f32 0x00000000#32),
    TRef.unary (TRef.of (T := ⟨S_, .f32⟩) main_call4_cst) (TRef.of (T := ⟨S200000x128, .f32⟩) main_call4_v0) (broadcastInDim S200000x128 ![] bcast_S_S200000x128),
    TRef.binary (TRef.of (T := ⟨S200000x128, .f32⟩) main_v173) (TRef.of (T := ⟨S200000x128, .f32⟩) main_call4_v0) (TRef.of (T := ⟨S200000x128, .f32⟩) main_v174) maximumf,
    unary main_arg22 main_v175 (extractStridedSlice S1x128x128 ![1, 0, 0] · slices_S3x128x128_S1x128x128_1_0_0),
    reshape main_v175 main_v176 rfl shapeCasts_S1x128x128_S128x128,
    binary main_v174 main_v176 main_v177 (fun l r => Host.dotGeneral dot_S200000x128_S128x128_S200000x128_1_0_0_1_n_n none l r),
    unary main_arg23 main_v178 (extractStridedSlice S1x128 ![1, 0] · slices_S3x128_S1x128_1_0),
    reshape main_v178 main_v179 rfl shapeCasts_S1x128_S128,
    unary main_v179 main_v180 (broadcastInDim S1x128 ![1] bcast_S128_S1x128_1),
    unary main_v180 main_v181 (broadcastInDim S200000x128 ![0, 1] bcast_S1x128_S200000x128_0_1),
    binary main_v177 main_v181 main_v182 addf,
    TRef.nullary (TRef.of (T := ⟨S_, .f32⟩) main_call5_cst) (constant S_ .f32 0x00000000#32),
    TRef.unary (TRef.of (T := ⟨S_, .f32⟩) main_call5_cst) (TRef.of (T := ⟨S200000x128, .f32⟩) main_call5_v0) (broadcastInDim S200000x128 ![] bcast_S_S200000x128),
    TRef.binary (TRef.of (T := ⟨S200000x128, .f32⟩) main_v182) (TRef.of (T := ⟨S200000x128, .f32⟩) main_call5_v0) (TRef.of (T := ⟨S200000x128, .f32⟩) main_v183) maximumf ]

theorem ops15_ok : Good 229 (ops15 (F := F)) := by
  repeat first | exact .nil | refine .cons rfl _ rfl (by decide) ?_

abbrev ops16 : List (HloOp τ sig (Elt F)) :=
  [ nullary main_c_28 (constantI S_ 32 0#32),
    unary main_c_28 main_v184 (broadcastInDim S800000 ![] bcast_S_S800000),
    binary main_v119 main_v184 main_v185 (cmpi .slt),
    nullary main_c_29 (constantI S_ 32 200000#32),
    unary main_c_29 main_v186 (broadcastInDim S800000 ![] bcast_S_S800000),
    binary main_v119 main_v186 main_v187 addi,
    ternary main_v185 main_v187 main_v119 main_v188 select,
    unary main_v188 main_v189 (broadcastInDim S800000x1 ![0] bcast_S800000_S800000x1_0),
    binary main_v183 main_v189 main_v190 (fun x i => Host.gather gather_S200000x128_S800000x1_S800000x128_1_0_n_n_0_1_1128 x i) ]

theorem ops16_ok : Good 252 (ops16 (F := F)) := by
  repeat first | exact .nil | refine .cons rfl _ rfl (by decide) ?_

abbrev ops17 : List (HloOp τ sig (Elt F)) :=
  [ binary main_v190 main_v117 main_v191 addf,
    TRef.nullary (TRef.of (T := ⟨S_, .f32⟩) main_call6_cst) (constant S_ .f32 0x00000000#32),
    TRef.unary (TRef.of (T := ⟨S_, .f32⟩) main_call6_cst) (TRef.of (T := ⟨S800000x128, .f32⟩) main_call6_v0) (broadcastInDim S800000x128 ![] bcast_S_S800000x128),
    TRef.binary (TRef.of (T := ⟨S800000x128, .f32⟩) main_v191) (TRef.of (T := ⟨S800000x128, .f32⟩) main_call6_v0) (TRef.of (T := ⟨S800000x128, .f32⟩) main_v192) maximumf ]

theorem ops17_ok : Good 261 (ops17 (F := F)) := by
  repeat first | exact .nil | refine .cons rfl _ rfl (by decide) ?_

abbrev ops18 : List (HloOp τ sig (Elt F)) :=
  [ nullary main_cst_30 (constant S_ .f32 0x00000000#32),
    unary main_cst_30 main_v193 (broadcastInDim S200000x128 ![] bcast_S_S200000x128),
    unary main_v121 main_v194 (broadcastInDim S800000x1 ![0] bcast_S800000_S800000x1_0),
    ternary main_v193 main_v194 main_v192 main_v195 (fun x i u => Host.scatterAdd scatter_S200000x128_S800000x1_S800000x128_1_0_0_1 x i u) ]

theorem ops18_ok : Good 265 (ops18 (F := F)) := by
  repeat first | exact .nil | refine .cons rfl _ rfl (by decide) ?_

end Cert.ReferenceIdeal.RefRun

end
-- ==== Proof.RefOps05.lean ====
import proofs.«402905_j34316788695884_1_alg».proof.Proof.RefEqsBase

noncomputable section

namespace Cert.ReferenceIdeal.RefRun

open Cert.ReferenceIdeal Cert.ReferenceIdeal.Gen Cert.ReferenceIdeal.Eqs Idealize.ShloMosaic Idealize.ShloMosaic.TcCoe Idealize.SL.Sem
  Idealize.ShloMosaic.StableHlo

variable {F : FTy → Type} [FloatOps F]

abbrev ops19 : List (HloOp τ sig (Elt F)) :=
  [ binary main_v183 main_v195 main_v196 addf,
    unary main_arg20 main_v197 (extractStridedSlice S1x128x128 ![2, 0, 0] · slices_S3x128x128_S1x128x128_2_0_0),
    reshape main_v197 main_v198 rfl shapeCasts_S1x128x128_S128x128,
    binary main_v196 main_v198 main_v199 (fun l r => Host.dotGeneral dot_S200000x128_S128x128_S200000x128_1_0_0_1_n_n none l r),
    unary main_arg21 main_v200 (extractStridedSlice S1x128 ![2, 0] · slices_S3x128_S1x128_2_0),
    reshape main_v200 main_v201 rfl shapeCasts_S1x128_S128,
    unary main_v201 main_v202 (broadcastInDim S1x128 ![1] bcast_S128_S1x128_1),
    unary main_v202 main_v203 (broadcastInDim S200000x128 ![0, 1] bcast_S1x128_S200000x128_0_1),
    binary main_v199 main_v203 main_v204 addf,
    TRef.nullary (TRef.of (T := ⟨S_, .f32⟩) main_call7_cst) (constant S_ .f32 0x00000000#32),
    TRef.unary (TRef.of (T := ⟨S_, .f32⟩) main_call7_cst) (TRef.of (T := ⟨S200000x128, .f32⟩) main_call7_v0) (broadcastInDim S200000x128 ![] bcast_S_S200000x128),
    TRef.binary (TRef.of (T := ⟨S200000x128, .f32⟩) main_v204) (TRef.of (T := ⟨S200000x128, .f32⟩) main_call7_v0) (TRef.of (T := ⟨S200000x128, .f32⟩) main_v205) maximumf,
    unary main_arg22 main_v206 (extractStridedSlice S1x128x128 ![2, 0, 0] · slices_S3x128x128_S1x128x128_2_0_0),
    reshape main_v206 main_v207 rfl shapeCasts_S1x128x128_S128x128,
    binary main_v205 main_v207 main_v208 (fun l r => Host.dotGeneral dot_S200000x128_S128x128_S200000x128_1_0_0_1_n_n none l r),
    unary main_arg23 main_v209 (extractStridedSlice S1x128 ![2, 0] · slices_S3x128_S1x128_2_0),
    reshape main_v209 main_v210 rfl shapeCasts_S1x128_S128,
    unary main_v210 main_v211 (broadcastInDim S1x128 ![1] bcast_S128_S1x128_1),
    unary main_v211 main_v212 (broadcastInDim S200000x128 ![0, 1] bcast_S1x128_S200000x128_0_1),
    binary main_v208 main_v212 main_v213 addf,
    TRef.nullary (TRef.of (T := ⟨S_, .f32⟩) main_call8_cst) (constant S_ .f32 0x00000000#32),
    TRef.unary (TRef.of (T := ⟨S_, .f32⟩) main_call8_cst) (TRef.of (T := ⟨S200000x128, .f32⟩) main_call8_v0) (broadcastInDim S200000x128 ![] bcast_S_S200000x128),
    TRef.binary (TRef.of (T := ⟨S200000x128, .f32⟩) main_v213) (TRef.of (T := ⟨S200000x128, .f32⟩) main_call8_v0) (TRef.of (T := ⟨S200000x128, .f32⟩) main_v214) maximumf ]

theorem ops19_ok : Good 269 (ops19 (F := F)) := by
  repeat first | exact .nil | refine .cons rfl _ rfl (by decide) ?_

abbrev ops20 : List (HloOp τ sig (Elt F)) :=
  [ nullary main_cst_31 (constant S_ .f32 0x00000000#32),
    unary main_cst_31 main_v215 (broadcastInDim S8192x128 ![] bcast_S_S8192x128),
    unary main_arg3 main_v216 (broadcastInDim S200000x1 ![0] bcast_S200000_S200000x1_0),
    ternary main_v215 main_v216 main_v214 main_v217 (fun x i u => Host.scatterAdd scatter_S8192x128_S200000x1_S200000x128_1_0_0_1 x i u) ]

theorem ops20_ok : Good 292 (ops20 (F := F)) := by
  repeat first | exact .nil | refine .cons rfl _ rfl (by decide) ?_

abbrev ops21 : List (HloOp τ sig (Elt F)) :=
  [ binary main_v217 main_arg24 main_v218 (fun l r => Host.dotGeneral dot_S8192x128_S128x256_S8192x256_1_0_0_1_n_n none l r),
    unary main_arg25 main_v219 (broadcastInDim S1x256 ![1] bcast_S256_S1x256_1),
    unary main_v219 main_v220 (broadcastInDim S8192x256 ![0, 1] bcast_S1x256_S8192x256_0_1),
    binary main_v218 main_v220 main_v221 addf,
    TRef.binary (TRef.of (T := ⟨S8192x256, .f32⟩) main_v221) (TRef.of (T := ⟨S8192x256, .f32⟩) main_v221) (TRef.of (T := ⟨S8192x256, .f32⟩) main_call9_v0) mulf,
    TRef.nullary (TRef.of (T := ⟨S_, .f32⟩) main_call9_cst) (constant S_ .f32 0x00000000#32),
    TRef.binary (TRef.of (T := ⟨S8192x256, .f32⟩) main_call9_v0) (TRef.of (T := ⟨S_, .f32⟩) main_call9_cst) (TRef.of (T := ⟨S8192, .f32⟩) main_call9_v1) (fun x v => Host.reduceAdd x v reducesTo_S8192x256_S8192_d1 h_S_),
    TRef.unary (TRef.of (T := ⟨S8192, .f32⟩) main_call9_v1) (TRef.of (T := ⟨S8192x1, .f32⟩) main_call9_v2) (broadcastInDim S8192x1 ![0] bcast_S8192_S8192x1_0),
    TRef.unary (TRef.of (T := ⟨S8192x1, .f32⟩) main_call9_v2) (TRef.of (T := ⟨S8192x1, .f32⟩) main_v222) Host.sqrt,
    nullary main_cst_32 (constant S_ .f32 0x2B8CBCCC#32),
    unary main_cst_32 main_v223 (broadcastInDim S8192x1 ![] bcast_S_S8192x1),
    binary main_v222 main_v223 main_v224 maximumf,
    unary main_v224 main_v225 (broadcastInDim S8192x256 ![0, 1] bcast_S8192x1_S8192x256_0_1),
    binary main_v221 main_v225 main_v226 (Host.divf) ]

theorem ops21_ok : Good 296 (ops21 (F := F)) := by
  repeat first | exact .nil | refine .cons rfl _ rfl (by decide) ?_

end Cert.ReferenceIdeal.RefRun

end
-- ==== Proof.RefRun.lean ====
import proofs.«402905_j34316788695884_1_alg».proof.Proof.RefOps00
import proofs.«402905_j34316788695884_1_alg».proof.Proof.RefOps01
import proofs.«402905_j34316788695884_1_alg».proof.Proof.RefOps02
import proofs.«402905_j34316788695884_1_alg».proof.Proof.RefOps03
import proofs.«402905_j34316788695884_1_alg».proof.Proof.RefOps04
import proofs.«402905_j34316788695884_1_alg».proof.Proof.RefOps05
import Idealize.ShloMosaic.Lib.Pipeline.Frame
import Idealize.ShloMosaic.Lib.Pipeline.Regions

noncomputable section

namespace Cert.ReferenceIdeal.RefRun

open Cert.ReferenceIdeal Cert.ReferenceIdeal.Gen Cert.ReferenceIdeal.Eqs Idealize.ShloMosaic Idealize.ShloMosaic.TcCoe Idealize.SL.Sem
  Idealize.ShloMosaic.StableHlo

variable {F : FTy → Type} [FloatOps F]

abbrev opsAll : List (HloOp τ sig (Elt F)) :=
  ops00 ++ ops01 ++ ops02 ++ ops03 ++ ops04 ++ ops05 ++ ops06 ++ ops07 ++ ops08 ++ ops09 ++ ops10 ++ ops11 ++ ops12 ++ ops13 ++ ops14 ++ ops15 ++ ops16 ++ ops17 ++ ops18 ++ ops19 ++ ops20 ++ ops21

set_option maxRecDepth 16384 in
set_option maxHeartbeats 4000000 in
theorem main_eq (c : Dev nD) : main (F := F) c = seq opsAll := by chain_rfl

theorem opsAll_ok : Good 26 (opsAll (F := F)) :=
  ops00_ok.append ops01_ok |>.append ops02_ok |>.append ops03_ok |>.append ops04_ok |>.append ops05_ok |>.append ops06_ok |>.append ops07_ok |>.append ops08_ok |>.append ops09_ok |>.append ops10_ok |>.append ops11_ok |>.append ops12_ok |>.append ops13_ok |>.append ops14_ok |>.append ops15_ok |>.append ops16_ok |>.append ops17_ok |>.append ops18_ok |>.append ops19_ok |>.append ops20_ok |>.append ops21_ok

set_option maxHeartbeats 1000000 in
/-- A straight line of such operations runs to their fold over the launch contents. -/
theorem run_of (ops : List (HloOp τ sig (Elt F))) (hmain : ∀ c : Dev nD, main (F := F) c = seq ops) (h : Good 26 ops)
    (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (fun b => m (c, b)) (Proc.devRef .tc b) :=
  run_seq (by decide) (by decide) defs main (fun _ => ops) hmain
    (fun _ => List.forall_iff_forall_mem.mpr fun op hop => (h op hop).1) m ρ fun _ op hop => (h op hop).2.1

set_option maxHeartbeats 400000 in
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsAll (fun b => m (c, b)) (Proc.devRef .tc b) := by
  have hm := main_eq (F := F)
  have hg := opsAll_ok (F := F)
  generalize (opsAll (F := F)) = ops at hm hg ⊢
  exact run_of ops hm hg m ρ

theorem after_all (V : Valuation τ sig (Elt F)) :
    after opsAll V = after ops21 (after ops20 (after ops19 (after ops18 (after ops17 (after ops16 (after ops15 (after ops14 (after ops13 (after ops12 (after ops11 (after ops10 (after ops09 (after ops08 (after ops07 (after ops06 (after ops05 (after ops04 (after ops03 (after ops02 (after ops01 (after ops00 V))))))))))))))))))))) := by
  simp only [opsAll, after_append]

/-- No operation writes an argument. -/
theorem kept (V : Valuation τ sig (Elt F)) (r : Ref sig .tc) (hr : r.idx.val < 26) :
    after opsAll V (Proc.devRef .tc r) = V (Proc.devRef .tc r) := opsAll_ok.keep V r hr

end Cert.ReferenceIdeal.RefRun

end
-- ==== Proof.RefEqsTab.lean ====
import proofs.«402905_j34316788695884_1_alg».proof.Proof.RefOps00
import proofs.«402905_j34316788695884_1_alg».proof.Proof.RefOps01
import proofs.«402905_j34316788695884_1_alg».proof.Proof.RefOps02
import proofs.«402905_j34316788695884_1_alg».proof.Proof.RefOps03
import proofs.«402905_j34316788695884_1_alg».proof.Proof.RefOps04
import proofs.«402905_j34316788695884_1_alg».proof.Proof.RefOps05

set_option maxRecDepth 16384

noncomputable section

namespace Cert.ReferenceIdeal.Eqs

open Cert.ReferenceIdeal Cert.ReferenceIdeal.RefRun
open Idealize.ShloMosaic Idealize.ShloMosaic.TcCoe Idealize.SL.Sem Idealize.ShloMosaic.StableHlo

variable (m' : (ℓ : Loc nD τ sig) → Buf (Elt Ideal) ℓ) (c : Dev nD)

def S0 : Valuation τ sig (Elt Ideal) := after ops00 (fun b => m' ((c : Dev nD), b))
def S1 : Valuation τ sig (Elt Ideal) := after ops01 (S0 m' c)
def S2 : Valuation τ sig (Elt Ideal) := after ops02 (S1 m' c)
def S3 : Valuation τ sig (Elt Ideal) := after ops03 (S2 m' c)
def S4 : Valuation τ sig (Elt Ideal) := after ops04 (S3 m' c)
def S5 : Valuation τ sig (Elt Ideal) := after ops05 (S4 m' c)
def S6 : Valuation τ sig (Elt Ideal) := after ops06 (S5 m' c)
def S7 : Valuation τ sig (Elt Ideal) := after ops07 (S6 m' c)
def S8 : Valuation τ sig (Elt Ideal) := after ops08 (S7 m' c)
def S9 : Valuation τ sig (Elt Ideal) := after ops09 (S8 m' c)
def S10 : Valuation τ sig (Elt Ideal) := after ops10 (S9 m' c)
def S11 : Valuation τ sig (Elt Ideal) := after ops11 (S10 m' c)
def S12 : Valuation τ sig (Elt Ideal) := after ops12 (S11 m' c)
def S13 : Valuation τ sig (Elt Ideal) := after ops13 (S12 m' c)
def S14 : Valuation τ sig (Elt Ideal) := after ops14 (S13 m' c)
def S15 : Valuation τ sig (Elt Ideal) := after ops15 (S14 m' c)
def S16 : Valuation τ sig (Elt Ideal) := after ops16 (S15 m' c)
def S17 : Valuation τ sig (Elt Ideal) := after ops17 (S16 m' c)
def S18 : Valuation τ sig (Elt Ideal) := after ops18 (S17 m' c)
def S19 : Valuation τ sig (Elt Ideal) := after ops19 (S18 m' c)
def S20 : Valuation τ sig (Elt Ideal) := after ops20 (S19 m' c)
def S21 : Valuation τ sig (Elt Ideal) := after ops21 (S20 m' c)
def RF : Valuation τ sig (Elt Ideal) := S21 m' c

theorem S0_arg : Arg m' c (S0 m' c) := ops00_ok.keep _
theorem S1_keep : Agree 81 (S1 m' c) (S0 m' c) := ops01_ok.keep _

theorem RF_S21 (b : Ref sig .tc) : RF m' c (Proc.devRef .tc b) = S21 m' c (Proc.devRef .tc b) := rfl
theorem RF_S20 : Agree 296 (RF m' c) (S20 m' c) := ops21_ok.keep _
theorem RF_S19 : Agree 292 (RF m' c) (S19 m' c) := (RF_S20 m' c).trans (ops20_ok.keep _)
theorem RF_S18 : Agree 269 (RF m' c) (S18 m' c) := (RF_S19 m' c).trans (ops19_ok.keep _)
theorem RF_S17 : Agree 265 (RF m' c) (S17 m' c) := (RF_S18 m' c).trans (ops18_ok.keep _)
theorem RF_S16 : Agree 261 (RF m' c) (S16 m' c) := (RF_S17 m' c).trans (ops17_ok.keep _)
theorem RF_S15 : Agree 252 (RF m' c) (S15 m' c) := (RF_S16 m' c).trans (ops16_ok.keep _)
theorem RF_S14 : Agree 229 (RF m' c) (S14 m' c) := (RF_S15 m' c).trans (ops15_ok.keep _)
theorem RF_S13 : Agree 225 (RF m' c) (S13 m' c) := (RF_S14 m' c).trans (ops14_ok.keep _)
theorem RF_S12 : Agree 221 (RF m' c) (S12 m' c) := (RF_S13 m' c).trans (ops13_ok.keep _)
theorem RF_S11 : Agree 212 (RF m' c) (S11 m' c) := (RF_S12 m' c).trans (ops12_ok.keep _)
theorem RF_S10 : Agree 189 (RF m' c) (S10 m' c) := (RF_S11 m' c).trans (ops11_ok.keep _)
theorem RF_S9 : Agree 185 (RF m' c) (S9 m' c) := (RF_S10 m' c).trans (ops10_ok.keep _)
theorem RF_S8 : Agree 181 (RF m' c) (S8 m' c) := (RF_S9 m' c).trans (ops09_ok.keep _)
theorem RF_S7 : Agree 172 (RF m' c) (S7 m' c) := (RF_S8 m' c).trans (ops08_ok.keep _)
theorem RF_S6 : Agree 168 (RF m' c) (S6 m' c) := (RF_S7 m' c).trans (ops07_ok.keep _)
theorem RF_S5 : Agree 164 (RF m' c) (S5 m' c) := (RF_S6 m' c).trans (ops06_ok.keep _)
theorem RF_S4 : Agree 163 (RF m' c) (S4 m' c) := (RF_S5 m' c).trans (ops05_ok.keep _)
theorem RF_S3 : Agree 130 (RF m' c) (S3 m' c) := (RF_S4 m' c).trans (ops04_ok.keep _)
theorem RF_S2 : Agree 126 (RF m' c) (S2 m' c) := (RF_S3 m' c).trans (ops03_ok.keep _)
theorem RF_S1 : Agree 125 (RF m' c) (S1 m' c) := (RF_S2 m' c).trans (ops02_ok.keep _)
theorem RF_S0 : Agree 81 (RF m' c) (S0 m' c) := (RF_S1 m' c).trans (ops01_ok.keep _)
theorem RF_arg : Arg m' c (RF m' c) := (RF_S0 m' c).arg (S0_arg m' c)

theorem S2_up : Agree 126 (S2 m' c) (RF m' c) := (RF_S2 m' c).symm
theorem S5_up : Agree 164 (S5 m' c) (RF m' c) := (RF_S5 m' c).symm
theorem S7_up : Agree 172 (S7 m' c) (RF m' c) := (RF_S7 m' c).symm
theorem S8_up : Agree 181 (S8 m' c) (RF m' c) := (RF_S8 m' c).symm
theorem S9_up : Agree 185 (S9 m' c) (RF m' c) := (RF_S9 m' c).symm
theorem S10_up : Agree 189 (S10 m' c) (RF m' c) := (RF_S10 m' c).symm
theorem S11_up : Agree 212 (S11 m' c) (RF m' c) := (RF_S11 m' c).symm
theorem S12_up : Agree 221 (S12 m' c) (RF m' c) := (RF_S12 m' c).symm
theorem S13_up : Agree 225 (S13 m' c) (RF m' c) := (RF_S13 m' c).symm
theorem S14_up : Agree 229 (S14 m' c) (RF m' c) := (RF_S14 m' c).symm
theorem S15_up : Agree 252 (S15 m' c) (RF m' c) := (RF_S15 m' c).symm
theorem S16_up : Agree 261 (S16 m' c) (RF m' c) := (RF_S16 m' c).symm
theorem S17_up : Agree 265 (S17 m' c) (RF m' c) := (RF_S17 m' c).symm
theorem S18_up : Agree 269 (S18 m' c) (RF m' c) := (RF_S18 m' c).symm
theorem S19_up : Agree 292 (S19 m' c) (RF m' c) := (RF_S19 m' c).symm
theorem S20_up : Agree 296 (S20 m' c) (RF m' c) := (RF_S20 m' c).symm

theorem S2_arg : Arg m' c (S2 m' c) := (RF_S2 m' c).symm.arg (RF_arg m' c)
theorem S3_arg : Arg m' c (S3 m' c) := (RF_S3 m' c).symm.arg (RF_arg m' c)
theorem S5_arg : Arg m' c (S5 m' c) := (RF_S5 m' c).symm.arg (RF_arg m' c)
theorem S6_arg : Arg m' c (S6 m' c) := (RF_S6 m' c).symm.arg (RF_arg m' c)
theorem S10_arg : Arg m' c (S10 m' c) := (RF_S10 m' c).symm.arg (RF_arg m' c)
theorem S14_arg : Arg m' c (S14 m' c) := (RF_S14 m' c).symm.arg (RF_arg m' c)
theorem S18_arg : Arg m' c (S18 m' c) := (RF_S18 m' c).symm.arg (RF_arg m' c)
theorem S19_arg : Arg m' c (S19 m' c) := (RF_S19 m' c).symm.arg (RF_arg m' c)
theorem S20_arg : Arg m' c (S20 m' c) := (RF_S20 m' c).symm.arg (RF_arg m' c)

end Cert.ReferenceIdeal.Eqs

end
-- ==== Proof.KIPeel.lean ====
import proofs.«402905_j34316788695884_1_alg».proof.Proof.KIFam

noncomputable section

namespace Cert.KernelIdeal.Peel

open Cert.KernelIdeal Cert.KernelIdeal.Gen Cert.KernelIdeal.Fam
open Idealize.ShloMosaic Idealize.ShloMosaic.TcCoe

variable {F : FTy → Type} [FloatOps F]

abbrev Skips (ops : List (HloOp τ sig (Elt F))) (b : Ref sig .tc) : Prop :=
  ∀ op ∈ ops, Proc.devRef (τ := τ) .tc b ∉ op.writes

theorem after_skips (ops : List (HloOp τ sig (Elt F))) (V : Valuation τ sig (Elt F)) (b : Ref sig .tc) (h : Skips ops b) :
    StableHlo.after ops V (Proc.devRef .tc b) = V (Proc.devRef .tc b) :=
  StableHlo.after_of_forall_not_mem ops V h

variable (m : (ℓ : Loc nD τ sig) → Buf (Elt F) ℓ) (c : Dev nD) (b : Ref sig .tc)

/-- One stage: past operations that skip `b` and a write at another reference, `b` holds what it held. -/
theorem step {ops : List (HloOp τ sig (Elt F))} {V : Valuation τ sig (Elt F)} {o : Ref sig .tc} {x : Buf (Elt F) ((c : Thread nD τ).loc o)}
    (hs : Skips ops b) (ho : o ≠ b) : setAt c (StableHlo.after ops V) o x (Proc.devRef .tc b) = V (Proc.devRef .tc b) :=
  (setAt_of_ne c _ o x b ho).trans (after_skips ops V b hs)

theorem leave0 (ho : Pipeline.arrRef spec0 3 ≠ b) : E0 m c (Proc.devRef .tc b) = W0 m c (Proc.devRef .tc b) := setAt_of_ne c _ _ _ b ho
theorem leave1 (ho : Pipeline.arrRef spec1 3 ≠ b) : E1 m c (Proc.devRef .tc b) = W1 m c (Proc.devRef .tc b) := setAt_of_ne c _ _ _ b ho
theorem leave2 (ho : Pipeline.arrRef spec2 2 ≠ b) : E2 m c (Proc.devRef .tc b) = W2 m c (Proc.devRef .tc b) := setAt_of_ne c _ _ _ b ho
theorem leave3 (ho : Pipeline.arrRef spec3 6 ≠ b) : E3 m c (Proc.devRef .tc b) = W3 m c (Proc.devRef .tc b) := setAt_of_ne c _ _ _ b ho
theorem leave4 (ho : Pipeline.arrRef spec4 2 ≠ b) : E4 m c (Proc.devRef .tc b) = W4 m c (Proc.devRef .tc b) := setAt_of_ne c _ _ _ b ho
theorem leave5 (ho : Pipeline.arrRef spec5 6 ≠ b) : E5 m c (Proc.devRef .tc b) = W5 m c (Proc.devRef .tc b) := setAt_of_ne c _ _ _ b ho
theorem leave6 (ho : Pipeline.arrRef spec6 2 ≠ b) : E6 m c (Proc.devRef .tc b) = W6 m c (Proc.devRef .tc b) := setAt_of_ne c _ _ _ b ho
theorem leave7 (ho : Pipeline.arrRef spec7 6 ≠ b) : E7 m c (Proc.devRef .tc b) = W7 m c (Proc.devRef .tc b) := setAt_of_ne c _ _ _ b ho
theorem leave8 (ho : Pipeline.arrRef spec8 3 ≠ b) : E8 m c (Proc.devRef .tc b) = W8 m c (Proc.devRef .tc b) := setAt_of_ne c _ _ _ b ho

theorem enter1 (h : Skips (F := F) hostOps1 b) : W1 m c (Proc.devRef .tc b) = E0 m c (Proc.devRef .tc b) := after_skips hostOps1 _ b h
theorem enter2 (h : Skips (F := F) hostOps2 b ∧ Skips (F := F) hostOps2_1 b) : W2 m c (Proc.devRef .tc b) = E1 m c (Proc.devRef .tc b) :=
  (after_skips hostOps2_1 _ b h.2).trans (after_skips hostOps2 _ b h.1)
theorem enter3 (h : Skips (F := F) hostOps3 b) : W3 m c (Proc.devRef .tc b) = E2 m c (Proc.devRef .tc b) := after_skips hostOps3 _ b h
theorem enter4 (h : Skips (F := F) hostOps4 b) : W4 m c (Proc.devRef .tc b) = E3 m c (Proc.devRef .tc b) := after_skips hostOps4 _ b h
theorem enter5 (h : Skips (F := F) hostOps5 b) : W5 m c (Proc.devRef .tc b) = E4 m c (Proc.devRef .tc b) := after_skips hostOps5 _ b h
theorem enter6 (h : Skips (F := F) hostOps6 b) : W6 m c (Proc.devRef .tc b) = E5 m c (Proc.devRef .tc b) := after_skips hostOps6 _ b h
theorem enter7 (h : Skips (F := F) hostOps7 b) : W7 m c (Proc.devRef .tc b) = E6 m c (Proc.devRef .tc b) := after_skips hostOps7 _ b h
theorem enter8 (h : Skips (F := F) hostOps8 b) : W8 m c (Proc.devRef .tc b) = E7 m c (Proc.devRef .tc b) := after_skips hostOps8 _ b h

abbrev After7 (b : Ref sig .tc) : Prop := Skips (F := F) hostOps8 b ∧ Pipeline.arrRef spec8 3 ≠ b
abbrev After6 (b : Ref sig .tc) : Prop := (Skips (F := F) hostOps7 b ∧ Pipeline.arrRef spec7 6 ≠ b) ∧ After7 (F := F) b
abbrev After5 (b : Ref sig .tc) : Prop := (Skips (F := F) hostOps6 b ∧ Pipeline.arrRef spec6 2 ≠ b) ∧ After6 (F := F) b
abbrev After4 (b : Ref sig .tc) : Prop := (Skips (F := F) hostOps5 b ∧ Pipeline.arrRef spec5 6 ≠ b) ∧ After5 (F := F) b
abbrev After3 (b : Ref sig .tc) : Prop := (Skips (F := F) hostOps4 b ∧ Pipeline.arrRef spec4 2 ≠ b) ∧ After4 (F := F) b
abbrev After2 (b : Ref sig .tc) : Prop := (Skips (F := F) hostOps3 b ∧ Pipeline.arrRef spec3 6 ≠ b) ∧ After3 (F := F) b
abbrev After1 (b : Ref sig .tc) : Prop := (Skips (F := F) hostOps2 b ∧ Skips (F := F) hostOps2_1 b ∧ Pipeline.arrRef spec2 2 ≠ b) ∧ After2 (F := F) b
abbrev After0 (b : Ref sig .tc) : Prop := (Skips (F := F) hostOps1 b ∧ Pipeline.arrRef spec1 3 ≠ b) ∧ After1 (F := F) b

theorem last7 (h : After7 (F := F) b) : E8 m c (Proc.devRef .tc b) = E7 m c (Proc.devRef .tc b) := step c b h.1 h.2
theorem last6 (h : After6 (F := F) b) : E8 m c (Proc.devRef .tc b) = E6 m c (Proc.devRef .tc b) := (last7 m c b h.2).trans (step c b h.1.1 h.1.2)
theorem last5 (h : After5 (F := F) b) : E8 m c (Proc.devRef .tc b) = E5 m c (Proc.devRef .tc b) := (last6 m c b h.2).trans (step c b h.1.1 h.1.2)
theorem last4 (h : After4 (F := F) b) : E8 m c (Proc.devRef .tc b) = E4 m c (Proc.devRef .tc b) := (last5 m c b h.2).trans (step c b h.1.1 h.1.2)
theorem last3 (h : After3 (F := F) b) : E8 m c (Proc.devRef .tc b) = E3 m c (Proc.devRef .tc b) := (last4 m c b h.2).trans (step c b h.1.1 h.1.2)
theorem last2 (h : After2 (F := F) b) : E8 m c (Proc.devRef .tc b) = E2 m c (Proc.devRef .tc b) := (last3 m c b h.2).trans (step c b h.1.1 h.1.2)
theorem last1 (h : After1 (F := F) b) : E8 m c (Proc.devRef .tc b) = E1 m c (Proc.devRef .tc b) :=
  (last2 m c b h.2).trans ((leave2 m c b h.1.2.2).trans (enter2 m c b ⟨h.1.1, h.1.2.1⟩))
theorem last0 (h : After0 (F := F) b) : E8 m c (Proc.devRef .tc b) = E0 m c (Proc.devRef .tc b) := (last1 m c b h.2).trans (step c b h.1.1 h.1.2)

theorem into8 (ho : Pipeline.arrRef spec8 3 ≠ b) : E8 m c (Proc.devRef .tc b) = W8 m c (Proc.devRef .tc b) := leave8 m c b ho
theorem into7 (ho : Pipeline.arrRef spec7 6 ≠ b) (h : After7 (F := F) b) : E8 m c (Proc.devRef .tc b) = W7 m c (Proc.devRef .tc b) := (last7 m c b h).trans (leave7 m c b ho)
theorem into6 (ho : Pipeline.arrRef spec6 2 ≠ b) (h : After6 (F := F) b) : E8 m c (Proc.devRef .tc b) = W6 m c (Proc.devRef .tc b) := (last6 m c b h).trans (leave6 m c b ho)
theorem into5 (ho : Pipeline.arrRef spec5 6 ≠ b) (h : After5 (F := F) b) : E8 m c (Proc.devRef .tc b) = W5 m c (Proc.devRef .tc b) := (last5 m c b h).trans (leave5 m c b ho)
theorem into4 (ho : Pipeline.arrRef spec4 2 ≠ b) (h : After4 (F := F) b) : E8 m c (Proc.devRef .tc b) = W4 m c (Proc.devRef .tc b) := (last4 m c b h).trans (leave4 m c b ho)
theorem into3 (ho : Pipeline.arrRef spec3 6 ≠ b) (h : After3 (F := F) b) : E8 m c (Proc.devRef .tc b) = W3 m c (Proc.devRef .tc b) := (last3 m c b h).trans (leave3 m c b ho)
theorem into2 (ho : Pipeline.arrRef spec2 2 ≠ b) (h : After2 (F := F) b) : E8 m c (Proc.devRef .tc b) = W2 m c (Proc.devRef .tc b) := (last2 m c b h).trans (leave2 m c b ho)
theorem into1 (ho : Pipeline.arrRef spec1 3 ≠ b) (h : After1 (F := F) b) : E8 m c (Proc.devRef .tc b) = W1 m c (Proc.devRef .tc b) := (last1 m c b h).trans (leave1 m c b ho)
theorem into0 (ho : Pipeline.arrRef spec0 3 ≠ b) (h : After0 (F := F) b) : E8 m c (Proc.devRef .tc b) = W0 m c (Proc.devRef .tc b) := (last0 m c b h).trans (leave0 m c b ho)

abbrev KF (b : Ref sig .tc) : Buf (Elt F) ((c : Thread nD τ).loc b) := E8 m c (Proc.devRef .tc b)

end Cert.KernelIdeal.Peel

end
-- ==== Proof.ValAffine.lean ====
import proofs.«402905_j34316788695884_1_alg».proof.Proof.Gen.KernelIdeal.Skeleton
import proofs.«402905_j34316788695884_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.SL.Sem Idealize.ShloMosaic.ValueIdx

namespace Cert.Val.Affine

theorem hz2 : (![0, 0] : Fin 2 → Nat) = fun _ => 0 := funext fun a => by fin_cases a <;> rfl
theorem hz1 : (![0] : Fin 1 → Nat) = fun _ => 0 := funext fun a => by fin_cases a <;> rfl

variable {R K : Nat}

/-- x · w + b: entry (r, q) is row r of x against column q of w, plus b q. -/
def affine (x : FVec Ideal ⟨2, ![R, K]⟩ .f32) (w : FVec Ideal ⟨2, ![K, 128]⟩ .f32) (b : FVec Ideal ⟨1, ![128]⟩ .f32) :
    FVec Ideal ⟨2, ![R, 128]⟩ .f32 :=
  fun i => (∑ k : Fin K, x (ix2 (i 0) k) * w (ix2 k (i 1))) + b (ix1 (i 1))

/-- Entries whose row of x, column of w and entry of b agree are equal. -/
theorem affine_congr {M : Nat} {x0 : FVec Ideal ⟨2, ![M, K]⟩ .f32} {x : FVec Ideal ⟨2, ![R, K]⟩ .f32}
    {x1 w : FVec Ideal ⟨2, ![K, 128]⟩ .f32} {x2 b : FVec Ideal ⟨1, ![128]⟩ .f32}
    {i : (⟨2, ![M, 128]⟩ : Shape).Idx} {i' : (⟨2, ![R, 128]⟩ : Shape).Idx}
    (h0 : ∀ k, x0 (ix2 (i 0) k) = x (ix2 (i' 0) k)) (h1 : ∀ k, x1 (ix2 k (i 1)) = w (ix2 k (i' 1)))
    (h2 : x2 (ix1 (i 1)) = b (ix1 (i' 1))) : affine x0 x1 x2 i = affine x w b i' :=
  congrArg₂ (· + ·) (Finset.sum_congr rfl fun k _ => congrArg₂ (· * ·) (h0 k) (h1 k)) h2

/-- Rows times columns: the one contracted axis is the operands' shared coordinate, read at (r, k) and (k, q). -/
theorem plain_sum (x : FVec Ideal ⟨2, ![R, K]⟩ .f32) (w : FVec Ideal ⟨2, ![K, 128]⟩ .f32) (i : (⟨2, ![R, 128]⟩ : Shape).Idx) :
    ∑ k : (DotDims.plain R K 128).contr.Idx, x ((DotDims.plain R K 128).lhsIdx i k) * w ((DotDims.plain R K 128).rhsIdx i k)
      = ∑ k : Fin K, x (ix2 (i 0) k) * w (ix2 k (i 1)) := by
  rw [← Equiv.sum_comp (contrEquiv1 (DotDims.plain R K 128) K rfl rfl).symm]
  refine Finset.sum_congr rfl fun k _ => ?_
  have hk := contrEquiv1_symm_val (DotDims.plain R K 128) K rfl rfl k
  refine congrArg₂ (· * ·) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- A product into a zero accumulator, plus a bias cast to one row and broadcast down the rows, is x · w + b. -/
theorem body_eq (x0 : FVec Ideal ⟨2, ![R, K]⟩ .f32) (x1 : FVec Ideal ⟨2, ![K, 128]⟩ .f32) (x2 : FVec Ideal ⟨1, ![128]⟩ .f32)
    (hc : (⟨2, ![R, K]⟩ : Shape).ShapeCasts ⟨2, ![R, K]⟩) (hs : (⟨1, ![128]⟩ : Shape).ShapeCasts ⟨2, ![1, 128]⟩)
    (hb : (⟨2, ![1, 128]⟩ : Shape).Broadcasts ⟨2, ![R, 128]⟩) :
    addf (matmul (DotDims.plain R K 128) none (shapeCast ⟨2, ![R, K]⟩ x0 hc) x1 (constant ⟨2, ![R, 128]⟩ .f32 0x00000000#32))
      (broadcastTo ⟨2, ![R, 128]⟩ (shapeCast ⟨2, ![1, 128]⟩ x2 hs) hb) = affine x0 x1 x2 := by
  funext i
  rw [shapeCast_self]
  refine congrArg₂ (· + ·) ((Ideal.matmul_constant_zero_apply _ none x0 x1 i).trans (plain_sum x0 x1 i)) ?_
  refine (broadcastTo_apply _ _ i (ix2 (0 : Fin 1) (i 1)) fun a => ?_).trans ?_
  · match a with
    | ⟨0, _⟩ => rfl
    | ⟨1, _⟩ => rfl
  · refine shapeCast_apply x2 _ (ix2 (0 : Fin 1) (i 1)) (ix1 (i 1)) ?_
    rw [Shape.rowMajor_val_one, Shape.rowMajor_val_two]
    show (i 1).val = 0 * 128 + (i 1).val
    omega

/-- The whole arrays' product plus b broadcast to one row and then down the rows is x · w + b. -/
theorem ref_eq (x : FVec Ideal ⟨2, ![R, K]⟩ .f32) (w : FVec Ideal ⟨2, ![K, 128]⟩ .f32) (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![R, 128]⟩ ![0, 1]) :
    addf (Host.dotGeneral (F := Ideal) (DotDims.plain R K 128) none x w)
      (broadcastInDim ⟨2, ![R, 128]⟩ ![0, 1] h2 (broadcastInDim ⟨2, ![1, 128]⟩ ![1] h1 b)) = affine x w b := by
  funext i
  refine congrArg₂ (· + ·) ((Ideal.dotGeneral_apply _ none .single x w i).trans (plain_sum x w i)) ?_
  refine (broadcastInDim_apply _ _ _ i (ix2 (0 : Fin 1) (i 1)) fun a => ?_).trans ?_
  · match a with
    | ⟨0, _⟩ => rfl
    | ⟨1, _⟩ => rfl
  · refine broadcastInDim_apply _ _ b (ix2 (0 : Fin 1) (i 1)) (ix1 (i 1)) fun a => ?_
    match a with
    | ⟨0, _⟩ => rfl

end Cert.Val.Affine

namespace Cert.Val.Reg0

open Cert.Val.Affine Cert.KernelIdeal Cert.KernelIdeal.Gen

theorem payload_eq (x0 : Vec Ideal S4000x288 .f32) (x1 : Vec Ideal S288x128 .f32) (x2 : Vec Ideal S128 .f32) :
    k0_pay1 (F := Ideal) x0 x1 x2 = affine x0 x1 x2 :=
  body_eq x0 x1 x2 _ _ _

/-- x · w + b as the reference spells it: the whole arrays' product, plus b made one row and repeated down the rows. -/
def refTerm (x : FVec Ideal Cert.ReferenceIdeal.S200000x288 .f32) (w : FVec Ideal Cert.ReferenceIdeal.S288x128 .f32)
    (b : FVec Ideal Cert.ReferenceIdeal.S128 .f32) : FVec Ideal Cert.ReferenceIdeal.S200000x128 .f32 :=
  addf
    (Host.dotGeneral (F := Ideal) Cert.ReferenceIdeal.dot_S200000x288_S288x128_S200000x128_1_0_0_1_n_n none x w)
    (broadcastInDim Cert.ReferenceIdeal.S200000x128 ![0, 1] Cert.ReferenceIdeal.Facts₀.bcast_S1x128_S200000x128_0_1
      (broadcastInDim Cert.ReferenceIdeal.S1x128 ![1] Cert.ReferenceIdeal.Facts₀.bcast_S128_S1x128_1 b))

theorem refTerm_eq_affine (x : FVec Ideal S200000x288 .f32) (w : FVec Ideal S288x128 .f32) (b : FVec Ideal S128 .f32) :
    refTerm x w b = affine x w b :=
  ref_eq x w b _ _

end Cert.Val.Reg0

namespace Cert.Val.Reg1

open Cert.Val.Affine Cert.KernelIdeal Cert.KernelIdeal.Gen

theorem payload_eq (x0 : Vec Ideal S10000x96 .f32) (x1 : Vec Ideal S96x128 .f32) (x2 : Vec Ideal S128 .f32) :
    k1_pay1 (F := Ideal) x0 x1 x2 = affine x0 x1 x2 :=
  body_eq x0 x1 x2 _ _ _

def refTerm (x : FVec Ideal Cert.ReferenceIdeal.S800000x96 .f32) (w : FVec Ideal Cert.ReferenceIdeal.S96x128 .f32)
    (b : FVec Ideal Cert.ReferenceIdeal.S128 .f32) : FVec Ideal Cert.ReferenceIdeal.S800000x128 .f32 :=
  addf
    (Host.dotGeneral (F := Ideal) Cert.ReferenceIdeal.dot_S800000x96_S96x128_S800000x128_1_0_0_1_n_n none x w)
    (broadcastInDim Cert.ReferenceIdeal.S800000x128 ![0, 1] Cert.ReferenceIdeal.Facts₀.bcast_S1x128_S800000x128_0_1
      (broadcastInDim Cert.ReferenceIdeal.S1x128 ![1] Cert.ReferenceIdeal.Facts₀.bcast_S128_S1x128_1 b))

theorem refTerm_eq_affine (x : FVec Ideal S800000x96 .f32) (w : FVec Ideal S96x128 .f32) (b : FVec Ideal S128 .f32) :
    refTerm x w b = affine x w b :=
  ref_eq x w b _ _

end Cert.Val.Reg1

end
-- ==== Proof.ValAffineArr.lean ====
import proofs.«402905_j34316788695884_1_alg».proof.Proof.KIReg0
import proofs.«402905_j34316788695884_1_alg».proof.Proof.KIReg1
import proofs.«402905_j34316788695884_1_alg».proof.Proof.ValAffine

set_option maxRecDepth 16384

noncomputable section

open scoped BigOperators

namespace Cert.Val

open Idealize.ShloMosaic Idealize.ShloMosaic.TcCoe Idealize.SL.Sem Idealize.ShloMosaic.ValueIdx
open Cert.Val.Affine Cert.KernelIdeal Cert.KernelIdeal.Gen

variable (c : Dev nD) (W : Valuation τ sig (Elt Ideal))

namespace Reg0

abbrev xA : FVec Ideal S200000x288 .f32 := KernelIdeal.Reg0.at_ c W (Pipeline.arrRef spec0 0)
abbrev wA : FVec Ideal S288x128 .f32 := KernelIdeal.Reg0.at_ c W (Pipeline.arrRef spec0 1)
abbrev bA : FVec Ideal S128 .f32 := KernelIdeal.Reg0.at_ c W (Pipeline.arrRef spec0 2)

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Point t's rows of x are rows 4000 t … of the array and its w and b are the whole arrays, so its result is block t of x · w + b. -/
theorem flushed_eq (t : Fin cfg0.N) :
    (KernelIdeal.Reg0.dat c W).flushed 3 t
      = ((cfg0.win 3).blk t).view.read (Elt Ideal) (affine (xA c W) (wA c W) (bA c W)) := by
  obtain ⟨e0, e1, e2, e3, e4, e5, e6⟩ := idx_facts t
  show (cfg0.win 3).cut (grid0.coords t) ((KernelIdeal.Reg0.dat c W).after 3 t) = _
  rw [KernelIdeal.Reg0.after_3]
  unfold KernelIdeal.Reg0.out
  rw [View.canon_unit_zero hz2]
  simp only [View.ld_unit_zero (S := S4000x288) hz2, View.ld_unit_zero (S := S288x128) hz2, View.ld_unit_zero (S := S128) hz1]
  rw [payload_eq]
  funext j
  refine affine_congr (fun k => ?_) (fun k => ?_) ?_ <;> unfold KernelIdeal.Reg0.iblk <;> rw [View.read_apply]
  · show xA c W _ = xA c W _
    congr 1; funext a; apply Fin.ext
    match a with
    | ⟨0, _⟩ =>
      show win0_0.index t (0 : Fin 2) * 4000 + 1 * (j 0).val = win0_3.index t (0 : Fin 2) * 4000 + 1 * (j 0).val
      rw [e0, e5]
    | ⟨1, _⟩ => show win0_0.index t (1 : Fin 2) * 288 + 1 * k.val = k.val; rw [e1]; omega
  · show wA c W _ = wA c W _
    congr 1; funext a; apply Fin.ext
    match a with
    | ⟨0, _⟩ => show win0_1.index t (0 : Fin 2) * 288 + 1 * k.val = k.val; rw [e2]; omega
    | ⟨1, _⟩ =>
      show win0_1.index t (1 : Fin 2) * 128 + 1 * (j 1).val = win0_3.index t (1 : Fin 2) * 128 + 1 * (j 1).val
      rw [e3, e6]
  · show bA c W _ = bA c W _
    congr 1; funext a; apply Fin.ext
    match a with
    | ⟨0, _⟩ =>
      show win0_2.index t (0 : Fin 1) * 128 + 1 * (j 1).val = win0_3.index t (1 : Fin 2) * 128 + 1 * (j 1).val
      rw [e4, e6]

/-- The 50 blocks of 4000 rows tile the 200000 rows: row r is in block r / 4000. -/
theorem covered (i : S200000x128.Idx) :
    ∃ t : Fin cfg0.N, (cfg0.win 3).flush t = true ∧ i ∈ ((cfg0.win 3).blk t).view.set := by
  have h0 := idx2_lt0 i
  have h1 := idx2_lt1 i
  obtain ⟨t, ht⟩ : ∃ t : Fin cfg0.N, t.val = (i 0).val / 4000 :=
    ⟨⟨_, Nat.lt_of_lt_of_eq (by omega : (i 0).val / 4000 < 50) N_0.symm⟩, rfl⟩
  obtain ⟨-, -, -, -, -, e5, e6⟩ := idx_facts t
  refine ⟨t, flush0_3 t, ?_⟩
  show i ∈ ((View.whole main_v82).slice (win0_3.rect t)).set
  rw [View.set_slice_whole, Rect.mem_set_unit]
  intro a
  match a with
  | ⟨0, _⟩ =>
    show win0_3.index t (0 : Fin 2) * 4000 ≤ (i 0).val ∧ (i 0).val < win0_3.index t (0 : Fin 2) * 4000 + 4000
    rw [e5]; omega
  | ⟨1, _⟩ =>
    show win0_3.index t (1 : Fin 2) * 128 ≤ (i 1).val ∧ (i 1).val < win0_3.index t (1 : Fin 2) * 128 + 128
    rw [e6]; omega

/-- So the region's output array ends as the reference's x · w + b of the three arrays the region found. -/
theorem region_eq :
    (KernelIdeal.Reg0.dat c W).arrAt ⟨3, by decide⟩ cfg0.N
      = refTerm (KernelIdeal.Reg0.at_ c W (Pipeline.arrRef spec0 0)) (KernelIdeal.Reg0.at_ c W (Pipeline.arrRef spec0 1))
          (KernelIdeal.Reg0.at_ c W (Pipeline.arrRef spec0 2)) :=
  ((KernelIdeal.Reg0.dat c W).arrAt_eq_of_cover 3 (affine (xA c W) (wA c W) (bA c W)) (fun t _ => flushed_eq c W t) covered).trans
    (refTerm_eq_affine (xA c W) (wA c W) (bA c W)).symm

end Reg0

namespace Reg1

abbrev xA : FVec Ideal S800000x96 .f32 := KernelIdeal.Reg1.at_ c W (Pipeline.arrRef spec1 0)
abbrev wA : FVec Ideal S96x128 .f32 := KernelIdeal.Reg1.at_ c W (Pipeline.arrRef spec1 1)
abbrev bA : FVec Ideal S128 .f32 := KernelIdeal.Reg1.at_ c W (Pipeline.arrRef spec1 2)

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem flushed_eq (t : Fin cfg1.N) :
    (KernelIdeal.Reg1.dat c W).flushed 3 t
      = ((cfg1.win 3).blk t).view.read (Elt Ideal) (affine (xA c W) (wA c W) (bA c W)) := by
  obtain ⟨e0, e1, e2, e3, e4, e5, e6⟩ := idx_facts t
  show (cfg1.win 3).cut (grid1.coords t) ((KernelIdeal.Reg1.dat c W).after 3 t) = _
  rw [KernelIdeal.Reg1.after_3]
  unfold KernelIdeal.Reg1.out
  rw [View.canon_unit_zero hz2]
  simp only [View.ld_unit_zero (S := S10000x96) hz2, View.ld_unit_zero (S := S96x128) hz2, View.ld_unit_zero (S := S128) hz1]
  rw [payload_eq]
  funext j
  refine affine_congr (fun k => ?_) (fun k => ?_) ?_ <;> unfold KernelIdeal.Reg1.iblk <;> rw [View.read_apply]
  · show xA c W _ = xA c W _
    congr 1; funext a; apply Fin.ext
    match a with
    | ⟨0, _⟩ =>
      show win1_0.index t (0 : Fin 2) * 10000 + 1 * (j 0).val = win1_3.index t (0 : Fin 2) * 10000 + 1 * (j 0).val
      rw [e0, e5]
    | ⟨1, _⟩ => show win1_0.index t (1 : Fin 2) * 96 + 1 * k.val = k.val; rw [e1]; omega
  · show wA c W _ = wA c W _
    congr 1; funext a; apply Fin.ext
    match a with
    | ⟨0, _⟩ => show win1_1.index t (0 : Fin 2) * 96 + 1 * k.val = k.val; rw [e2]; omega
    | ⟨1, _⟩ =>
      show win1_1.index t (1 : Fin 2) * 128 + 1 * (j 1).val = win1_3.index t (1 : Fin 2) * 128 + 1 * (j 1).val
      rw [e3, e6]
  · show bA c W _ = bA c W _
    congr 1; funext a; apply Fin.ext
    match a with
    | ⟨0, _⟩ =>
      show win1_2.index t (0 : Fin 1) * 128 + 1 * (j 1).val = win1_3.index t (1 : Fin 2) * 128 + 1 * (j 1).val
      rw [e4, e6]

theorem covered (i : S800000x128.Idx) :
    ∃ t : Fin cfg1.N, (cfg1.win 3).flush t = true ∧ i ∈ ((cfg1.win 3).blk t).view.set := by
  have h0 := idx2_lt0 i
  have h1 := idx2_lt1 i
  obtain ⟨t, ht⟩ : ∃ t : Fin cfg1.N, t.val = (i 0).val / 10000 :=
    ⟨⟨_, Nat.lt_of_lt_of_eq (by omega : (i 0).val / 10000 < 80) N_1.symm⟩, rfl⟩
  obtain ⟨-, -, -, -, -, e5, e6⟩ := idx_facts t
  refine ⟨t, flush1_3 t, ?_⟩
  show i ∈ ((View.whole main_v111).slice (win1_3.rect t)).set
  rw [View.set_slice_whole, Rect.mem_set_unit]
  intro a
  match a with
  | ⟨0, _⟩ =>
    show win1_3.index t (0 : Fin 2) * 10000 ≤ (i 0).val ∧ (i 0).val < win1_3.index t (0 : Fin 2) * 10000 + 10000
    rw [e5]; omega
  | ⟨1, _⟩ =>
    show win1_3.index t (1 : Fin 2) * 128 ≤ (i 1).val ∧ (i 1).val < win1_3.index t (1 : Fin 2) * 128 + 128
    rw [e6]; omega

theorem region_eq :
    (KernelIdeal.Reg1.dat c W).arrAt ⟨3, by decide⟩ cfg1.N
      = refTerm (KernelIdeal.Reg1.at_ c W (Pipeline.arrRef spec1 0)) (KernelIdeal.Reg1.at_ c W (Pipeline.arrRef spec1 1))
          (KernelIdeal.Reg1.at_ c W (Pipeline.arrRef spec1 2)) :=
  ((KernelIdeal.Reg1.dat c W).arrAt_eq_of_cover 3 (affine (xA c W) (wA c W) (bA c W)) (fun t _ => flushed_eq c W t) covered).trans
    (refTerm_eq_affine (xA c W) (wA c W) (bA c W)).symm

end Reg1

end Cert.Val

end
-- ==== Proof.ValMsg.lean ====
import proofs.«402905_j34316788695884_1_alg».proof.Proof.KIReg2
import proofs.«402905_j34316788695884_1_alg».proof.Proof.KIReg4
import proofs.«402905_j34316788695884_1_alg».proof.Proof.KIReg6
import proofs.«402905_j34316788695884_1_alg».proof.Proof.Gen.ReferenceIdeal
import Idealize.ShloMosaic.Lib.Pipeline.Value
import Idealize.ShloMosaic.Lib.IdealHost

noncomputable section

namespace Cert.Val

open Idealize.ShloMosaic Idealize.ShloMosaic.ValueIdx Cert.KernelIdeal Cert.KernelIdeal.Gen Idealize.ShloMosaic.TcCoe Idealize.SL.Sem

/-- The reference's message stage: the two operand arrays' sum, then the maximum with zero. -/
def refTerm (hs e : FVec Ideal Cert.ReferenceIdeal.S800000x128 .f32) : FVec Ideal Cert.ReferenceIdeal.S800000x128 .f32 :=
  maximumf (addf hs e)
    (broadcastInDim Cert.ReferenceIdeal.S800000x128 ![] Cert.ReferenceIdeal.Facts₀.bcast_S_S800000x128
      (constant (F := Ideal) Cert.ReferenceIdeal.S_ .f32 0x00000000#32))

theorem refTerm_apply (hs e : FVec Ideal Cert.ReferenceIdeal.S800000x128 .f32) (j : Cert.ReferenceIdeal.S800000x128.Idx) :
    refTerm hs e j = max (hs j + e j) (Ideal.ofBits .f32 0x00000000#32) := by
  unfold refTerm
  rw [maximumf_apply, addf_apply, broadcastInDim_scalar_apply, constant_apply]

theorem hz : (![0, 0] : Fin 2 → Nat) = fun _ => 0 := funext fun a => by fin_cases a <;> rfl

/-- The larger of zero and the sum of two blocks, read off two arrays at the places `e`, is the reference's stage there (the three regions' block functions are this one term). -/
theorem Msg.block_eq {A0 A1 : FVec Ideal S800000x128 .f32} {e : S8000x128.Idx → S800000x128.Idx} {x0 x1 X : Vec Ideal S8000x128 .f32}
    {inb : ∀ a, ![0, 0] a + S8000x128.size a ≤ S8000x128.size a}
    (hX : X = View.canon [(⟨Rect.unit ![0, 0] S8000x128.size inb,
        k2_pay1 (View.ld x0 (Rect.unit ![0, 0] S8000x128.size inb)) (View.ld x1 (Rect.unit ![0, 0] S8000x128.size inb))⟩ :
          View.Piece (Elt Ideal) S8000x128 .f32)])
    (h0 : ∀ j, x0 j = A0 (e j)) (h1 : ∀ j, x1 j = A1 (e j)) : X = fun j => refTerm A0 A1 (e j) := by
  rw [hX, View.canon_unit_zero hz, View.ld_unit_zero hz, View.ld_unit_zero hz]
  funext j
  rw [refTerm_apply, ← h0, ← h1]
  unfold k2_pay1
  simp only [shapeCast_self]
  rfl

/-- Row r lies in the block of 8000 rows numbered r / 8000. -/
theorem Msg.mem_rows (i : S800000x128.Idx) {N : Nat} (hN : N = 100) {ix : Fin N → Fin 2 → Nat} (hix : ∀ t, ix t = ![t.val, 0]) :
    ∃ t : Fin N, ∀ inb, i ∈ (Rect.unit (s := S800000x128) (fun a => ix t a * S8000x128.size a) S8000x128.size inb).set := by
  subst hN
  have h0 : (i 0).val < 800000 := (i 0).isLt
  have h1 : (i 1).val < 128 := (i 1).isLt
  refine ⟨⟨(i 0).val / 8000, by omega⟩, fun inb => ?_⟩
  rw [Rect.mem_set_unit]
  intro a
  rw [hix]
  fin_cases a
  · show (i 0).val / 8000 * 8000 ≤ (i 0).val ∧ (i 0).val < (i 0).val / 8000 * 8000 + 8000
    omega
  · show 0 * 128 ≤ (i 1).val ∧ (i 1).val < 0 * 128 + 128
    omega

/-- A rectangle's elements are those under the whole array's slice by it. -/
theorem Msg.mem_whole {b : Ref sig .tc} {r : Rect b.ty.shape} {i : b.ty.Idx} (h : i ∈ r.set) : i ∈ ((View.whole b).slice r).set :=
  (View.set_slice_whole b r).symm ▸ h

/-- After the region its output array is the reference's message stage of its two input arrays. -/
theorem Reg2.region_eq (c : Dev nD) (W : Valuation τ sig (Elt Ideal)) :
    (Reg2.dat c W).arrAt ⟨2, by decide⟩ cfg2.N
      = refTerm (Reg2.at_ c W (Pipeline.arrRef spec2 0)) (Reg2.at_ c W (Pipeline.arrRef spec2 1)) :=
  (Reg2.dat c W).arrAt_eq_of_cover 2 _
    (fun t _ => Msg.block_eq (e := ((cfg2.win 2).blk t).view.emb) (Reg2.after_2 c W t) (fun _ => rfl) fun _ => rfl)
    fun i => (Msg.mem_rows i N_2 (by decide +kernel : ∀ t : Fin grid2.N, win2_2.index t = ![t.val, 0])).imp
      fun t h => ⟨flush2_2 t, Msg.mem_whole (h _)⟩

theorem Reg4.region_eq (c : Dev nD) (W : Valuation τ sig (Elt Ideal)) :
    (Reg4.dat c W).arrAt ⟨2, by decide⟩ cfg4.N
      = refTerm (Reg4.at_ c W (Pipeline.arrRef spec4 0)) (Reg4.at_ c W (Pipeline.arrRef spec4 1)) :=
  (Reg4.dat c W).arrAt_eq_of_cover 2 _
    (fun t _ => Msg.block_eq (e := ((cfg4.win 2).blk t).view.emb) (Reg4.after_2 c W t) (fun _ => rfl) fun _ => rfl)
    fun i => (Msg.mem_rows i N_4 (by decide +kernel : ∀ t : Fin grid4.N, win4_2.index t = ![t.val, 0])).imp
      fun t h => ⟨flush4_2 t, Msg.mem_whole (h _)⟩

theorem Reg6.region_eq (c : Dev nD) (W : Valuation τ sig (Elt Ideal)) :
    (Reg6.dat c W).arrAt ⟨2, by decide⟩ cfg6.N
      = refTerm (Reg6.at_ c W (Pipeline.arrRef spec6 0)) (Reg6.at_ c W (Pipeline.arrRef spec6 1)) :=
  (Reg6.dat c W).arrAt_eq_of_cover 2 _
    (fun t _ => Msg.block_eq (e := ((cfg6.win 2).blk t).view.emb) (Reg6.after_2 c W t) (fun _ => rfl) fun _ => rfl)
    fun i => (Msg.mem_rows i N_6 (by decide +kernel : ∀ t : Fin grid6.N, win6_2.index t = ![t.val, 0])).imp
      fun t h => ⟨flush6_2 t, Msg.mem_whole (h _)⟩

end Cert.Val

end
-- ==== Proof.ValDot.lean ====
import Idealize.ShloMosaic.Lib.ValueIdx
import Idealize.ShloMosaic.PureOps.Ideal.Laws

noncomputable section

namespace Cert.Val.Dot

open Idealize.ShloMosaic Idealize.ShloMosaic.ValueIdx
open scoped BigOperators

variable {R K C : Nat}

/-- Rows times columns: the one contracted axis is the operands' shared coordinate, read at (r, k) and (k, q). -/
theorem plain_sum (x : FVec Ideal ⟨2, ![R, K]⟩ .f32) (w : FVec Ideal ⟨2, ![K, C]⟩ .f32) (i : (⟨2, ![R, C]⟩ : Shape).Idx) :
    ∑ k : (DotDims.plain R K C).contr.Idx, x ((DotDims.plain R K C).lhsIdx i k) * w ((DotDims.plain R K C).rhsIdx i k)
      = ∑ k : Fin K, x (ix2 (i 0) k) * w (ix2 k (i 1)) := by
  rw [← Equiv.sum_comp (contrEquiv1 (DotDims.plain R K C) K rfl rfl).symm]
  refine Finset.sum_congr rfl fun k _ => ?_
  have hk := contrEquiv1_symm_val (DotDims.plain R K C) K rfl rfl k
  refine congrArg₂ (· * ·) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- A block product into a zero accumulator is the plain sum over the contracted coordinate. -/
theorem matmul_apply (x : FVec Ideal ⟨2, ![R, K]⟩ .f32) (w : FVec Ideal ⟨2, ![K, C]⟩ .f32) (p : Fin R) (q : Fin C) :
    matmul (DotDims.plain R K C) none x w (constant ⟨2, ![R, C]⟩ .f32 0x00000000#32) (ix2 p q)
      = ∑ k : Fin K, x (ix2 p k) * w (ix2 k q) :=
  (Ideal.matmul_constant_zero_apply _ none x w (ix2 p q)).trans (plain_sum x w (ix2 p q))

/-- So is the whole arrays' product. -/
theorem dot_apply (x : FVec Ideal ⟨2, ![R, K]⟩ .f32) (w : FVec Ideal ⟨2, ![K, C]⟩ .f32) (r : Fin R) (q : Fin C) :
    Host.dotGeneral (F := Ideal) (DotDims.plain R K C) none x w (ix2 r q) = ∑ k : Fin K, x (ix2 r k) * w (ix2 k q) :=
  (Ideal.dotGeneral_apply _ none .single x w (ix2 r q)).trans (plain_sum x w (ix2 r q))

end Cert.Val.Dot

end
-- ==== Proof.ValMlp.lean ====
import proofs.«402905_j34316788695884_1_alg».proof.Proof.Gen.KernelIdeal.Skeleton
import proofs.«402905_j34316788695884_1_alg».proof.Proof.Gen.ReferenceIdeal
import proofs.«402905_j34316788695884_1_alg».proof.Proof.ValDot
import Idealize.ShloMosaic.Lib.ValueIdx
import Idealize.ShloMosaic.Lib.ValueLayout
import Idealize.ShloMosaic.Lib.Pipeline.Value
import Idealize.ShloMosaic.PureOps.Ideal.Laws

noncomputable section

namespace Cert.Val.Mlp

open Idealize.ShloMosaic Idealize.ShloMosaic.ValueIdx
open scoped BigOperators

abbrev Z : EReal := Ideal.ofBits .f32 0x00000000#32

def dense (x : Fin 128 → EReal) (w : Fin 128 → Fin 128 → EReal) (b : Fin 128 → EReal) (q : Fin 128) : EReal :=
  max (∑ k : Fin 128, x k * w k q + b q) Z

def row (h a : Fin 128 → EReal) (w1 : Fin 128 → Fin 128 → EReal) (b1 : Fin 128 → EReal)
    (w2 : Fin 128 → Fin 128 → EReal) (b2 : Fin 128 → EReal) (q : Fin 128) : EReal :=
  dense (dense (fun k => h k + a k) w1 b1) w2 b2 q

section Kernel
open Cert.KernelIdeal Cert.KernelIdeal.Gen

theorem matmul_apply (x : FVec Ideal S8000x128 .f32) (y : FVec Ideal S128x128 .f32) (p : Fin 8000) (q : Fin 128) :
    matmul dot_S8000x128_S128x128_S8000x128_1_0_0_1_n_n none x y (constant S8000x128 .f32 0x00000000#32) (ix2 p q)
      = ∑ k : Fin 128, x (ix2 p k) * y (ix2 k q) :=
  Dot.matmul_apply x y p q

theorem biasRows_apply (b : Vec Ideal S128 .f32) (p : Fin 8000) (q : Fin 128) :
    broadcastTo S8000x128 (shapeCast S1x128 b shapeCasts_S128_S1x128) broadcasts_S1x128_S8000x128 (ix2 p q)
      = b (ix1 q) :=
  (broadcastTo_1b_ab_apply _ broadcasts_S1x128_S8000x128 p q).trans (shapeCast_a_1a_apply b shapeCasts_S128_S1x128 0 q)

theorem pay3_apply (x0 x1 : Vec Ideal S8000x128 .f32) (x2 : Vec Ideal S128x128 .f32) (x3 : Vec Ideal S128 .f32)
    (x4 : Vec Ideal S128x128 .f32) (x5 : Vec Ideal S128 .f32) (p : Fin 8000) (q : Fin 128) :
    k3_pay1 x0 x1 x2 x3 x4 x5 (ix2 p q)
      = row (fun k => x0 (ix2 p k)) (fun k => x1 (ix2 p k)) (fun a b => x2 (ix2 a b)) (fun a => x3 (ix1 a))
          (fun a b => x4 (ix2 a b)) (fun a => x5 (ix1 a)) q := by
  unfold k3_pay1 row dense
  simp only [shapeCast_self]
  rw [maximumf_apply, addf_apply, matmul_apply, biasRows_apply, broadcast_apply]
  refine congrArg (fun s => max (s + x5 (ix1 q)) _) (Finset.sum_congr rfl fun k _ => ?_)
  rw [maximumf_apply, addf_apply, matmul_apply, biasRows_apply, broadcast_apply]
  refine congrArg (fun s => max (s + x3 (ix1 k)) _ * x4 (ix2 k q)) (Finset.sum_congr rfl fun k' _ => ?_)
  rw [addf_apply]

end Kernel

section Reference
open Cert.ReferenceIdeal Cert.ReferenceIdeal.Facts₀

def refTerm (h agg : FVec Ideal S200000x128 .f32) (w1 : FVec Ideal S128x128 .f32) (b1 : FVec Ideal S128 .f32)
    (w2 : FVec Ideal S128x128 .f32) (b2 : FVec Ideal S128 .f32) : FVec Ideal S200000x128 .f32 :=
  maximumf
    (addf
      (Host.dotGeneral (F := Ideal) dot_S200000x128_S128x128_S200000x128_1_0_0_1_n_n none
        (maximumf
          (addf
            (Host.dotGeneral (F := Ideal) dot_S200000x128_S128x128_S200000x128_1_0_0_1_n_n none (addf h agg) w1)
            (broadcastInDim S200000x128 ![0, 1] bcast_S1x128_S200000x128_0_1 (broadcastInDim S1x128 ![1] bcast_S128_S1x128_1 b1)))
          (broadcastInDim S200000x128 ![] bcast_S_S200000x128 (constant (F := Ideal) S_ .f32 0x00000000#32)))
        w2)
      (broadcastInDim S200000x128 ![0, 1] bcast_S1x128_S200000x128_0_1 (broadcastInDim S1x128 ![1] bcast_S128_S1x128_1 b2)))
    (broadcastInDim S200000x128 ![] bcast_S_S200000x128 (constant (F := Ideal) S_ .f32 0x00000000#32))

theorem dot_apply (x : FVec Ideal S200000x128 .f32) (y : FVec Ideal S128x128 .f32) (r : Fin 200000) (q : Fin 128) :
    Host.dotGeneral (F := Ideal) dot_S200000x128_S128x128_S200000x128_1_0_0_1_n_n none x y (ix2 r q)
      = ∑ k : Fin 128, x (ix2 r k) * y (ix2 k q) :=
  Dot.dot_apply x y r q

theorem biasArr_apply (b : FVec Ideal S128 .f32) (r : Fin 200000) (q : Fin 128) :
    broadcastInDim S200000x128 ![0, 1] bcast_S1x128_S200000x128_0_1 (broadcastInDim S1x128 ![1] bcast_S128_S1x128_1 b) (ix2 r q)
      = b (ix1 q) := by
  refine (broadcastInDim_apply _ _ _ (ix2 r q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

theorem zeroArr_apply (r : Fin 200000) (q : Fin 128) :
    broadcastInDim S200000x128 ![] bcast_S_S200000x128 (constant (F := Ideal) S_ .f32 0x00000000#32) (ix2 r q) = Z :=
  (broadcastInDim_apply _ _ _ (ix2 r q) ix0 (fun a => a.elim0)).trans rfl

theorem refTerm_apply (h agg : FVec Ideal S200000x128 .f32) (w1 : FVec Ideal S128x128 .f32) (b1 : FVec Ideal S128 .f32)
    (w2 : FVec Ideal S128x128 .f32) (b2 : FVec Ideal S128 .f32) (r : Fin 200000) (q : Fin 128) :
    refTerm h agg w1 b1 w2 b2 (ix2 r q)
      = row (fun k => h (ix2 r k)) (fun k => agg (ix2 r k)) (fun a b => w1 (ix2 a b)) (fun a => b1 (ix1 a))
          (fun a b => w2 (ix2 a b)) (fun a => b2 (ix1 a)) q := by
  unfold refTerm row dense
  rw [maximumf_apply, addf_apply, dot_apply, biasArr_apply, zeroArr_apply]
  refine congrArg (fun s => max (s + b2 (ix1 q)) _) (Finset.sum_congr rfl fun k _ => ?_)
  rw [maximumf_apply, addf_apply, dot_apply, biasArr_apply, zeroArr_apply]
  refine congrArg (fun s => max (s + b1 (ix1 k)) _ * w2 (ix2 k q)) (Finset.sum_congr rfl fun k' _ => ?_)
  rw [addf_apply]

end Reference

end Cert.Val.Mlp

end
-- ==== Proof.ValBlk.lean ====
import Idealize.ShloMosaic.Lib.ValueIdx
import Idealize.ShloMosaic.Lib.Pipeline.Value

noncomputable section

namespace Cert.Val.Reg

open Idealize.ShloMosaic Idealize.ShloMosaic.ValueIdx

theorem hz2 : (![0, 0] : Fin 2 → Nat) = fun _ => 0 := by decide
theorem hz1 : (![0] : Fin 1 → Nat) = fun _ => 0 := by decide

/-- `e` places the block of index `I` in the array, one array step per block step. -/
abbrev EmbAt {S : Shape} {size : Fin S.rank → Nat} (e : (⟨S.rank, size⟩ : Shape).Idx → S.Idx) (I : Fin S.rank → Nat) : Prop :=
  (fun j a => (e j a).val) = fun j a => I a * size a + 1 * (j a).val

/-- `x` is the block of index `I` of the array `A`. -/
abbrev ReadsAt {S : Shape} {size : Fin S.rank → Nat} {α : Type} (x : (⟨S.rank, size⟩ : Shape).Idx → α) (A : S.Idx → α)
    (I : Fin S.rank → Nat) : Prop :=
  ∃ e, x = (fun j => A (e j)) ∧ EmbAt e I

/-- The block of index zero and of the array's size is the array. -/
theorem ReadsAt.whole {S : Shape} {α : Type} {x A : S.Idx → α} (h : ReadsAt (size := S.size) x A fun _ => 0) : x = A := by
  obtain ⟨e, rfl, he⟩ := h
  funext j
  refine congrArg A (funext fun a => Fin.ext ?_)
  have : (e j a).val = 0 * S.size a + 1 * (j a).val := congrFun (congrFun he j) a
  omega

variable {B R C : Nat}

/-- Row `p` of the row block of index `t` sits at row `B t + p` of the array, in its own column. -/
theorem EmbAt.row {e : (⟨2, ![B, C]⟩ : Shape).Idx → (⟨2, ![R, C]⟩ : Shape).Idx} {t : Nat}
    (he : EmbAt (S := ⟨2, ![R, C]⟩) (size := ![B, C]) e ![t, 0]) (p : Fin B) (q : Fin C) :
    ∃ r : Fin R, r.val = t * B + p.val ∧ e (ix2 p q) = ix2 r q :=
  ⟨e (ix2 p q) 0, (congrFun (congrFun he (ix2 p q)) 0).trans (by show t * B + 1 * p.val = _; rw [Nat.one_mul]),
    Shape.idx_ext₂ rfl ((congrFun (congrFun he (ix2 p q)) 1).trans (by show 0 * C + 1 * q.val = q.val; omega))⟩

/-- So row `p` of that block of an array is the array's row `B t + p`. -/
theorem ReadsAt.row {α : Type} {x : (⟨2, ![B, C]⟩ : Shape).Idx → α} {A : (⟨2, ![R, C]⟩ : Shape).Idx → α} {t : Nat}
    (h : ReadsAt (S := ⟨2, ![R, C]⟩) (size := ![B, C]) x A ![t, 0]) (p : Fin B) (k : Fin C) (r : Fin R)
    (hr : r.val = t * B + p.val) : x (ix2 p k) = A (ix2 r k) := by
  obtain ⟨e, rfl, he⟩ := h
  obtain ⟨r', hr', hX⟩ := he.row p k
  exact congrArg A (hX.trans (congrArg (ix2 · k) (Fin.ext (hr'.trans hr.symm))))

/-- `N` row blocks of `B` rows cover the `N B` rows: row `i` is in the block its number divided by `B` names. -/
theorem cover (B R C : Nat) {N : Nat} (hB : 0 < B) (hN : N * B = R) {I : Fin N → Fin 2 → Nat} (hI : ∀ t : Fin N, I t = ![t.val, 0])
    (e : Fin N → (⟨2, ![B, C]⟩ : Shape).Idx → (⟨2, ![R, C]⟩ : Shape).Idx)
    (he : ∀ t, EmbAt (S := ⟨2, ![R, C]⟩) (size := ![B, C]) (e t) (I t)) (i : (⟨2, ![R, C]⟩ : Shape).Idx) :
    ∃ t y, e t y = i := by
  have hi0 : (i 0).val < R := (i 0).isLt
  have hi1 : (i 1).val < C := (i 1).isLt
  have ht : (i 0).val / B < N := Nat.div_lt_of_lt_mul (by rw [Nat.mul_comm, hN]; exact hi0)
  refine ⟨⟨(i 0).val / B, ht⟩, ix2 ⟨(i 0).val % B, Nat.mod_lt _ hB⟩ ⟨(i 1).val, hi1⟩, Shape.idx_ext₂ ?_ ?_⟩
  · refine (congrFun (congrFun (he _) _) 0).trans ?_
    rw [hI]
    show (i 0).val / B * B + 1 * ((i 0).val % B) = (i 0).val
    rw [Nat.one_mul]
    exact Nat.div_add_mod' _ _
  · refine (congrFun (congrFun (he _) _) 1).trans ?_
    rw [hI]
    show 0 * C + 1 * (i 1).val = (i 1).val
    omega

end Cert.Val.Reg

end
-- ==== Proof.ValMlpReg.lean ====
import proofs.«402905_j34316788695884_1_alg».proof.Proof.KIReg3
import proofs.«402905_j34316788695884_1_alg».proof.Proof.KIReg5
import proofs.«402905_j34316788695884_1_alg».proof.Proof.KIReg7
import proofs.«402905_j34316788695884_1_alg».proof.Proof.ValMlp
import proofs.«402905_j34316788695884_1_alg».proof.Proof.ValBlk
import Idealize.ShloMosaic.Lib.Pipeline.Value

noncomputable section

namespace Cert.Val.Reg

open Cert.KernelIdeal Cert.KernelIdeal.Gen
open Idealize.ShloMosaic Idealize.ShloMosaic.TcCoe Idealize.ShloMosaic.ValueIdx Idealize.SL.Sem
open Cert.Val.Mlp

/-- The block indices at point `t`: the row blocks at `(t, 0)`, the weights and biases at zero. -/
abbrev Idx (t : Nat) (I0 I1 I2 : Fin 2 → Nat) (I3 : Fin 1 → Nat) (I4 : Fin 2 → Nat) (I5 : Fin 1 → Nat) (I6 : Fin 2 → Nat) : Prop :=
  I0 = ![t, 0] ∧ I1 = ![t, 0] ∧ I2 = ![0, 0] ∧ I3 = ![0] ∧ I4 = ![0, 0] ∧ I5 = ![0] ∧ I6 = ![t, 0]

/-- What a point stores, over the blocks it is given, is its block of the reference's chain on the arrays. -/
theorem block_eq
    {pay : Vec Ideal S8000x128 .f32 → Vec Ideal S8000x128 .f32 → Vec Ideal S128x128 .f32 → Vec Ideal S128 .f32 →
      Vec Ideal S128x128 .f32 → Vec Ideal S128 .f32 → Vec Ideal S8000x128 .f32}
    (hpay : ∀ x0 x1 x2 x3 x4 x5 p q, pay x0 x1 x2 x3 x4 x5 (ix2 p q)
      = row (fun k => x0 (ix2 p k)) (fun k => x1 (ix2 p k)) (fun a b => x2 (ix2 a b)) (fun a => x3 (ix1 a))
          (fun a b => x4 (ix2 a b)) (fun a => x5 (ix1 a)) q)
    {t : Nat} {I0 I1 I2 : Fin 2 → Nat} {I3 : Fin 1 → Nat} {I4 : Fin 2 → Nat} {I5 : Fin 1 → Nat} {I6 : Fin 2 → Nat}
    (hI : Idx t I0 I1 I2 I3 I4 I5 I6)
    {x0 x1 R : Vec Ideal S8000x128 .f32} {x2 x4 : Vec Ideal S128x128 .f32} {x3 x5 : Vec Ideal S128 .f32}
    {A0 A1 : FVec Ideal S200000x128 .f32} {A2 A4 : FVec Ideal S128x128 .f32} {A3 A5 : FVec Ideal S128 .f32}
    (h6 : ReadsAt (S := S200000x128) (size := S8000x128.size) R (refTerm A0 A1 A2 A3 A4 A5) I6)
    (h0 : ReadsAt (S := S200000x128) (size := S8000x128.size) x0 A0 I0)
    (h1 : ReadsAt (S := S200000x128) (size := S8000x128.size) x1 A1 I1)
    (h2 : ReadsAt (S := S128x128) (size := S128x128.size) x2 A2 I2) (h3 : ReadsAt (S := S128) (size := S128.size) x3 A3 I3)
    (h4 : ReadsAt (S := S128x128) (size := S128x128.size) x4 A4 I4) (h5 : ReadsAt (S := S128) (size := S128.size) x5 A5 I5) :
    View.canon [⟨Rect.unit (s := S8000x128) ![0, 0] S8000x128.size inb_S8000x128_S8000x128_0_0,
      pay (View.ld x0 (Rect.unit (s := S8000x128) ![0, 0] S8000x128.size inb_S8000x128_S8000x128_0_0))
        (View.ld x1 (Rect.unit (s := S8000x128) ![0, 0] S8000x128.size inb_S8000x128_S8000x128_0_0))
        (View.ld x2 (Rect.unit (s := S128x128) ![0, 0] S128x128.size inb_S128x128_S128x128_0_0))
        (View.ld x3 (Rect.unit (s := S128) ![0] S128.size inb_S128_S128_0))
        (View.ld x4 (Rect.unit (s := S128x128) ![0, 0] S128x128.size inb_S128x128_S128x128_0_0))
        (View.ld x5 (Rect.unit (s := S128) ![0] S128.size inb_S128_S128_0))⟩] = R := by
  obtain ⟨rfl, rfl, rfl, rfl, rfl, rfl, rfl⟩ := hI
  rw [View.canon_unit_zero hz2]
  simp only [View.ld_unit_zero (S := S8000x128) hz2, View.ld_unit_zero (S := S128x128) hz2, View.ld_unit_zero (S := S128) hz1]
  rw [hz2] at h2 h4
  rw [hz1] at h3 h5
  obtain rfl := h2.whole
  obtain rfl := h3.whole
  obtain rfl := h4.whole
  obtain rfl := h5.whole
  obtain ⟨e, rfl, he⟩ := h6
  funext j
  obtain ⟨p, q, rfl⟩ : ∃ (p : Fin 8000) (q : Fin 128), j = ix2 p q := ⟨j 0, j 1, eq_ix2 j⟩
  obtain ⟨r, hr, hX⟩ := EmbAt.row (B := 8000) (R := 200000) (C := 128) he p q
  show _ = refTerm A0 A1 x2 x3 x4 x5 (e (ix2 p q))
  rw [hX, hpay, refTerm_apply]
  congr 1 <;> funext k
  · exact h0.row p k r hr
  · exact h1.row p k r hr

end Cert.Val.Reg

namespace Cert.Val

open Cert.KernelIdeal Cert.KernelIdeal.Gen Cert.Val.Reg Cert.Val.Mlp
open Idealize.ShloMosaic Idealize.ShloMosaic.TcCoe Idealize.SL.Sem

namespace Reg3
open Cert.KernelIdeal.Reg3

theorem idx : ∀ t : Fin grid3.N, Idx t.val (win3_0.index t) (win3_1.index t) (win3_2.index t) (win3_3.index t)
    (win3_4.index t) (win3_5.index t) (win3_6.index t) := by decide +kernel

theorem flushed_eq (c : Dev nD) (W : Valuation τ sig (Elt Ideal)) (t : Fin cfg3.N) :
    (dat c W).flushed 6 t = ((cfg3.win 6).blk t).view.read (Elt Ideal) (refTerm (at_ c W (Pipeline.arrRef spec3 0))
      (at_ c W (Pipeline.arrRef spec3 1)) (at_ c W (Pipeline.arrRef spec3 2)) (at_ c W (Pipeline.arrRef spec3 3))
      (at_ c W (Pipeline.arrRef spec3 4)) (at_ c W (Pipeline.arrRef spec3 5))) := by
  refine (congrArg _ (after_6 c W t)).trans ?_
  apply block_eq pay3_apply (idx t) <;> exact ⟨_, rfl, rfl⟩

theorem region_eq (c : Dev nD) (W : Valuation τ sig (Elt Ideal)) :
    (dat c W).arrAt ⟨6, by decide⟩ cfg3.N
      = refTerm (at_ c W (Pipeline.arrRef spec3 0)) (at_ c W (Pipeline.arrRef spec3 1)) (at_ c W (Pipeline.arrRef spec3 2))
          (at_ c W (Pipeline.arrRef spec3 3)) (at_ c W (Pipeline.arrRef spec3 4)) (at_ c W (Pipeline.arrRef spec3 5)) :=
  (dat c W).arrAt_eq_of_cover 6 _ (fun t _ => flushed_eq c W t) fun i =>
    (cover 8000 200000 128 (by decide) (by rw [N_3]) (fun t => (idx t).2.2.2.2.2.2) (fun t => ((cfg3.win 6).blk t).view.emb) (fun _ => rfl) i).elim
      fun t ⟨y, h⟩ => ⟨t, flush3_6 t, h ▸ ((cfg3.win 6).blk t).view.emb_mem_set y⟩

end Reg3

namespace Reg5
open Cert.KernelIdeal.Reg5

theorem idx : ∀ t : Fin grid5.N, Idx t.val (win5_0.index t) (win5_1.index t) (win5_2.index t) (win5_3.index t)
    (win5_4.index t) (win5_5.index t) (win5_6.index t) := by decide +kernel

theorem flushed_eq (c : Dev nD) (W : Valuation τ sig (Elt Ideal)) (t : Fin cfg5.N) :
    (dat c W).flushed 6 t = ((cfg5.win 6).blk t).view.read (Elt Ideal) (refTerm (at_ c W (Pipeline.arrRef spec5 0))
      (at_ c W (Pipeline.arrRef spec5 1)) (at_ c W (Pipeline.arrRef spec5 2)) (at_ c W (Pipeline.arrRef spec5 3))
      (at_ c W (Pipeline.arrRef spec5 4)) (at_ c W (Pipeline.arrRef spec5 5))) := by
  refine (congrArg _ (after_6 c W t)).trans ?_
  apply block_eq pay3_apply (idx t) <;> exact ⟨_, rfl, rfl⟩

theorem region_eq (c : Dev nD) (W : Valuation τ sig (Elt Ideal)) :
    (dat c W).arrAt ⟨6, by decide⟩ cfg5.N
      = refTerm (at_ c W (Pipeline.arrRef spec5 0)) (at_ c W (Pipeline.arrRef spec5 1)) (at_ c W (Pipeline.arrRef spec5 2))
          (at_ c W (Pipeline.arrRef spec5 3)) (at_ c W (Pipeline.arrRef spec5 4)) (at_ c W (Pipeline.arrRef spec5 5)) :=
  (dat c W).arrAt_eq_of_cover 6 _ (fun t _ => flushed_eq c W t) fun i =>
    (cover 8000 200000 128 (by decide) (by rw [N_5]) (fun t => (idx t).2.2.2.2.2.2) (fun t => ((cfg5.win 6).blk t).view.emb) (fun _ => rfl) i).elim
      fun t ⟨y, h⟩ => ⟨t, flush5_6 t, h ▸ ((cfg5.win 6).blk t).view.emb_mem_set y⟩

end Reg5

namespace Reg7
open Cert.KernelIdeal.Reg7

theorem idx : ∀ t : Fin grid7.N, Idx t.val (win7_0.index t) (win7_1.index t) (win7_2.index t) (win7_3.index t)
    (win7_4.index t) (win7_5.index t) (win7_6.index t) := by decide +kernel

theorem flushed_eq (c : Dev nD) (W : Valuation τ sig (Elt Ideal)) (t : Fin cfg7.N) :
    (dat c W).flushed 6 t = ((cfg7.win 6).blk t).view.read (Elt Ideal) (refTerm (at_ c W (Pipeline.arrRef spec7 0))
      (at_ c W (Pipeline.arrRef spec7 1)) (at_ c W (Pipeline.arrRef spec7 2)) (at_ c W (Pipeline.arrRef spec7 3))
      (at_ c W (Pipeline.arrRef spec7 4)) (at_ c W (Pipeline.arrRef spec7 5))) := by
  refine (congrArg _ (after_6 c W t)).trans ?_
  apply block_eq pay3_apply (idx t) <;> exact ⟨_, rfl, rfl⟩

theorem region_eq (c : Dev nD) (W : Valuation τ sig (Elt Ideal)) :
    (dat c W).arrAt ⟨6, by decide⟩ cfg7.N
      = refTerm (at_ c W (Pipeline.arrRef spec7 0)) (at_ c W (Pipeline.arrRef spec7 1)) (at_ c W (Pipeline.arrRef spec7 2))
          (at_ c W (Pipeline.arrRef spec7 3)) (at_ c W (Pipeline.arrRef spec7 4)) (at_ c W (Pipeline.arrRef spec7 5)) :=
  (dat c W).arrAt_eq_of_cover 6 _ (fun t _ => flushed_eq c W t) fun i =>
    (cover 8000 200000 128 (by decide) (by rw [N_7]) (fun t => (idx t).2.2.2.2.2.2) (fun t => ((cfg7.win 6).blk t).view.emb) (fun _ => rfl) i).elim
      fun t ⟨y, h⟩ => ⟨t, flush7_6 t, h ▸ ((cfg7.win 6).blk t).view.emb_mem_set y⟩

end Reg7

end Cert.Val

end
-- ==== Proof.ValFinalSpec.lean ====
import Idealize.ShloMosaic.PureOps.Ideal
import Idealize.ShloMosaic.Lib.ValueIdx

noncomputable section

namespace Cert.Val.Reg8

open Idealize.ShloMosaic Idealize.ShloMosaic.ValueIdx
open scoped BigOperators

abbrev Mat : Type := (⟨2, ![128, 256]⟩ : Shape).Idx → EReal

abbrev Bias : Type := (⟨1, ![256]⟩ : Shape).Idx → EReal

def proj (x : Fin 128 → EReal) (w : Mat) (b : Bias) (q : Fin 256) : EReal :=
  (∑ k : Fin 128, x k * w (ix2 k q)) + b (ix1 q)

def sumSq (x : Fin 128 → EReal) (w : Mat) (b : Bias) : EReal :=
  ∑ q : Fin 256, proj x w b q * proj x w b q

def rowOut (x : Fin 128 → EReal) (w : Mat) (b : Bias) (q : Fin 256) : EReal :=
  Ideal.div (proj x w b q) (max (Ideal.sqrt (sumSq x w b)) (Ideal.ofBits .f32 0x2B8CBCCC#32))

end Cert.Val.Reg8

end
-- ==== Proof.ValFinalRef.lean ====
import proofs.«402905_j34316788695884_1_alg».proof.Proof.Gen.ReferenceIdeal
import proofs.«402905_j34316788695884_1_alg».proof.Proof.ValFinalSpec
import proofs.«402905_j34316788695884_1_alg».proof.Proof.ValDot
import Idealize.ShloMosaic.PureOps.Ideal.Laws
import Idealize.ShloMosaic.Lib.Pipeline.Value
import Idealize.ShloMosaic.Lib.ValueIdx

noncomputable section

namespace Cert.Val.Reg8

open Idealize.ShloMosaic Idealize.ShloMosaic.ValueIdx
open Cert.ReferenceIdeal Cert.ReferenceIdeal.Facts₀
open scoped BigOperators

def projRef (g : FVec Ideal S8192x128 .f32) (w : FVec Ideal S128x256 .f32) (b : FVec Ideal S256 .f32) :
    FVec Ideal S8192x256 .f32 :=
  addf (Host.dotGeneral dot_S8192x128_S128x256_S8192x256_1_0_0_1_n_n none g w)
    (broadcastInDim S8192x256 ![0, 1] bcast_S1x256_S8192x256_0_1 (broadcastInDim S1x256 ![1] bcast_S256_S1x256_1 b))

def normRef (z : FVec Ideal S8192x256 .f32) : FVec Ideal S8192x1 .f32 :=
  Host.sqrt (broadcastInDim S8192x1 ![0] bcast_S8192_S8192x1_0
    (Host.reduceAdd (mulf z z) (constant (F := Ideal) S_ .f32 0x00000000#32) reducesTo_S8192x256_S8192_d1 h_S_))

def refTerm (g : FVec Ideal S8192x128 .f32) (w : FVec Ideal S128x256 .f32) (b : FVec Ideal S256 .f32) :
    FVec Ideal S8192x256 .f32 :=
  Host.divf (projRef g w b)
    (broadcastInDim S8192x256 ![0, 1] bcast_S8192x1_S8192x256_0_1
      (maximumf (normRef (projRef g w b))
        (broadcastInDim S8192x1 ![] bcast_S_S8192x1 (constant (F := Ideal) S_ .f32 0x2B8CBCCC#32))))

theorem dot_ref_apply (g : FVec Ideal S8192x128 .f32) (w : FVec Ideal S128x256 .f32) (r : Fin 8192) (q : Fin 256) :
    Host.dotGeneral dot_S8192x128_S128x256_S8192x256_1_0_0_1_n_n none g w (ix2 r q) = ∑ k : Fin 128, g (ix2 r k) * w (ix2 k q) :=
  Dot.dot_apply g w r q

theorem bias_row_apply (b : FVec Ideal S256 .f32) (u : Fin 1) (q : Fin 256) :
    broadcastInDim S1x256 ![1] bcast_S256_S1x256_1 b (ix2 u q) = b (ix1 q) :=
  broadcastInDim_apply _ _ b (ix2 u q) (ix1 q) fun a => by
    match a with
    | ⟨0, _⟩ => rfl

theorem row_bcast_apply (v : FVec Ideal S1x256 .f32) (r : Fin 8192) (q : Fin 256) :
    broadcastInDim S8192x256 ![0, 1] bcast_S1x256_S8192x256_0_1 v (ix2 r q) = v (ix2 (0 : Fin 1) q) :=
  broadcastInDim_apply _ _ v (ix2 r q) (ix2 (0 : Fin 1) q) fun a => by
    match a with
    | ⟨0, _⟩ => rfl
    | ⟨1, _⟩ => rfl

theorem keep_col_apply (v : FVec Ideal S8192 .f32) (r : Fin 8192) (u : Fin 1) :
    broadcastInDim S8192x1 ![0] bcast_S8192_S8192x1_0 v (ix2 r u) = v (ix1 r) :=
  broadcastInDim_apply _ _ v (ix2 r u) (ix1 r) fun a => by
    match a with
    | ⟨0, _⟩ => rfl

theorem scalar_col_apply (s : FVec Ideal S_ .f32) (r : Fin 8192) (u : Fin 1) :
    broadcastInDim S8192x1 ![] bcast_S_S8192x1 s (ix2 r u) = s ix0 :=
  broadcastInDim_apply _ _ s (ix2 r u) ix0 fun a => a.elim0

theorem col_bcast_apply (v : FVec Ideal S8192x1 .f32) (r : Fin 8192) (q : Fin 256) :
    broadcastInDim S8192x256 ![0, 1] bcast_S8192x1_S8192x256_0_1 v (ix2 r q) = v (ix2 r (0 : Fin 1)) :=
  broadcastInDim_apply _ _ v (ix2 r q) (ix2 r (0 : Fin 1)) fun a => by
    match a with
    | ⟨0, _⟩ => rfl
    | ⟨1, _⟩ => rfl

theorem projRef_apply (g : FVec Ideal S8192x128 .f32) (w : FVec Ideal S128x256 .f32) (b : FVec Ideal S256 .f32)
    (r : Fin 8192) (q : Fin 256) : projRef g w b (ix2 r q) = proj (fun k => g (ix2 r k)) w b q := by
  unfold projRef proj
  rw [addf_apply, dot_ref_apply, row_bcast_apply, bias_row_apply]

theorem sum_ref_apply (z : FVec Ideal S8192x256 .f32) (r : Fin 8192) :
    Host.reduceAdd (mulf z z) (constant (F := Ideal) S_ .f32 0x00000000#32) reducesTo_S8192x256_S8192_d1 h_S_ (ix1 r)
      = ∑ q : Fin 256, z (ix2 r q) * z (ix2 r q) := by
  simp only [Host.reduceAdd, Ideal.hostReduceAdd_def]
  rw [Ideal.hostReduceAdd_single reducesTo_S8192x256_S8192_d1 (by decide)]
  show Ideal.ofBits .f32 0x00000000#32 + _ = _
  rw [Ideal.ofBits_zero_f32, zero_add]
  refine Finset.sum_congr rfl fun k _ => ?_
  exact congrArg (fun i => z i * z i) (funext fun a => Fin.ext (by match a with | ⟨0, _⟩ => rfl | ⟨1, _⟩ => rfl))

theorem normRef_apply (z : FVec Ideal S8192x256 .f32) (r : Fin 8192) (u : Fin 1) :
    normRef z (ix2 r u) = Ideal.sqrt (∑ q : Fin 256, z (ix2 r q) * z (ix2 r q)) := by
  unfold normRef
  exact congrArg Ideal.sqrt ((keep_col_apply _ r u).trans (sum_ref_apply z r))

theorem refTerm_apply (g : FVec Ideal S8192x128 .f32) (w : FVec Ideal S128x256 .f32) (b : FVec Ideal S256 .f32)
    (r : Fin 8192) (q : Fin 256) : refTerm g w b (ix2 r q) = rowOut (fun k => g (ix2 r k)) w b q := by
  unfold refTerm rowOut sumSq
  have hz : ∀ q', projRef g w b (ix2 r q') = proj (fun k => g (ix2 r k)) w b q' := fun q' => projRef_apply g w b r q'
  have hn : (maximumf (normRef (projRef g w b))
        (broadcastInDim S8192x1 ![] bcast_S_S8192x1 (constant (F := Ideal) S_ .f32 0x2B8CBCCC#32))) (ix2 r (0 : Fin 1))
      = max (Ideal.sqrt (∑ q' : Fin 256, proj (fun k => g (ix2 r k)) w b q' * proj (fun k => g (ix2 r k)) w b q'))
          (Ideal.ofBits .f32 0x2B8CBCCC#32) := by
    rw [maximumf_apply, normRef_apply, scalar_col_apply, constant_apply]
    simp only [hz]
  exact congrArg₂ Ideal.div (hz q) ((col_bcast_apply _ r q).trans hn)

end Cert.Val.Reg8

end
-- ==== Proof.ValFinal.lean ====
import proofs.«402905_j34316788695884_1_alg».proof.Proof.KIReg8
import proofs.«402905_j34316788695884_1_alg».proof.Proof.ValFinalRef
import proofs.«402905_j34316788695884_1_alg».proof.Proof.ValFinalSpec
import proofs.«402905_j34316788695884_1_alg».proof.Proof.ValDot
import proofs.«402905_j34316788695884_1_alg».proof.Proof.ValBlk
import Idealize.ShloMosaic.PureOps.Ideal.Laws
import Idealize.ShloMosaic.Lib.Pipeline.Value
import Idealize.ShloMosaic.Lib.ValueIdx
import Idealize.ShloMosaic.Lib.ValueLayout

noncomputable section

namespace Cert.Val.Reg8

open Idealize.ShloMosaic Idealize.ShloMosaic.ValueIdx
open Idealize.ShloMosaic.Pipeline (Dat)
open Cert.KernelIdeal Cert.KernelIdeal.Gen Cert.KernelIdeal.Reg8 Cert.Val.Reg
open scoped BigOperators

def projKer (x0 : FVec Ideal S2048x128 .f32) (x1 : FVec Ideal S128x256 .f32) (x2 : FVec Ideal S256 .f32) :
    FVec Ideal S2048x256 .f32 :=
  addf (matmul dot_S2048x128_S128x256_S2048x256_1_0_0_1_n_n none (shapeCast S2048x128 x0 shapeCasts_S2048x128_S2048x128) x1
      (constant (F := Ideal) S2048x256 .f32 0x00000000#32))
    (broadcastTo S2048x256 (shapeCast S1x256 x2 shapeCasts_S256_S1x256) broadcasts_S1x256_S2048x256)

def normKer (z : FVec Ideal S2048x256 .f32) : FVec Ideal S2048x1 .f32 :=
  sqrt (shapeCast S2048x1
    (multiReduction .add [1] S2048 (mulf z z) 0x00000000#32 reduces_S2048x256_S2048 (.inl rfl) rfl)
    shapeCasts_S2048_S2048x1)

def kerTerm (x0 : FVec Ideal S2048x128 .f32) (x1 : FVec Ideal S128x256 .f32) (x2 : FVec Ideal S256 .f32) :
    FVec Ideal S2048x256 .f32 :=
  divf (projKer x0 x1 x2)
    (broadcastTo S2048x256
      (maximumf (normKer (projKer x0 x1 x2)) (broadcast S2048x1 (Scalar.ofBits (F := Ideal) .f32 0x2B8CBCCC#32)))
      broadcasts_S2048x1_S2048x256)

theorem pay_eq (x0 : FVec Ideal S2048x128 .f32) (x1 : FVec Ideal S128x256 .f32) (x2 : FVec Ideal S256 .f32) :
    k8_pay1 (F := Ideal) x0 x1 x2 = kerTerm x0 x1 x2 := rfl

theorem matmul_ker_apply (x0 : FVec Ideal S2048x128 .f32) (x1 : FVec Ideal S128x256 .f32) (p : Fin 2048) (q : Fin 256) :
    matmul dot_S2048x128_S128x256_S2048x256_1_0_0_1_n_n none x0 x1 (constant (F := Ideal) S2048x256 .f32 0x00000000#32) (ix2 p q)
      = ∑ k : Fin 128, x0 (ix2 p k) * x1 (ix2 k q) :=
  Dot.matmul_apply x0 x1 p q

theorem bias_ker_apply (x2 : FVec Ideal S256 .f32) (p : Fin 2048) (q : Fin 256) :
    broadcastTo S2048x256 (shapeCast S1x256 x2 shapeCasts_S256_S1x256) broadcasts_S1x256_S2048x256 (ix2 p q) = x2 (ix1 q) :=
  (broadcastTo_1b_ab_apply _ broadcasts_S1x256_S2048x256 p q).trans (shapeCast_a_1a_apply x2 shapeCasts_S256_S1x256 0 q)

theorem keep_col_ker_apply (v : FVec Ideal S2048 .f32) (p : Fin 2048) (u : Fin 1) :
    shapeCast S2048x1 v shapeCasts_S2048_S2048x1 (ix2 p u) = v (ix1 p) :=
  shapeCast_apply v _ (ix2 p u) (ix1 p) (by
    have hu := u.isLt
    rw [Shape.rowMajor_val_two, Shape.rowMajor_val_one]
    show p.val = p.val * 1 + u.val
    omega)

theorem col_bcast_ker_apply (v : FVec Ideal S2048x1 .f32) (p : Fin 2048) (q : Fin 256) :
    broadcastTo S2048x256 v broadcasts_S2048x1_S2048x256 (ix2 p q) = v (ix2 p (0 : Fin 1)) :=
  broadcastTo_apply v _ (ix2 p q) (ix2 p (0 : Fin 1)) fun a => by
    match a with
    | ⟨0, _⟩ => rfl
    | ⟨1, _⟩ => rfl

theorem lane_sum_apply (v : FVec Ideal S2048x256 .f32) (hφ : FKind.Formats .f32)
    (hacc : (0x00000000#32 : BitVec 32) = 0x00000000#32) (p : Fin 2048) :
    multiReduction .add [1] S2048 v 0x00000000#32 reduces_S2048x256_S2048 hφ hacc (ix1 p) = ∑ q : Fin 256, v (ix2 p q) := by
  refine (Ideal.multiReduction_add_single v 0x00000000#32 reduces_S2048x256_S2048 hφ hacc (ix1 p)).trans ?_
  refine Finset.sum_congr rfl fun k _ => ?_
  exact congrArg v (funext fun a => Fin.ext (by match a with | ⟨0, _⟩ => rfl | ⟨1, _⟩ => rfl))

theorem projKer_apply (x0 : FVec Ideal S2048x128 .f32) (x1 : FVec Ideal S128x256 .f32) (x2 : FVec Ideal S256 .f32)
    (p : Fin 2048) (q : Fin 256) : projKer x0 x1 x2 (ix2 p q) = proj (fun k => x0 (ix2 p k)) x1 x2 q := by
  unfold projKer proj
  rw [addf_apply, shapeCast_self, matmul_ker_apply, bias_ker_apply]

theorem normKer_apply (z : FVec Ideal S2048x256 .f32) (p : Fin 2048) (u : Fin 1) :
    normKer z (ix2 p u) = Ideal.sqrt (∑ q : Fin 256, z (ix2 p q) * z (ix2 p q)) := by
  unfold normKer
  exact congrArg Ideal.sqrt ((keep_col_ker_apply _ p u).trans (lane_sum_apply (mulf z z) (.inl rfl) rfl p))

theorem pay_apply (x0 : FVec Ideal S2048x128 .f32) (x1 : FVec Ideal S128x256 .f32) (x2 : FVec Ideal S256 .f32)
    (p : Fin 2048) (q : Fin 256) :
    k8_pay1 (F := Ideal) x0 x1 x2 (ix2 p q) = rowOut (fun k => x0 (ix2 p k)) x1 x2 q := by
  rw [pay_eq]
  unfold kerTerm rowOut sumSq
  have hz : ∀ q', projKer x0 x1 x2 (ix2 p q') = proj (fun k => x0 (ix2 p k)) x1 x2 q' := fun q' => projKer_apply x0 x1 x2 p q'
  have hn : (maximumf (normKer (projKer x0 x1 x2)) (broadcast S2048x1 (Scalar.ofBits (F := Ideal) .f32 0x2B8CBCCC#32))) (ix2 p (0 : Fin 1))
      = max (Ideal.sqrt (∑ q' : Fin 256, proj (fun k => x0 (ix2 p k)) x1 x2 q' * proj (fun k => x0 (ix2 p k)) x1 x2 q'))
          (Ideal.ofBits .f32 0x2B8CBCCC#32) := by
    rw [maximumf_apply, normKer_apply, broadcast_apply]
    simp only [hz]
    rfl
  exact congrArg₂ Ideal.div (hz q) ((col_bcast_ker_apply _ p q).trans hn)

variable (c : Dev nD) (W : Valuation τ sig (Elt Ideal))

theorem idx : ∀ t : Fin grid8.N, win8_0.index t = ![t.val, 0] ∧ win8_1.index t = ![0, 0] ∧ win8_2.index t = ![0]
    ∧ win8_3.index t = ![t.val, 0] := by decide +kernel

theorem flushed_eq (t : Fin cfg8.N) :
    (dat c W).flushed 3 t = ((cfg8.win 3).blk t).view.read (Elt Ideal)
      (refTerm (at_ c W (Pipeline.arrRef spec8 0)) (at_ c W (Pipeline.arrRef spec8 1)) (at_ c W (Pipeline.arrRef spec8 2))) := by
  obtain ⟨i0, i1, i2, i3⟩ := idx t
  have h0 : ReadsAt (S := S8192x128) (size := S2048x128.size) (iblk c W 0 t) (at_ c W (Pipeline.arrRef spec8 0))
      (win8_0.index t) := ⟨_, rfl, rfl⟩
  have h1 : ReadsAt (S := S128x256) (size := S128x256.size) (iblk c W 1 t) (at_ c W (Pipeline.arrRef spec8 1))
      (win8_1.index t) := ⟨_, rfl, rfl⟩
  have h2 : ReadsAt (S := S256) (size := S256.size) (iblk c W 2 t) (at_ c W (Pipeline.arrRef spec8 2))
      (win8_2.index t) := ⟨_, rfl, rfl⟩
  have he : EmbAt (S := S8192x256) (size := S2048x256.size) ((cfg8.win 3).blk t).view.emb (win8_3.index t) := rfl
  rw [i0] at h0
  rw [i1, hz2] at h1
  rw [i2, hz1] at h2
  rw [i3] at he
  refine (congrArg _ (after_3 c W t)).trans ?_
  unfold out
  rw [View.canon_unit_zero hz2]
  simp only [View.ld_unit_zero (S := S2048x128) hz2, View.ld_unit_zero (S := S128x256) hz2, View.ld_unit_zero (S := S256) hz1]
  rw [h1.whole, h2.whole]
  funext y
  obtain ⟨p, q, rfl⟩ : ∃ (p : Fin 2048) (q : Fin 256), y = ix2 p q := ⟨y 0, y 1, eq_ix2 (n0 := 2048) (n1 := 256) y⟩
  obtain ⟨r, hr, hX⟩ := EmbAt.row (B := 2048) (R := 8192) (C := 256) he p q
  show k8_pay1 (F := Ideal) (iblk c W 0 t) _ _ (ix2 p q) = refTerm _ _ _ (((cfg8.win 3).blk t).view.emb (ix2 p q))
  rw [hX, pay_apply, refTerm_apply]
  exact congrArg (fun x => rowOut x _ _ q) (funext fun k => h0.row p k r hr)

theorem region_eq (c : Dev Cert.KernelIdeal.nD) (W : Valuation Cert.KernelIdeal.τ Cert.KernelIdeal.sig (Elt Ideal)) :
    (Cert.KernelIdeal.Reg8.dat c W).arrAt ⟨3, by decide⟩ Cert.KernelIdeal.cfg8.N
      = refTerm (Cert.KernelIdeal.Reg8.at_ c W (Pipeline.arrRef Cert.KernelIdeal.spec8 0))
          (Cert.KernelIdeal.Reg8.at_ c W (Pipeline.arrRef Cert.KernelIdeal.spec8 1))
          (Cert.KernelIdeal.Reg8.at_ c W (Pipeline.arrRef Cert.KernelIdeal.spec8 2)) :=
  (dat c W).arrAt_eq_of_cover 3 _ (fun t _ => flushed_eq c W t) fun i =>
    (cover 2048 8192 256 (by decide) (by rw [N_8]) (fun t => (idx t).2.2.2) (fun t => ((cfg8.win 3).blk t).view.emb)
      (fun _ => rfl) i).elim fun t ⟨y, h⟩ => ⟨t, flush8_3 t, h ▸ ((cfg8.win 3).blk t).view.emb_mem_set y⟩

end Cert.Val.Reg8

end
-- ==== Proof.KIJoin.lean ====
import proofs.«402905_j34316788695884_1_alg».proof.Proof.KIPeel
import proofs.«402905_j34316788695884_1_alg».proof.Proof.KIKept
import proofs.«402905_j34316788695884_1_alg».proof.Proof.ValAffineArr
import proofs.«402905_j34316788695884_1_alg».proof.Proof.ValMsg
import proofs.«402905_j34316788695884_1_alg».proof.Proof.ValMlpReg
import proofs.«402905_j34316788695884_1_alg».proof.Proof.ValFinal

noncomputable section

namespace Cert.KernelIdeal.Join

open Cert.KernelIdeal Cert.KernelIdeal.Gen Cert.KernelIdeal.Fam Cert.KernelIdeal.Peel Idealize.ShloMosaic Idealize.ShloMosaic.TcCoe

variable (m : (ℓ : Loc nD τ sig) → Buf (Elt Ideal) ℓ) (c : Dev nD)

/-- After a stage its output array is the array the stage's value theorem names. -/
theorem out_eq {V : Valuation τ sig (Elt Ideal)} {b : Ref sig .tc} {x y : Buf (Elt Ideal) ((c : Thread nD τ).loc b)} (h : x = y) :
    setAt c V b x (Proc.devRef .tc b) = y :=
  (setAt_self c V b x).trans h

theorem J_v82 : KF m c main_v82
    = Cert.Val.Reg0.refTerm (KF m c main_v81) (m ((c : Dev nD), Proc.devRef .tc main_arg13)) (m ((c : Dev nD), Proc.devRef .tc main_arg14)) := by
  simp (disch := decide) only [KF, last0 m c, leave0 m c, ← Kept.keptW0 m c main_arg13 (by decide), ← Kept.keptW0 m c main_arg14 (by decide)]
  exact out_eq c (Cert.Val.Reg0.region_eq c (W0 m c))

theorem J_v111 : KF m c main_v111
    = Cert.Val.Reg1.refTerm (KF m c main_v110) (m ((c : Dev nD), Proc.devRef .tc main_arg18)) (m ((c : Dev nD), Proc.devRef .tc main_arg19)) := by
  simp (disch := decide) only [KF, last1 m c, leave1 m c, ← Kept.keptW1 m c main_arg18 (by decide), ← Kept.keptW1 m c main_arg19 (by decide)]
  exact out_eq c (Cert.Val.Reg1.region_eq c (W1 m c))

theorem J_v117 : KF m c main_v117
    = Cert.Val.refTerm (KF m c main_v116) (KF m c main_v111) := by
  simp (disch := decide) only [KF, last2 m c, leave2 m c]
  exact out_eq c (Cert.Val.Reg2.region_eq c (W2 m c))

theorem J_v129 : KF m c main_v129
    = Cert.Val.Mlp.refTerm (KF m c main_v82) (KF m c main_v120) (KF m c main_v122) (KF m c main_v124) (KF m c main_v126) (KF m c main_v128) := by
  simp (disch := decide) only [KF, last3 m c, leave3 m c]
  exact out_eq c (Cert.Val.Reg3.region_eq c (W3 m c))

theorem J_v131 : KF m c main_v131
    = Cert.Val.refTerm (KF m c main_v130) (KF m c main_v111) := by
  simp (disch := decide) only [KF, last4 m c, leave4 m c]
  exact out_eq c (Cert.Val.Reg4.region_eq c (W4 m c))

theorem J_v143 : KF m c main_v143
    = Cert.Val.Mlp.refTerm (KF m c main_v129) (KF m c main_v134) (KF m c main_v136) (KF m c main_v138) (KF m c main_v140) (KF m c main_v142) := by
  simp (disch := decide) only [KF, last5 m c, leave5 m c]
  exact out_eq c (Cert.Val.Reg5.region_eq c (W5 m c))

theorem J_v145 : KF m c main_v145
    = Cert.Val.refTerm (KF m c main_v144) (KF m c main_v111) := by
  simp (disch := decide) only [KF, last6 m c, leave6 m c]
  exact out_eq c (Cert.Val.Reg6.region_eq c (W6 m c))

theorem J_v157 : KF m c main_v157
    = Cert.Val.Mlp.refTerm (KF m c main_v143) (KF m c main_v148) (KF m c main_v150) (KF m c main_v152) (KF m c main_v154) (KF m c main_v156) := by
  simp (disch := decide) only [KF, last7 m c, leave7 m c]
  exact out_eq c (Cert.Val.Reg7.region_eq c (W7 m c))

theorem J_v161 : KF m c main_v161
    = Cert.Val.Reg8.refTerm (KF m c main_v160) (m ((c : Dev nD), Proc.devRef .tc main_arg24)) (m ((c : Dev nD), Proc.devRef .tc main_arg25)) := by
  simp (disch := decide) only [KF, leave8 m c, ← Kept.keptW8 m c main_arg24 (by decide), ← Kept.keptW8 m c main_arg25 (by decide)]
  exact out_eq c (Cert.Val.Reg8.region_eq c (W8 m c))

end Cert.KernelIdeal.Join

end
-- ==== Proof.PreRange.lean ====
import proofs.«402905_j34316788695884_1_alg».proof.Defs
import Idealize.ShloMosaic.Lib.ReduceAll
import Idealize.ShloMosaic.Lib.ValueIdx

noncomputable section

namespace Cert.Val.Pre

open Idealize.ShloMosaic Idealize.SL.Sem

def kiSrc [hKernelIdeal : Cert.KernelIdeal.Facts] (a2 : IVec Cert.KernelIdeal.S2x800000 32) :
    IVec Cert.KernelIdeal.S800000 32 :=
  shapeCast Cert.KernelIdeal.S800000
    ((extractStridedSlice Cert.KernelIdeal.S1x800000 ![0, 0] · Cert.KernelIdeal.Facts₀.slices_S2x800000_S1x800000_0_0) a2)
    Cert.KernelIdeal.Facts₀.shapeCasts_S1x800000_S800000

instance subsingleton_scalar_idx : Subsingleton Cert.Pre_finite_inputs.S_.Idx :=
  ⟨fun a b => funext fun d => d.elim0⟩

theorem part6_range [hPre_finite_inputs : Cert.Pre_finite_inputs.Facts]
    (a2 : IVec Cert.Pre_finite_inputs.S2x800000 32) (a25 : FVec Ideal Cert.Pre_finite_inputs.S256 .f32)
    (v98 : IVec Cert.Pre_finite_inputs.S_ 1) (v101 : IVec Cert.Pre_finite_inputs.S128x256 1)
    (c39 : IVec Cert.Pre_finite_inputs.S_ 1)
    (h : Cert.Pre_finite_inputs.fn_part6 (F := Ideal) a2 a25 v98 v101 c39 ValueIdx.ix0 = 1#1) (e : Fin 800000) :
    0 ≤ (shapeCast Cert.Pre_finite_inputs.S800000
          ((extractStridedSlice Cert.Pre_finite_inputs.S1x800000 ![0, 0] ·
            Cert.Pre_finite_inputs.Facts.slices_S2x800000_S1x800000_0_0) a2)
          Cert.Pre_finite_inputs.Facts.shapeCasts_S1x800000_S800000 (ValueIdx.ix1 e)).toInt
    ∧ (shapeCast Cert.Pre_finite_inputs.S800000
          ((extractStridedSlice Cert.Pre_finite_inputs.S1x800000 ![0, 0] ·
            Cert.Pre_finite_inputs.Facts.slices_S2x800000_S1x800000_0_0) a2)
          Cert.Pre_finite_inputs.Facts.shapeCasts_S1x800000_S800000 (ValueIdx.ix1 e)).toInt < 200000 := by
  dsimp only [Cert.Pre_finite_inputs.fn_part6] at h

  have hlast := (IntOp.andi_eq_one.1 h).2

  have hat := Host.reduce_andi_all _ _ _ _ _ hlast (ValueIdx.ix1 e)
  obtain ⟨hge, hlt⟩ := IntOp.andi_eq_one.1 hat
  have hge' := IntOp.cmpi_sge.1 hge
  have hlt' := IntOp.cmpi_slt.1 hlt

  change (0#32 : BitVec 32).toInt ≤ _ at hge'
  change _ < (200000#32 : BitVec 32).toInt at hlt'
  have hz : (0#32 : BitVec 32).toInt = 0 := by decide
  have hN : (200000#32 : BitVec 32).toInt = 200000 := by decide
  rw [hz] at hge'
  rw [hN] at hlt'
  exact ⟨hge', hlt'⟩

theorem src_range (m : (ℓ : Loc Cert.KernelIdeal.nD Cert.KernelIdeal.τ Cert.KernelIdeal.sig) → Buf (Elt Ideal) ℓ)
    [hKernelIdeal : Cert.KernelIdeal.Facts] [hPre_finite_inputs : Cert.Pre_finite_inputs.Facts]
    (h : Cert.Pre_KernelIdeal m) (c : Dev Cert.KernelIdeal.nD) (e : Fin 800000) :
    0 ≤ (kiSrc (m ((c.tc : Thread Cert.KernelIdeal.nD Cert.KernelIdeal.τ).loc Cert.KernelIdeal.main_arg2)) (ValueIdx.ix1 e)).toInt
    ∧ (kiSrc (m ((c.tc : Thread Cert.KernelIdeal.nD Cert.KernelIdeal.τ).loc Cert.KernelIdeal.main_arg2)) (ValueIdx.ix1 e)).toInt < 200000 := by
  have h0 := congrFun (h c) ValueIdx.ix0

  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5] at h0
  unfold kiSrc
  exact part6_range _ _ _ _ _ h0 e

end Cert.Val.Pre

end
-- ==== Proof.ValTake.lean ====
import proofs.«402905_j34316788695884_1_alg».proof.Proof.Gen.KernelIdeal
import proofs.«402905_j34316788695884_1_alg».proof.Proof.Gen.ReferenceIdeal
import Idealize.ShloMosaic.PureOps.Ideal
import Idealize.ShloMosaic.PureOps.Reduce
import Idealize.ShloMosaic.Lib.ValueIdx

noncomputable section

namespace Cert.Val.Take

open Idealize.ShloMosaic Idealize.ShloMosaic.ValueIdx

theorem cmpi_slt_zero {w : BitVec 32} (h : 0 ≤ w.toInt) : IntOp.cmpi .slt w 0#32 = 0#1 := by
  have e : w.slt 0#32 = false := by
    rw [Bool.eq_false_iff]
    intro hc
    have hlt := BitVec.slt_iff_toInt_lt.1 hc
    have z : (0#32 : BitVec 32).toInt = 0 := by decide
    omega
  show BitVec.ofBool (w.slt 0#32) = 0#1
  rw [e]; rfl

theorem cmpi_sge_zero {w : BitVec 32} (h : 0 ≤ w.toInt) : IntOp.cmpi .sge w 0#32 = 1#1 := by
  have e : (0#32 : BitVec 32).sle w = true :=
    BitVec.sle_iff_toInt_le.2 (by have z : (0#32 : BitVec 32).toInt = 0 := by decide
                                  omega)
  show BitVec.ofBool ((0#32 : BitVec 32).sle w) = 1#1
  rw [e]; rfl

theorem cmpi_sle_last {w : BitVec 32} (h : w.toInt < 200000) : IntOp.cmpi .sle w 199999#32 = 1#1 := by
  have e : w.sle 199999#32 = true :=
    BitVec.sle_iff_toInt_le.2 (by have z : (199999#32 : BitVec 32).toInt = 199999 := by decide
                                  omega)
  show BitVec.ofBool (w.sle 199999#32) = 1#1
  rw [e]; rfl

theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi (1#1 : BitVec 1) (f a) = 1#1 := by rw [hf a]; decide
    rw [List.foldl_cons, h1]
    exact foldl_andi_ones f hf l

theorem broadcastInDim_of_forall {α : Type} {s t : Shape} (dims : Fin s.rank → Fin t.rank)
    (hb : s.BroadcastsInDim t dims) (x : s.Idx → α) (c : α) (hx : ∀ p, x p = c) (j : t.Idx) :
    broadcastInDim t dims hb x j = c := by
  unfold broadcastInDim
  exact hx _

namespace K

open Cert.KernelIdeal Cert.KernelIdeal.Facts₀

def wrap (src : IVec S800000 32) : IVec S800000 32 :=
  select (cmpi .slt src (broadcastInDim S800000 ![] bcast_S_S800000 (constantI S_ 32 0#32)))
    (addi src (broadcastInDim S800000 ![] bcast_S_S800000 (constantI S_ 32 200000#32))) src

def col (src : IVec S800000 32) : IVec S800000x1 32 :=
  broadcastInDim S800000x1 ![0] bcast_S800000_S800000x1_0 (wrap src)

def inRange (src : IVec S800000 32) : IVec S800000 1 :=
  Host.reduce IntOp.andi
    (andi (cmpi .sge (col src) (broadcastInDim S800000x1 ![] bcast_S_S800000x1 (constantI S_ 32 0#32)))
      (cmpi .sle (col src)
        (broadcastInDim S800000x1 ![0, 1] bcast_S1x1_S800000x1_0_1
          (broadcastInDim S1x1 ![1] bcast_S1_S1x1_1 (constantI S1 32 199999#32)))))
    (constantI S_ 1 1#1) reducesTo_S800000x1_S800000_d1 h_S_

end K

open Cert.KernelIdeal Cert.KernelIdeal.Facts₀ in

def takeK (h : FVec Ideal Cert.KernelIdeal.S200000x128 .f32) (src : IVec Cert.KernelIdeal.S800000 32) :
    FVec Ideal Cert.KernelIdeal.S800000x128 .f32 :=
  select (broadcastInDim S800000x128 ![0] bcast_S800000_S800000x128_0 (K.inRange src))
    (Host.gather gather_S200000x128_S800000x1_S800000x128_1_0_n_n_0_1_1128 h (K.col src))
    (broadcastInDim S800000x128 ![] bcast_S_S800000x128 (constant (F := Ideal) S_ .f32 0x7FC00000#32))

namespace R

open Cert.ReferenceIdeal Cert.ReferenceIdeal.Facts₀

def wrap (src : IVec S800000 32) : IVec S800000 32 :=
  select (cmpi .slt src (broadcastInDim S800000 ![] bcast_S_S800000 (constantI S_ 32 0#32)))
    (addi src (broadcastInDim S800000 ![] bcast_S_S800000 (constantI S_ 32 200000#32))) src

def col (src : IVec S800000 32) : IVec S800000x1 32 :=
  broadcastInDim S800000x1 ![0] bcast_S800000_S800000x1_0 (wrap src)

end R

open Cert.ReferenceIdeal Cert.ReferenceIdeal.Facts₀ in

def takeR (h : FVec Ideal Cert.ReferenceIdeal.S200000x128 .f32) (src : IVec Cert.ReferenceIdeal.S800000 32) :
    FVec Ideal Cert.ReferenceIdeal.S800000x128 .f32 :=
  Host.gather gather_S200000x128_S800000x1_S800000x128_1_0_n_n_0_1_1128 h (R.col src)

theorem col_eq (src : IVec Cert.KernelIdeal.S800000 32) : K.col src = R.col src := rfl

theorem gatherDims_eq :
    Cert.KernelIdeal.gather_S200000x128_S800000x1_S800000x128_1_0_n_n_0_1_1128
      = Cert.ReferenceIdeal.gather_S200000x128_S800000x1_S800000x128_1_0_n_n_0_1_1128 := rfl

theorem range_all (src : IVec Cert.KernelIdeal.S800000 32)
    (hsrc : ∀ e : Fin 800000, 0 ≤ (src (ix1 e)).toInt ∧ (src (ix1 e)).toInt < 200000)
    (k : Cert.KernelIdeal.S800000.Idx) : 0 ≤ (src k).toInt ∧ (src k).toInt < 200000 := by
  rw [eq_ix1 k]; exact hsrc (k 0)

theorem wrap_eq_self (src : IVec Cert.KernelIdeal.S800000 32)
    (hsrc : ∀ e : Fin 800000, 0 ≤ (src (ix1 e)).toInt ∧ (src (ix1 e)).toInt < 200000) : K.wrap src = src := by
  funext k
  show Scalar.select (IntOp.cmpi .slt (src k) 0#32) (IntOp.addi (src k) 200000#32) (src k) = src k
  rw [cmpi_slt_zero (range_all src hsrc k).1, select_zero]

theorem inRange_eq_one (src : IVec Cert.KernelIdeal.S800000 32)
    (hsrc : ∀ e : Fin 800000, 0 ≤ (src (ix1 e)).toInt ∧ (src (ix1 e)).toInt < 200000)
    (p : Cert.KernelIdeal.S800000.Idx) : K.inRange src p = 1#1 := by
  unfold K.inRange
  rw [Host.reduce_eq_foldl]
  refine foldl_andi_ones _ (fun i => ?_) _
  obtain ⟨k, hk⟩ : ∃ k, K.col src i = src k := ⟨_, by unfold K.col; rw [wrap_eq_self src hsrc]; rfl⟩
  show IntOp.andi (IntOp.cmpi .sge (K.col src i) 0#32) (IntOp.cmpi .sle (K.col src i) 199999#32) = 1#1
  rw [hk, cmpi_sge_zero (range_all src hsrc k).1, cmpi_sle_last (range_all src hsrc k).2]
  decide

theorem take_eq (h : FVec Ideal Cert.KernelIdeal.S200000x128 .f32) (src : IVec Cert.KernelIdeal.S800000 32)
    (hsrc : ∀ e : Fin 800000, 0 ≤ (src (ix1 e)).toInt ∧ (src (ix1 e)).toInt < 200000) :
    takeK h src = takeR h src := by
  funext i
  have hm := broadcastInDim_of_forall _ Cert.KernelIdeal.Facts₀.bcast_S800000_S800000x128_0 (K.inRange src) 1#1
    (inRange_eq_one src hsrc) i
  unfold takeK
  rw [select_apply, hm, select_one, col_eq, gatherDims_eq]
  rfl

end Cert.Val.Take

end
-- ==== Proof.KIEqs.lean ====
import proofs.«402905_j34316788695884_1_alg».proof.Proof.KIFam
import proofs.«402905_j34316788695884_1_alg».proof.Proof.KIKept
import proofs.«402905_j34316788695884_1_alg».proof.Proof.KIPeel
import proofs.«402905_j34316788695884_1_alg».proof.Proof.PreRange
import proofs.«402905_j34316788695884_1_alg».proof.Proof.ValTake
import Idealize.ShloMosaic.Lib.StableHlo.Run

set_option maxRecDepth 16384

noncomputable section

namespace Cert.KernelIdeal.Eqs

open Cert.KernelIdeal Cert.KernelIdeal.Gen Cert.KernelIdeal.Fam Cert.KernelIdeal.Kept
open Idealize.ShloMosaic Idealize.ShloMosaic.TcCoe

def kiDst (a2 : IVec S2x800000 32) : IVec S800000 32 :=
  shapeCast S800000 ((extractStridedSlice S1x800000 ![1, 0] · Facts₀.slices_S2x800000_S1x800000_1_0) a2)
    Facts₀.shapeCasts_S1x800000_S800000

def scat (dst : IVec S800000 32) (msg : FVec Ideal S800000x128 .f32) : FVec Ideal S200000x128 .f32 :=
  Host.scatterAdd (F := Ideal) scatter_S200000x128_S800000x1_S800000x128_1_0_0_1
    (broadcastInDim S200000x128 ![] Facts₀.bcast_S_S200000x128 (constant (F := Ideal) S_ .f32 0x00000000#32))
    (broadcastInDim S800000x1 ![0] Facts₀.bcast_S800000_S800000x1_0 dst) msg

section AnyFloat
variable {F : FTy → Type} [FloatOps F]

def takeG (h : FVec F S200000x128 .f32) (src : IVec S800000 32) : FVec F S800000x128 .f32 :=
  select (broadcastInDim S800000x128 ![0] Facts₀.bcast_S800000_S800000x128_0
      (Host.reduce IntOp.andi
        (andi
          (cmpi .sge
            (broadcastInDim S800000x1 ![0] Facts₀.bcast_S800000_S800000x1_0
              (select (cmpi .slt src (broadcastInDim S800000 ![] Facts₀.bcast_S_S800000 (constantI S_ 32 0#32)))
                (addi src (broadcastInDim S800000 ![] Facts₀.bcast_S_S800000 (constantI S_ 32 200000#32))) src))
            (broadcastInDim S800000x1 ![] Facts₀.bcast_S_S800000x1 (constantI S_ 32 0#32)))
          (cmpi .sle
            (broadcastInDim S800000x1 ![0] Facts₀.bcast_S800000_S800000x1_0
              (select (cmpi .slt src (broadcastInDim S800000 ![] Facts₀.bcast_S_S800000 (constantI S_ 32 0#32)))
                (addi src (broadcastInDim S800000 ![] Facts₀.bcast_S_S800000 (constantI S_ 32 200000#32))) src))
            (broadcastInDim S800000x1 ![0, 1] Facts₀.bcast_S1x1_S800000x1_0_1
              (broadcastInDim S1x1 ![1] Facts₀.bcast_S1_S1x1_1 (constantI S1 32 199999#32)))))
        (constantI S_ 1 1#1) Facts₀.reducesTo_S800000x1_S800000_d1 Facts₀.h_S_))
    (Host.gather gather_S200000x128_S800000x1_S800000x128_1_0_n_n_0_1_1128 h
      (broadcastInDim S800000x1 ![0] Facts₀.bcast_S800000_S800000x1_0
        (select (cmpi .slt src (broadcastInDim S800000 ![] Facts₀.bcast_S_S800000 (constantI S_ 32 0#32)))
          (addi src (broadcastInDim S800000 ![] Facts₀.bcast_S_S800000 (constantI S_ 32 200000#32))) src)))
    (broadcastInDim S800000x128 ![] Facts₀.bcast_S_S800000x128 (constant (F := F) S_ .f32 0x7FC00000#32))

theorem ofBuf_toBuf {T : BufTy} (x : StableHlo.TRef sig T) (v : T.Contents (Elt F)) : x.ofBuf (x.toBuf v) = v := by
  obtain ⟨r, h, _, _⟩ := x
  subst h
  rfl

attribute [local irreducible] Host.reduce Host.gather
set_option maxHeartbeats 4000000

theorem take_stretch0 (V : Valuation τ sig (Elt F)) :
    StableHlo.after hostOps2_1 V (Proc.devRef .tc main_v116)
      = (.of main_v116 : StableHlo.TRef sig ⟨S800000x128, .f32⟩).toBuf
          (takeG ((.of main_v82 : StableHlo.TRef sig ⟨S200000x128, .f32⟩).ofBuf (V (Proc.devRef .tc main_v82)))
            ((.of main_v113 : StableHlo.TRef sig ⟨S800000, .i32⟩).ofBuf (V (Proc.devRef .tc main_v113)))) := by
  dsimp only [hostOps2_1]
  after_results_simp
  simp only [ofBuf_toBuf]
  rfl

theorem take_stretch1 (V : Valuation τ sig (Elt F)) :
    StableHlo.after hostOps4 V (Proc.devRef .tc main_v130)
      = (.of main_v130 : StableHlo.TRef sig ⟨S800000x128, .f32⟩).toBuf
          (takeG ((.of main_v129 : StableHlo.TRef sig ⟨S200000x128, .f32⟩).ofBuf (V (Proc.devRef .tc main_v129)))
            ((.of main_v113 : StableHlo.TRef sig ⟨S800000, .i32⟩).ofBuf (V (Proc.devRef .tc main_v113)))) := by
  dsimp only [hostOps4]
  after_results_simp
  simp only [ofBuf_toBuf]
  rfl

theorem take_stretch2 (V : Valuation τ sig (Elt F)) :
    StableHlo.after hostOps6 V (Proc.devRef .tc main_v144)
      = (.of main_v144 : StableHlo.TRef sig ⟨S800000x128, .f32⟩).toBuf
          (takeG ((.of main_v143 : StableHlo.TRef sig ⟨S200000x128, .f32⟩).ofBuf (V (Proc.devRef .tc main_v143)))
            ((.of main_v113 : StableHlo.TRef sig ⟨S800000, .i32⟩).ofBuf (V (Proc.devRef .tc main_v113)))) := by
  dsimp only [hostOps6]
  after_results_simp
  simp only [ofBuf_toBuf]
  rfl

end AnyFloat

attribute [local irreducible] Host.reduce Host.gather in

theorem takeG_ideal (h : FVec Ideal S200000x128 .f32) (src : IVec S800000 32) :
    takeG (F := Ideal) h src = Cert.Val.Take.takeK h src := rfl

variable (m : (ℓ : Loc nD τ sig) → Buf (Elt Ideal) ℓ) (c : Dev nD)

theorem K_v113 : (E8 m c (Proc.devRef .tc main_v113) : IVec S800000 32)
    = Cert.Val.Pre.kiSrc (m ((c : Dev nD), Proc.devRef .tc main_arg2)) := by
  rw [Peel.into2 m c main_v113 (by decide) (by decide), ← keptE1 m c main_arg2 (by decide)]
  unfold W2
  rw [Peel.after_skips hostOps2_1 _ main_v113 (by decide)]
  dsimp only [hostOps2]
  after_results
  rfl

theorem K_v115 : (E8 m c (Proc.devRef .tc main_v115) : IVec S800000 32)
    = kiDst (m ((c : Dev nD), Proc.devRef .tc main_arg2)) := by
  rw [Peel.into2 m c main_v115 (by decide) (by decide), ← keptE1 m c main_arg2 (by decide)]
  unfold W2
  rw [Peel.after_skips hostOps2_1 _ main_v115 (by decide)]
  dsimp only [hostOps2]
  after_results
  rfl

attribute [local irreducible] takeG Cert.Val.Take.takeK Host.scatterAdd

theorem K_v116 : (E8 m c (Proc.devRef .tc main_v116) : FVec Ideal S800000x128 .f32)
    = Cert.Val.Take.takeK (E8 m c (Proc.devRef .tc main_v82)) (E8 m c (Proc.devRef .tc main_v113)) := by
  rw [Peel.into2 m c main_v116 (by decide) (by decide), Peel.into2 m c main_v113 (by decide) (by decide),
    Peel.last1 m c main_v82 (by decide), ← Peel.after_skips hostOps2 (E1 m c) main_v82 (by decide)]
  unfold W2
  rw [take_stretch0, Peel.after_skips hostOps2_1 _ main_v113 (by decide)]
  exact takeG_ideal _ _

theorem K_v130 : (E8 m c (Proc.devRef .tc main_v130) : FVec Ideal S800000x128 .f32)
    = Cert.Val.Take.takeK (E8 m c (Proc.devRef .tc main_v129)) (E8 m c (Proc.devRef .tc main_v113)) := by
  rw [Peel.into4 m c main_v130 (by decide) (by decide), Peel.last3 m c main_v129 (by decide), Peel.last3 m c main_v113 (by decide)]
  unfold W4
  rw [take_stretch1]
  exact takeG_ideal _ _

theorem K_v144 : (E8 m c (Proc.devRef .tc main_v144) : FVec Ideal S800000x128 .f32)
    = Cert.Val.Take.takeK (E8 m c (Proc.devRef .tc main_v143)) (E8 m c (Proc.devRef .tc main_v113)) := by
  rw [Peel.into6 m c main_v144 (by decide) (by decide), Peel.last5 m c main_v143 (by decide), Peel.last5 m c main_v113 (by decide)]
  unfold W6
  rw [take_stretch2]
  exact takeG_ideal _ _

theorem K_v120 : (E8 m c (Proc.devRef .tc main_v120) : FVec Ideal S200000x128 .f32)
    = scat (E8 m c (Proc.devRef .tc main_v115)) (E8 m c (Proc.devRef .tc main_v117)) := by
  rw [Peel.into3 m c main_v120 (by decide) (by decide), Peel.last2 m c main_v115 (by decide), Peel.last2 m c main_v117 (by decide)]
  unfold W3
  dsimp only [hostOps3]
  after_results
  rfl

theorem K_v134 : (E8 m c (Proc.devRef .tc main_v134) : FVec Ideal S200000x128 .f32)
    = scat (E8 m c (Proc.devRef .tc main_v115)) (E8 m c (Proc.devRef .tc main_v131)) := by
  rw [Peel.into5 m c main_v134 (by decide) (by decide), Peel.last4 m c main_v115 (by decide), Peel.last4 m c main_v131 (by decide)]
  unfold W5
  dsimp only [hostOps5]
  after_results
  rfl

theorem K_v148 : (E8 m c (Proc.devRef .tc main_v148) : FVec Ideal S200000x128 .f32)
    = scat (E8 m c (Proc.devRef .tc main_v115)) (E8 m c (Proc.devRef .tc main_v145)) := by
  rw [Peel.into7 m c main_v148 (by decide) (by decide), Peel.last6 m c main_v115 (by decide), Peel.last6 m c main_v145 (by decide)]
  unfold W7
  dsimp only [hostOps7]
  after_results
  rfl

end Cert.KernelIdeal.Eqs

end
-- ==== Proof.KIEqsCuts.lean ====
import proofs.«402905_j34316788695884_1_alg».proof.Proof.KIPeel
import proofs.«402905_j34316788695884_1_alg».proof.Proof.KIKept
import Idealize.ShloMosaic.Lib.StableHlo.Run
import Idealize.ShloMosaic.PureOps.Ideal

set_option maxRecDepth 16384

noncomputable section

namespace Cert.KernelIdeal.Eqs

open Cert.KernelIdeal Cert.KernelIdeal.Gen Cert.KernelIdeal.Fam Cert.KernelIdeal.Kept
open Idealize.ShloMosaic Idealize.ShloMosaic.TcCoe Idealize.SL.Sem Idealize.ShloMosaic.StableHlo

def wcut0 (w : FVec Ideal S3x128x128 .f32) : FVec Ideal S128x128 .f32 :=
  shapeCast S128x128 (extractStridedSlice S1x128x128 ![0, 0, 0] w slices_S3x128x128_S1x128x128_0_0_0) shapeCasts_S1x128x128_S128x128

def wcut1 (w : FVec Ideal S3x128x128 .f32) : FVec Ideal S128x128 .f32 :=
  shapeCast S128x128 (extractStridedSlice S1x128x128 ![1, 0, 0] w slices_S3x128x128_S1x128x128_1_0_0) shapeCasts_S1x128x128_S128x128

def wcut2 (w : FVec Ideal S3x128x128 .f32) : FVec Ideal S128x128 .f32 :=
  shapeCast S128x128 (extractStridedSlice S1x128x128 ![2, 0, 0] w slices_S3x128x128_S1x128x128_2_0_0) shapeCasts_S1x128x128_S128x128

def bcut0 (b : FVec Ideal S3x128 .f32) : FVec Ideal S128 .f32 :=
  shapeCast S128 (extractStridedSlice S1x128 ![0, 0] b slices_S3x128_S1x128_0_0) shapeCasts_S1x128_S128

def bcut1 (b : FVec Ideal S3x128 .f32) : FVec Ideal S128 .f32 :=
  shapeCast S128 (extractStridedSlice S1x128 ![1, 0] b slices_S3x128_S1x128_1_0) shapeCasts_S1x128_S128

def bcut2 (b : FVec Ideal S3x128 .f32) : FVec Ideal S128 .f32 :=
  shapeCast S128 (extractStridedSlice S1x128 ![2, 0] b slices_S3x128_S1x128_2_0) shapeCasts_S1x128_S128

def pool (batch : IVec S200000 32) (h : FVec Ideal S200000x128 .f32) : FVec Ideal S8192x128 .f32 :=
  Host.scatterAdd scatter_S8192x128_S200000x1_S200000x128_1_0_0_1
    (broadcastInDim S8192x128 ![] bcast_S_S8192x128 (constant (F := Ideal) S_ .f32 0x00000000#32))
    (broadcastInDim S200000x1 ![0] bcast_S200000_S200000x1_0 batch) h

variable (m : (ℓ : Loc nD τ sig) → Buf (Elt Ideal) ℓ) (c : Dev nD)

/-- The end holds at a cut what the cut's own stretch left there, a function of an argument that is still @main's. -/
theorem cut_eq {α β : Type} {e w : β} {v u : α} {f : α → β} (hy : e = w) (ha : v = u) (h : w = f v) : e = f u :=
  hy.trans (h.trans (congrArg f ha))

theorem K_v122 : (E8 m c (Proc.devRef .tc main_v122) : FVec Ideal S128x128 .f32) = wcut0 (m ((c : Dev nD), Proc.devRef .tc main_arg20)) :=
  cut_eq (Peel.into3 m c main_v122 (by decide) (by decide)) (Kept.keptE2 m c main_arg20 (by decide))
    (by unfold W3; dsimp only [hostOps3]; after_results; rfl)

theorem K_v124 : (E8 m c (Proc.devRef .tc main_v124) : FVec Ideal S128 .f32) = bcut0 (m ((c : Dev nD), Proc.devRef .tc main_arg21)) :=
  cut_eq (Peel.into3 m c main_v124 (by decide) (by decide)) (Kept.keptE2 m c main_arg21 (by decide))
    (by unfold W3; dsimp only [hostOps3]; after_results; rfl)

theorem K_v126 : (E8 m c (Proc.devRef .tc main_v126) : FVec Ideal S128x128 .f32) = wcut0 (m ((c : Dev nD), Proc.devRef .tc main_arg22)) :=
  cut_eq (Peel.into3 m c main_v126 (by decide) (by decide)) (Kept.keptE2 m c main_arg22 (by decide))
    (by unfold W3; dsimp only [hostOps3]; after_results; rfl)

theorem K_v128 : (E8 m c (Proc.devRef .tc main_v128) : FVec Ideal S128 .f32) = bcut0 (m ((c : Dev nD), Proc.devRef .tc main_arg23)) :=
  cut_eq (Peel.into3 m c main_v128 (by decide) (by decide)) (Kept.keptE2 m c main_arg23 (by decide))
    (by unfold W3; dsimp only [hostOps3]; after_results; rfl)

theorem K_v136 : (E8 m c (Proc.devRef .tc main_v136) : FVec Ideal S128x128 .f32) = wcut1 (m ((c : Dev nD), Proc.devRef .tc main_arg20)) :=
  cut_eq (Peel.into5 m c main_v136 (by decide) (by decide)) (Kept.keptE4 m c main_arg20 (by decide))
    (by unfold W5; dsimp only [hostOps5]; after_results; rfl)

theorem K_v138 : (E8 m c (Proc.devRef .tc main_v138) : FVec Ideal S128 .f32) = bcut1 (m ((c : Dev nD), Proc.devRef .tc main_arg21)) :=
  cut_eq (Peel.into5 m c main_v138 (by decide) (by decide)) (Kept.keptE4 m c main_arg21 (by decide))
    (by unfold W5; dsimp only [hostOps5]; after_results; rfl)

theorem K_v140 : (E8 m c (Proc.devRef .tc main_v140) : FVec Ideal S128x128 .f32) = wcut1 (m ((c : Dev nD), Proc.devRef .tc main_arg22)) :=
  cut_eq (Peel.into5 m c main_v140 (by decide) (by decide)) (Kept.keptE4 m c main_arg22 (by decide))
    (by unfold W5; dsimp only [hostOps5]; after_results; rfl)

theorem K_v142 : (E8 m c (Proc.devRef .tc main_v142) : FVec Ideal S128 .f32) = bcut1 (m ((c : Dev nD), Proc.devRef .tc main_arg23)) :=
  cut_eq (Peel.into5 m c main_v142 (by decide) (by decide)) (Kept.keptE4 m c main_arg23 (by decide))
    (by unfold W5; dsimp only [hostOps5]; after_results; rfl)

theorem K_v150 : (E8 m c (Proc.devRef .tc main_v150) : FVec Ideal S128x128 .f32) = wcut2 (m ((c : Dev nD), Proc.devRef .tc main_arg20)) :=
  cut_eq (Peel.into7 m c main_v150 (by decide) (by decide)) (Kept.keptE6 m c main_arg20 (by decide))
    (by unfold W7; dsimp only [hostOps7]; after_results; rfl)

theorem K_v152 : (E8 m c (Proc.devRef .tc main_v152) : FVec Ideal S128 .f32) = bcut2 (m ((c : Dev nD), Proc.devRef .tc main_arg21)) :=
  cut_eq (Peel.into7 m c main_v152 (by decide) (by decide)) (Kept.keptE6 m c main_arg21 (by decide))
    (by unfold W7; dsimp only [hostOps7]; after_results; rfl)

theorem K_v154 : (E8 m c (Proc.devRef .tc main_v154) : FVec Ideal S128x128 .f32) = wcut2 (m ((c : Dev nD), Proc.devRef .tc main_arg22)) :=
  cut_eq (Peel.into7 m c main_v154 (by decide) (by decide)) (Kept.keptE6 m c main_arg22 (by decide))
    (by unfold W7; dsimp only [hostOps7]; after_results; rfl)

theorem K_v156 : (E8 m c (Proc.devRef .tc main_v156) : FVec Ideal S128 .f32) = bcut2 (m ((c : Dev nD), Proc.devRef .tc main_arg23)) :=
  cut_eq (Peel.into7 m c main_v156 (by decide) (by decide)) (Kept.keptE6 m c main_arg23 (by decide))
    (by unfold W7; dsimp only [hostOps7]; after_results; rfl)

theorem K_v160 : (E8 m c (Proc.devRef .tc main_v160) : FVec Ideal S8192x128 .f32)
    = pool (m ((c : Dev nD), Proc.devRef .tc main_arg3)) (E8 m c (Proc.devRef .tc main_v157)) := by
  have hy : E8 m c (Proc.devRef .tc main_v160) = W8 m c (Proc.devRef .tc main_v160) := Peel.into8 m c main_v160 (by decide)
  have hx : E8 m c (Proc.devRef .tc main_v157) = E7 m c (Proc.devRef .tc main_v157) := Peel.last7 m c main_v157 (by decide)
  rw [hy, hx, ← Kept.keptE7 m c main_arg3 (by decide)]
  unfold W8; dsimp only [hostOps8]
  after_results
  rfl

end Cert.KernelIdeal.Eqs

end
-- ==== Proof.KIEqsEmb.lean ====
import proofs.«402905_j34316788695884_1_alg».proof.Proof.KIPeel
import proofs.«402905_j34316788695884_1_alg».proof.Proof.KIKept
import Idealize.ShloMosaic.PureOps.Ideal
import Idealize.ShloMosaic.Lib.StableHlo.Run

set_option maxRecDepth 16384

noncomputable section

namespace Cert.KernelIdeal.Eqs

open Cert.KernelIdeal Cert.KernelIdeal.Gen Cert.KernelIdeal.Fam Cert.KernelIdeal.Peel
open Idealize.ShloMosaic Idealize.ShloMosaic.TcCoe Idealize.ShloMosaic.StableHlo

namespace Emb

section Cut
variable {F : FTy → Type} [FloatOps F]

theorem after_cut (n : Nat) (ops : List (HloOp τ sig (Elt F))) (V : Valuation τ sig (Elt F)) :
    after ops V = after (ops.drop n) (after (ops.take n) V) := by
  conv_lhs => rw [← List.take_append_drop n ops]
  exact after_append _ _ V

/-- Operations past position n that do not write b leave it as the first n operations left it. -/
theorem after_upto (n : Nat) (ops : List (HloOp τ sig (Elt F))) (V : Valuation τ sig (Elt F)) (b : Ref sig .tc)
    (h : ∀ op ∈ ops.drop n, Proc.devRef (τ := τ) .tc b ∉ op.writes) :
    after ops V (Proc.devRef .tc b) = after (ops.take n) V (Proc.devRef .tc b) := by
  rw [after_cut n ops V]
  exact after_of_forall_not_mem _ _ h

theorem after_window (lo hi : Nat) (ops : List (HloOp τ sig (Elt F))) (V : Valuation τ sig (Elt F)) (b : Ref sig .tc)
    (hpost : ∀ op ∈ ops.drop hi, Proc.devRef (τ := τ) .tc b ∉ op.writes) :
    after ops V (Proc.devRef .tc b)
      = after ((ops.take hi).drop lo) (after ((ops.take hi).take lo) V) (Proc.devRef .tc b) := by
  rw [after_upto hi ops V b hpost, after_cut lo (ops.take hi) V]

end Cut

def wrapN (x : IVec S200000x9 32) (off : Fin 2 → Nat) (hs : S200000x9.Slices off S200000x1) (n : BitVec 32) : IVec S200000x1 32 :=
  let y := shapeCast S200000 (extractStridedSlice S200000x1 off x hs) shapeCasts_S200000x1_S200000
  broadcastInDim S200000x1 ![0] bcast_S200000_S200000x1_0
    (select (cmpi .slt y (broadcastInDim S200000 ![] bcast_S_S200000 (constantI S_ 32 0#32)))
      (addi y (broadcastInDim S200000 ![] bcast_S_S200000 (constantI S_ 32 n))) y)

def wrapE (x : IVec S800000x3 32) (off : Fin 2 → Nat) (hs : S800000x3.Slices off S800000x1) (n : BitVec 32) : IVec S800000x1 32 :=
  let y := shapeCast S800000 (extractStridedSlice S800000x1 off x hs) shapeCasts_S800000x1_S800000
  broadcastInDim S800000x1 ![0] bcast_S800000_S800000x1_0
    (select (cmpi .slt y (broadcastInDim S800000 ![] bcast_S_S800000 (constantI S_ 32 0#32)))
      (addi y (broadcastInDim S800000 ![] bcast_S_S800000 (constantI S_ 32 n))) y)

end Emb

open Emb

def embN (x : IVec S200000x9 32) (t0 : FVec Ideal S119x32 .f32) (t1 : FVec Ideal S9x32 .f32) (t2 : FVec Ideal S11x32 .f32)
    (t3 : FVec Ideal S12x32 .f32) (t4 : FVec Ideal S9x32 .f32) (t5 : FVec Ideal S5x32 .f32) (t6 : FVec Ideal S8x32 .f32)
    (t7 : FVec Ideal S2x32 .f32) (t8 : FVec Ideal S2x32 .f32) : FVec Ideal S200000x288 .f32 :=
  concatenate S200000x288 1
    [⟨S200000x32, Host.gather gather_S119x32_S200000x1_S200000x32_1_0_n_n_0_1_132 t0 (wrapN x ![0, 0] slices_S200000x9_S200000x1_0_0 119#32)⟩,
     ⟨S200000x32, Host.gather gather_S9x32_S200000x1_S200000x32_1_0_n_n_0_1_132 t1 (wrapN x ![0, 1] slices_S200000x9_S200000x1_0_1 9#32)⟩,
     ⟨S200000x32, Host.gather gather_S11x32_S200000x1_S200000x32_1_0_n_n_0_1_132 t2 (wrapN x ![0, 2] slices_S200000x9_S200000x1_0_2 11#32)⟩,
     ⟨S200000x32, Host.gather gather_S12x32_S200000x1_S200000x32_1_0_n_n_0_1_132 t3 (wrapN x ![0, 3] slices_S200000x9_S200000x1_0_3 12#32)⟩,
     ⟨S200000x32, Host.gather gather_S9x32_S200000x1_S200000x32_1_0_n_n_0_1_132 t4 (wrapN x ![0, 4] slices_S200000x9_S200000x1_0_4 9#32)⟩,
     ⟨S200000x32, Host.gather gather_S5x32_S200000x1_S200000x32_1_0_n_n_0_1_132 t5 (wrapN x ![0, 5] slices_S200000x9_S200000x1_0_5 5#32)⟩,
     ⟨S200000x32, Host.gather gather_S8x32_S200000x1_S200000x32_1_0_n_n_0_1_132 t6 (wrapN x ![0, 6] slices_S200000x9_S200000x1_0_6 8#32)⟩,
     ⟨S200000x32, Host.gather gather_S2x32_S200000x1_S200000x32_1_0_n_n_0_1_132 t7 (wrapN x ![0, 7] slices_S200000x9_S200000x1_0_7 2#32)⟩,
     ⟨S200000x32, Host.gather gather_S2x32_S200000x1_S200000x32_1_0_n_n_0_1_132 t8 (wrapN x ![0, 8] slices_S200000x9_S200000x1_0_8 2#32)⟩]
    concatenates_S200000x32_S200000x32_S200000x32_S200000x32_S200000x32_S200000x32_S200000x32_S200000x32_S200000x32_S200000x288_d1

def embE (x : IVec S800000x3 32) (t0 : FVec Ideal S22x32 .f32) (t1 : FVec Ideal S6x32 .f32) (t2 : FVec Ideal S2x32 .f32) :
    FVec Ideal S800000x96 .f32 :=
  concatenate S800000x96 1
    [⟨S800000x32, Host.gather gather_S22x32_S800000x1_S800000x32_1_0_n_n_0_1_132 t0 (wrapE x ![0, 0] slices_S800000x3_S800000x1_0_0 22#32)⟩,
     ⟨S800000x32, Host.gather gather_S6x32_S800000x1_S800000x32_1_0_n_n_0_1_132 t1 (wrapE x ![0, 1] slices_S800000x3_S800000x1_0_1 6#32)⟩,
     ⟨S800000x32, Host.gather gather_S2x32_S800000x1_S800000x32_1_0_n_n_0_1_132 t2 (wrapE x ![0, 2] slices_S800000x3_S800000x1_0_2 2#32)⟩]
    concatenates_S800000x32_S800000x32_S800000x32_S800000x96_d1

variable (m : (ℓ : Loc nD τ sig) → Buf (Elt Ideal) ℓ) (c : Dev nD)

abbrev arg (r : Ref sig .tc) := m ((c : Dev nD), Proc.devRef .tc r)

local macro "column" m:ident c:ident W:ident ops:ident V:ident x:ident lo:num hi:num tbl:ident : tactic => `(tactic| (
  unfold $W
  rw [Emb.after_window $lo $hi $ops ($V $m $c) _ (by decide)]
  have hx : after (List.take $lo (List.take $hi $ops)) ($V $m $c) (Proc.devRef .tc $x) = $V $m $c (Proc.devRef .tc $x) :=
    after_of_forall_not_mem _ _ (by decide)
  have ht : after (List.take $lo (List.take $hi $ops)) ($V $m $c) (Proc.devRef .tc $tbl) = $V $m $c (Proc.devRef .tc $tbl) :=
    after_of_forall_not_mem _ _ (by decide)
  generalize after (List.take $lo (List.take $hi $ops)) ($V $m $c) = U at hx ht ⊢
  simp only [$ops:ident, List.take_succ_cons, List.drop_succ_cons, List.drop_zero, List.take_zero]
  after_results
  rw [hx, ht]
  try rw [Kept.keptE0 $m $c $x (by decide), Kept.keptE0 $m $c $tbl (by decide)]
  rfl))

section
set_option maxHeartbeats 4000000

theorem W0_v8 : W0 m c (Proc.devRef .tc main_v8)
    = Host.gather gather_S119x32_S200000x1_S200000x32_1_0_n_n_0_1_132 (arg m c main_arg4)
        (wrapN (arg m c main_arg0) ![0, 0] slices_S200000x9_S200000x1_0_0 119#32) := by
  column m c W0 hostOps0 V₀ main_arg0 0 11 main_arg4

theorem W0_v17 : W0 m c (Proc.devRef .tc main_v17)
    = Host.gather gather_S9x32_S200000x1_S200000x32_1_0_n_n_0_1_132 (arg m c main_arg5)
        (wrapN (arg m c main_arg0) ![0, 1] slices_S200000x9_S200000x1_0_1 9#32) := by
  column m c W0 hostOps0 V₀ main_arg0 11 22 main_arg5

theorem W0_v26 : W0 m c (Proc.devRef .tc main_v26)
    = Host.gather gather_S11x32_S200000x1_S200000x32_1_0_n_n_0_1_132 (arg m c main_arg6)
        (wrapN (arg m c main_arg0) ![0, 2] slices_S200000x9_S200000x1_0_2 11#32) := by
  column m c W0 hostOps0 V₀ main_arg0 22 33 main_arg6

theorem W0_v35 : W0 m c (Proc.devRef .tc main_v35)
    = Host.gather gather_S12x32_S200000x1_S200000x32_1_0_n_n_0_1_132 (arg m c main_arg7)
        (wrapN (arg m c main_arg0) ![0, 3] slices_S200000x9_S200000x1_0_3 12#32) := by
  column m c W0 hostOps0 V₀ main_arg0 33 44 main_arg7

theorem W0_v44 : W0 m c (Proc.devRef .tc main_v44)
    = Host.gather gather_S9x32_S200000x1_S200000x32_1_0_n_n_0_1_132 (arg m c main_arg8)
        (wrapN (arg m c main_arg0) ![0, 4] slices_S200000x9_S200000x1_0_4 9#32) := by
  column m c W0 hostOps0 V₀ main_arg0 44 55 main_arg8

theorem W0_v53 : W0 m c (Proc.devRef .tc main_v53)
    = Host.gather gather_S5x32_S200000x1_S200000x32_1_0_n_n_0_1_132 (arg m c main_arg9)
        (wrapN (arg m c main_arg0) ![0, 5] slices_S200000x9_S200000x1_0_5 5#32) := by
  column m c W0 hostOps0 V₀ main_arg0 55 66 main_arg9

theorem W0_v62 : W0 m c (Proc.devRef .tc main_v62)
    = Host.gather gather_S8x32_S200000x1_S200000x32_1_0_n_n_0_1_132 (arg m c main_arg10)
        (wrapN (arg m c main_arg0) ![0, 6] slices_S200000x9_S200000x1_0_6 8#32) := by
  column m c W0 hostOps0 V₀ main_arg0 66 77 main_arg10

theorem W0_v71 : W0 m c (Proc.devRef .tc main_v71)
    = Host.gather gather_S2x32_S200000x1_S200000x32_1_0_n_n_0_1_132 (arg m c main_arg11)
        (wrapN (arg m c main_arg0) ![0, 7] slices_S200000x9_S200000x1_0_7 2#32) := by
  column m c W0 hostOps0 V₀ main_arg0 77 88 main_arg11

theorem W0_v80 : W0 m c (Proc.devRef .tc main_v80)
    = Host.gather gather_S2x32_S200000x1_S200000x32_1_0_n_n_0_1_132 (arg m c main_arg12)
        (wrapN (arg m c main_arg0) ![0, 8] slices_S200000x9_S200000x1_0_8 2#32) := by
  column m c W0 hostOps0 V₀ main_arg0 88 99 main_arg12

end

theorem W0_v81 : W0 m c (Proc.devRef .tc main_v81)
    = concatenate S200000x288 1
        [⟨S200000x32, W0 m c (Proc.devRef .tc main_v8)⟩,
         ⟨S200000x32, W0 m c (Proc.devRef .tc main_v17)⟩,
         ⟨S200000x32, W0 m c (Proc.devRef .tc main_v26)⟩,
         ⟨S200000x32, W0 m c (Proc.devRef .tc main_v35)⟩,
         ⟨S200000x32, W0 m c (Proc.devRef .tc main_v44)⟩,
         ⟨S200000x32, W0 m c (Proc.devRef .tc main_v53)⟩,
         ⟨S200000x32, W0 m c (Proc.devRef .tc main_v62)⟩,
         ⟨S200000x32, W0 m c (Proc.devRef .tc main_v71)⟩,
         ⟨S200000x32, W0 m c (Proc.devRef .tc main_v80)⟩]
        concatenates_S200000x32_S200000x32_S200000x32_S200000x32_S200000x32_S200000x32_S200000x32_S200000x32_S200000x32_S200000x288_d1 := by
  unfold W0
  have e := fun b h => Emb.after_upto 99 hostOps0 (V₀ m c) b h
  rw [e main_v8 (by decide), e main_v17 (by decide), e main_v26 (by decide), e main_v35 (by decide), e main_v44 (by decide), e main_v53 (by decide), e main_v62 (by decide), e main_v71 (by decide), e main_v80 (by decide), Emb.after_cut 99 hostOps0 (V₀ m c)]
  generalize after (hostOps0.take 99) (V₀ m c) = U
  simp only [hostOps0, List.drop_succ_cons, List.drop_zero]
  simp only [after_cons, after_nil]
  rw [nary_result]
  rfl

theorem K_v81 : KF m c main_v81
    = embN (m ((c : Dev nD), Proc.devRef .tc main_arg0)) (m ((c : Dev nD), Proc.devRef .tc main_arg4))
        (m ((c : Dev nD), Proc.devRef .tc main_arg5))
        (m ((c : Dev nD), Proc.devRef .tc main_arg6))
        (m ((c : Dev nD), Proc.devRef .tc main_arg7))
        (m ((c : Dev nD), Proc.devRef .tc main_arg8))
        (m ((c : Dev nD), Proc.devRef .tc main_arg9))
        (m ((c : Dev nD), Proc.devRef .tc main_arg10))
        (m ((c : Dev nD), Proc.devRef .tc main_arg11))
        (m ((c : Dev nD), Proc.devRef .tc main_arg12)) := by
  have hy : KF m c main_v81 = W0 m c (Proc.devRef .tc main_v81) := into0 m c main_v81 (by decide) (by decide)
  rw [hy, W0_v81, W0_v8, W0_v17, W0_v26, W0_v35, W0_v44, W0_v53, W0_v62, W0_v71, W0_v80]
  rfl

section
set_option maxHeartbeats 4000000

theorem W1_v91 : W1 m c (Proc.devRef .tc main_v91)
    = Host.gather gather_S22x32_S800000x1_S800000x32_1_0_n_n_0_1_132 (arg m c main_arg15)
        (wrapE (arg m c main_arg1) ![0, 0] slices_S800000x3_S800000x1_0_0 22#32) := by
  column m c W1 hostOps1 E0 main_arg1 0 11 main_arg15

theorem W1_v100 : W1 m c (Proc.devRef .tc main_v100)
    = Host.gather gather_S6x32_S800000x1_S800000x32_1_0_n_n_0_1_132 (arg m c main_arg16)
        (wrapE (arg m c main_arg1) ![0, 1] slices_S800000x3_S800000x1_0_1 6#32) := by
  column m c W1 hostOps1 E0 main_arg1 11 22 main_arg16

theorem W1_v109 : W1 m c (Proc.devRef .tc main_v109)
    = Host.gather gather_S2x32_S800000x1_S800000x32_1_0_n_n_0_1_132 (arg m c main_arg17)
        (wrapE (arg m c main_arg1) ![0, 2] slices_S800000x3_S800000x1_0_2 2#32) := by
  column m c W1 hostOps1 E0 main_arg1 22 33 main_arg17

end

theorem W1_v110 : W1 m c (Proc.devRef .tc main_v110)
    = concatenate S800000x96 1
        [⟨S800000x32, W1 m c (Proc.devRef .tc main_v91)⟩,
         ⟨S800000x32, W1 m c (Proc.devRef .tc main_v100)⟩,
         ⟨S800000x32, W1 m c (Proc.devRef .tc main_v109)⟩]
        concatenates_S800000x32_S800000x32_S800000x32_S800000x96_d1 := by
  unfold W1
  have e := fun b h => Emb.after_upto 33 hostOps1 (E0 m c) b h
  rw [e main_v91 (by decide), e main_v100 (by decide), e main_v109 (by decide), Emb.after_cut 33 hostOps1 (E0 m c)]
  generalize after (hostOps1.take 33) (E0 m c) = U
  simp only [hostOps1, List.drop_succ_cons, List.drop_zero]
  simp only [after_cons, after_nil]
  rw [nary_result]
  rfl

theorem K_v110 : KF m c main_v110
    = embE (m ((c : Dev nD), Proc.devRef .tc main_arg1)) (m ((c : Dev nD), Proc.devRef .tc main_arg15)) (m ((c : Dev nD), Proc.devRef .tc main_arg16)) (m ((c : Dev nD), Proc.devRef .tc main_arg17)) := by
  have hy : KF m c main_v110 = W1 m c (Proc.devRef .tc main_v110) := into1 m c main_v110 (by decide) (by decide)
  rw [hy, W1_v110, W1_v91, W1_v100, W1_v109]
  rfl

end Cert.KernelIdeal.Eqs

end
-- ==== Proof.RefEqsA.lean ====
import proofs.«402905_j34316788695884_1_alg».proof.Proof.RefEqsTab
import proofs.«402905_j34316788695884_1_alg».proof.Proof.ValMsg
import proofs.«402905_j34316788695884_1_alg».proof.Proof.ValTake

set_option maxRecDepth 16384

noncomputable section

namespace Cert.ReferenceIdeal.Eqs

open Cert.ReferenceIdeal Cert.ReferenceIdeal.Facts₀ Cert.ReferenceIdeal.RefRun
open Idealize.ShloMosaic Idealize.ShloMosaic.TcCoe Idealize.SL.Sem Idealize.ShloMosaic.StableHlo

def refSrc (ei : IVec S2x800000 32) : IVec S800000 32 :=
  shapeCast S800000 (extractStridedSlice S1x800000 ![0, 0] ei slices_S2x800000_S1x800000_0_0) shapeCasts_S1x800000_S800000

def refDst (ei : IVec S2x800000 32) : IVec S800000 32 :=
  shapeCast S800000 (extractStridedSlice S1x800000 ![1, 0] ei slices_S2x800000_S1x800000_1_0) shapeCasts_S1x800000_S800000

def scat (dst : IVec S800000 32) (msg : FVec Ideal S800000x128 .f32) : FVec Ideal S200000x128 .f32 :=
  Host.scatterAdd scatter_S200000x128_S800000x1_S800000x128_1_0_0_1
    (broadcastInDim S200000x128 ![] bcast_S_S200000x128 (constant (F := Ideal) S_ .f32 0x00000000#32))
    (broadcastInDim S800000x1 ![0] bcast_S800000_S800000x1_0 dst) msg

variable (m' : (ℓ : Loc nD τ sig) → Buf (Elt Ideal) ℓ) (c : Dev nD)

theorem R_v119 : RF m' c (Proc.devRef .tc main_v119) = refSrc (m' ((c : Dev nD), Proc.devRef .tc main_arg2)) := by
  rw [RF_S7 m' c main_v119 (by decide)]
  unfold S7; dsimp only [ops07]
  after_results
  rw [S6_arg m' c main_arg2 (by decide)]
  rfl

theorem R_v121 : RF m' c (Proc.devRef .tc main_v121) = refDst (m' ((c : Dev nD), Proc.devRef .tc main_arg2)) := by
  rw [RF_S7 m' c main_v121 (by decide)]
  unfold S7; dsimp only [ops07]
  after_results
  rw [S6_arg m' c main_arg2 (by decide)]
  rfl

theorem R_v128 : RF m' c (Proc.devRef .tc main_v128)
    = Cert.Val.Take.takeR (RF m' c (Proc.devRef .tc main_v85)) (RF m' c (Proc.devRef .tc main_v119)) := by
  rw [RF_S8 m' c main_v128 (by decide)]
  unfold S8; dsimp only [ops08]
  after_results
  rw [S7_up m' c main_v85 (by decide), S7_up m' c main_v119 (by decide)]
  rfl

theorem R_v159 : RF m' c (Proc.devRef .tc main_v159)
    = Cert.Val.Take.takeR (RF m' c (Proc.devRef .tc main_v152)) (RF m' c (Proc.devRef .tc main_v119)) := by
  rw [RF_S12 m' c main_v159 (by decide)]
  unfold S12; dsimp only [ops12]
  after_results
  rw [S11_up m' c main_v152 (by decide), S11_up m' c main_v119 (by decide)]
  rfl

theorem R_v190 : RF m' c (Proc.devRef .tc main_v190)
    = Cert.Val.Take.takeR (RF m' c (Proc.devRef .tc main_v183)) (RF m' c (Proc.devRef .tc main_v119)) := by
  rw [RF_S16 m' c main_v190 (by decide)]
  unfold S16; dsimp only [ops16]
  after_results
  rw [S15_up m' c main_v183 (by decide), S15_up m' c main_v119 (by decide)]
  rfl

theorem R_v130 : RF m' c (Proc.devRef .tc main_v130)
    = Cert.Val.refTerm (RF m' c (Proc.devRef .tc main_v128)) (RF m' c (Proc.devRef .tc main_v117)) := by
  rw [RF_S9 m' c main_v130 (by decide)]
  unfold S9; dsimp only [ops09]
  after_results
  rw [S8_up m' c main_v128 (by decide), S8_up m' c main_v117 (by decide)]
  rfl

theorem R_v161 : RF m' c (Proc.devRef .tc main_v161)
    = Cert.Val.refTerm (RF m' c (Proc.devRef .tc main_v159)) (RF m' c (Proc.devRef .tc main_v117)) := by
  rw [RF_S13 m' c main_v161 (by decide)]
  unfold S13; dsimp only [ops13]
  after_results
  rw [S12_up m' c main_v159 (by decide), S12_up m' c main_v117 (by decide)]
  rfl

theorem R_v192 : RF m' c (Proc.devRef .tc main_v192)
    = Cert.Val.refTerm (RF m' c (Proc.devRef .tc main_v190)) (RF m' c (Proc.devRef .tc main_v117)) := by
  rw [RF_S17 m' c main_v192 (by decide)]
  unfold S17; dsimp only [ops17]
  after_results
  rw [S16_up m' c main_v190 (by decide), S16_up m' c main_v117 (by decide)]
  rfl

theorem R_v133 : RF m' c (Proc.devRef .tc main_v133)
    = scat (RF m' c (Proc.devRef .tc main_v121)) (RF m' c (Proc.devRef .tc main_v130)) := by
  rw [RF_S10 m' c main_v133 (by decide)]
  unfold S10; dsimp only [ops10]
  after_results
  rw [S9_up m' c main_v121 (by decide), S9_up m' c main_v130 (by decide)]
  rfl

theorem R_v164 : RF m' c (Proc.devRef .tc main_v164)
    = scat (RF m' c (Proc.devRef .tc main_v121)) (RF m' c (Proc.devRef .tc main_v161)) := by
  rw [RF_S14 m' c main_v164 (by decide)]
  unfold S14; dsimp only [ops14]
  after_results
  rw [S13_up m' c main_v121 (by decide), S13_up m' c main_v161 (by decide)]
  rfl

theorem R_v195 : RF m' c (Proc.devRef .tc main_v195)
    = scat (RF m' c (Proc.devRef .tc main_v121)) (RF m' c (Proc.devRef .tc main_v192)) := by
  rw [RF_S18 m' c main_v195 (by decide)]
  unfold S18; dsimp only [ops18]
  after_results
  rw [S17_up m' c main_v121 (by decide), S17_up m' c main_v192 (by decide)]
  rfl

end Cert.ReferenceIdeal.Eqs

end
-- ==== Proof.RefEqsB.lean ====
import proofs.«402905_j34316788695884_1_alg».proof.Proof.RefEqsTab
import proofs.«402905_j34316788695884_1_alg».proof.Proof.ValAffine
import proofs.«402905_j34316788695884_1_alg».proof.Proof.ValMlp
import proofs.«402905_j34316788695884_1_alg».proof.Proof.ValFinalRef

set_option maxRecDepth 16384

noncomputable section

namespace Cert.ReferenceIdeal.Eqs

open Cert.ReferenceIdeal Cert.ReferenceIdeal.Facts₀ Cert.ReferenceIdeal.RefRun
open Idealize.ShloMosaic Idealize.ShloMosaic.TcCoe Idealize.SL.Sem Idealize.ShloMosaic.StableHlo

def wcut0 (w : FVec Ideal S3x128x128 .f32) : FVec Ideal S128x128 .f32 :=
  shapeCast S128x128 (extractStridedSlice S1x128x128 ![0, 0, 0] w slices_S3x128x128_S1x128x128_0_0_0) shapeCasts_S1x128x128_S128x128

def wcut1 (w : FVec Ideal S3x128x128 .f32) : FVec Ideal S128x128 .f32 :=
  shapeCast S128x128 (extractStridedSlice S1x128x128 ![1, 0, 0] w slices_S3x128x128_S1x128x128_1_0_0) shapeCasts_S1x128x128_S128x128

def wcut2 (w : FVec Ideal S3x128x128 .f32) : FVec Ideal S128x128 .f32 :=
  shapeCast S128x128 (extractStridedSlice S1x128x128 ![2, 0, 0] w slices_S3x128x128_S1x128x128_2_0_0) shapeCasts_S1x128x128_S128x128

def bcut0 (b : FVec Ideal S3x128 .f32) : FVec Ideal S128 .f32 :=
  shapeCast S128 (extractStridedSlice S1x128 ![0, 0] b slices_S3x128_S1x128_0_0) shapeCasts_S1x128_S128

def bcut1 (b : FVec Ideal S3x128 .f32) : FVec Ideal S128 .f32 :=
  shapeCast S128 (extractStridedSlice S1x128 ![1, 0] b slices_S3x128_S1x128_1_0) shapeCasts_S1x128_S128

def bcut2 (b : FVec Ideal S3x128 .f32) : FVec Ideal S128 .f32 :=
  shapeCast S128 (extractStridedSlice S1x128 ![2, 0] b slices_S3x128_S1x128_2_0) shapeCasts_S1x128_S128

def pool (batch : IVec S200000 32) (h : FVec Ideal S200000x128 .f32) : FVec Ideal S8192x128 .f32 :=
  Host.scatterAdd scatter_S8192x128_S200000x1_S200000x128_1_0_0_1
    (broadcastInDim S8192x128 ![] bcast_S_S8192x128 (constant (F := Ideal) S_ .f32 0x00000000#32))
    (broadcastInDim S200000x1 ![0] bcast_S200000_S200000x1_0 batch) h

variable (m' : (ℓ : Loc nD τ sig) → Buf (Elt Ideal) ℓ) (c : Dev nD)

set_option maxHeartbeats 4000000 in
theorem R_v85 : RF m' c (Proc.devRef .tc main_v85)
    = Cert.Val.Reg0.refTerm (RF m' c (Proc.devRef .tc main_v81)) (m' ((c : Dev nD), Proc.devRef .tc main_arg13))
        (m' ((c : Dev nD), Proc.devRef .tc main_arg14)) := by
  rw [RF_S3 m' c main_v85 (by decide)]
  unfold S3; dsimp only [ops03]
  after_results
  rw [S2_up m' c main_v81 (by decide), S2_arg m' c main_arg13 (by decide), S2_arg m' c main_arg14 (by decide)]
  rfl

set_option maxHeartbeats 4000000 in
theorem R_v117 : RF m' c (Proc.devRef .tc main_v117)
    = Cert.Val.Reg1.refTerm (RF m' c (Proc.devRef .tc main_v113)) (m' ((c : Dev nD), Proc.devRef .tc main_arg18))
        (m' ((c : Dev nD), Proc.devRef .tc main_arg19)) := by
  rw [RF_S6 m' c main_v117 (by decide)]
  unfold S6; dsimp only [ops06]
  after_results
  rw [S5_up m' c main_v113 (by decide), S5_arg m' c main_arg18 (by decide), S5_arg m' c main_arg19 (by decide)]
  rfl

set_option maxHeartbeats 4000000 in
theorem R_v152 : RF m' c (Proc.devRef .tc main_v152)
    = Cert.Val.Mlp.refTerm (RF m' c (Proc.devRef .tc main_v85)) (RF m' c (Proc.devRef .tc main_v133))
        (wcut0 (m' ((c : Dev nD), Proc.devRef .tc main_arg20))) (bcut0 (m' ((c : Dev nD), Proc.devRef .tc main_arg21)))
        (wcut0 (m' ((c : Dev nD), Proc.devRef .tc main_arg22))) (bcut0 (m' ((c : Dev nD), Proc.devRef .tc main_arg23))) := by
  rw [RF_S11 m' c main_v152 (by decide)]
  unfold S11; dsimp only [ops11]
  after_results
  rw [S10_up m' c main_v85 (by decide), S10_up m' c main_v133 (by decide), S10_arg m' c main_arg20 (by decide),
    S10_arg m' c main_arg21 (by decide), S10_arg m' c main_arg22 (by decide), S10_arg m' c main_arg23 (by decide)]
  rfl

set_option maxHeartbeats 4000000 in
theorem R_v183 : RF m' c (Proc.devRef .tc main_v183)
    = Cert.Val.Mlp.refTerm (RF m' c (Proc.devRef .tc main_v152)) (RF m' c (Proc.devRef .tc main_v164))
        (wcut1 (m' ((c : Dev nD), Proc.devRef .tc main_arg20))) (bcut1 (m' ((c : Dev nD), Proc.devRef .tc main_arg21)))
        (wcut1 (m' ((c : Dev nD), Proc.devRef .tc main_arg22))) (bcut1 (m' ((c : Dev nD), Proc.devRef .tc main_arg23))) := by
  rw [RF_S15 m' c main_v183 (by decide)]
  unfold S15; dsimp only [ops15]
  after_results
  rw [S14_up m' c main_v152 (by decide), S14_up m' c main_v164 (by decide), S14_arg m' c main_arg20 (by decide),
    S14_arg m' c main_arg21 (by decide), S14_arg m' c main_arg22 (by decide), S14_arg m' c main_arg23 (by decide)]
  rfl

set_option maxHeartbeats 4000000 in
theorem R_v214 : RF m' c (Proc.devRef .tc main_v214)
    = Cert.Val.Mlp.refTerm (RF m' c (Proc.devRef .tc main_v183)) (RF m' c (Proc.devRef .tc main_v195))
        (wcut2 (m' ((c : Dev nD), Proc.devRef .tc main_arg20))) (bcut2 (m' ((c : Dev nD), Proc.devRef .tc main_arg21)))
        (wcut2 (m' ((c : Dev nD), Proc.devRef .tc main_arg22))) (bcut2 (m' ((c : Dev nD), Proc.devRef .tc main_arg23))) := by
  rw [RF_S19 m' c main_v214 (by decide)]
  unfold S19; dsimp only [ops19]
  after_results
  rw [S18_up m' c main_v183 (by decide), S18_up m' c main_v195 (by decide), S18_arg m' c main_arg20 (by decide),
    S18_arg m' c main_arg21 (by decide), S18_arg m' c main_arg22 (by decide), S18_arg m' c main_arg23 (by decide)]
  rfl

theorem R_v217 : RF m' c (Proc.devRef .tc main_v217)
    = pool (m' ((c : Dev nD), Proc.devRef .tc main_arg3)) (RF m' c (Proc.devRef .tc main_v214)) := by
  rw [RF_S20 m' c main_v217 (by decide)]
  unfold S20; dsimp only [ops20]
  after_results
  rw [S19_up m' c main_v214 (by decide), S19_arg m' c main_arg3 (by decide)]
  rfl

set_option maxHeartbeats 4000000 in
theorem R_v226 : RF m' c (Proc.devRef .tc main_v226)
    = Cert.Val.Reg8.refTerm (RF m' c (Proc.devRef .tc main_v217)) (m' ((c : Dev nD), Proc.devRef .tc main_arg24))
        (m' ((c : Dev nD), Proc.devRef .tc main_arg25)) := by
  rw [RF_S21 m' c main_v226]
  unfold S21; dsimp only [ops21]
  after_results
  rw [S20_up m' c main_v217 (by decide), S20_arg m' c main_arg24 (by decide), S20_arg m' c main_arg25 (by decide)]
  rfl

end Cert.ReferenceIdeal.Eqs

end
-- ==== Proof.RefEqsC.lean ====
import proofs.«402905_j34316788695884_1_alg».proof.Proof.RefEqsTab

set_option maxRecDepth 16384

noncomputable section

namespace Cert.ReferenceIdeal.Eqs

open Cert.ReferenceIdeal Cert.ReferenceIdeal.Facts₀ Cert.ReferenceIdeal.RefRun
open Idealize.ShloMosaic Idealize.ShloMosaic.TcCoe Idealize.SL.Sem Idealize.ShloMosaic.StableHlo

def idxColN (col : IVec S200000 32) (n : BitVec 32) : IVec S200000x1 32 :=
  broadcastInDim S200000x1 ![0] bcast_S200000_S200000x1_0
    (select (cmpi .slt col (broadcastInDim S200000 ![] bcast_S_S200000 (constantI S_ 32 0#32)))
      (addi col (broadcastInDim S200000 ![] bcast_S_S200000 (constantI S_ 32 n))) col)

def embN (x : IVec S200000x9 32) (t0 : FVec Ideal S119x32 .f32) (t1 : FVec Ideal S9x32 .f32) (t2 : FVec Ideal S11x32 .f32) (t3 : FVec Ideal S12x32 .f32) (t4 : FVec Ideal S9x32 .f32) (t5 : FVec Ideal S5x32 .f32) (t6 : FVec Ideal S8x32 .f32) (t7 : FVec Ideal S2x32 .f32) (t8 : FVec Ideal S2x32 .f32) :
    FVec Ideal S200000x288 .f32 :=
  concatenate S200000x288 1
    [⟨S200000x32, Host.gather gather_S119x32_S200000x1_S200000x32_1_0_n_n_0_1_132 t0
        (idxColN (shapeCast S200000 (extractStridedSlice S200000x1 ![0, 0] x slices_S200000x9_S200000x1_0_0) shapeCasts_S200000x1_S200000) 119#32)⟩,
     ⟨S200000x32, Host.gather gather_S9x32_S200000x1_S200000x32_1_0_n_n_0_1_132 t1
        (idxColN (shapeCast S200000 (extractStridedSlice S200000x1 ![0, 1] x slices_S200000x9_S200000x1_0_1) shapeCasts_S200000x1_S200000) 9#32)⟩,
     ⟨S200000x32, Host.gather gather_S11x32_S200000x1_S200000x32_1_0_n_n_0_1_132 t2
        (idxColN (shapeCast S200000 (extractStridedSlice S200000x1 ![0, 2] x slices_S200000x9_S200000x1_0_2) shapeCasts_S200000x1_S200000) 11#32)⟩,
     ⟨S200000x32, Host.gather gather_S12x32_S200000x1_S200000x32_1_0_n_n_0_1_132 t3
        (idxColN (shapeCast S200000 (extractStridedSlice S200000x1 ![0, 3] x slices_S200000x9_S200000x1_0_3) shapeCasts_S200000x1_S200000) 12#32)⟩,
     ⟨S200000x32, Host.gather gather_S9x32_S200000x1_S200000x32_1_0_n_n_0_1_132 t4
        (idxColN (shapeCast S200000 (extractStridedSlice S200000x1 ![0, 4] x slices_S200000x9_S200000x1_0_4) shapeCasts_S200000x1_S200000) 9#32)⟩,
     ⟨S200000x32, Host.gather gather_S5x32_S200000x1_S200000x32_1_0_n_n_0_1_132 t5
        (idxColN (shapeCast S200000 (extractStridedSlice S200000x1 ![0, 5] x slices_S200000x9_S200000x1_0_5) shapeCasts_S200000x1_S200000) 5#32)⟩,
     ⟨S200000x32, Host.gather gather_S8x32_S200000x1_S200000x32_1_0_n_n_0_1_132 t6
        (idxColN (shapeCast S200000 (extractStridedSlice S200000x1 ![0, 6] x slices_S200000x9_S200000x1_0_6) shapeCasts_S200000x1_S200000) 8#32)⟩,
     ⟨S200000x32, Host.gather gather_S2x32_S200000x1_S200000x32_1_0_n_n_0_1_132 t7
        (idxColN (shapeCast S200000 (extractStridedSlice S200000x1 ![0, 7] x slices_S200000x9_S200000x1_0_7) shapeCasts_S200000x1_S200000) 2#32)⟩,
     ⟨S200000x32, Host.gather gather_S2x32_S200000x1_S200000x32_1_0_n_n_0_1_132 t8
        (idxColN (shapeCast S200000 (extractStridedSlice S200000x1 ![0, 8] x slices_S200000x9_S200000x1_0_8) shapeCasts_S200000x1_S200000) 2#32)⟩]
    concatenates_S200000x32_S200000x32_S200000x32_S200000x32_S200000x32_S200000x32_S200000x32_S200000x32_S200000x32_S200000x288_d1

variable (m' : (ℓ : Loc nD τ sig) → Buf (Elt Ideal) ℓ) (c : Dev nD)

attribute [local irreducible] Host.gather in
set_option maxHeartbeats 4000000 in

theorem S0_v8 : S0 m' c (Proc.devRef .tc main_v8)
    = Host.gather gather_S119x32_S200000x1_S200000x32_1_0_n_n_0_1_132 (m' ((c : Dev nD), Proc.devRef .tc main_arg4)) (idxColN (shapeCast S200000 (extractStridedSlice S200000x1 ![0, 0] (m' ((c : Dev nD), Proc.devRef .tc main_arg0)) slices_S200000x9_S200000x1_0_0) shapeCasts_S200000x1_S200000) 119#32) := by
  unfold S0; dsimp only [ops00]
  after_results_simp
  rfl

attribute [local irreducible] Host.gather in
set_option maxHeartbeats 4000000 in

theorem S0_v17 : S0 m' c (Proc.devRef .tc main_v17)
    = Host.gather gather_S9x32_S200000x1_S200000x32_1_0_n_n_0_1_132 (m' ((c : Dev nD), Proc.devRef .tc main_arg5)) (idxColN (shapeCast S200000 (extractStridedSlice S200000x1 ![0, 1] (m' ((c : Dev nD), Proc.devRef .tc main_arg0)) slices_S200000x9_S200000x1_0_1) shapeCasts_S200000x1_S200000) 9#32) := by
  unfold S0; dsimp only [ops00]
  after_results_simp
  rfl

attribute [local irreducible] Host.gather in
set_option maxHeartbeats 4000000 in

theorem S0_v26 : S0 m' c (Proc.devRef .tc main_v26)
    = Host.gather gather_S11x32_S200000x1_S200000x32_1_0_n_n_0_1_132 (m' ((c : Dev nD), Proc.devRef .tc main_arg6)) (idxColN (shapeCast S200000 (extractStridedSlice S200000x1 ![0, 2] (m' ((c : Dev nD), Proc.devRef .tc main_arg0)) slices_S200000x9_S200000x1_0_2) shapeCasts_S200000x1_S200000) 11#32) := by
  unfold S0; dsimp only [ops00]
  after_results_simp
  rfl

attribute [local irreducible] Host.gather in
set_option maxHeartbeats 4000000 in

theorem S0_v35 : S0 m' c (Proc.devRef .tc main_v35)
    = Host.gather gather_S12x32_S200000x1_S200000x32_1_0_n_n_0_1_132 (m' ((c : Dev nD), Proc.devRef .tc main_arg7)) (idxColN (shapeCast S200000 (extractStridedSlice S200000x1 ![0, 3] (m' ((c : Dev nD), Proc.devRef .tc main_arg0)) slices_S200000x9_S200000x1_0_3) shapeCasts_S200000x1_S200000) 12#32) := by
  unfold S0; dsimp only [ops00]
  after_results_simp
  rfl

attribute [local irreducible] Host.gather in
set_option maxHeartbeats 4000000 in

theorem S0_v44 : S0 m' c (Proc.devRef .tc main_v44)
    = Host.gather gather_S9x32_S200000x1_S200000x32_1_0_n_n_0_1_132 (m' ((c : Dev nD), Proc.devRef .tc main_arg8)) (idxColN (shapeCast S200000 (extractStridedSlice S200000x1 ![0, 4] (m' ((c : Dev nD), Proc.devRef .tc main_arg0)) slices_S200000x9_S200000x1_0_4) shapeCasts_S200000x1_S200000) 9#32) := by
  unfold S0; dsimp only [ops00]
  after_results_simp
  rfl

attribute [local irreducible] Host.gather in
set_option maxHeartbeats 4000000 in

theorem S1_v53 : S1 m' c (Proc.devRef .tc main_v53)
    = Host.gather gather_S5x32_S200000x1_S200000x32_1_0_n_n_0_1_132 (m' ((c : Dev nD), Proc.devRef .tc main_arg9)) (idxColN (shapeCast S200000 (extractStridedSlice S200000x1 ![0, 5] (m' ((c : Dev nD), Proc.devRef .tc main_arg0)) slices_S200000x9_S200000x1_0_5) shapeCasts_S200000x1_S200000) 5#32) := by
  rw [← S0_arg m' c main_arg0 (by decide), ← S0_arg m' c main_arg9 (by decide)]
  unfold S1; dsimp only [ops01]
  after_results_simp
  rfl

attribute [local irreducible] Host.gather in
set_option maxHeartbeats 4000000 in

theorem S1_v62 : S1 m' c (Proc.devRef .tc main_v62)
    = Host.gather gather_S8x32_S200000x1_S200000x32_1_0_n_n_0_1_132 (m' ((c : Dev nD), Proc.devRef .tc main_arg10)) (idxColN (shapeCast S200000 (extractStridedSlice S200000x1 ![0, 6] (m' ((c : Dev nD), Proc.devRef .tc main_arg0)) slices_S200000x9_S200000x1_0_6) shapeCasts_S200000x1_S200000) 8#32) := by
  rw [← S0_arg m' c main_arg0 (by decide), ← S0_arg m' c main_arg10 (by decide)]
  unfold S1; dsimp only [ops01]
  after_results_simp
  rfl

attribute [local irreducible] Host.gather in
set_option maxHeartbeats 4000000 in

theorem S1_v71 : S1 m' c (Proc.devRef .tc main_v71)
    = Host.gather gather_S2x32_S200000x1_S200000x32_1_0_n_n_0_1_132 (m' ((c : Dev nD), Proc.devRef .tc main_arg11)) (idxColN (shapeCast S200000 (extractStridedSlice S200000x1 ![0, 7] (m' ((c : Dev nD), Proc.devRef .tc main_arg0)) slices_S200000x9_S200000x1_0_7) shapeCasts_S200000x1_S200000) 2#32) := by
  rw [← S0_arg m' c main_arg0 (by decide), ← S0_arg m' c main_arg11 (by decide)]
  unfold S1; dsimp only [ops01]
  after_results_simp
  rfl

attribute [local irreducible] Host.gather in
set_option maxHeartbeats 4000000 in

theorem S1_v80 : S1 m' c (Proc.devRef .tc main_v80)
    = Host.gather gather_S2x32_S200000x1_S200000x32_1_0_n_n_0_1_132 (m' ((c : Dev nD), Proc.devRef .tc main_arg12)) (idxColN (shapeCast S200000 (extractStridedSlice S200000x1 ![0, 8] (m' ((c : Dev nD), Proc.devRef .tc main_arg0)) slices_S200000x9_S200000x1_0_8) shapeCasts_S200000x1_S200000) 2#32) := by
  rw [← S0_arg m' c main_arg0 (by decide), ← S0_arg m' c main_arg12 (by decide)]
  unfold S1; dsimp only [ops01]
  after_results_simp
  rfl

attribute [local irreducible] Host.gather concatenate in
set_option maxHeartbeats 4000000 in
theorem R_v81 : RF m' c (Proc.devRef .tc main_v81)
    = embN (m' ((c : Dev nD), Proc.devRef .tc main_arg0)) (m' ((c : Dev nD), Proc.devRef .tc main_arg4)) (m' ((c : Dev nD), Proc.devRef .tc main_arg5)) (m' ((c : Dev nD), Proc.devRef .tc main_arg6)) (m' ((c : Dev nD), Proc.devRef .tc main_arg7)) (m' ((c : Dev nD), Proc.devRef .tc main_arg8)) (m' ((c : Dev nD), Proc.devRef .tc main_arg9)) (m' ((c : Dev nD), Proc.devRef .tc main_arg10)) (m' ((c : Dev nD), Proc.devRef .tc main_arg11)) (m' ((c : Dev nD), Proc.devRef .tc main_arg12)) := by
  rw [RF_S2 m' c main_v81 (by decide)]
  unfold S2; dsimp only [ops02]
  after_results
  show concatenate S200000x288 1 [⟨S200000x32, S1 m' c (Proc.devRef .tc main_v8)⟩, ⟨S200000x32, S1 m' c (Proc.devRef .tc main_v17)⟩, ⟨S200000x32, S1 m' c (Proc.devRef .tc main_v26)⟩, ⟨S200000x32, S1 m' c (Proc.devRef .tc main_v35)⟩, ⟨S200000x32, S1 m' c (Proc.devRef .tc main_v44)⟩, ⟨S200000x32, S1 m' c (Proc.devRef .tc main_v53)⟩, ⟨S200000x32, S1 m' c (Proc.devRef .tc main_v62)⟩, ⟨S200000x32, S1 m' c (Proc.devRef .tc main_v71)⟩, ⟨S200000x32, S1 m' c (Proc.devRef .tc main_v80)⟩]
    concatenates_S200000x32_S200000x32_S200000x32_S200000x32_S200000x32_S200000x32_S200000x32_S200000x32_S200000x32_S200000x288_d1 = _
  rw [S1_keep m' c main_v8 (by decide), S1_keep m' c main_v17 (by decide), S1_keep m' c main_v26 (by decide), S1_keep m' c main_v35 (by decide), S1_keep m' c main_v44 (by decide)]
  rw [S0_v8, S0_v17, S0_v26, S0_v35, S0_v44, S1_v53, S1_v62, S1_v71, S1_v80]
  rfl

end Cert.ReferenceIdeal.Eqs

end
-- ==== Proof.RefEqsD.lean ====
import proofs.«402905_j34316788695884_1_alg».proof.Proof.RefEqsTab

set_option maxRecDepth 16384

noncomputable section

namespace Cert.ReferenceIdeal.Eqs

open Cert.ReferenceIdeal Cert.ReferenceIdeal.Facts₀ Cert.ReferenceIdeal.RefRun
open Idealize.ShloMosaic Idealize.ShloMosaic.TcCoe Idealize.SL.Sem Idealize.ShloMosaic.StableHlo

def idxColE (col : IVec S800000 32) (n : BitVec 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 n))) col)

def embE (ea : IVec S800000x3 32) (t0 : FVec Ideal S22x32 .f32) (t1 : FVec Ideal S6x32 .f32) (t2 : FVec Ideal S2x32 .f32) :
    FVec Ideal S800000x96 .f32 :=
  concatenate S800000x96 1
    [⟨S800000x32, Host.gather gather_S22x32_S800000x1_S800000x32_1_0_n_n_0_1_132 t0
        (idxColE (shapeCast S800000 (extractStridedSlice S800000x1 ![0, 0] ea slices_S800000x3_S800000x1_0_0) shapeCasts_S800000x1_S800000) 22#32)⟩,
     ⟨S800000x32, Host.gather gather_S6x32_S800000x1_S800000x32_1_0_n_n_0_1_132 t1
        (idxColE (shapeCast S800000 (extractStridedSlice S800000x1 ![0, 1] ea slices_S800000x3_S800000x1_0_1) shapeCasts_S800000x1_S800000) 6#32)⟩,
     ⟨S800000x32, Host.gather gather_S2x32_S800000x1_S800000x32_1_0_n_n_0_1_132 t2
        (idxColE (shapeCast S800000 (extractStridedSlice S800000x1 ![0, 2] ea slices_S800000x3_S800000x1_0_2) shapeCasts_S800000x1_S800000) 2#32)⟩]
    concatenates_S800000x32_S800000x32_S800000x32_S800000x96_d1

variable (m' : (ℓ : Loc nD τ sig) → Buf (Elt Ideal) ℓ) (c : Dev nD)

attribute [local irreducible] Host.gather in
set_option maxHeartbeats 4000000 in

theorem S4_v94 : S4 m' c (Proc.devRef .tc main_v94)
    = Host.gather gather_S22x32_S800000x1_S800000x32_1_0_n_n_0_1_132 (m' ((c : Dev nD), Proc.devRef .tc main_arg15))
        (idxColE (shapeCast S800000 (extractStridedSlice S800000x1 ![0, 0] (m' ((c : Dev nD), Proc.devRef .tc main_arg1)) slices_S800000x3_S800000x1_0_0) shapeCasts_S800000x1_S800000) 22#32) := by
  rw [← S3_arg m' c main_arg1 (by decide), ← S3_arg m' c main_arg15 (by decide)]
  unfold S4
  dsimp only [ops04]
  after_results_simp
  rfl

attribute [local irreducible] Host.gather in
set_option maxHeartbeats 4000000 in

theorem S4_v103 : S4 m' c (Proc.devRef .tc main_v103)
    = Host.gather gather_S6x32_S800000x1_S800000x32_1_0_n_n_0_1_132 (m' ((c : Dev nD), Proc.devRef .tc main_arg16))
        (idxColE (shapeCast S800000 (extractStridedSlice S800000x1 ![0, 1] (m' ((c : Dev nD), Proc.devRef .tc main_arg1)) slices_S800000x3_S800000x1_0_1) shapeCasts_S800000x1_S800000) 6#32) := by
  rw [← S3_arg m' c main_arg1 (by decide), ← S3_arg m' c main_arg16 (by decide)]
  unfold S4
  dsimp only [ops04]
  after_results_simp
  rfl

attribute [local irreducible] Host.gather in
set_option maxHeartbeats 4000000 in

theorem S4_v112 : S4 m' c (Proc.devRef .tc main_v112)
    = Host.gather gather_S2x32_S800000x1_S800000x32_1_0_n_n_0_1_132 (m' ((c : Dev nD), Proc.devRef .tc main_arg17))
        (idxColE (shapeCast S800000 (extractStridedSlice S800000x1 ![0, 2] (m' ((c : Dev nD), Proc.devRef .tc main_arg1)) slices_S800000x3_S800000x1_0_2) shapeCasts_S800000x1_S800000) 2#32) := by
  rw [← S3_arg m' c main_arg1 (by decide), ← S3_arg m' c main_arg17 (by decide)]
  unfold S4
  dsimp only [ops04]
  after_results_simp
  rfl

attribute [local irreducible] Host.gather concatenate in

theorem R_v113 : RF m' c (Proc.devRef .tc main_v113) = embE (m' ((c : Dev nD), Proc.devRef .tc main_arg1)) (m' ((c : Dev nD), Proc.devRef .tc main_arg15)) (m' ((c : Dev nD), Proc.devRef .tc main_arg16)) (m' ((c : Dev nD), Proc.devRef .tc main_arg17)) := by
  rw [RF_S5 m' c main_v113 (by decide)]
  unfold S5
  dsimp only [ops05]
  after_results
  show concatenate S800000x96 1 [⟨S800000x32, S4 m' c (Proc.devRef .tc main_v94)⟩, ⟨S800000x32, S4 m' c (Proc.devRef .tc main_v103)⟩,
    ⟨S800000x32, S4 m' c (Proc.devRef .tc main_v112)⟩] concatenates_S800000x32_S800000x32_S800000x32_S800000x96_d1 = _
  rw [S4_v94, S4_v103, S4_v112]
  rfl

end Cert.ReferenceIdeal.Eqs

end
-- ==== Proof.Same.lean ====
import proofs.«402905_j34316788695884_1_alg».proof.Proof.PreRange
import proofs.«402905_j34316788695884_1_alg».proof.Proof.KIEqs
import proofs.«402905_j34316788695884_1_alg».proof.Proof.KIEqsCuts
import proofs.«402905_j34316788695884_1_alg».proof.Proof.RefEqsA
import proofs.«402905_j34316788695884_1_alg».proof.Proof.RefEqsB

set_option maxRecDepth 16384

noncomputable section

namespace Cert.Same

open Idealize.ShloMosaic

theorem same_src : (Cert.Val.Pre.kiSrc : IVec Cert.KernelIdeal.S2x800000 32 → IVec Cert.KernelIdeal.S800000 32)
    = Cert.ReferenceIdeal.Eqs.refSrc := rfl

theorem same_dst : Cert.KernelIdeal.Eqs.kiDst = Cert.ReferenceIdeal.Eqs.refDst := rfl

theorem same_scat : Cert.KernelIdeal.Eqs.scat = Cert.ReferenceIdeal.Eqs.scat := rfl

theorem same_wcut0 : Cert.KernelIdeal.Eqs.wcut0 = Cert.ReferenceIdeal.Eqs.wcut0 := rfl
theorem same_wcut1 : Cert.KernelIdeal.Eqs.wcut1 = Cert.ReferenceIdeal.Eqs.wcut1 := rfl
theorem same_wcut2 : Cert.KernelIdeal.Eqs.wcut2 = Cert.ReferenceIdeal.Eqs.wcut2 := rfl

theorem same_bcut0 : Cert.KernelIdeal.Eqs.bcut0 = Cert.ReferenceIdeal.Eqs.bcut0 := rfl
theorem same_bcut1 : Cert.KernelIdeal.Eqs.bcut1 = Cert.ReferenceIdeal.Eqs.bcut1 := rfl
theorem same_bcut2 : Cert.KernelIdeal.Eqs.bcut2 = Cert.ReferenceIdeal.Eqs.bcut2 := rfl

theorem same_pool : Cert.KernelIdeal.Eqs.pool = Cert.ReferenceIdeal.Eqs.pool := rfl

end Cert.Same

end
-- ==== Proof.SameEmb.lean ====
import proofs.«402905_j34316788695884_1_alg».proof.Proof.KIEqsEmb
import proofs.«402905_j34316788695884_1_alg».proof.Proof.RefEqsC
import proofs.«402905_j34316788695884_1_alg».proof.Proof.RefEqsD

set_option maxRecDepth 16384

noncomputable section

namespace Cert.Same

open Idealize.ShloMosaic

theorem same_embE : Cert.KernelIdeal.Eqs.embE = Cert.ReferenceIdeal.Eqs.embE := rfl

theorem same_embN : Cert.KernelIdeal.Eqs.embN = Cert.ReferenceIdeal.Eqs.embN := rfl

end Cert.Same

end
-- ==== Proof.Bridge.lean ====
import proofs.«402905_j34316788695884_1_alg».proof.Proof.KIJoin
import proofs.«402905_j34316788695884_1_alg».proof.Proof.KIEqs
import proofs.«402905_j34316788695884_1_alg».proof.Proof.KIEqsCuts
import proofs.«402905_j34316788695884_1_alg».proof.Proof.KIEqsEmb
import proofs.«402905_j34316788695884_1_alg».proof.Proof.RefEqsA
import proofs.«402905_j34316788695884_1_alg».proof.Proof.RefEqsB
import proofs.«402905_j34316788695884_1_alg».proof.Proof.RefEqsC
import proofs.«402905_j34316788695884_1_alg».proof.Proof.RefEqsD
import proofs.«402905_j34316788695884_1_alg».proof.Proof.Same
import proofs.«402905_j34316788695884_1_alg».proof.Proof.SameEmb
import proofs.«402905_j34316788695884_1_alg».proof.Proof.ValTake
import proofs.«402905_j34316788695884_1_alg».proof.Proof.PreRange
import proofs.«402905_j34316788695884_1_alg».proof.Defs
import Idealize.ShloMosaic.Lib.ValueIdx

noncomputable section

open Idealize.ShloMosaic Idealize.SL.Sem

namespace Cert.Bridge

attribute [local irreducible] Cert.KernelIdeal.Fam.E8 Cert.ReferenceIdeal.Eqs.RF
  Cert.Val.Reg0.refTerm Cert.Val.Reg1.refTerm Cert.Val.refTerm Cert.Val.Mlp.refTerm Cert.Val.Reg8.refTerm
  Cert.Val.Take.takeK Cert.Val.Take.takeR Cert.Val.Pre.kiSrc
  Cert.KernelIdeal.Eqs.embN Cert.KernelIdeal.Eqs.embE Cert.KernelIdeal.Eqs.kiDst Cert.KernelIdeal.Eqs.scat Cert.KernelIdeal.Eqs.pool
  Cert.KernelIdeal.Eqs.wcut0 Cert.KernelIdeal.Eqs.wcut1 Cert.KernelIdeal.Eqs.wcut2 Cert.KernelIdeal.Eqs.bcut0 Cert.KernelIdeal.Eqs.bcut1 Cert.KernelIdeal.Eqs.bcut2
  Cert.ReferenceIdeal.Eqs.embN Cert.ReferenceIdeal.Eqs.embE Cert.ReferenceIdeal.Eqs.refSrc Cert.ReferenceIdeal.Eqs.refDst Cert.ReferenceIdeal.Eqs.scat Cert.ReferenceIdeal.Eqs.pool
  Cert.ReferenceIdeal.Eqs.wcut0 Cert.ReferenceIdeal.Eqs.wcut1 Cert.ReferenceIdeal.Eqs.wcut2 Cert.ReferenceIdeal.Eqs.bcut0 Cert.ReferenceIdeal.Eqs.bcut1 Cert.ReferenceIdeal.Eqs.bcut2

abbrev MK : Type := (ℓ : Loc Cert.KernelIdeal.nD Cert.KernelIdeal.τ Cert.KernelIdeal.sig) → Buf (Elt Ideal) ℓ

abbrev MR : Type := (ℓ : Loc Cert.ReferenceIdeal.nD Cert.ReferenceIdeal.τ Cert.ReferenceIdeal.sig) → Buf (Elt Ideal) ℓ

abbrev aK (m : MK) (c : Dev Cert.KernelIdeal.nD) (b : Ref Cert.KernelIdeal.sig .tc) := m ((c : Dev Cert.KernelIdeal.nD), Proc.devRef .tc b)

abbrev aR (m' : MR) (c : Dev Cert.KernelIdeal.nD) (b : Ref Cert.ReferenceIdeal.sig .tc) := m' ((c : Dev Cert.ReferenceIdeal.nD), Proc.devRef .tc b)

set_option maxHeartbeats 4000000 in

structure ArgsEq (m : MK) (m' : MR) (c : Dev Cert.KernelIdeal.nD) : Prop where
  h0 : (aK m c Cert.KernelIdeal.main_arg0 : IVec Cert.KernelIdeal.S200000x9 32) = aR m' c Cert.ReferenceIdeal.main_arg0
  h1 : (aK m c Cert.KernelIdeal.main_arg1 : IVec Cert.KernelIdeal.S800000x3 32) = aR m' c Cert.ReferenceIdeal.main_arg1
  h2 : (aK m c Cert.KernelIdeal.main_arg2 : IVec Cert.KernelIdeal.S2x800000 32) = aR m' c Cert.ReferenceIdeal.main_arg2
  h3 : (aK m c Cert.KernelIdeal.main_arg3 : IVec Cert.KernelIdeal.S200000 32) = aR m' c Cert.ReferenceIdeal.main_arg3
  h4 : (aK m c Cert.KernelIdeal.main_arg4 : FVec Ideal Cert.KernelIdeal.S119x32 .f32) = aR m' c Cert.ReferenceIdeal.main_arg4
  h5 : (aK m c Cert.KernelIdeal.main_arg5 : FVec Ideal Cert.KernelIdeal.S9x32 .f32) = aR m' c Cert.ReferenceIdeal.main_arg5
  h6 : (aK m c Cert.KernelIdeal.main_arg6 : FVec Ideal Cert.KernelIdeal.S11x32 .f32) = aR m' c Cert.ReferenceIdeal.main_arg6
  h7 : (aK m c Cert.KernelIdeal.main_arg7 : FVec Ideal Cert.KernelIdeal.S12x32 .f32) = aR m' c Cert.ReferenceIdeal.main_arg7
  h8 : (aK m c Cert.KernelIdeal.main_arg8 : FVec Ideal Cert.KernelIdeal.S9x32 .f32) = aR m' c Cert.ReferenceIdeal.main_arg8
  h9 : (aK m c Cert.KernelIdeal.main_arg9 : FVec Ideal Cert.KernelIdeal.S5x32 .f32) = aR m' c Cert.ReferenceIdeal.main_arg9
  h10 : (aK m c Cert.KernelIdeal.main_arg10 : FVec Ideal Cert.KernelIdeal.S8x32 .f32) = aR m' c Cert.ReferenceIdeal.main_arg10
  h11 : (aK m c Cert.KernelIdeal.main_arg11 : FVec Ideal Cert.KernelIdeal.S2x32 .f32) = aR m' c Cert.ReferenceIdeal.main_arg11
  h12 : (aK m c Cert.KernelIdeal.main_arg12 : FVec Ideal Cert.KernelIdeal.S2x32 .f32) = aR m' c Cert.ReferenceIdeal.main_arg12
  h13 : (aK m c Cert.KernelIdeal.main_arg13 : FVec Ideal Cert.KernelIdeal.S288x128 .f32) = aR m' c Cert.ReferenceIdeal.main_arg13
  h14 : (aK m c Cert.KernelIdeal.main_arg14 : FVec Ideal Cert.KernelIdeal.S128 .f32) = aR m' c Cert.ReferenceIdeal.main_arg14
  h15 : (aK m c Cert.KernelIdeal.main_arg15 : FVec Ideal Cert.KernelIdeal.S22x32 .f32) = aR m' c Cert.ReferenceIdeal.main_arg15
  h16 : (aK m c Cert.KernelIdeal.main_arg16 : FVec Ideal Cert.KernelIdeal.S6x32 .f32) = aR m' c Cert.ReferenceIdeal.main_arg16
  h17 : (aK m c Cert.KernelIdeal.main_arg17 : FVec Ideal Cert.KernelIdeal.S2x32 .f32) = aR m' c Cert.ReferenceIdeal.main_arg17
  h18 : (aK m c Cert.KernelIdeal.main_arg18 : FVec Ideal Cert.KernelIdeal.S96x128 .f32) = aR m' c Cert.ReferenceIdeal.main_arg18
  h19 : (aK m c Cert.KernelIdeal.main_arg19 : FVec Ideal Cert.KernelIdeal.S128 .f32) = aR m' c Cert.ReferenceIdeal.main_arg19
  h20 : (aK m c Cert.KernelIdeal.main_arg20 : FVec Ideal Cert.KernelIdeal.S3x128x128 .f32) = aR m' c Cert.ReferenceIdeal.main_arg20
  h21 : (aK m c Cert.KernelIdeal.main_arg21 : FVec Ideal Cert.KernelIdeal.S3x128 .f32) = aR m' c Cert.ReferenceIdeal.main_arg21
  h22 : (aK m c Cert.KernelIdeal.main_arg22 : FVec Ideal Cert.KernelIdeal.S3x128x128 .f32) = aR m' c Cert.ReferenceIdeal.main_arg22
  h23 : (aK m c Cert.KernelIdeal.main_arg23 : FVec Ideal Cert.KernelIdeal.S3x128 .f32) = aR m' c Cert.ReferenceIdeal.main_arg23
  h24 : (aK m c Cert.KernelIdeal.main_arg24 : FVec Ideal Cert.KernelIdeal.S128x256 .f32) = aR m' c Cert.ReferenceIdeal.main_arg24
  h25 : (aK m c Cert.KernelIdeal.main_arg25 : FVec Ideal Cert.KernelIdeal.S256 .f32) = aR m' c Cert.ReferenceIdeal.main_arg25

theorem range_of (s : IVec Cert.KernelIdeal.S800000 32) (a2 : IVec Cert.KernelIdeal.S2x800000 32) (hs : s = Cert.Val.Pre.kiSrc a2)
    (h : ∀ e : Fin 800000, 0 ≤ (Cert.Val.Pre.kiSrc a2 (ValueIdx.ix1 e)).toInt ∧ (Cert.Val.Pre.kiSrc a2 (ValueIdx.ix1 e)).toInt < 200000) :
    ∀ e : Fin 800000, 0 ≤ (s (ValueIdx.ix1 e)).toInt ∧ (s (ValueIdx.ix1 e)).toInt < 200000 := by
  subst hs; exact h

/-- Two values, each equal to one of two equal terms, are equal. -/
theorem tr {α : Type} {k r a b : α} (hk : k = a) (hr : r = b) (hab : a = b) : k = r := hk.trans (hab.trans hr.symm)

section

variable (m : MK) (m' : MR) [hPre_finite_inputs : Cert.Pre_finite_inputs.Facts] (hpre : Cert.Pre_KernelIdeal m) (c : Dev Cert.KernelIdeal.nD) (hag : ArgsEq m m' c)
include hpre hag

theorem take_plain (h : FVec Ideal Cert.KernelIdeal.S200000x128 .f32) :
    Cert.Val.Take.takeK h (Cert.KernelIdeal.Peel.KF m c Cert.KernelIdeal.main_v113) = Cert.Val.Take.takeR h (Cert.KernelIdeal.Peel.KF m c Cert.KernelIdeal.main_v113) :=
  Cert.Val.Take.take_eq h _ (range_of _ _ (Cert.KernelIdeal.Eqs.K_v113 m c) (Cert.Val.Pre.src_range m hpre c))

open Cert.KernelIdeal.Join Cert.Same in
open Cert.KernelIdeal.Eqs (K_v81 K_v110 K_v113 K_v115 K_v116 K_v120 K_v122 K_v124 K_v126 K_v128 K_v130 K_v134 K_v136 K_v138 K_v140 K_v142 K_v144 K_v148 K_v150 K_v152 K_v154 K_v156 K_v160) in
open Cert.ReferenceIdeal.Eqs (R_v81 R_v85 R_v113 R_v117 R_v119 R_v121 R_v128 R_v130 R_v133 R_v152 R_v159 R_v161 R_v164 R_v183 R_v190 R_v192 R_v195 R_v214 R_v217 R_v226) in
theorem s_v161 :
    (Cert.KernelIdeal.Peel.KF m c Cert.KernelIdeal.main_v161 : FVec Ideal Cert.KernelIdeal.S8192x256 .f32) = Cert.ReferenceIdeal.Eqs.RF m' c (Proc.devRef .tc Cert.ReferenceIdeal.main_v226) := by
  have s81 := tr (K_v81 m c) (R_v81 m' c) (congr (congr (congr (congr (congr (congr (congr (congr (congr (congr same_embN hag.h0) hag.h4) hag.h5) hag.h6) hag.h7) hag.h8) hag.h9) hag.h10) hag.h11) hag.h12)
  have s82 := tr (J_v82 m c) (R_v85 m' c) (congr (congr (congrArg Cert.Val.Reg0.refTerm s81) hag.h13) hag.h14)
  have s110 := tr (K_v110 m c) (R_v113 m' c) (congr (congr (congr (congr same_embE hag.h1) hag.h15) hag.h16) hag.h17)
  have s111 := tr (J_v111 m c) (R_v117 m' c) (congr (congr (congrArg Cert.Val.Reg1.refTerm s110) hag.h18) hag.h19)
  have s113 := tr (K_v113 m c) (R_v119 m' c) (congr same_src hag.h2)
  have s115 := tr (K_v115 m c) (R_v121 m' c) (congr same_dst hag.h2)
  have s116 := tr ((K_v116 m c).trans (take_plain m m' hpre c hag _)) (R_v128 m' c) (congr (congrArg Cert.Val.Take.takeR s82) s113)
  have s117 := tr (J_v117 m c) (R_v130 m' c) (congr (congrArg Cert.Val.refTerm s116) s111)
  have s120 := tr (K_v120 m c) (R_v133 m' c) (congr (congr same_scat s115) s117)
  have s122 := (K_v122 m c).trans (congr same_wcut0 hag.h20)
  have s124 := (K_v124 m c).trans (congr same_bcut0 hag.h21)
  have s126 := (K_v126 m c).trans (congr same_wcut0 hag.h22)
  have s128 := (K_v128 m c).trans (congr same_bcut0 hag.h23)
  have s129 := tr (J_v129 m c) (R_v152 m' c) (congr (congr (congr (congr (congr (congrArg Cert.Val.Mlp.refTerm s82) s120) s122) s124) s126) s128)
  have s130 := tr ((K_v130 m c).trans (take_plain m m' hpre c hag _)) (R_v159 m' c) (congr (congrArg Cert.Val.Take.takeR s129) s113)
  have s131 := tr (J_v131 m c) (R_v161 m' c) (congr (congrArg Cert.Val.refTerm s130) s111)
  have s134 := tr (K_v134 m c) (R_v164 m' c) (congr (congr same_scat s115) s131)
  have s136 := (K_v136 m c).trans (congr same_wcut1 hag.h20)
  have s138 := (K_v138 m c).trans (congr same_bcut1 hag.h21)
  have s140 := (K_v140 m c).trans (congr same_wcut1 hag.h22)
  have s142 := (K_v142 m c).trans (congr same_bcut1 hag.h23)
  have s143 := tr (J_v143 m c) (R_v183 m' c) (congr (congr (congr (congr (congr (congrArg Cert.Val.Mlp.refTerm s129) s134) s136) s138) s140) s142)
  have s144 := tr ((K_v144 m c).trans (take_plain m m' hpre c hag _)) (R_v190 m' c) (congr (congrArg Cert.Val.Take.takeR s143) s113)
  have s145 := tr (J_v145 m c) (R_v192 m' c) (congr (congrArg Cert.Val.refTerm s144) s111)
  have s148 := tr (K_v148 m c) (R_v195 m' c) (congr (congr same_scat s115) s145)
  have s150 := (K_v150 m c).trans (congr same_wcut2 hag.h20)
  have s152 := (K_v152 m c).trans (congr same_bcut2 hag.h21)
  have s154 := (K_v154 m c).trans (congr same_wcut2 hag.h22)
  have s156 := (K_v156 m c).trans (congr same_bcut2 hag.h23)
  have s157 := tr (J_v157 m c) (R_v214 m' c) (congr (congr (congr (congr (congr (congrArg Cert.Val.Mlp.refTerm s143) s148) s150) s152) s154) s156)
  have s160 := tr (K_v160 m c) (R_v217 m' c) (congr (congr same_pool hag.h3) s157)
  exact tr (J_v161 m c) (R_v226 m' c) (congr (congr (congrArg Cert.Val.Reg8.refTerm s160) hag.h24) hag.h25)

end

end Cert.Bridge

end
-- ==== Proof.lean ====
import proofs.«402905_j34316788695884_1_alg».proof.Defs
import proofs.«402905_j34316788695884_1_alg».proof.Proof.Gen.Kernel
import proofs.«402905_j34316788695884_1_alg».proof.Proof.Gen.Kernel.Skeleton
import proofs.«402905_j34316788695884_1_alg».proof.Proof.Gen.Kernel.Launch
import proofs.«402905_j34316788695884_1_alg».proof.Proof.Gen.Kernel.Regions
import proofs.«402905_j34316788695884_1_alg».proof.Proof.Gen.Kernel.Points
import proofs.«402905_j34316788695884_1_alg».proof.Proof.Gen.KernelIdeal
import proofs.«402905_j34316788695884_1_alg».proof.Proof.Gen.KernelIdeal.Skeleton
import proofs.«402905_j34316788695884_1_alg».proof.Proof.Gen.KernelIdeal.Launch
import proofs.«402905_j34316788695884_1_alg».proof.Proof.Gen.KernelIdeal.Regions
import proofs.«402905_j34316788695884_1_alg».proof.Proof.Gen.KernelIdeal.Points
import proofs.«402905_j34316788695884_1_alg».proof.Proof.Gen.ReferenceIdeal
import proofs.«402905_j34316788695884_1_alg».proof.Proof.Gen.Pre_finite_inputs
import Idealize.ShloMosaic.Adequacy
import Idealize.ShloMosaic.Init
import proofs.«402905_j34316788695884_1_alg».proof.Proof.KRun
import proofs.«402905_j34316788695884_1_alg».proof.Proof.KIRun
import proofs.«402905_j34316788695884_1_alg».proof.Proof.KKept
import proofs.«402905_j34316788695884_1_alg».proof.Proof.KIKept
import proofs.«402905_j34316788695884_1_alg».proof.Proof.RefRun
import proofs.«402905_j34316788695884_1_alg».proof.Proof.RefEqsTab
import proofs.«402905_j34316788695884_1_alg».proof.Proof.Bridge

noncomputable section

namespace Cert.Proof

open Idealize.ShloMosaic Idealize.ShloMosaic.TcCoe Idealize.SL.Sem

theorem buf_Kernel {F : FTy → Type} [FloatOps F] (m : (ℓ : Loc Cert.Kernel.nD Cert.Kernel.τ Cert.Kernel.sig) → Buf (Elt F) ℓ)
    (c : Dev Cert.Kernel.nD) (mem : MemSt Cert.Kernel.nD Cert.Kernel.τ Cert.Kernel.sig (Elt F)) (h : Cert.Kernel.Run.QY m c mem)
    (b : Ref Cert.Kernel.sig .tc) (hs : ¬ (Proc.devRef (τ := Cert.Kernel.τ) .tc b).isScoped) :
    mem.mem ((c.tc : Thread Cert.Kernel.nD Cert.Kernel.τ).loc b) = Cert.Kernel.Fam.E8 m c (Proc.devRef .tc b) :=
  h _ (Finset.mem_filter.mpr ⟨StableHlo.devRef_mem_tcRefs b, hs⟩)

theorem arg_Kernel {F : FTy → Type} [FloatOps F] (m : (ℓ : Loc Cert.Kernel.nD Cert.Kernel.τ Cert.Kernel.sig) → Buf (Elt F) ℓ)
    (c : Dev Cert.Kernel.nD) (mem : MemSt Cert.Kernel.nD Cert.Kernel.τ Cert.Kernel.sig (Elt F)) (h : Cert.Kernel.Run.QY m c mem)
    (b : Ref Cert.Kernel.sig .tc) (hb : Cert.Kernel.Kept.isArg b) (hs : ¬ (Proc.devRef (τ := Cert.Kernel.τ) .tc b).isScoped) :
    mem.mem ((c.tc : Thread Cert.Kernel.nD Cert.Kernel.τ).loc b) = m ((c.tc : Thread Cert.Kernel.nD Cert.Kernel.τ).loc b) :=
  (buf_Kernel m c mem h b hs).trans (Cert.Kernel.Kept.keptE8 m c b hb)

theorem buf_KernelIdeal {F : FTy → Type} [FloatOps F] (m : (ℓ : Loc Cert.KernelIdeal.nD Cert.KernelIdeal.τ Cert.KernelIdeal.sig) → Buf (Elt F) ℓ)
    (c : Dev Cert.KernelIdeal.nD) (mem : MemSt Cert.KernelIdeal.nD Cert.KernelIdeal.τ Cert.KernelIdeal.sig (Elt F)) (h : Cert.KernelIdeal.Run.QY m c mem)
    (b : Ref Cert.KernelIdeal.sig .tc) (hs : ¬ (Proc.devRef (τ := Cert.KernelIdeal.τ) .tc b).isScoped) :
    mem.mem ((c.tc : Thread Cert.KernelIdeal.nD Cert.KernelIdeal.τ).loc b) = Cert.KernelIdeal.Fam.E8 m c (Proc.devRef .tc b) :=
  h _ (Finset.mem_filter.mpr ⟨StableHlo.devRef_mem_tcRefs b, hs⟩)

theorem arg_KernelIdeal {F : FTy → Type} [FloatOps F] (m : (ℓ : Loc Cert.KernelIdeal.nD Cert.KernelIdeal.τ Cert.KernelIdeal.sig) → Buf (Elt F) ℓ)
    (c : Dev Cert.KernelIdeal.nD) (mem : MemSt Cert.KernelIdeal.nD Cert.KernelIdeal.τ Cert.KernelIdeal.sig (Elt F)) (h : Cert.KernelIdeal.Run.QY m c mem)
    (b : Ref Cert.KernelIdeal.sig .tc) (hb : Cert.KernelIdeal.Kept.isArg b) (hs : ¬ (Proc.devRef (τ := Cert.KernelIdeal.τ) .tc b).isScoped) :
    mem.mem ((c.tc : Thread Cert.KernelIdeal.nD Cert.KernelIdeal.τ).loc b) = m ((c.tc : Thread Cert.KernelIdeal.nD Cert.KernelIdeal.τ).loc b) :=
  (buf_KernelIdeal m c mem h b hs).trans (Cert.KernelIdeal.Kept.keptE8 m c b hb)

theorem arg_Reference {F : FTy → Type} [FloatOps F] (m : (ℓ : Loc Cert.ReferenceIdeal.nD Cert.ReferenceIdeal.τ Cert.ReferenceIdeal.sig) → Buf (Elt F) ℓ)
    (c : Dev Cert.ReferenceIdeal.nD) (mem : MemSt Cert.ReferenceIdeal.nD Cert.ReferenceIdeal.τ Cert.ReferenceIdeal.sig (Elt F))
    (h : ∀ b : Ref Cert.ReferenceIdeal.sig .tc, mem.mem ((c.tc : Thread Cert.ReferenceIdeal.nD Cert.ReferenceIdeal.τ).loc b)
      = StableHlo.after (Cert.ReferenceIdeal.RefRun.opsAll (F := F)) (fun b => m (c, b)) (Proc.devRef .tc b))
    (b : Ref Cert.ReferenceIdeal.sig .tc) (hb : b.idx.val < 26) :
    mem.mem ((c.tc : Thread Cert.ReferenceIdeal.nD Cert.ReferenceIdeal.τ).loc b) = m ((c.tc : Thread Cert.ReferenceIdeal.nD Cert.ReferenceIdeal.τ).loc b) :=
  (h b).trans (Cert.ReferenceIdeal.RefRun.kept _ b hb)

theorem RF_eq (m' : (ℓ : Loc Cert.ReferenceIdeal.nD Cert.ReferenceIdeal.τ Cert.ReferenceIdeal.sig) → Buf (Elt Ideal) ℓ) (c : Dev Cert.ReferenceIdeal.nD) :
    Cert.ReferenceIdeal.Eqs.RF m' c = StableHlo.after (Cert.ReferenceIdeal.RefRun.opsAll (F := Ideal)) (fun b => m' (c, b)) := by
  rw [Cert.ReferenceIdeal.RefRun.after_all]
  open Cert.ReferenceIdeal.Eqs in unfold RF S21 S20 S19 S18 S17 S16 S15 S14 S13 S12 S11 S10 S9 S8 S7 S6 S5 S4 S3 S2 S1 S0
  rfl

theorem frame_k : Cert.frame_Kernel := fun m ρ _ =>
  (θ_run Cert.Kernel.defs _ _).mono (fun r h c => by
    repeat' apply And.intro
    all_goals exact arg_Kernel m c r.2 (h c) _ (by decide) (by decide)) (Cert.Kernel.Run.run_main m ρ)

theorem frame_ki : Cert.frame_KernelIdeal := fun m ρ _ =>
  (θ_run Cert.KernelIdeal.defs _ _).mono (fun r h c => by
    repeat' apply And.intro
    all_goals exact arg_KernelIdeal m c r.2 (h c) _ (by decide) (by decide)) (Cert.KernelIdeal.Run.run_main m ρ)

theorem frame_r : Cert.frame_ReferenceIdeal := fun m ρ _ =>
  (θ_run Cert.ReferenceIdeal.defs _ _).mono (fun r h c => by
    repeat' apply And.intro
    all_goals exact arg_Reference m c r.2 (h c) _ (by decide)) (Cert.ReferenceIdeal.RefRun.run m ρ)

theorem algebraic : Cert.algebraic_KernelIdeal_ReferenceIdeal := by
  intro m ρ m' ρ' hpre hagree
  refine ⟨fun c => Cert.KernelIdeal.Fam.E8 m c (Proc.devRef .tc Cert.KernelIdeal.main_v161), ?_, ?_⟩
  · refine (θ_run Cert.KernelIdeal.defs _ _).mono (fun r h c => ⟨?_, ?_⟩) (Cert.KernelIdeal.Run.run_main m ρ)
    · exact buf_KernelIdeal m c r.2 (h c) Cert.KernelIdeal.main_v161 (by decide)
    · repeat' apply And.intro
      all_goals exact arg_KernelIdeal m c r.2 (h c) _ (by decide) (by decide)
  · refine (θ_run Cert.ReferenceIdeal.defs _ _).mono (fun r h c => ⟨?_, ?_⟩) (Cert.ReferenceIdeal.RefRun.run m' ρ')
    · obtain ⟨a0, a1, a2, a3, a4, a5, a6, a7, a8, a9, a10, a11, a12, a13, a14, a15, a16, a17, a18, a19, a20, a21, a22, a23, a24, a25⟩ := hagree c
      exact ((h c Cert.ReferenceIdeal.main_v226).trans (congrFun (RF_eq m' c).symm _)).trans
        (Cert.Bridge.s_v161 m m' hpre c ⟨a0.symm, a1.symm, a2.symm, a3.symm, a4.symm, a5.symm, a6.symm, a7.symm, a8.symm, a9.symm, a10.symm, a11.symm, a12.symm, a13.symm, a14.symm, a15.symm, a16.symm, a17.symm, a18.symm, a19.symm, a20.symm, a21.symm, a22.symm, a23.symm, a24.symm, a25.symm⟩).symm
    · repeat' apply And.intro
      all_goals exact arg_Reference m' c r.2 (h c) _ (by decide)

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
